-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x28000 : Shape := ⟨2, ![512, 28000]⟩
abbrev S20000x5000 : Shape := ⟨2, ![20000, 5000]⟩
abbrev S5000x3000 : Shape := ⟨2, ![5000, 3000]⟩
abbrev S8000x3000 : Shape := ⟨2, ![8000, 3000]⟩
abbrev S3000x3000 : Shape := ⟨2, ![3000, 3000]⟩
abbrev S5000x20000 : Shape := ⟨2, ![5000, 20000]⟩
abbrev S5000 : Shape := ⟨1, ![5000]⟩
abbrev S3000x5000 : Shape := ⟨2, ![3000, 5000]⟩
abbrev S3000 : Shape := ⟨1, ![3000]⟩
abbrev S3000x8000 : Shape := ⟨2, ![3000, 8000]⟩
abbrev S1024x6000 : Shape := ⟨2, ![1024, 6000]⟩
abbrev S1024 : Shape := ⟨1, ![1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S512x28000 : S_.BroadcastsInDim S512x28000 (![] : Fin 0 → Fin S512x28000.rank)
  reducesTo_S512x28000_S_d0_1 : S512x28000.ReducesTo [0, 1] S_
  h_S_ : 0 < S_.numel
  bcast_S_S20000x5000 : S_.BroadcastsInDim S20000x5000 (![] : Fin 0 → Fin S20000x5000.rank)
  reducesTo_S20000x5000_S_d0_1 : S20000x5000.ReducesTo [0, 1] S_
  bcast_S_S5000x3000 : S_.BroadcastsInDim S5000x3000 (![] : Fin 0 → Fin S5000x3000.rank)
  reducesTo_S5000x3000_S_d0_1 : S5000x3000.ReducesTo [0, 1] S_
  bcast_S_S8000x3000 : S_.BroadcastsInDim S8000x3000 (![] : Fin 0 → Fin S8000x3000.rank)
  reducesTo_S8000x3000_S_d0_1 : S8000x3000.ReducesTo [0, 1] S_
  bcast_S_S3000x3000 : S_.BroadcastsInDim S3000x3000 (![] : Fin 0 → Fin S3000x3000.rank)
  reducesTo_S3000x3000_S_d0_1 : S3000x3000.ReducesTo [0, 1] S_
  bcast_S_S5000x20000 : S_.BroadcastsInDim S5000x20000 (![] : Fin 0 → Fin S5000x20000.rank)
  reducesTo_S5000x20000_S_d0_1 : S5000x20000.ReducesTo [0, 1] S_
  bcast_S_S5000 : S_.BroadcastsInDim S5000 (![] : Fin 0 → Fin S5000.rank)
  reducesTo_S5000_S_d0 : S5000.ReducesTo [0] S_
  bcast_S_S3000x5000 : S_.BroadcastsInDim S3000x5000 (![] : Fin 0 → Fin S3000x5000.rank)
  reducesTo_S3000x5000_S_d0_1 : S3000x5000.ReducesTo [0, 1] S_
  bcast_S_S3000 : S_.BroadcastsInDim S3000 (![] : Fin 0 → Fin S3000.rank)
  reducesTo_S3000_S_d0 : S3000.ReducesTo [0] S_
  bcast_S_S3000x8000 : S_.BroadcastsInDim S3000x8000 (![] : Fin 0 → Fin S3000x8000.rank)
  reducesTo_S3000x8000_S_d0_1 : S3000x8000.ReducesTo [0, 1] S_
  bcast_S_S1024x6000 : S_.BroadcastsInDim S1024x6000 (![] : Fin 0 → Fin S1024x6000.rank)
  reducesTo_S1024x6000_S_d0_1 : S1024x6000.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S1x256 .f32) (main_cst_32 : FVec F S_ .f32) : IVec S_ 1 :=
  let main_v85 : FVec F S1x256 .f32 := broadcastInDim S1x256 ![] bcast_S_S1x256 main_cst_32
  let main_v86 : IVec S1x256 1 := cmpf .olt main_v84 main_v85
  let main_c_33 : IVec S_ 1 := constantI S_ 1 1#1
  let main_v87 : IVec S_ 1 := (fun x v => Host.reduce IntOp.andi x v reducesTo_S1x256_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S1024 .f32) (main_arg15 : FVec F S256x1024 .f32) (main_arg16 : FVec F S256 .f32) (main_arg17 : FVec F S1x256 .f32) (main_arg18 : FVec F S1 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S256x1024 .f32 := Host.absf main_arg15
  let main_cst_28 : FVec F S_ .f32 := constant S_ .f32 0x7F800000#32
  let main_v75 : FVec F S256x1024 .f32 := broadcastInDim S256x1024 ![] bcast_S_S256x1024 main_cst_28
  let main_v76 : IVec S256x1024 1 := cmpf .olt main_v74 main_v75
  let main_c_29 : IVec S_ 1 := constantI S_ 1 1#1
  let main_v77 : IVec S_ 1 := (fun x v => Host.reduce IntOp.andi x v reducesTo_S256x1024_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S1x256 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S3000x3000 .f32) (main_arg12 : FVec F S3000 .f32) (main_arg13 : FVec F S1024x6000 .f32) (main_arg14 : FVec F S1024 .f32) (main_arg15 : FVec F S256x1024 .f32) (main_arg16 : FVec F S256 .f32) (main_arg17 : FVec F S1x256 .f32) (main_arg18 : FVec F S1 .f32) (main_v48 : IVec S_ 1) (main_v49 : FVec F S3000 .f32) (main_v50 : FVec F S3000 .f32) : IVec S_ 1 :=
  let main_v51 : IVec S3000 1 := cmpf .olt main_v49 main_v50
  let main_c_19 : IVec S_ 1 := constantI S_ 1 1#1
  let main_v52 : IVec S_ 1 := (fun x v => Host.reduce IntOp.andi x v reducesTo_S3000_S_d0 h_S_) main_v51 main_c_19
  let main_v53 : IVec S_ 1 := andi main_v48 main_v52
  let main_v54 : FVec F S3000x3000 .f32 := Host.absf main_arg11
  let main_cst_20 : FVec F S_ .f32 := constant S_ .f32 0x7F800000#32
  let main_v55 : FVec F S3000x3000 .f32 := broadcastInDim S3000x3000 ![] bcast_S_S3000x3000 main_cst_20
  let main_v56 : IVec S3000x3000 1 := cmpf .olt main_v54 main_v55
  let main_c_21 : IVec S_ 1 := constantI S_ 1 1#1
  let main_v57 : IVec S_ 1 := (fun x v => Host.reduce IntOp.andi x v reducesTo_S3000x3000_S_d0_1 h_S_) main_v56 main_c_21
  let main_v58 : IVec S_ 1 := andi main_v53 main_v57
  let main_v59 : FVec F S3000 .f32 := Host.absf main_arg12
  let main_cst_22 : FVec F S_ .f32 := constant S_ .f32 0x7F800000#32
  let main_v60 : FVec F S3000 .f32 := broadcastInDim S3000 ![] bcast_S_S3000 main_cst_22
  let main_v61 : IVec S3000 1 := cmpf .olt main_v59 main_v60
  let main_c_23 : IVec S_ 1 := constantI S_ 1 1#1
  let main_v62 : IVec S_ 1 := (fun x v => Host.reduce IntOp.andi x v reducesTo_S3000_S_d0 h_S_) main_v61 main_c_23
  let main_v63 : IVec S_ 1 := andi main_v58 main_v62
  let main_v64 : FVec F S1024x6000 .f32 := Host.absf main_arg13
  let main_cst_24 : FVec F S_ .f32 := constant S_ .f32 0x7F800000#32
  let main_v65 : FVec F S1024x6000 .f32 := broadcastInDim S1024x6000 ![] bcast_S_S1024x6000 main_cst_24
  let main_v66 : IVec S1024x6000 1 := cmpf .olt main_v64 main_v65
  let main_c_25 : IVec S_ 1 := constantI S_ 1 1#1
  let main_v67 : IVec S_ 1 := (fun x v => Host.reduce IntOp.andi x v reducesTo_S1024x6000_S_d0_1 h_S_) main_v66 main_c_25
  fn_part4 (F := F) main_arg14 main_arg15 main_arg16 main_arg17 main_arg18 main_v63 main_v67

def fn_part2 {F : FTy → Type} [FloatOps F] (main_arg7 : FVec F S3000x5000 .f32) (main_arg8 : FVec F S3000 .f32) (main_arg9 : FVec F S3000x8000 .f32) (main_arg10 : FVec F S3000 .f32) (main_arg11 : FVec F S3000x3000 .f32) (main_arg12 : FVec F S3000 .f32) (main_arg13 : FVec F S1024x6000 .f32) (main_arg14 : FVec F S1024 .f32) (main_arg15 : FVec F S256x1024 .f32) (main_arg16 : FVec F S256 .f32) (main_arg17 : FVec F S1x256 .f32) (main_arg18 : FVec F S1 .f32) (main_v33 : IVec S_ 1) : IVec S_ 1 :=
  let main_v34 : FVec F S3000x5000 .f32 := Host.absf main_arg7
  let main_cst_12 : FVec F S_ .f32 := constant S_ .f32 0x7F800000#32
  let main_v35 : FVec F S3000x5000 .f32 := broadcastInDim S3000x5000 ![] bcast_S_S3000x5000 main_cst_12
  let main_v36 : IVec S3000x5000 1 := cmpf .olt main_v34 main_v35
  let main_c_13 : IVec S_ 1 := constantI S_ 1 1#1
  let main_v37 : IVec S_ 1 := (fun x v => Host.reduce IntOp.andi x v reducesTo_S3000x5000_S_d0_1 h_S_) main_v36 main_c_13
  let main_v38 : IVec S_ 1 := andi main_v33 main_v37
  let main_v39 : FVec F S3000 .f32 := Host.absf main_arg8
  let main_cst_14 : FVec F S_ .f32 := constant S_ .f32 0x7F800000#32
  let main_v40 : FVec F S3000 .f32 := broadcastInDim S3000 ![] bcast_S_S3000 main_cst_14
  let main_v41 : IVec S3000 1 := cmpf .olt main_v39 main_v40
  let main_c_15 : IVec S_ 1 := constantI S_ 1 1#1
  let main_v42 : IVec S_ 1 := (fun x v => Host.reduce IntOp.andi x v reducesTo_S3000_S_d0 h_S_) main_v41 main_c_15
  let main_v43 : IVec S_ 1 := andi main_v38 main_v42
  let main_v44 : FVec F S3000x8000 .f32 := Host.absf main_arg9
  let main_cst_16 : FVec F S_ .f32 := constant S_ .f32 0x7F800000#32
  let main_v45 : FVec F S3000x8000 .f32 := broadcastInDim S3000x8000 ![] bcast_S_S3000x8000 main_cst_16
  let main_v46 : IVec S3000x8000 1 := cmpf .olt main_v44 main_v45
  let main_c_17 : IVec S_ 1 := constantI S_ 1 1#1
  let main_v47 : IVec S_ 1 := (fun x v => Host.reduce IntOp.andi x v reducesTo_S3000x8000_S_d0_1 h_S_) main_v46 main_c_17
  let main_v48 : IVec S_ 1 := andi main_v43 main_v47
  let main_v49 : FVec F S3000 .f32 := Host.absf main_arg10
  let main_cst_18 : FVec F S_ .f32 := constant S_ .f32 0x7F800000#32
  let main_v50 : FVec F S3000 .f32 := broadcastInDim S3000 ![] bcast_S_S3000 main_cst_18
  fn_part3 (F := F) main_arg11 main_arg12 main_arg13 main_arg14 main_arg15 main_arg16 main_arg17 main_arg18 main_v48 main_v49 main_v50

def fn_part1 {F : FTy → Type} [FloatOps F] (main_arg4 : FVec F S3000x3000 .f32) (main_arg5 : FVec F S5000x20000 .f32) (main_arg6 : FVec F S5000 .f32) (main_arg7 : FVec F S3000x5000 .f32) (main_arg8 : FVec F S3000 .f32) (main_arg9 : FVec F S3000x8000 .f32) (main_arg10 : FVec F S3000 .f32) (main_arg11 : FVec F S3000x3000 .f32) (main_arg12 : FVec F S3000 .f32) (main_arg13 : FVec F S1024x6000 .f32) (main_arg14 : FVec F S1024 .f32) (main_arg15 : FVec F S256x1024 .f32) (main_arg16 : FVec F S256 .f32) (main_arg17 : FVec F S1x256 .f32) (main_arg18 : FVec F S1 .f32) (main_v13 : IVec S_ 1) (main_v16 : IVec S8000x3000 1) : IVec S_ 1 :=
  let main_c_5 : IVec S_ 1 := constantI S_ 1 1#1
  let main_v17 : IVec S_ 1 := (fun x v => Host.reduce IntOp.andi x v reducesTo_S8000x3000_S_d0_1 h_S_) main_v16 main_c_5
  let main_v18 : IVec S_ 1 := andi main_v13 main_v17
  let main_v19 : FVec F S3000x3000 .f32 := Host.absf main_arg4
  let main_cst_6 : FVec F S_ .f32 := constant S_ .f32 0x7F800000#32
  let main_v20 : FVec F S3000x3000 .f32 := broadcastInDim S3000x3000 ![] bcast_S_S3000x3000 main_cst_6
  let main_v21 : IVec S3000x3000 1 := cmpf .olt main_v19 main_v20
  let main_c_7 : IVec S_ 1 := constantI S_ 1 1#1
  let main_v22 : IVec S_ 1 := (fun x v => Host.reduce IntOp.andi x v reducesTo_S3000x3000_S_d0_1 h_S_) main_v21 main_c_7
  let main_v23 : IVec S_ 1 := andi main_v18 main_v22
  let main_v24 : FVec F S5000x20000 .f32 := Host.absf main_arg5
  let main_cst_8 : FVec F S_ .f32 := constant S_ .f32 0x7F800000#32
  let main_v25 : FVec F S5000x20000 .f32 := broadcastInDim S5000x20000 ![] bcast_S_S5000x20000 main_cst_8
  let main_v26 : IVec S5000x20000 1 := cmpf .olt main_v24 main_v25
  let main_c_9 : IVec S_ 1 := constantI S_ 1 1#1
  let main_v27 : IVec S_ 1 := (fun x v => Host.reduce IntOp.andi x v reducesTo_S5000x20000_S_d0_1 h_S_) main_v26 main_c_9
  let main_v28 : IVec S_ 1 := andi main_v23 main_v27
  let main_v29 : FVec F S5000 .f32 := Host.absf main_arg6
  let main_cst_10 : FVec F S_ .f32 := constant S_ .f32 0x7F800000#32
  let main_v30 : FVec F S5000 .f32 := broadcastInDim S5000 ![] bcast_S_S5000 main_cst_10
  let main_v31 : IVec S5000 1 := cmpf .olt main_v29 main_v30
  let main_c_11 : IVec S_ 1 := constantI S_ 1 1#1
  let main_v32 : IVec S_ 1 := (fun x v => Host.reduce IntOp.andi x v reducesTo_S5000_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S512x28000 .f32) (main_arg1 : FVec F S20000x5000 .f32) (main_arg2 : FVec F S5000x3000 .f32) (main_arg3 : FVec F S8000x3000 .f32) (main_arg4 : FVec F S3000x3000 .f32) (main_arg5 : FVec F S5000x20000 .f32) (main_arg6 : FVec F S5000 .f32) (main_arg7 : FVec F S3000x5000 .f32) (main_arg8 : FVec F S3000 .f32) (main_arg9 : FVec F S3000x8000 .f32) (main_arg10 : FVec F S3000 .f32) (main_arg11 : FVec F S3000x3000 .f32) (main_arg12 : FVec F S3000 .f32) (main_arg13 : FVec F S1024x6000 .f32) (main_arg14 : FVec F S1024 .f32) (main_arg15 : FVec F S256x1024 .f32) (main_arg16 : FVec F S256 .f32) (main_arg17 : FVec F S1x256 .f32) (main_arg18 : FVec F S1 .f32) : IVec S_ 1 :=
  let main_v0 : FVec F S512x28000 .f32 := Host.absf main_arg0
  let main_cst : FVec F S_ .f32 := constant S_ .f32 0x7F800000#32
  let main_v1 : FVec F S512x28000 .f32 := broadcastInDim S512x28000 ![] bcast_S_S512x28000 main_cst
  let main_v2 : IVec S512x28000 1 := cmpf .olt main_v0 main_v1
  let main_c : IVec S_ 1 := constantI S_ 1 1#1
  let main_v3 : IVec S_ 1 := (fun x v => Host.reduce IntOp.andi x v reducesTo_S512x28000_S_d0_1 h_S_) main_v2 main_c
  let main_v4 : FVec F S20000x5000 .f32 := Host.absf main_arg1
  let main_cst_0 : FVec F S_ .f32 := constant S_ .f32 0x7F800000#32
  let main_v5 : FVec F S20000x5000 .f32 := broadcastInDim S20000x5000 ![] bcast_S_S20000x5000 main_cst_0
  let main_v6 : IVec S20000x5000 1 := cmpf .olt main_v4 main_v5
  let main_c_1 : IVec S_ 1 := constantI S_ 1 1#1
  let main_v7 : IVec S_ 1 := (fun x v => Host.reduce IntOp.andi x v reducesTo_S20000x5000_S_d0_1 h_S_) main_v6 main_c_1
  let main_v8 : IVec S_ 1 := andi main_v3 main_v7
  let main_v9 : FVec F S5000x3000 .f32 := Host.absf main_arg2
  let main_cst_2 : FVec F S_ .f32 := constant S_ .f32 0x7F800000#32
  let main_v10 : FVec F S5000x3000 .f32 := broadcastInDim S5000x3000 ![] bcast_S_S5000x3000 main_cst_2
  let main_v11 : IVec S5000x3000 1 := cmpf .olt main_v9 main_v10
  let main_c_3 : IVec S_ 1 := constantI S_ 1 1#1
  let main_v12 : IVec S_ 1 := (fun x v => Host.reduce IntOp.andi x v reducesTo_S5000x3000_S_d0_1 h_S_) main_v11 main_c_3
  let main_v13 : IVec S_ 1 := andi main_v8 main_v12
  let main_v14 : FVec F S8000x3000 .f32 := Host.absf main_arg3
  let main_cst_4 : FVec F S_ .f32 := constant S_ .f32 0x7F800000#32
  let main_v15 : FVec F S8000x3000 .f32 := broadcastInDim S8000x3000 ![] bcast_S_S8000x3000 main_cst_4
  let main_v16 : IVec S8000x3000 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S512x28000 : Shape := ⟨2, ![512, 28000]⟩
abbrev S20000x5000 : Shape := ⟨2, ![20000, 5000]⟩
abbrev S5000x3000 : Shape := ⟨2, ![5000, 3000]⟩
abbrev S8000x3000 : Shape := ⟨2, ![8000, 3000]⟩
abbrev S3000x3000 : Shape := ⟨2, ![3000, 3000]⟩
abbrev S5000x20000 : Shape := ⟨2, ![5000, 20000]⟩
abbrev S5000 : Shape := ⟨1, ![5000]⟩
abbrev S3000x5000 : Shape := ⟨2, ![3000, 5000]⟩
abbrev S3000 : Shape := ⟨1, ![3000]⟩
abbrev S3000x8000 : Shape := ⟨2, ![3000, 8000]⟩
abbrev S1024x6000 : Shape := ⟨2, ![1024, 6000]⟩
abbrev S1024 : Shape := ⟨1, ![1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S512x20000 : Shape := ⟨2, ![512, 20000]⟩
abbrev S512x5000 : Shape := ⟨2, ![512, 5000]⟩
abbrev S512x3000 : Shape := ⟨2, ![512, 3000]⟩
abbrev S_ : Shape := ⟨0, ![]⟩
abbrev S512x20480 : Shape := ⟨2, ![512, 20480]⟩
abbrev S5120x20480 : Shape := ⟨2, ![5120, 20480]⟩
abbrev S20480x5120 : Shape := ⟨2, ![20480, 5120]⟩
abbrev S5120 : Shape := ⟨1, ![5120]⟩
abbrev S1x5120 : Shape := ⟨2, ![1, 5120]⟩
abbrev S512x5120 : Shape := ⟨2, ![512, 5120]⟩
abbrev S512x1024 : Shape := ⟨2, ![512, 1024]⟩
abbrev S1024x1024 : Shape := ⟨2, ![1024, 1024]⟩
abbrev S1x1024 : Shape := ⟨2, ![1, 1024]⟩
abbrev S3072x5120 : Shape := ⟨2, ![3072, 5120]⟩
abbrev S5120x3072 : Shape := ⟨2, ![5120, 3072]⟩
abbrev S3072 : Shape := ⟨1, ![3072]⟩
abbrev S1x3072 : Shape := ⟨2, ![1, 3072]⟩
abbrev S512x3072 : Shape := ⟨2, ![512, 3072]⟩
abbrev S512x8000 : Shape := ⟨2, ![512, 8000]⟩
abbrev S512x8192 : Shape := ⟨2, ![512, 8192]⟩
abbrev S3072x8192 : Shape := ⟨2, ![3072, 8192]⟩
abbrev S8192x3072 : Shape := ⟨2, ![8192, 3072]⟩
abbrev S3072x3072 : Shape := ⟨2, ![3072, 3072]⟩
abbrev S512x6000 : Shape := ⟨2, ![512, 6000]⟩
abbrev S512x6144 : Shape := ⟨2, ![512, 6144]⟩
abbrev S1024x6144 : Shape := ⟨2, ![1024, 6144]⟩
abbrev S512x256 : Shape := ⟨2, ![512, 256]⟩
abbrev S1024x256 : Shape := ⟨2, ![1024, 256]⟩
abbrev S128x256 : Shape := ⟨2, ![128, 256]⟩
abbrev S128 : Shape := ⟨1, ![128]⟩
abbrev S1x128 : Shape := ⟨2, ![1, 128]⟩
abbrev S512x128 : Shape := ⟨2, ![512, 128]⟩
abbrev S256x128 : Shape := ⟨2, ![256, 128]⟩
abbrev S512x1 : Shape := ⟨2, ![512, 1]⟩

abbrev nBuf : Space → Nat
  | .hbm => 118
  | .vmem => 61
  | .smem => 0
  | _ => 0

abbrev bufTy : (tb : Table) → Fin (tcTables nBuf tb) → BufTy
  | .hbm, ⟨0, _⟩ => ⟨S512x28000, .f32⟩
  | .hbm, ⟨1, _⟩ => ⟨S20000x5000, .f32⟩
  | .hbm, ⟨2, _⟩ => ⟨S5000x3000, .f32⟩
  | .hbm, ⟨3, _⟩ => ⟨S8000x3000, .f32⟩
  | .hbm, ⟨4, _⟩ => ⟨S3000x3000, .f32⟩
  | .hbm, ⟨5, _⟩ => ⟨S5000x20000, .f32⟩
  | .hbm, ⟨6, _⟩ => ⟨S5000, .f32⟩
  | .hbm, ⟨7, _⟩ => ⟨S3000x5000, .f32⟩
  | .hbm, ⟨8, _⟩ => ⟨S3000, .f32⟩
  | .hbm, ⟨9, _⟩ => ⟨S3000x8000, .f32⟩
  | .hbm, ⟨10, _⟩ => ⟨S3000, .f32⟩
  | .hbm, ⟨11, _⟩ => ⟨S3000x3000, .f32⟩
  | .hbm, ⟨12, _⟩ => ⟨S3000, .f32⟩
  | .hbm, ⟨13, _⟩ => ⟨S1024x6000, .f32⟩
  | .hbm, ⟨14, _⟩ => ⟨S1024, .f32⟩
  | .hbm, ⟨15, _⟩ => ⟨S256x1024, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S512x20000, .f32⟩
  | .hbm, ⟨20, _⟩ => ⟨S512x5000, .f32⟩
  | .hbm, ⟨21, _⟩ => ⟨S512x3000, .f32⟩
  | .hbm, ⟨22, _⟩ => ⟨S_, .i32⟩
  | .hbm, ⟨23, _⟩ => ⟨S_, .f32⟩
  | .hbm, ⟨24, _⟩ => ⟨S512x20480, .f32⟩
  | .hbm, ⟨25, _⟩ => ⟨S_, .i32⟩
  | .hbm, ⟨26, _⟩ => ⟨S_, .f32⟩
  | .hbm, ⟨27, _⟩ => ⟨S5120x20480, .f32⟩
  | .hbm, ⟨28, _⟩ => ⟨S_, .i32⟩
  | .hbm, ⟨29, _⟩ => ⟨S_, .f32⟩
  | .hbm, ⟨30, _⟩ => ⟨S20480x5120, .f32⟩
  | .hbm, ⟨31, _⟩ => ⟨S_, .i32⟩
  | .hbm, ⟨32, _⟩ => ⟨S_, .f32⟩
  | .hbm, ⟨33, _⟩ => ⟨S5120, .f32⟩
  | .hbm, ⟨34, _⟩ => ⟨S1x5120, .f32⟩
  | .hbm, ⟨35, _⟩ => ⟨S512x5120, .f32⟩
  | .hbm, ⟨36, _⟩ => ⟨S512x5000, .f32⟩
  | .hbm, ⟨37, _⟩ => ⟨S_, .i32⟩
  | .hbm, ⟨38, _⟩ => ⟨S_, .f32⟩
  | .hbm, ⟨39, _⟩ => ⟨S512x5120, .f32⟩
  | .hbm, ⟨40, _⟩ => ⟨S_, .i32⟩
  | .hbm, ⟨41, _⟩ => ⟨S_, .f32⟩
  | .hbm, ⟨42, _⟩ => ⟨S3072x5120, .f32⟩
  | .hbm, ⟨43, _⟩ => ⟨S_, .i32⟩
  | .hbm, ⟨44, _⟩ => ⟨S_, .f32⟩
  | .hbm, ⟨45, _⟩ => ⟨S5120x3072, .f32⟩
  | .hbm, ⟨46, _⟩ => ⟨S_, .i32⟩
  | .hbm, ⟨47, _⟩ => ⟨S_, .f32⟩
  | .hbm, ⟨48, _⟩ => ⟨S3072, .f32⟩
  | .hbm, ⟨49, _⟩ => ⟨S1x3072, .f32⟩
  | .hbm, ⟨50, _⟩ => ⟨S512x3072, .f32⟩
  | .hbm, ⟨51, _⟩ => ⟨S512x3000, .f32⟩
  | .hbm, ⟨52, _⟩ => ⟨S512x8000, .f32⟩
  | .hbm, ⟨53, _⟩ => ⟨S_, .i32⟩
  | .hbm, ⟨54, _⟩ => ⟨S_, .f32⟩
  | .hbm, ⟨55, _⟩ => ⟨S512x8192, .f32⟩
  | .hbm, ⟨56, _⟩ => ⟨S_, .i32⟩
  | .hbm, ⟨57, _⟩ => ⟨S_, .f32⟩
  | .hbm, ⟨58, _⟩ => ⟨S3072x8192, .f32⟩
  | .hbm, ⟨59, _⟩ => ⟨S_, .i32⟩
  | .hbm, ⟨60, _⟩ => ⟨S_, .f32⟩
  | .hbm, ⟨61, _⟩ => ⟨S8192x3072, .f32⟩
  | .hbm, ⟨62, _⟩ => ⟨S_, .i32⟩
  | .hbm, ⟨63, _⟩ => ⟨S_, .f32⟩
  | .hbm, ⟨64, _⟩ => ⟨S3072, .f32⟩
  | .hbm, ⟨65, _⟩ => ⟨S1x3072, .f32⟩
  | .hbm, ⟨66, _⟩ => ⟨S512x3072, .f32⟩
  | .hbm, ⟨67, _⟩ => ⟨S512x3000, .f32⟩
  | .hbm, ⟨68, _⟩ => ⟨S_, .i32⟩
  | .hbm, ⟨69, _⟩ => ⟨S_, .f32⟩
  | .hbm, ⟨70, _⟩ => ⟨S512x3072, .f32⟩
  | .hbm, ⟨71, _⟩ => ⟨S_, .i32⟩
  | .hbm, ⟨72, _⟩ => ⟨S_, .f32⟩
  | .hbm, ⟨73, _⟩ => ⟨S3072x3072, .f32⟩
  | .hbm, ⟨74, _⟩ => ⟨S_, .i32⟩
  | .hbm, ⟨75, _⟩ => ⟨S_, .f32⟩
  | .hbm, ⟨76, _⟩ => ⟨S3072x3072, .f32⟩
  | .hbm, ⟨77, _⟩ => ⟨S_, .i32⟩
  | .hbm, ⟨78, _⟩ => ⟨S_, .f32⟩
  | .hbm, ⟨79, _⟩ => ⟨S3072, .f32⟩
  | .hbm, ⟨80, _⟩ => ⟨S1x3072, .f32⟩
  | .hbm, ⟨81, _⟩ => ⟨S512x3072, .f32⟩
  | .hbm, ⟨82, _⟩ => ⟨S512x3000, .f32⟩
  | .hbm, ⟨83, _⟩ => ⟨S512x6000, .f32⟩
  | .hbm, ⟨84, _⟩ => ⟨S_, .i32⟩
  | .hbm, ⟨85, _⟩ => ⟨S_, .f32⟩
  | .hbm, ⟨86, _⟩ => ⟨S512x6144, .f32⟩
  | .hbm, ⟨87, _⟩ => ⟨S_, .i32⟩
  | .hbm, ⟨88, _⟩ => ⟨S_, .f32⟩
  | .hbm, ⟨89, _⟩ => ⟨S1024x6144, .f32⟩
  | .hbm, ⟨90, _⟩ => ⟨S_, .i32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S512x1024, .f32⟩
  | .hbm, ⟨95, _⟩ => ⟨S_, .i32⟩
  | .hbm, ⟨96, _⟩ => ⟨S_, .f32⟩
  | .hbm, ⟨97, _⟩ => ⟨S512x1024, .f32⟩
  | .hbm, ⟨98, _⟩ => ⟨S_, .i32⟩
  | .hbm, ⟨99, _⟩ => ⟨S_, .f32⟩
  | .hbm, ⟨100, _⟩ => ⟨S256x1024, .f32⟩
  | .hbm, ⟨101, _⟩ => ⟨S_, .i32⟩
  | .hbm, ⟨102, _⟩ => ⟨S_, .f32⟩
  | .hbm, ⟨103, _⟩ => ⟨S256, .f32⟩
  | .hbm, ⟨104, _⟩ => ⟨S1x256, .f32⟩
  | .hbm, ⟨105, _⟩ => ⟨S512x256, .f32⟩
  | .hbm, ⟨106, _⟩ => ⟨S_, .i32⟩
  | .hbm, ⟨107, _⟩ => ⟨S_, .f32⟩
  | .hbm, ⟨108, _⟩ => ⟨S512x256, .f32⟩
  | .hbm, ⟨109, _⟩ => ⟨S_, .i32⟩
  | .hbm, ⟨110, _⟩ => ⟨S_, .f32⟩
  | .hbm, ⟨111, _⟩ => ⟨S128x256, .f32⟩
  | .hbm, ⟨112, _⟩ => ⟨S_, .i32⟩
  | .hbm, ⟨113, _⟩ => ⟨S_, .f32⟩
  | .hbm, ⟨114, _⟩ => ⟨S128, .f32⟩
  | .hbm, ⟨115, _⟩ => ⟨S1x128, .f32⟩
  | .hbm, ⟨116, _⟩ => ⟨S512x128, .f32⟩
  | .hbm, ⟨117, _⟩ => ⟨S512x1, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .f32⟩
  | .local _ .vmem, ⟨35, _⟩ => ⟨S1024x1024, .f32⟩
  | .local _ .vmem, ⟨36, _⟩ => ⟨S1024x1024, .f32⟩
  | .local _ .vmem, ⟨37, _⟩ => ⟨S1024x1024, .f32⟩
  | .local _ .vmem, ⟨38, _⟩ => ⟨S1024x1024, .f32⟩
  | .local _ .vmem, ⟨39, _⟩ => ⟨S1x1024, .f32⟩
  | .local _ .vmem, ⟨40, _⟩ => ⟨S1x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S1024x1024, .f32⟩
  | .local _ .vmem, ⟨47, _⟩ => ⟨S1024x1024, .f32⟩
  | .local _ .vmem, ⟨48, _⟩ => ⟨S1x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S256x1024, .f32⟩
  | .local _ .vmem, ⟨53, _⟩ => ⟨S1x256, .f32⟩
  | .local _ .vmem, ⟨54, _⟩ => ⟨S512x256, .f32⟩
  | .local _ .vmem, ⟨55, _⟩ => ⟨S512x256, .f32⟩
  | .local _ .vmem, ⟨56, _⟩ => ⟨S512x256, .f32⟩
  | .local _ .vmem, ⟨57, _⟩ => ⟨S128x256, .f32⟩
  | .local _ .vmem, ⟨58, _⟩ => ⟨S1x128, .f32⟩
  | .local _ .vmem, ⟨59, _⟩ => ⟨S512x128, .f32⟩
  | .local _ .vmem, ⟨60, _⟩ => ⟨S512x128, .f32⟩
  | _, _ => ⟨S512x28000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_call0_v0 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_v4 : Ref sig .tc := ⟨.hbm, 27, rfl⟩
abbrev main_c_1 : Ref sig .tc := ⟨.hbm, 28, rfl⟩
abbrev main_call2_v0 : Ref sig .tc := ⟨.hbm, 29, rfl⟩
abbrev main_v5 : Ref sig .tc := ⟨.hbm, 30, rfl⟩
abbrev main_c_2 : Ref sig .tc := ⟨.hbm, 31, rfl⟩
abbrev main_call3_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_call4_v0 : Ref sig .tc := ⟨.hbm, 38, rfl⟩
abbrev main_v10 : Ref sig .tc := ⟨.hbm, 39, rfl⟩
abbrev main_c_4 : Ref sig .tc := ⟨.hbm, 40, rfl⟩
abbrev main_call5_v0 : Ref sig .tc := ⟨.hbm, 41, rfl⟩
abbrev main_v11 : Ref sig .tc := ⟨.hbm, 42, rfl⟩
abbrev main_c_5 : Ref sig .tc := ⟨.hbm, 43, rfl⟩
abbrev main_call6_v0 : Ref sig .tc := ⟨.hbm, 44, rfl⟩
abbrev main_v12 : Ref sig .tc := ⟨.hbm, 45, rfl⟩
abbrev main_c_6 : Ref sig .tc := ⟨.hbm, 46, rfl⟩
abbrev main_call7_v0 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_c_7 : Ref sig .tc := ⟨.hbm, 53, rfl⟩
abbrev main_call8_v0 : Ref sig .tc := ⟨.hbm, 54, rfl⟩
abbrev main_v18 : Ref sig .tc := ⟨.hbm, 55, rfl⟩
abbrev main_c_8 : Ref sig .tc := ⟨.hbm, 56, rfl⟩
abbrev main_call9_v0 : Ref sig .tc := ⟨.hbm, 57, rfl⟩
abbrev main_v19 : Ref sig .tc := ⟨.hbm, 58, rfl⟩
abbrev main_c_9 : Ref sig .tc := ⟨.hbm, 59, rfl⟩
abbrev main_call10_v0 : Ref sig .tc := ⟨.hbm, 60, rfl⟩
abbrev main_v20 : Ref sig .tc := ⟨.hbm, 61, rfl⟩
abbrev main_c_10 : Ref sig .tc := ⟨.hbm, 62, rfl⟩
abbrev main_call11_v0 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_c_11 : Ref sig .tc := ⟨.hbm, 68, rfl⟩
abbrev main_call12_v0 : Ref sig .tc := ⟨.hbm, 69, rfl⟩
abbrev main_v25 : Ref sig .tc := ⟨.hbm, 70, rfl⟩
abbrev main_c_12 : Ref sig .tc := ⟨.hbm, 71, rfl⟩
abbrev main_call13_v0 : Ref sig .tc := ⟨.hbm, 72, rfl⟩
abbrev main_v26 : Ref sig .tc := ⟨.hbm, 73, rfl⟩
abbrev main_c_13 : Ref sig .tc := ⟨.hbm, 74, rfl⟩
abbrev main_call14_v0 : Ref sig .tc := ⟨.hbm, 75, rfl⟩
abbrev main_v27 : Ref sig .tc := ⟨.hbm, 76, rfl⟩
abbrev main_c_14 : Ref sig .tc := ⟨.hbm, 77, rfl⟩
abbrev main_call15_v0 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_c_15 : Ref sig .tc := ⟨.hbm, 84, rfl⟩
abbrev main_call16_v0 : Ref sig .tc := ⟨.hbm, 85, rfl⟩
abbrev main_v33 : Ref sig .tc := ⟨.hbm, 86, rfl⟩
abbrev main_c_16 : Ref sig .tc := ⟨.hbm, 87, rfl⟩
abbrev main_call17_v0 : Ref sig .tc := ⟨.hbm, 88, rfl⟩
abbrev main_v34 : Ref sig .tc := ⟨.hbm, 89, rfl⟩
abbrev main_c_17 : Ref sig .tc := ⟨.hbm, 90, rfl⟩
abbrev main_call18_v0 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_c_18 : Ref sig .tc := ⟨.hbm, 95, rfl⟩
abbrev main_call19_v0 : Ref sig .tc := ⟨.hbm, 96, rfl⟩
abbrev main_v38 : Ref sig .tc := ⟨.hbm, 97, rfl⟩
abbrev main_c_19 : Ref sig .tc := ⟨.hbm, 98, rfl⟩
abbrev main_call20_v0 : Ref sig .tc := ⟨.hbm, 99, rfl⟩
abbrev main_v39 : Ref sig .tc := ⟨.hbm, 100, rfl⟩
abbrev main_c_20 : Ref sig .tc := ⟨.hbm, 101, rfl⟩
abbrev main_call21_v0 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_c_21 : Ref sig .tc := ⟨.hbm, 106, rfl⟩
abbrev main_call22_v0 : Ref sig .tc := ⟨.hbm, 107, rfl⟩
abbrev main_v43 : Ref sig .tc := ⟨.hbm, 108, rfl⟩
abbrev main_c_22 : Ref sig .tc := ⟨.hbm, 109, rfl⟩
abbrev main_call23_v0 : Ref sig .tc := ⟨.hbm, 110, rfl⟩
abbrev main_v44 : Ref sig .tc := ⟨.hbm, 111, rfl⟩
abbrev main_c_23 : Ref sig .tc := ⟨.hbm, 112, rfl⟩
abbrev main_call24_v0 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_scratch0 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_scratch0 : Ref sig .tc := ⟨.vmem, 50, rfl⟩
abbrev cc5_stg0_0 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_scratch0 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_scratch0 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc5_sem0_0 : DmaSem sig := 46
abbrev cc5_sem1_0 : DmaSem sig := 47
abbrev cc5_sem2_0 : DmaSem sig := 48
abbrev cc5_sem3_0 : DmaSem sig := 49
abbrev cc6_sem0_0 : DmaSem sig := 50
abbrev cc6_sem1_0 : DmaSem sig := 51
abbrev cc6_sem2_0 : DmaSem sig := 52
abbrev cc6_sem3_0 : DmaSem sig := 53

abbrev nD : Nat := 1
abbrev τ : Topo := Topo.v7x

variable {F : FTy → Type} [FloatOps F]

abbrev grid0 : Pipeline.Grid := ⟨2, ![5, 20], ![false, false]⟩

def k0_cond2 (i : grid0.Coords) : BitVec 1 :=
  let arg1 : BitVec 32 := BitVec.ofNat 32 (i 1).val
  let c19_i32 : BitVec 32 := 19#32
  let v19 : BitVec 1 := Scalar.cmpi .eq arg1 c19_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![3, 5], ![false, false]⟩

def k1_cond2 (i : grid1.Coords) : BitVec 1 :=
  let arg1 : BitVec 32 := BitVec.ofNat 32 (i 1).val
  let c4_i32 : BitVec 32 := 4#32
  let v19 : BitVec 1 := Scalar.cmpi .eq arg1 c4_i32
  let v20 : BitVec 32 := Scalar.extui v19
  let c0_i32_10 : BitVec 32 := 0#32
  let v21 : BitVec 1 := Scalar.cmpi .ne v20 c0_i32_10
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![3, 8], ![false, false]⟩

def k2_cond2 (i : grid2.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_10 : BitVec 32 := 0#32
  let v21 : BitVec 1 := Scalar.cmpi .ne v20 c0_i32_10
  v21

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![3, 3], ![false, false]⟩

def k3_cond2 (i : grid3.Coords) : BitVec 1 :=
  let arg1 : BitVec 32 := BitVec.ofNat 32 (i 1).val
  let c2_i32 : BitVec 32 := 2#32
  let v19 : BitVec 1 := Scalar.cmpi .eq arg1 c2_i32
  let v20 : BitVec 32 := Scalar.extui v19
  let c0_i32_10 : BitVec 32 := 0#32
  let v21 : BitVec 1 := Scalar.cmpi .ne v20 c0_i32_10
  v21

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![1, 6], ![false, false]⟩

def k4_cond2 (i : grid4.Coords) : BitVec 1 :=
  let arg1 : BitVec 32 := BitVec.ofNat 32 (i 1).val
  let c5_i32 : BitVec 32 := 5#32
  let v16 : BitVec 1 := Scalar.cmpi .eq arg1 c5_i32
  let v17 : BitVec 32 := Scalar.extui v16
  let c0_i32_8 : BitVec 32 := 0#32
  let v18 : BitVec 1 := Scalar.cmpi .ne v17 c0_i32_8
  v18

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev stage4_3 : Fin 1 → Memref sig .tc .vmem S512x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, false]

abbrev grid5 : Pipeline.Grid := ⟨2, ![1, 1], ![false, false]⟩

def k5_cond2 (i : grid5.Coords) : BitVec 1 :=
  let arg1 : BitVec 32 := BitVec.ofNat 32 (i 1).val
  let c0_i32_8 : BitVec 32 := 0#32
  let v16 : BitVec 1 := Scalar.cmpi .eq arg1 c0_i32_8
  let v17 : BitVec 32 := Scalar.extui v16
  let c0_i32_9 : BitVec 32 := 0#32
  let v18 : BitVec 1 := Scalar.cmpi .ne v17 c0_i32_9
  v18

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 1 → Memref sig .tc .vmem S512x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true]

abbrev stage5_1 : Fin 1 → Memref sig .tc .vmem S256x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, false]

abbrev stage5_3 : Fin 1 → Memref sig .tc .vmem S512x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, false]

abbrev grid6 : Pipeline.Grid := ⟨2, ![1, 1], ![false, false]⟩

def k6_cond2 (i : grid6.Coords) : BitVec 1 :=
  let arg1 : BitVec 32 := BitVec.ofNat 32 (i 1).val
  let c0_i32_8 : BitVec 32 := 0#32
  let v16 : BitVec 1 := Scalar.cmpi .eq arg1 c0_i32_8
  let v17 : BitVec 32 := Scalar.extui v16
  let c0_i32_9 : BitVec 32 := 0#32
  let v18 : BitVec 1 := Scalar.cmpi .ne v17 c0_i32_9
  v18

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 1 → Memref sig .tc .vmem S512x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev stage6_3 : Fin 1 → Memref sig .tc .vmem S512x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true, false]

class Facts₀ : Prop where
  slices_S512x28000_S512x20000_0_8000 : S512x28000.Slices ![0, 8000] S512x20000
  slices_S512x28000_S512x5000_0_3000 : S512x28000.Slices ![0, 3000] S512x5000
  slices_S512x28000_S512x3000_0_0 : S512x28000.Slices ![0, 0] S512x3000
  pads_S512x20000_S512x20480_000_04800 : S512x20000.Pads (![0, 0] : Fin 2 → Nat) ![0, 480] ![0, 0] S512x20480
  h_S_ : 0 < S_.numel
  pads_S5000x20000_S5120x20480_01200_04800 : S5000x20000.Pads (![0, 0] : Fin 2 → Nat) ![120, 480] ![0, 0] S5120x20480
  pads_S20000x5000_S20480x5120_04800_01200 : S20000x5000.Pads (![0, 0] : Fin 2 → Nat) ![480, 120] ![0, 0] S20480x5120
  pads_S5000_S5120_01200 : S5000.Pads (![0] : Fin 1 → Nat) ![120] ![0] S5120
  shapeCasts_S5120_S1x5120 : S5120.ShapeCasts S1x5120
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x5120_S512x5000_0_0 : S512x5120.Slices ![0, 0] S512x5000
  pads_S512x5000_S512x5120_000_01200 : S512x5000.Pads (![0, 0] : Fin 2 → Nat) ![0, 120] ![0, 0] S512x5120
  pads_S3000x5000_S3072x5120_0720_01200 : S3000x5000.Pads (![0, 0] : Fin 2 → Nat) ![72, 120] ![0, 0] S3072x5120
  pads_S5000x3000_S5120x3072_01200_0720 : S5000x3000.Pads (![0, 0] : Fin 2 → Nat) ![120, 72] ![0, 0] S5120x3072
  pads_S3000_S3072_0720 : S3000.Pads (![0] : Fin 1 → Nat) ![72] ![0] S3072
  shapeCasts_S3072_S1x3072 : S3072.ShapeCasts S1x3072
  slices_S512x3072_S512x3000_0_0 : S512x3072.Slices ![0, 0] S512x3000
  concatenates_S512x5000_S512x3000_S512x8000_d1 : Shape.Concatenates [S512x5000, S512x3000] S512x8000 1
  pads_S512x8000_S512x8192_000_01920 : S512x8000.Pads (![0, 0] : Fin 2 → Nat) ![0, 192] ![0, 0] S512x8192
  pads_S3000x8000_S3072x8192_0720_01920 : S3000x8000.Pads (![0, 0] : Fin 2 → Nat) ![72, 192] ![0, 0] S3072x8192
  pads_S8000x3000_S8192x3072_01920_0720 : S8000x3000.Pads (![0, 0] : Fin 2 → Nat) ![192, 72] ![0, 0] S8192x3072
  pads_S512x3000_S512x3072_000_0720 : S512x3000.Pads (![0, 0] : Fin 2 → Nat) ![0, 72] ![0, 0] S512x3072
  pads_S3000x3000_S3072x3072_0720_0720 : S3000x3000.Pads (![0, 0] : Fin 2 → Nat) ![72, 72] ![0, 0] S3072x3072
  concatenates_S512x3000_S512x3000_S512x6000_d1 : Shape.Concatenates [S512x3000, S512x3000] S512x6000 1
  pads_S512x6000_S512x6144_000_01440 : S512x6000.Pads (![0, 0] : Fin 2 → Nat) ![0, 144] ![0, 0] S512x6144
  pads_S1024x6000_S1024x6144_000_01440 : S1024x6000.Pads (![0, 0] : Fin 2 → Nat) ![0, 144] ![0, 0] S1024x6144
  pads_S1024_S1024_000 : S1024.Pads (![0] : Fin 1 → Nat) ![0] ![0] S1024
  shapeCasts_S1024_S1x1024 : S1024.ShapeCasts S1x1024
  pads_S512x1024_S512x1024_000_000 : S512x1024.Pads (![0, 0] : Fin 2 → Nat) ![0, 0] ![0, 0] S512x1024
  pads_S256x1024_S256x1024_000_000 : S256x1024.Pads (![0, 0] : Fin 2 → Nat) ![0, 0] ![0, 0] S256x1024
  pads_S256_S256_000 : S256.Pads (![0] : Fin 1 → Nat) ![0] ![0] S256
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  transposes_S256x1024_p1_0_S1024x256 : S256x1024.Transposes [1, 0] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  pads_S512x256_S512x256_000_000 : S512x256.Pads (![0, 0] : Fin 2 → Nat) ![0, 0] ![0, 0] S512x256
  pads_S1x256_S128x256_01270_000 : S1x256.Pads (![0, 0] : Fin 2 → Nat) ![127, 0] ![0, 0] S128x256
  pads_S1_S128_01270 : S1.Pads (![0] : Fin 1 → Nat) ![127] ![0] S128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S512x128_S512x1_0_0 : S512x128.Slices ![0, 0] S512x1
  dot_S512x1024_S1024x1024_S512x1024_1_0_0_1_n_n_wf : DotDims.WF S512x1024 S1024x1024 S512x1024 [1] [0] [0] [1] [] []
  dot_S512x1024_S1024x256_S512x256_1_0_0_1_n_n_wf : DotDims.WF S512x1024 S1024x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x20480.size a
  hwx0_0 : ∀ i : grid0.Coords, EltTy.bits .f32 = 32 ∨ (Rect.block (s := S512x20480) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S5120x20480.size a
  hwx0_1 : ∀ i : grid0.Coords, EltTy.bits .f32 = 32 ∨ (Rect.block (s := S5120x20480) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S20480x5120.size a
  hwx0_2 : ∀ i : grid0.Coords, EltTy.bits .f32 = 32 ∨ (Rect.block (s := S20480x5120) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x5120.size a
  hwx0_3 : ∀ i : grid0.Coords, EltTy.bits .f32 = 32 ∨ (Rect.block (s := S1x5120) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x5120.size a
  hwx0_4 : ∀ i : grid0.Coords, EltTy.bits .f32 = 32 ∨ (Rect.block (s := S512x5120) S512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x5120.size a
  hwx1_0 : ∀ i : grid1.Coords, EltTy.bits .f32 = 32 ∨ (Rect.block (s := S512x5120) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S3072x5120.size a
  hwx1_1 : ∀ i : grid1.Coords, EltTy.bits .f32 = 32 ∨ (Rect.block (s := S3072x5120) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S5120x3072.size a
  hwx1_2 : ∀ i : grid1.Coords, EltTy.bits .f32 = 32 ∨ (Rect.block (s := S5120x3072) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x3072.size a
  hwx1_3 : ∀ i : grid1.Coords, EltTy.bits .f32 = 32 ∨ (Rect.block (s := S1x3072) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S512x3072.size a
  hwx1_4 : ∀ i : grid1.Coords, EltTy.bits .f32 = 32 ∨ (Rect.block (s := S512x3072) S512x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S512x8192.size a
  hwx2_0 : ∀ i : grid2.Coords, EltTy.bits .f32 = 32 ∨ (Rect.block (s := S512x8192) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S3072x8192.size a
  hwx2_1 : ∀ i : grid2.Coords, EltTy.bits .f32 = 32 ∨ (Rect.block (s := S3072x8192) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x3072.size a
  hwx2_2 : ∀ i : grid2.Coords, EltTy.bits .f32 = 32 ∨ (Rect.block (s := S8192x3072) S1024x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x3072.size a
  hwx2_3 : ∀ i : grid2.Coords, EltTy.bits .f32 = 32 ∨ (Rect.block (s := S1x3072) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1024.size a ≤ S512x3072.size a
  hwx2_4 : ∀ i : grid2.Coords, EltTy.bits .f32 = 32 ∨ (Rect.block (s := S512x3072) S512x1024.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S512x3072.size a
  hwx3_0 : ∀ i : grid3.Coords, EltTy.bits .f32 = 32 ∨ (Rect.block (s := S512x3072) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S3072x3072.size a
  hwx3_1 : ∀ i : grid3.Coords, EltTy.bits .f32 = 32 ∨ (Rect.block (s := S3072x3072) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S3072x3072.size a
  hwx3_2 : ∀ i : grid3.Coords, EltTy.bits .f32 = 32 ∨ (Rect.block (s := S3072x3072) S1024x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x3072.size a
  hwx3_3 : ∀ i : grid3.Coords, EltTy.bits .f32 = 32 ∨ (Rect.block (s := S1x3072) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x1024.size a ≤ S512x3072.size a
  hwx3_4 : ∀ i : grid3.Coords, EltTy.bits .f32 = 32 ∨ (Rect.block (s := S512x3072) S512x1024.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S512x6144.size a
  hwx4_0 : ∀ i : grid4.Coords, EltTy.bits .f32 = 32 ∨ (Rect.block (s := S512x6144) S512x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x6144.size a
  hwx4_1 : ∀ i : grid4.Coords, EltTy.bits .f32 = 32 ∨ (Rect.block (s := S1024x6144) S1024x1024.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S512x1024.size a
  hwx4_3 : ∀ i : grid4.Coords, EltTy.bits .f32 = 32 ∨ (Rect.block (s := S512x1024) S512x1024.size (cc4_transform_3 i) (hinb4_3 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S512x1024.size a
  hwx5_0 : ∀ i : grid5.Coords, EltTy.bits .f32 = 32 ∨ (Rect.block (s := S512x1024) S512x1024.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S256x1024.size a ≤ S256x1024.size a
  hwx5_1 : ∀ i : grid5.Coords, EltTy.bits .f32 = 32 ∨ (Rect.block (s := S256x1024) S256x1024.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S512x256.size a
  hwx5_3 : ∀ i : grid5.Coords, EltTy.bits .f32 = 32 ∨ (Rect.block (s := S512x256) S512x256.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S512x256.size a
  hwx6_0 : ∀ i : grid6.Coords, EltTy.bits .f32 = 32 ∨ (Rect.block (s := S512x256) S512x256.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S512x128.size a ≤ S512x128.size a
  hwx6_3 : ∀ i : grid6.Coords, EltTy.bits .f32 = 32 ∨ (Rect.block (s := S512x128) S512x128.size (cc6_transform_3 i) (hinb6_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v10) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v18) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23) S512x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v25) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v30) S512x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v33) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S1x1024.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S512x1024.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v38) S512x1024.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v39) S256x1024.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v41) S1x256.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v42) S512x256.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v43) S512x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v44) S128x256.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v46) S1x128.size cc6_transform_2 reads6_2 false false 1 stage6_2 sem6_2
    hrank6 hreads6_2 hinb6_2 nbuf6_2 (Memref.isWhole_whole _) hwx6_2 hstage6_2

abbrev win6_3 : Pipeline.Window sig grid6 :=
  Pipeline.Window.ofSpec (Memref.whole main_v47) S512x128.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

class Facts : Prop extends Facts₀ where

variable [Facts]
-- ==== ReferenceIdeal.lean ====
abbrev S512x28000 : Shape := ⟨2, ![512, 28000]⟩
abbrev S20000x5000 : Shape := ⟨2, ![20000, 5000]⟩
abbrev S5000x3000 : Shape := ⟨2, ![5000, 3000]⟩
abbrev S8000x3000 : Shape := ⟨2, ![8000, 3000]⟩
abbrev S3000x3000 : Shape := ⟨2, ![3000, 3000]⟩
abbrev S5000x20000 : Shape := ⟨2, ![5000, 20000]⟩
abbrev S5000 : Shape := ⟨1, ![5000]⟩
abbrev S3000x5000 : Shape := ⟨2, ![3000, 5000]⟩
abbrev S3000 : Shape := ⟨1, ![3000]⟩
abbrev S3000x8000 : Shape := ⟨2, ![3000, 8000]⟩
abbrev S1024x6000 : Shape := ⟨2, ![1024, 6000]⟩
abbrev S1024 : Shape := ⟨1, ![1024]⟩
abbrev S256x1024 : Shape := ⟨2, ![256, 1024]⟩
abbrev S256 : Shape := ⟨1, ![256]⟩
abbrev S1x256 : Shape := ⟨2, ![1, 256]⟩
abbrev S1 : Shape := ⟨1, ![1]⟩
abbrev S512x20000 : Shape := ⟨2, ![512, 20000]⟩
abbrev S512x5000 : Shape := ⟨2, ![512, 5000]⟩
abbrev S512x3000 : Shape := ⟨2, ![512, 3000]⟩
abbrev S1x5000 : Shape := ⟨2, ![1, 5000]⟩
abbrev S_ : Shape := ⟨0, ![]⟩
abbrev S1x3000 : Shape := ⟨2, ![1, 3000]⟩
abbrev S512x8000 : Shape := ⟨2, ![512, 8000]⟩
abbrev S512x6000 : Shape := ⟨2, ![512, 6000]⟩
abbrev S6000x1024 : Shape := ⟨2, ![6000, 1024]⟩
abbrev S512x1024 : Shape := ⟨2, ![512, 1024]⟩
abbrev S1x1024 : Shape := ⟨2, ![1, 1024]⟩
abbrev S1024x256 : Shape := ⟨2, ![1024, 256]⟩
abbrev S512x256 : Shape := ⟨2, ![512, 256]⟩
abbrev S256x1 : Shape := ⟨2, ![256, 1]⟩
abbrev S512x1 : Shape := ⟨2, ![512, 1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S512x28000, .f32⟩
  | .hbm, ⟨1, _⟩ => ⟨S20000x5000, .f32⟩
  | .hbm, ⟨2, _⟩ => ⟨S5000x3000, .f32⟩
  | .hbm, ⟨3, _⟩ => ⟨S8000x3000, .f32⟩
  | .hbm, ⟨4, _⟩ => ⟨S3000x3000, .f32⟩
  | .hbm, ⟨5, _⟩ => ⟨S5000x20000, .f32⟩
  | .hbm, ⟨6, _⟩ => ⟨S5000, .f32⟩
  | .hbm, ⟨7, _⟩ => ⟨S3000x5000, .f32⟩
  | .hbm, ⟨8, _⟩ => ⟨S3000, .f32⟩
  | .hbm, ⟨9, _⟩ => ⟨S3000x8000, .f32⟩
  | .hbm, ⟨10, _⟩ => ⟨S3000, .f32⟩
  | .hbm, ⟨11, _⟩ => ⟨S3000x3000, .f32⟩
  | .hbm, ⟨12, _⟩ => ⟨S3000, .f32⟩
  | .hbm, ⟨13, _⟩ => ⟨S1024x6000, .f32⟩
  | .hbm, ⟨14, _⟩ => ⟨S1024, .f32⟩
  | .hbm, ⟨15, _⟩ => ⟨S256x1024, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S512x20000, .f32⟩
  | .hbm, ⟨20, _⟩ => ⟨S512x5000, .f32⟩
  | .hbm, ⟨21, _⟩ => ⟨S512x3000, .f32⟩
  | .hbm, ⟨22, _⟩ => ⟨S20000x5000, .f32⟩
  | .hbm, ⟨23, _⟩ => ⟨S20000x5000, .f32⟩
  | .hbm, ⟨24, _⟩ => ⟨S512x5000, .f32⟩
  | .hbm, ⟨25, _⟩ => ⟨S1x5000, .f32⟩
  | .hbm, ⟨26, _⟩ => ⟨S512x5000, .f32⟩
  | .hbm, ⟨27, _⟩ => ⟨S512x5000, .f32⟩
  | .hbm, ⟨28, _⟩ => ⟨S_, .f32⟩
  | .hbm, ⟨29, _⟩ => ⟨S512x5000, .f32⟩
  | .hbm, ⟨30, _⟩ => ⟨S512x5000, .f32⟩
  | .hbm, ⟨31, _⟩ => ⟨S5000x3000, .f32⟩
  | .hbm, ⟨32, _⟩ => ⟨S5000x3000, .f32⟩
  | .hbm, ⟨33, _⟩ => ⟨S512x3000, .f32⟩
  | .hbm, ⟨34, _⟩ => ⟨S1x3000, .f32⟩
  | .hbm, ⟨35, _⟩ => ⟨S512x3000, .f32⟩
  | .hbm, ⟨36, _⟩ => ⟨S512x3000, .f32⟩
  | .hbm, ⟨37, _⟩ => ⟨S_, .f32⟩
  | .hbm, ⟨38, _⟩ => ⟨S512x3000, .f32⟩
  | .hbm, ⟨39, _⟩ => ⟨S512x3000, .f32⟩
  | .hbm, ⟨40, _⟩ => ⟨S512x8000, .f32⟩
  | .hbm, ⟨41, _⟩ => ⟨S8000x3000, .f32⟩
  | .hbm, ⟨42, _⟩ => ⟨S8000x3000, .f32⟩
  | .hbm, ⟨43, _⟩ => ⟨S512x3000, .f32⟩
  | .hbm, ⟨44, _⟩ => ⟨S1x3000, .f32⟩
  | .hbm, ⟨45, _⟩ => ⟨S512x3000, .f32⟩
  | .hbm, ⟨46, _⟩ => ⟨S512x3000, .f32⟩
  | .hbm, ⟨47, _⟩ => ⟨S_, .f32⟩
  | .hbm, ⟨48, _⟩ => ⟨S512x3000, .f32⟩
  | .hbm, ⟨49, _⟩ => ⟨S512x3000, .f32⟩
  | .hbm, ⟨50, _⟩ => ⟨S3000x3000, .f32⟩
  | .hbm, ⟨51, _⟩ => ⟨S3000x3000, .f32⟩
  | .hbm, ⟨52, _⟩ => ⟨S512x3000, .f32⟩
  | .hbm, ⟨53, _⟩ => ⟨S1x3000, .f32⟩
  | .hbm, ⟨54, _⟩ => ⟨S512x3000, .f32⟩
  | .hbm, ⟨55, _⟩ => ⟨S512x3000, .f32⟩
  | .hbm, ⟨56, _⟩ => ⟨S_, .f32⟩
  | .hbm, ⟨57, _⟩ => ⟨S512x3000, .f32⟩
  | .hbm, ⟨58, _⟩ => ⟨S512x3000, .f32⟩
  | .hbm, ⟨59, _⟩ => ⟨S512x6000, .f32⟩
  | .hbm, ⟨60, _⟩ => ⟨S6000x1024, .f32⟩
  | .hbm, ⟨61, _⟩ => ⟨S512x1024, .f32⟩
  | .hbm, ⟨62, _⟩ => ⟨S1x1024, .f32⟩
  | .hbm, ⟨63, _⟩ => ⟨S512x1024, .f32⟩
  | .hbm, ⟨64, _⟩ => ⟨S512x1024, .f32⟩
  | .hbm, ⟨65, _⟩ => ⟨S_, .f32⟩
  | .hbm, ⟨66, _⟩ => ⟨S512x1024, .f32⟩
  | .hbm, ⟨67, _⟩ => ⟨S512x1024, .f32⟩
  | .hbm, ⟨68, _⟩ => ⟨S1024x256, .f32⟩
  | .hbm, ⟨69, _⟩ => ⟨S512x256, .f32⟩
  | .hbm, ⟨70, _⟩ => ⟨S1x256, .f32⟩
  | .hbm, ⟨71, _⟩ => ⟨S512x256, .f32⟩
  | .hbm, ⟨72, _⟩ => ⟨S512x256, .f32⟩
  | .hbm, ⟨73, _⟩ => ⟨S_, .f32⟩
  | .hbm, ⟨74, _⟩ => ⟨S512x256, .f32⟩
  | .hbm, ⟨75, _⟩ => ⟨S512x256, .f32⟩
  | .hbm, ⟨76, _⟩ => ⟨S256x1, .f32⟩
  | .hbm, ⟨77, _⟩ => ⟨S512x1, .f32⟩
  | .hbm, ⟨78, _⟩ => ⟨S1x1, .f32⟩
  | .hbm, ⟨79, _⟩ => ⟨S512x1, .f32⟩
  | .hbm, ⟨80, _⟩ => ⟨S512x1, .f32⟩
  | .hbm, ⟨81, _⟩ => ⟨S512x1, .f32⟩
  | .hbm, ⟨82, _⟩ => ⟨S512x1, .f32⟩
  | .hbm, ⟨83, _⟩ => ⟨S_, .f32⟩
  | .hbm, ⟨84, _⟩ => ⟨S512x1, .f32⟩
  | .hbm, ⟨85, _⟩ => ⟨S512x1, .f32⟩
  | .hbm, ⟨86, _⟩ => ⟨S_, .f32⟩
  | .hbm, ⟨87, _⟩ => ⟨S512x1, .f32⟩
  | .hbm, ⟨88, _⟩ => ⟨S512x1, .f32⟩
  | _, _ => ⟨S512x28000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call0_cst : Ref sig .tc := ⟨.hbm, 28, rfl⟩
abbrev main_call0_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call1_cst : Ref sig .tc := ⟨.hbm, 37, rfl⟩
abbrev main_call1_v0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call2_cst : Ref sig .tc := ⟨.hbm, 47, rfl⟩
abbrev main_call2_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call3_cst : Ref sig .tc := ⟨.hbm, 56, rfl⟩
abbrev main_call3_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call4_cst : Ref sig .tc := ⟨.hbm, 65, rfl⟩
abbrev main_call4_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call5_cst : Ref sig .tc := ⟨.hbm, 73, rfl⟩
abbrev main_call5_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst : Ref sig .tc := ⟨.hbm, 83, rfl⟩
abbrev main_v52 : Ref sig .tc := ⟨.hbm, 84, rfl⟩
abbrev main_v53 : Ref sig .tc := ⟨.hbm, 85, rfl⟩
abbrev main_cst_0 : Ref sig .tc := ⟨.hbm, 86, rfl⟩
abbrev main_v54 : Ref sig .tc := ⟨.hbm, 87, rfl⟩
abbrev main_v55 : Ref sig .tc := ⟨.hbm, 88, rfl⟩

abbrev nD : Nat := 1
abbrev τ : Topo := Topo.v7x

variable {F : FTy → Type} [FloatOps F]

class Facts₀ : Prop where
  slices_S512x28000_S512x20000_0_8000 : S512x28000.Slices ![0, 8000] S512x20000
  slices_S512x28000_S512x5000_0_3000 : S512x28000.Slices ![0, 3000] S512x5000
  slices_S512x28000_S512x3000_0_0 : S512x28000.Slices ![0, 0] S512x3000
  transposes_S5000x20000_S20000x5000_1_0 : S5000x20000.Transposes [1, 0] S20000x5000
  bcast_S5000_S1x5000_1 : S5000.BroadcastsInDim S1x5000 (![1] : Fin 1 → Fin S1x5000.rank)
  bcast_S1x5000_S512x5000_0_1 : S1x5000.BroadcastsInDim S512x5000 (![0, 1] : Fin 2 → Fin S512x5000.rank)
  bcast_S_S512x5000 : S_.BroadcastsInDim S512x5000 (![] : Fin 0 → Fin S512x5000.rank)
  transposes_S3000x5000_S5000x3000_1_0 : S3000x5000.Transposes [1, 0] S5000x3000
  bcast_S3000_S1x3000_1 : S3000.BroadcastsInDim S1x3000 (![1] : Fin 1 → Fin S1x3000.rank)
  bcast_S1x3000_S512x3000_0_1 : S1x3000.BroadcastsInDim S512x3000 (![0, 1] : Fin 2 → Fin S512x3000.rank)
  bcast_S_S512x3000 : S_.BroadcastsInDim S512x3000 (![] : Fin 0 → Fin S512x3000.rank)
  concatenates_S512x5000_S512x3000_S512x8000_d1 : Shape.Concatenates [S512x5000, S512x3000] S512x8000 1
  transposes_S3000x8000_S8000x3000_1_0 : S3000x8000.Transposes [1, 0] S8000x3000
  transposes_S3000x3000_S3000x3000_1_0 : S3000x3000.Transposes [1, 0] S3000x3000
  concatenates_S512x3000_S512x3000_S512x6000_d1 : Shape.Concatenates [S512x3000, S512x3000] S512x6000 1
  transposes_S1024x6000_S6000x1024_1_0 : S1024x6000.Transposes [1, 0] S6000x1024
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  transposes_S256x1024_S1024x256_1_0 : S256x1024.Transposes [1, 0] S1024x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  transposes_S1x256_S256x1_1_0 : S1x256.Transposes [1, 0] S256x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  dot_S512x20000_S20000x5000_S512x5000_1_0_0_1_n_n_wf : DotDims.WF S512x20000 S20000x5000 S512x5000 [1] [0] [0] [1] [] []
  dot_S512x5000_S5000x3000_S512x3000_1_0_0_1_n_n_wf : DotDims.WF S512x5000 S5000x3000 S512x3000 [1] [0] [0] [1] [] []
  dot_S512x8000_S8000x3000_S512x3000_1_0_0_1_n_n_wf : DotDims.WF S512x8000 S8000x3000 S512x3000 [1] [0] [0] [1] [] []
  dot_S512x3000_S3000x3000_S512x3000_1_0_0_1_n_n_wf : DotDims.WF S512x3000 S3000x3000 S512x3000 [1] [0] [0] [1] [] []
  dot_S512x6000_S6000x1024_S512x1024_1_0_0_1_n_n_wf : DotDims.WF S512x6000 S6000x1024 S512x1024 [1] [0] [0] [1] [] []
  dot_S512x1024_S1024x256_S512x256_1_0_0_1_n_n_wf : DotDims.WF S512x1024 S1024x256 S512x256 [1] [0] [0] [1] [] []
  dot_S512x256_S256x1_S512x1_1_0_0_1_n_n_wf : DotDims.WF S512x256 S256x1 S512x1 [1] [0] [0] [1] [] []

variable [Facts₀]

def dot_S512x20000_S20000x5000_S512x5000_1_0_0_1_n_n : DotDims S512x20000 S20000x5000 S512x5000 where
  lhsContracting := [1]
  rhsContracting := [0]
  lhsNonContracting := [0]
  rhsNonContracting := [1]
  lhsBatch := []
  rhsBatch := []
  wf := dot_S512x20000_S20000x5000_S512x5000_1_0_0_1_n_n_wf
def dot_S512x5000_S5000x3000_S512x3000_1_0_0_1_n_n : DotDims S512x5000 S5000x3000 S512x3000 where
  lhsContracting := [1]
  rhsContracting := [0]
  lhsNonContracting := [0]
  rhsNonContracting := [1]
  lhsBatch := []
  rhsBatch := []
  wf := dot_S512x5000_S5000x3000_S512x3000_1_0_0_1_n_n_wf
def dot_S512x8000_S8000x3000_S512x3000_1_0_0_1_n_n : DotDims S512x8000 S8000x3000 S512x3000 where
  lhsContracting := [1]
  rhsContracting := [0]
  lhsNonContracting := [0]
  rhsNonContracting := [1]
  lhsBatch := []
  rhsBatch := []
  wf := dot_S512x8000_S8000x3000_S512x3000_1_0_0_1_n_n_wf
def dot_S512x3000_S3000x3000_S512x3000_1_0_0_1_n_n : DotDims S512x3000 S3000x3000 S512x3000 where
  lhsContracting := [1]
  rhsContracting := [0]
  lhsNonContracting := [0]
  rhsNonContracting := [1]
  lhsBatch := []
  rhsBatch := []
  wf := dot_S512x3000_S3000x3000_S512x3000_1_0_0_1_n_n_wf
def dot_S512x6000_S6000x1024_S512x1024_1_0_0_1_n_n : DotDims S512x6000 S6000x1024 S512x1024 where
  lhsContracting := [1]
  rhsContracting := [0]
  lhsNonContracting := [0]
  rhsNonContracting := [1]
  lhsBatch := []
  rhsBatch := []
  wf := dot_S512x6000_S6000x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.RegionsK.lean ====
import proofs.«174655_j53695681135127_1_alg».proof.Proof.Gen.Kernel.Launch
import Idealize.ShloMosaic.Lib.Pipeline.Frame
import Idealize.ShloMosaic.Lib.Pipeline.Regions

set_option maxRecDepth 1228

noncomputable section

namespace Cert.Kernel.GenP

open Cert.Kernel.Gen Idealize.ShloMosaic Idealize.ShloMosaic.TcCoe
open Idealize.SL.RA Idealize.SL.BI
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

section

variable (c : Dev nD) (r : Ref sig .tc)

abbrev V0 : Valuation τ sig (Elt F) := fun b => m (c, b)
abbrev V1 := StableHlo.after hostOps0 (V0 m c)
abbrev V2 := StableHlo.after hostOps0_1 (V1 m c)
abbrev V3 := StableHlo.after hostOps0_2 (V2 m c)
abbrev V4 := StableHlo.after hostOps0_3 (V3 m c)
abbrev V5 := StableHlo.after hostOps0_4 (V4 m c)
abbrev V6 := StableHlo.after hostOps0_5 (V5 m c)
abbrev V7 := StableHlo.after hostOps0_6 (V6 m c)
abbrev V8 := StableHlo.after hostOps0_7 (V7 m c)
abbrev V9 := StableHlo.after hostOps0_8 (V8 m c)
abbrev V10 : Valuation τ sig (Elt F) := Function.update (V9 m c) main_v8 (outs 10 main_v8 c)
abbrev V11 := StableHlo.after hostOps1 (V10 m outs c)
abbrev V12 := StableHlo.after hostOps1_1 (V11 m outs c)
abbrev V13 := StableHlo.after hostOps1_2 (V12 m outs c)
abbrev V14 := StableHlo.after hostOps1_3 (V13 m outs c)
abbrev V15 := StableHlo.after hostOps1_4 (V14 m outs c)
abbrev V16 := StableHlo.after hostOps1_5 (V15 m outs c)
abbrev V17 := StableHlo.after hostOps1_6 (V16 m outs c)
abbrev V18 := StableHlo.after hostOps1_7 (V17 m outs c)
abbrev V19 := StableHlo.after hostOps1_8 (V18 m outs c)
abbrev V20 : Valuation τ sig (Elt F) := Function.update (V19 m outs c) main_v15 (outs 20 main_v15 c)
abbrev V21 := StableHlo.after hostOps2 (V20 m outs c)
abbrev V22 := StableHlo.after hostOps2_1 (V21 m outs c)
abbrev V23 := StableHlo.after hostOps2_2 (V22 m outs c)
abbrev V24 := StableHlo.after hostOps2_3 (V23 m outs c)
abbrev V25 := StableHlo.after hostOps2_4 (V24 m outs c)
abbrev V26 := StableHlo.after hostOps2_5 (V25 m outs c)
abbrev V27 := StableHlo.after hostOps2_6 (V26 m outs c)
abbrev V28 := StableHlo.after hostOps2_7 (V27 m outs c)
abbrev V29 := StableHlo.after hostOps2_8 (V28 m outs c)
abbrev V30 : Valuation τ sig (Elt F) := Function.update (V29 m outs c) main_v23 (outs 30 main_v23 c)
abbrev V31 := StableHlo.after hostOps3 (V30 m outs c)
abbrev V32 := StableHlo.after hostOps3_1 (V31 m outs c)
abbrev V33 := StableHlo.after hostOps3_2 (V32 m outs c)
abbrev V34 := StableHlo.after hostOps3_3 (V33 m outs c)
abbrev V35 := StableHlo.after hostOps3_4 (V34 m outs c)
abbrev V36 := StableHlo.after hostOps3_5 (V35 m outs c)
abbrev V37 := StableHlo.after hostOps3_6 (V36 m outs c)
abbrev V38 := StableHlo.after hostOps3_7 (V37 m outs c)
abbrev V39 := StableHlo.after hostOps3_8 (V38 m outs c)
abbrev V40 : Valuation τ sig (Elt F) := Function.update (V39 m outs c) main_v30 (outs 40 main_v30 c)
abbrev V41 := StableHlo.after hostOps4 (V40 m outs c)
abbrev V42 := StableHlo.after hostOps4_1 (V41 m outs c)
abbrev V43 := StableHlo.after hostOps4_2 (V42 m outs c)
abbrev V44 := StableHlo.after hostOps4_3 (V43 m outs c)
abbrev V45 := StableHlo.after hostOps4_4 (V44 m outs c)
abbrev V46 := StableHlo.after hostOps4_5 (V45 m outs c)
abbrev V47 := StableHlo.after hostOps4_6 (V46 m outs c)
abbrev V48 : Valuation τ sig (Elt F) := Function.update (V47 m outs c) main_v37 (outs 48 main_v37 c)
abbrev V49 := StableHlo.after hostOps5 (V48 m outs c)
abbrev V50 := StableHlo.after hostOps5_1 (V49 m outs c)
abbrev V51 := StableHlo.after hostOps5_2 (V50 m outs c)
abbrev V52 := StableHlo.after hostOps5_3 (V51 m outs c)
abbrev V53 := StableHlo.after hostOps5_4 (V52 m outs c)
abbrev V54 := StableHlo.after hostOps5_5 (V53 m outs c)
abbrev V55 := StableHlo.after hostOps5_6 (V54 m outs c)
abbrev V56 : Valuation τ sig (Elt F) := Function.update (V55 m outs c) main_v42 (outs 56 main_v42 c)
abbrev V57 := StableHlo.after hostOps6 (V56 m outs c)
abbrev V58 := StableHlo.after hostOps6_1 (V57 m outs c)
abbrev V59 := StableHlo.after hostOps6_2 (V58 m outs c)
abbrev V60 := StableHlo.after hostOps6_3 (V59 m outs c)
abbrev V61 := StableHlo.after hostOps6_4 (V60 m outs c)
abbrev V62 := StableHlo.after hostOps6_5 (V61 m outs c)
abbrev V63 := StableHlo.after hostOps6_6 (V62 m outs c)
abbrev V64 : Valuation τ sig (Elt F) := Function.update (V63 m outs c) main_v47 (outs 64 main_v47 c)
abbrev V65 := StableHlo.after hostOps7 (V64 m outs c)

abbrev hostOps0_W : List (Ref sig .tc) := [main_v0, main_v1, main_v2, main_c]
abbrev hostOps0_1_W : List (Ref sig .tc) := [main_call0_v0, main_v3]
abbrev hostOps0_2_W : List (Ref sig .tc) := [main_c_0]
abbrev hostOps0_3_W : List (Ref sig .tc) := [main_call1_v0, main_v4]
abbrev hostOps0_4_W : List (Ref sig .tc) := [main_c_1]
abbrev hostOps0_5_W : List (Ref sig .tc) := [main_call2_v0, main_v5]
abbrev hostOps0_6_W : List (Ref sig .tc) := [main_c_2]
abbrev hostOps0_7_W : List (Ref sig .tc) := [main_call3_v0, main_v6]
abbrev hostOps0_8_W : List (Ref sig .tc) := [main_v7]
abbrev hostOps1_W : List (Ref sig .tc) := [main_v9, main_c_3]
abbrev hostOps1_1_W : List (Ref sig .tc) := [main_call4_v0, main_v10]
abbrev hostOps1_2_W : List (Ref sig .tc) := [main_c_4]
abbrev hostOps1_3_W : List (Ref sig .tc) := [main_call5_v0, main_v11]
abbrev hostOps1_4_W : List (Ref sig .tc) := [main_c_5]
abbrev hostOps1_5_W : List (Ref sig .tc) := [main_call6_v0, main_v12]
abbrev hostOps1_6_W : List (Ref sig .tc) := [main_c_6]
abbrev hostOps1_7_W : List (Ref sig .tc) := [main_call7_v0, main_v13]
abbrev hostOps1_8_W : List (Ref sig .tc) := [main_v14]
abbrev hostOps2_W : List (Ref sig .tc) := [main_v16, main_v17, main_c_7]
abbrev hostOps2_1_W : List (Ref sig .tc) := [main_call8_v0, main_v18]
abbrev hostOps2_2_W : List (Ref sig .tc) := [main_c_8]
abbrev hostOps2_3_W : List (Ref sig .tc) := [main_call9_v0, main_v19]
abbrev hostOps2_4_W : List (Ref sig .tc) := [main_c_9]
abbrev hostOps2_5_W : List (Ref sig .tc) := [main_call10_v0, main_v20]
abbrev hostOps2_6_W : List (Ref sig .tc) := [main_c_10]
abbrev hostOps2_7_W : List (Ref sig .tc) := [main_call11_v0, main_v21]
abbrev hostOps2_8_W : List (Ref sig .tc) := [main_v22]
abbrev hostOps3_W : List (Ref sig .tc) := [main_v24, main_c_11]
abbrev hostOps3_1_W : List (Ref sig .tc) := [main_call12_v0, main_v25]
abbrev hostOps3_2_W : List (Ref sig .tc) := [main_c_12]
abbrev hostOps3_3_W : List (Ref sig .tc) := [main_call13_v0, main_v26]
abbrev hostOps3_4_W : List (Ref sig .tc) := [main_c_13]
abbrev hostOps3_5_W : List (Ref sig .tc) := [main_call14_v0, main_v27]
abbrev hostOps3_6_W : List (Ref sig .tc) := [main_c_14]
abbrev hostOps3_7_W : List (Ref sig .tc) := [main_call15_v0, main_v28]
abbrev hostOps3_8_W : List (Ref sig .tc) := [main_v29]
abbrev hostOps4_W : List (Ref sig .tc) := [main_v31, main_v32, main_c_15]
abbrev hostOps4_1_W : List (Ref sig .tc) := [main_call16_v0, main_v33]
abbrev hostOps4_2_W : List (Ref sig .tc) := [main_c_16]
abbrev hostOps4_3_W : List (Ref sig .tc) := [main_call17_v0, main_v34]
abbrev hostOps4_4_W : List (Ref sig .tc) := [main_c_17]
abbrev hostOps4_5_W : List (Ref sig .tc) := [main_call18_v0, main_v35]
abbrev hostOps4_6_W : List (Ref sig .tc) := [main_v36]
abbrev hostOps5_W : List (Ref sig .tc) := [main_c_18]
abbrev hostOps5_1_W : List (Ref sig .tc) := [main_call19_v0, main_v38]
abbrev hostOps5_2_W : List (Ref sig .tc) := [main_c_19]
abbrev hostOps5_3_W : List (Ref sig .tc) := [main_call20_v0, main_v39]
abbrev hostOps5_4_W : List (Ref sig .tc) := [main_c_20]
abbrev hostOps5_5_W : List (Ref sig .tc) := [main_call21_v0, main_v40]
abbrev hostOps5_6_W : List (Ref sig .tc) := [main_v41]
abbrev hostOps6_W : List (Ref sig .tc) := [main_c_21]
abbrev hostOps6_1_W : List (Ref sig .tc) := [main_call22_v0, main_v43]
abbrev hostOps6_2_W : List (Ref sig .tc) := [main_c_22]
abbrev hostOps6_3_W : List (Ref sig .tc) := [main_call23_v0, main_v44]
abbrev hostOps6_4_W : List (Ref sig .tc) := [main_c_23]
abbrev hostOps6_5_W : List (Ref sig .tc) := [main_call24_v0, main_v45]
abbrev hostOps6_6_W : List (Ref sig .tc) := [main_v46]
abbrev hostOps7_W : List (Ref sig .tc) := [main_v48]

-- an operation that writes one reference of a list writes inside the list
theorem wr {y : Ref sig .tc} {W : List (Ref sig .tc)} (h : y ∈ W := by decide) :
    ({Proc.devRef (τ := τ) .tc y} : Finset (DevRef τ sig)) ⊆ (W.map (Proc.devRef (τ := τ) .tc)).toFinset :=
  Finset.singleton_subset_iff.2 (List.mem_toFinset.2 (List.mem_map_of_mem h))

-- an update at one reference leaves every other reference as it was
theorem upd_of (V : Valuation τ sig (Elt F)) {y r : Ref sig .tc} (v) (h : r ∉ [y]) : Function.update V y v r = V r :=
  Function.update_of_ne (StableHlo.devRef_ne_of_ne (List.ne_of_not_mem_cons h)) ..

theorem V1_of (h : r ∉ hostOps0_W) : V1 m c r = V0 m c r :=
  StableHlo.after_of_writes_sub _ _ ⟨wr, wr, wr, wr⟩ h
theorem V2_of (h : r ∉ hostOps0_1_W) : V2 m c r = V1 m c r :=
  StableHlo.after_of_writes_sub _ _ ⟨wr, wr⟩ h
theorem V3_of (h : r ∉ hostOps0_2_W) : V3 m c r = V2 m c r :=
  StableHlo.after_of_writes_sub _ _ wr h
theorem V4_of (h : r ∉ hostOps0_3_W) : V4 m c r = V3 m c r :=
  StableHlo.after_of_writes_sub _ _ ⟨wr, wr⟩ h
theorem V5_of (h : r ∉ hostOps0_4_W) : V5 m c r = V4 m c r :=
  StableHlo.after_of_writes_sub _ _ wr h
theorem V6_of (h : r ∉ hostOps0_5_W) : V6 m c r = V5 m c r :=
  StableHlo.after_of_writes_sub _ _ ⟨wr, wr⟩ h
theorem V7_of (h : r ∉ hostOps0_6_W) : V7 m c r = V6 m c r :=
  StableHlo.after_of_writes_sub _ _ wr h
theorem V8_of (h : r ∉ hostOps0_7_W) : V8 m c r = V7 m c r :=
  StableHlo.after_of_writes_sub _ _ ⟨wr, wr⟩ h
theorem V9_of (h : r ∉ hostOps0_8_W) : V9 m c r = V8 m c r :=
  StableHlo.after_of_writes_sub _ _ wr h
theorem V10_of (h : r ∉ ([main_v8] : List (Ref sig .tc))) : V10 m outs c r = V9 m c r :=
  upd_of _ _ h
theorem V11_of (h : r ∉ hostOps1_W) : V11 m outs c r = V10 m outs c r :=
  StableHlo.after_of_writes_sub _ _ ⟨wr, wr⟩ h
theorem V12_of (h : r ∉ hostOps1_1_W) : V12 m outs c r = V11 m outs c r :=
  StableHlo.after_of_writes_sub _ _ ⟨wr, wr⟩ h
theorem V13_of (h : r ∉ hostOps1_2_W) : V13 m outs c r = V12 m outs c r :=
  StableHlo.after_of_writes_sub _ _ wr h
theorem V14_of (h : r ∉ hostOps1_3_W) : V14 m outs c r = V13 m outs c r :=
  StableHlo.after_of_writes_sub _ _ ⟨wr, wr⟩ h
theorem V15_of (h : r ∉ hostOps1_4_W) : V15 m outs c r = V14 m outs c r :=
  StableHlo.after_of_writes_sub _ _ wr h
theorem V16_of (h : r ∉ hostOps1_5_W) : V16 m outs c r = V15 m outs c r :=
  StableHlo.after_of_writes_sub _ _ ⟨wr, wr⟩ h
theorem V17_of (h : r ∉ hostOps1_6_W) : V17 m outs c r = V16 m outs c r :=
  StableHlo.after_of_writes_sub _ _ wr h
theorem V18_of (h : r ∉ hostOps1_7_W) : V18 m outs c r = V17 m outs c r :=
  StableHlo.after_of_writes_sub _ _ ⟨wr, wr⟩ h
theorem V19_of (h : r ∉ hostOps1_8_W) : V19 m outs c r = V18 m outs c r :=
  StableHlo.after_of_writes_sub _ _ wr h
theorem V20_of (h : r ∉ ([main_v15] : List (Ref sig .tc))) : V20 m outs c r = V19 m outs c r :=
  upd_of _ _ h
theorem V21_of (h : r ∉ hostOps2_W) : V21 m outs c r = V20 m outs c r :=
  StableHlo.after_of_writes_sub _ _ ⟨wr, wr, wr⟩ h
theorem V22_of (h : r ∉ hostOps2_1_W) : V22 m outs c r = V21 m outs c r :=
  StableHlo.after_of_writes_sub _ _ ⟨wr, wr⟩ h
theorem V23_of (h : r ∉ hostOps2_2_W) : V23 m outs c r = V22 m outs c r :=
  StableHlo.after_of_writes_sub _ _ wr h
theorem V24_of (h : r ∉ hostOps2_3_W) : V24 m outs c r = V23 m outs c r :=
  StableHlo.after_of_writes_sub _ _ ⟨wr, wr⟩ h
theorem V25_of (h : r ∉ hostOps2_4_W) : V25 m outs c r = V24 m outs c r :=
  StableHlo.after_of_writes_sub _ _ wr h
theorem V26_of (h : r ∉ hostOps2_5_W) : V26 m outs c r = V25 m outs c r :=
  StableHlo.after_of_writes_sub _ _ ⟨wr, wr⟩ h
theorem V27_of (h : r ∉ hostOps2_6_W) : V27 m outs c r = V26 m outs c r :=
  StableHlo.after_of_writes_sub _ _ wr h
theorem V28_of (h : r ∉ hostOps2_7_W) : V28 m outs c r = V27 m outs c r :=
  StableHlo.after_of_writes_sub _ _ ⟨wr, wr⟩ h
theorem V29_of (h : r ∉ hostOps2_8_W) : V29 m outs c r = V28 m outs c r :=
  StableHlo.after_of_writes_sub _ _ wr h
theorem V30_of (h : r ∉ ([main_v23] : List (Ref sig .tc))) : V30 m outs c r = V29 m outs c r :=
  upd_of _ _ h
theorem V31_of (h : r ∉ hostOps3_W) : V31 m outs c r = V30 m outs c r :=
  StableHlo.after_of_writes_sub _ _ ⟨wr, wr⟩ h
theorem V32_of (h : r ∉ hostOps3_1_W) : V32 m outs c r = V31 m outs c r :=
  StableHlo.after_of_writes_sub _ _ ⟨wr, wr⟩ h
theorem V33_of (h : r ∉ hostOps3_2_W) : V33 m outs c r = V32 m outs c r :=
  StableHlo.after_of_writes_sub _ _ wr h
theorem V34_of (h : r ∉ hostOps3_3_W) : V34 m outs c r = V33 m outs c r :=
  StableHlo.after_of_writes_sub _ _ ⟨wr, wr⟩ h
theorem V35_of (h : r ∉ hostOps3_4_W) : V35 m outs c r = V34 m outs c r :=
  StableHlo.after_of_writes_sub _ _ wr h
theorem V36_of (h : r ∉ hostOps3_5_W) : V36 m outs c r = V35 m outs c r :=
  StableHlo.after_of_writes_sub _ _ ⟨wr, wr⟩ h
theorem V37_of (h : r ∉ hostOps3_6_W) : V37 m outs c r = V36 m outs c r :=
  StableHlo.after_of_writes_sub _ _ wr h
theorem V38_of (h : r ∉ hostOps3_7_W) : V38 m outs c r = V37 m outs c r :=
  StableHlo.after_of_writes_sub _ _ ⟨wr, wr⟩ h
theorem V39_of (h : r ∉ hostOps3_8_W) : V39 m outs c r = V38 m outs c r :=
  StableHlo.after_of_writes_sub _ _ wr h
theorem V40_of (h : r ∉ ([main_v30] : List (Ref sig .tc))) : V40 m outs c r = V39 m outs c r :=
  upd_of _ _ h
theorem V41_of (h : r ∉ hostOps4_W) : V41 m outs c r = V40 m outs c r :=
  StableHlo.after_of_writes_sub _ _ ⟨wr, wr, wr⟩ h
theorem V42_of (h : r ∉ hostOps4_1_W) : V42 m outs c r = V41 m outs c r :=
  StableHlo.after_of_writes_sub _ _ ⟨wr, wr⟩ h
theorem V43_of (h : r ∉ hostOps4_2_W) : V43 m outs c r = V42 m outs c r :=
  StableHlo.after_of_writes_sub _ _ wr h
theorem V44_of (h : r ∉ hostOps4_3_W) : V44 m outs c r = V43 m outs c r :=
  StableHlo.after_of_writes_sub _ _ ⟨wr, wr⟩ h
theorem V45_of (h : r ∉ hostOps4_4_W) : V45 m outs c r = V44 m outs c r :=
  StableHlo.after_of_writes_sub _ _ wr h
theorem V46_of (h : r ∉ hostOps4_5_W) : V46 m outs c r = V45 m outs c r :=
  StableHlo.after_of_writes_sub _ _ ⟨wr, wr⟩ h
theorem V47_of (h : r ∉ hostOps4_6_W) : V47 m outs c r = V46 m outs c r :=
  StableHlo.after_of_writes_sub _ _ wr h
theorem V48_of (h : r ∉ ([main_v37] : List (Ref sig .tc))) : V48 m outs c r = V47 m outs c r :=
  upd_of _ _ h
theorem V49_of (h : r ∉ hostOps5_W) : V49 m outs c r = V48 m outs c r :=
  StableHlo.after_of_writes_sub _ _ wr h
theorem V50_of (h : r ∉ hostOps5_1_W) : V50 m outs c r = V49 m outs c r :=
  StableHlo.after_of_writes_sub _ _ ⟨wr, wr⟩ h
theorem V51_of (h : r ∉ hostOps5_2_W) : V51 m outs c r = V50 m outs c r :=
  StableHlo.after_of_writes_sub _ _ wr h
theorem V52_of (h : r ∉ hostOps5_3_W) : V52 m outs c r = V51 m outs c r :=
  StableHlo.after_of_writes_sub _ _ ⟨wr, wr⟩ h
theorem V53_of (h : r ∉ hostOps5_4_W) : V53 m outs c r = V52 m outs c r :=
  StableHlo.after_of_writes_sub _ _ wr h
theorem V54_of (h : r ∉ hostOps5_5_W) : V54 m outs c r = V53 m outs c r :=
  StableHlo.after_of_writes_sub _ _ ⟨wr, wr⟩ h
theorem V55_of (h : r ∉ hostOps5_6_W) : V55 m outs c r = V54 m outs c r :=
  StableHlo.after_of_writes_sub _ _ wr h
theorem V56_of (h : r ∉ ([main_v42] : List (Ref sig .tc))) : V56 m outs c r = V55 m outs c r :=
  upd_of _ _ h
theorem V57_of (h : r ∉ hostOps6_W) : V57 m outs c r = V56 m outs c r :=
  StableHlo.after_of_writes_sub _ _ wr h
theorem V58_of (h : r ∉ hostOps6_1_W) : V58 m outs c r = V57 m outs c r :=
  StableHlo.after_of_writes_sub _ _ ⟨wr, wr⟩ h
theorem V59_of (h : r ∉ hostOps6_2_W) : V59 m outs c r = V58 m outs c r :=
  StableHlo.after_of_writes_sub _ _ wr h
theorem V60_of (h : r ∉ hostOps6_3_W) : V60 m outs c r = V59 m outs c r :=
  StableHlo.after_of_writes_sub _ _ ⟨wr, wr⟩ h
theorem V61_of (h : r ∉ hostOps6_4_W) : V61 m outs c r = V60 m outs c r :=
  StableHlo.after_of_writes_sub _ _ wr h
theorem V62_of (h : r ∉ hostOps6_5_W) : V62 m outs c r = V61 m outs c r :=
  StableHlo.after_of_writes_sub _ _ ⟨wr, wr⟩ h
theorem V63_of (h : r ∉ hostOps6_6_W) : V63 m outs c r = V62 m outs c r :=
  StableHlo.after_of_writes_sub _ _ wr h
theorem V64_of (h : r ∉ ([main_v47] : List (Ref sig .tc))) : V64 m outs c r = V63 m outs c r :=
  upd_of _ _ h
theorem V65_of (h : r ∉ hostOps7_W) : V65 m outs c r = V64 m outs c r :=
  StableHlo.after_of_writes_sub _ _ wr h

abbrev allW : List (List (Ref sig .tc)) :=
  [hostOps0_W, hostOps0_1_W, hostOps0_2_W, hostOps0_3_W, hostOps0_4_W, hostOps0_5_W, hostOps0_6_W, hostOps0_7_W, hostOps0_8_W, [main_v8], hostOps1_W, hostOps1_1_W, hostOps1_2_W, hostOps1_3_W, hostOps1_4_W, hostOps1_5_W, hostOps1_6_W, hostOps1_7_W, hostOps1_8_W, [main_v15], hostOps2_W, hostOps2_1_W, hostOps2_2_W, hostOps2_3_W, hostOps2_4_W, hostOps2_5_W, hostOps2_6_W, hostOps2_7_W, hostOps2_8_W, [main_v23], hostOps3_W, hostOps3_1_W, hostOps3_2_W, hostOps3_3_W, hostOps3_4_W, hostOps3_5_W, hostOps3_6_W, hostOps3_7_W, hostOps3_8_W, [main_v30], hostOps4_W, hostOps4_1_W, hostOps4_2_W, hostOps4_3_W, hostOps4_4_W, hostOps4_5_W, hostOps4_6_W, [main_v37], hostOps5_W, hostOps5_1_W, hostOps5_2_W, hostOps5_3_W, hostOps5_4_W, hostOps5_5_W, hostOps5_6_W, [main_v42], hostOps6_W, hostOps6_1_W, hostOps6_2_W, hostOps6_3_W, hostOps6_4_W, hostOps6_5_W, hostOps6_6_W, [main_v47], hostOps7_W]

-- a reference no item writes holds its launch contents at the end
theorem V65_of_notMem (h : allW.Forall (r ∉ ·)) : V65 m outs c r = m ((c : Thread nD τ).loc r) := by
  obtain ⟨h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65⟩ := h
  rw [V65_of, V64_of, V63_of, V62_of, V61_of, V60_of, V59_of, V58_of, V57_of, V56_of, V55_of, V54_of, V53_of, V52_of, V51_of, V50_of, V49_of, V48_of, V47_of, V46_of, V45_of, V44_of, V43_of, V42_of, V41_of, V40_of, V39_of, V38_of, V37_of, V36_of, V35_of, V34_of, V33_of, V32_of, V31_of, V30_of, V29_of, V28_of, V27_of, V26_of, V25_of, V24_of, V23_of, V22_of, V21_of, V20_of, V19_of, V18_of, V17_of, V16_of, V15_of, V14_of, V13_of, V12_of, V11_of, V10_of, V9_of, V8_of, V7_of, V6_of, V5_of, V4_of, V3_of, V2_of, V1_of] <;> assumption

theorem V65_main_arg13 : V65 m outs c main_arg13 = m ((c : Thread nD τ).loc main_arg13) :=
  V65_of_notMem m outs c _ (by decide)
theorem V65_main_arg14 : V65 m outs c main_arg14 = m ((c : Thread nD τ).loc main_arg14) :=
  V65_of_notMem m outs c _ (by decide)
theorem V65_main_arg15 : V65 m outs c main_arg15 = m ((c : Thread nD τ).loc main_arg15) :=
  V65_of_notMem m outs c _ (by decide)
theorem V65_main_arg16 : V65 m outs c main_arg16 = m ((c : Thread nD τ).loc main_arg16) :=
  V65_of_notMem m outs c _ (by decide)
theorem V65_main_arg17 : V65 m outs c main_arg17 = m ((c : Thread nD τ).loc main_arg17) :=
  V65_of_notMem m outs c _ (by decide)
theorem V65_main_arg18 : V65 m outs c main_arg18 = m ((c : Thread nD τ).loc main_arg18) :=
  V65_of_notMem m outs c _ (by decide)

end

section

variable {Ix : Type} [DecidableEq Ix] {U : Type} [URA U] {Lvl : Type} [Preorder Lvl]

abbrev adm : (p : Fin 7) → (pcfgs (F := F) p).Adm := fun p => (cfgs p).toPCfg_adm

-- a line of host operations as one segment of the run
abbrev hseg {𝒱₀ : Variants} {L : GSem nD τ sig → Finset Ix} {lv : GSem nD τ sig → Ix → Lvl} {ops : List (HloOp τ sig (Elt F))}
    (hs : ops.Forall fun op => op.bufs ⊆ StableHlo.tcRefs τ sig) (V : Dev nD → Valuation τ sig (Elt F))
    (e : Dev nD → sProp (MT nD τ sig Ix (Elt F) ℕ U Lvl)) (hf : ops.Forall fun op => op.fresh = ∅ := by repeat' constructor) :
    HostSeg (Ix := Ix) (Name := ℕ) (U := U) (Lvl := Lvl) (pcfgs (F := F)) defs₀ 𝒱₀ L lv :=
  HostSeg.ofOps _ _ _ _ _ (Pipeline.ucRefs τ sig) ops (fun op h => Pipeline.sub_ucRefs op (List.forall_iff_forall_mem.mp hs op h))
    (List.forall_iff_forall_mem.mp hf) V e

abbrev segs (𝒱₀ : Variants) (L : GSem nD τ sig → Finset Ix) (lv : GSem nD τ sig → Ix → Lvl) (E : Fin 8 → Dev nD → sProp (MT nD τ sig Ix (Elt F) ℕ U Lvl)) (ι : Ix)
    (pdats : (p : Fin 7) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (c : Dev nD) :
    List (Seg (pcfgs (F := F)) adm pdats ι defs₀ 𝒱₀ L lv) :=
  [.host (hseg hostOps0_sub (V0 m) (E 0)), .host (hseg hostOps0_1_sub (V1 m) (E 0)), .host (hseg hostOps0_2_sub (V2 m) (E 0)), .host (hseg hostOps0_3_sub (V3 m) (E 0)), .host (hseg hostOps0_4_sub (V4 m) (E 0)), .host (hseg hostOps0_5_sub (V5 m) (E 0)), .host (hseg hostOps0_6_sub (V6 m) (E 0)), .host (hseg hostOps0_7_sub (V7 m) (E 0)), .host (hseg hostOps0_8_sub (V8 m) (E 0)), .region R0, .host (hseg hostOps1_sub (V10 m outs) (E 1)), .host (hseg hostOps1_1_sub (V11 m outs) (E 1)), .host (hseg hostOps1_2_sub (V12 m outs) (E 1)), .host (hseg hostOps1_3_sub (V13 m outs) (E 1)), .host (hseg hostOps1_4_sub (V14 m outs) (E 1)), .host (hseg hostOps1_5_sub (V15 m outs) (E 1)), .host (hseg hostOps1_6_sub (V16 m outs) (E 1)), .host (hseg hostOps1_7_sub (V17 m outs) (E 1)), .host (hseg hostOps1_8_sub (V18 m outs) (E 1)), .region R1, .host (hseg hostOps2_sub (V20 m outs) (E 2)), .host (hseg hostOps2_1_sub (V21 m outs) (E 2)), .host (hseg hostOps2_2_sub (V22 m outs) (E 2)), .host (hseg hostOps2_3_sub (V23 m outs) (E 2)), .host (hseg hostOps2_4_sub (V24 m outs) (E 2)), .host (hseg hostOps2_5_sub (V25 m outs) (E 2)), .host (hseg hostOps2_6_sub (V26 m outs) (E 2)), .host (hseg hostOps2_7_sub (V27 m outs) (E 2)), .host (hseg hostOps2_8_sub (V28 m outs) (E 2)), .region R2, .host (hseg hostOps3_sub (V30 m outs) (E 3)), .host (hseg hostOps3_1_sub (V31 m outs) (E 3)), .host (hseg hostOps3_2_sub (V32 m outs) (E 3)), .host (hseg hostOps3_3_sub (V33 m outs) (E 3)), .host (hseg hostOps3_4_sub (V34 m outs) (E 3)), .host (hseg hostOps3_5_sub (V35 m outs) (E 3)), .host (hseg hostOps3_6_sub (V36 m outs) (E 3)), .host (hseg hostOps3_7_sub (V37 m outs) (E 3)), .host (hseg hostOps3_8_sub (V38 m outs) (E 3)), .region R3, .host (hseg hostOps4_sub (V40 m outs) (E 4)), .host (hseg hostOps4_1_sub (V41 m outs) (E 4)), .host (hseg hostOps4_2_sub (V42 m outs) (E 4)), .host (hseg hostOps4_3_sub (V43 m outs) (E 4)), .host (hseg hostOps4_4_sub (V44 m outs) (E 4)), .host (hseg hostOps4_5_sub (V45 m outs) (E 4)), .host (hseg hostOps4_6_sub (V46 m outs) (E 4)), .region R4, .host (hseg hostOps5_sub (V48 m outs) (E 5)), .host (hseg hostOps5_1_sub (V49 m outs) (E 5)), .host (hseg hostOps5_2_sub (V50 m outs) (E 5)), .host (hseg hostOps5_3_sub (V51 m outs) (E 5)), .host (hseg hostOps5_4_sub (V52 m outs) (E 5)), .host (hseg hostOps5_5_sub (V53 m outs) (E 5)), .host (hseg hostOps5_6_sub (V54 m outs) (E 5)), .region R5, .host (hseg hostOps6_sub (V56 m outs) (E 6)), .host (hseg hostOps6_1_sub (V57 m outs) (E 6)), .host (hseg hostOps6_2_sub (V58 m outs) (E 6)), .host (hseg hostOps6_3_sub (V59 m outs) (E 6)), .host (hseg hostOps6_4_sub (V60 m outs) (E 6)), .host (hseg hostOps6_5_sub (V61 m outs) (E 6)), .host (hseg hostOps6_6_sub (V62 m outs) (E 6)), .region R6, .host (hseg hostOps7_sub (V64 m outs) (E 7))]

end

end Cert.Kernel.GenP

end
-- ==== Proof.MaskedBodyK.lean ====
import proofs.«174655_j53695681135127_1_alg».proof.Proof.Gen.Kernel.Launch
import proofs.«174655_j53695681135127_1_alg».proof.Proof.Gen.Kernel.Skeleton
import proofs.«174655_j53695681135127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One grid point of the masked linear layer, as a function of the two scalars the point contributes: the contraction index a1 and the test c2 that it is the last one. -/
def maskedBody (a1 : BitVec 32) (c2 : BitVec 1) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) : Prog (TpuEff nD τ sig (Elt F) Λ₀ .tc) PUnit := do
  if _h : Scalar.cmpi .ne (Scalar.extui (Scalar.cmpi .eq a1 0#32)) 0#32 = 1#1 then do
    let _ ← Prog.lift (.load arg7 (Rect.unit (s := S512x1024) ![0, 0] S512x1024.size inb_S512x1024_S512x1024_0_0).toLoadRect (View.loadsAt_vmem h_S512x1024))
    Prog.lift (.store arg7 (Rect.unit (s := S512x1024) ![0, 0] S512x1024.size inb_S512x1024_S512x1024_0_0) (k0_pay1 (F := F)) Finset.univ (View.stores_vmem_bits_univ h_S512x1024 rfl) (.inl rfl))
    pure ⟨⟩
  else do
    pure ⟨⟩
  let v3 ← Prog.lift (.load arg3 (Rect.unit (s := S1024x1024) ![0, 0] S1024x1024.size inb_S1024x1024_S1024x1024_0_0).toLoadRect (View.loadsAt_vmem h_S1024x1024))
  let v6 ← Prog.lift (.load arg4 (Rect.unit (s := S1024x1024) ![0, 0] S1024x1024.size inb_S1024x1024_S1024x1024_0_0).toLoadRect (View.loadsAt_vmem h_S1024x1024))
  let v10 ← Prog.lift (.load arg2 (Rect.unit (s := S512x1024) ![0, 0] S512x1024.size inb_S512x1024_S512x1024_0_0).toLoadRect (View.loadsAt_vmem h_S512x1024))
  let v13 ← Prog.lift (.load arg7 (Rect.unit (s := S512x1024) ![0, 0] S512x1024.size inb_S512x1024_S512x1024_0_0).toLoadRect (View.loadsAt_vmem h_S512x1024))
  let _ ← Prog.lift (.load arg7 (Rect.unit (s := S512x1024) ![0, 0] S512x1024.size inb_S512x1024_S512x1024_0_0).toLoadRect (View.loadsAt_vmem h_S512x1024))
  Prog.lift (.store arg7 (Rect.unit (s := S512x1024) ![0, 0] S512x1024.size inb_S512x1024_S512x1024_0_0) (k0_pay2 v3 v6 v10 v13) Finset.univ (View.stores_vmem_bits_univ h_S512x1024 rfl) (.inl rfl))
  if _h : c2 = 1#1 then do
    let v22 ← Prog.lift (.load arg7 (Rect.unit (s := S512x1024) ![0, 0] S512x1024.size inb_S512x1024_S512x1024_0_0).toLoadRect (View.loadsAt_vmem h_S512x1024))
    let v23 ← Prog.lift (.load arg5 (Rect.unit (s := S1x1024) ![0, 0] S1x1024.size inb_S1x1024_S1x1024_0_0).toLoadRect (View.loadsAt_vmem h_S1x1024))
    let _ ← Prog.lift (.load arg6 (Rect.unit (s := S512x1024) ![0, 0] S512x1024.size inb_S512x1024_S512x1024_0_0).toLoadRect (View.loadsAt_vmem h_S512x1024))
    Prog.lift (.store arg6 (Rect.unit (s := S512x1024) ![0, 0] S512x1024.size inb_S512x1024_S512x1024_0_0) (k0_pay3 v22 v23) Finset.univ (View.stores_vmem_bits_univ h_S512x1024 rfl) (.inl rfl))
    pure ⟨⟩
  else do
    pure ⟨⟩
  pure ⟨⟩

theorem cc0_eq_maskedBody (i : grid0.Coords) : cc0__masked_linear_kernel (F := F) i = maskedBody (BitVec.ofNat 32 (i 1).val) (k0_cond2 i) := by
  rw [cc0__masked_linear_kernel_eq_skeleton]; rfl
theorem cc1_eq_maskedBody (i : grid1.Coords) : cc1__masked_linear_kernel (F := F) i = maskedBody (BitVec.ofNat 32 (i 1).val) (k1_cond2 i) := by
  rw [cc1__masked_linear_kernel_eq_skeleton]; rfl
theorem cc2_eq_maskedBody (i : grid2.Coords) : cc2__masked_linear_kernel (F := F) i = maskedBody (BitVec.ofNat 32 (i 1).val) (k2_cond2 i) := by
  rw [cc2__masked_linear_kernel_eq_skeleton]; rfl
theorem cc3_eq_maskedBody (i : grid3.Coords) : cc3__masked_linear_kernel (F := F) i = maskedBody (BitVec.ofNat 32 (i 1).val) (k3_cond2 i) := by
  rw [cc3__masked_linear_kernel_eq_skeleton]; rfl

variable (c : Dev nD) (a1 : BitVec 32) (c2 : BitVec 1) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
  (x0 : Vec F S512x1024 .f32) (x1 : Vec F S1024x1024 .f32) (x2 : Vec F S1024x1024 .f32) (x3 : Vec F S1x1024 .f32) (xs0 : Vec F S512x1024 .f32)

set_option maxHeartbeats 4000000 in
/-- The contraction index is the first and not the last. -/
def maskedRun_A (hc0 : Scalar.cmpi .ne (Scalar.extui (Scalar.cmpi .eq a1 0#32)) 0#32 = 1#1) (hc1 : ¬c2 = 1#1) :
    { LS0 : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (maskedBody a1 c2 arg2 harg2 arg3 harg3 arg4 harg4 arg5 harg5 arg6 harg6 arg7 harg7) K } := by
  refine ⟨?_, fun xi4 E K => ?run⟩
  case run =>
    unfold maskedBody owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- The contraction index is neither the first nor the last; xs0 is the running sum so far. -/
def maskedRun_B (hc0 : ¬Scalar.cmpi .ne (Scalar.extui (Scalar.cmpi .eq a1 0#32)) 0#32 = 1#1) (hc1 : ¬c2 = 1#1) :
    { LS0 : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (maskedBody a1 c2 arg2 harg2 arg3 harg3 arg4 harg4 arg5 harg5 arg6 harg6 arg7 harg7) K } := by
  refine ⟨?_, fun xi4 E K => ?run⟩
  case run =>
    unfold maskedBody owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- The contraction index is the last and not the first; xs0 is the running sum so far. -/
def maskedRun_C (hc0 : ¬Scalar.cmpi .ne (Scalar.extui (Scalar.cmpi .eq a1 0#32)) 0#32 = 1#1) (hc1 : c2 = 1#1) :
    Σ' (L4 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (maskedBody a1 c2 arg2 harg2 arg3 harg3 arg4 harg4 arg5 harg5 arg6 harg6 arg7 harg7) K } := by
  refine ⟨?_, ?_, fun E K => ?run⟩
  case run =>
    unfold maskedBody owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

theorem maskedCover_A (hc0 : Scalar.cmpi .ne (Scalar.extui (Scalar.cmpi .eq a1 0#32)) 0#32 = 1#1) (hc1 : ¬c2 = 1#1) (y : S512x1024.Idx) : ∃ pc ∈ (maskedRun_A c a1 c2 arg2 harg2 arg3 harg3 arg4 harg4 arg5 harg5 arg6 harg6 arg7 harg7 x0 x1 x2 x3 hc0 hc1).1, y ∈ pc.1.set := View.cover_of_tiledL _ S512x1024.size (by sl_kernel_rfl) y
theorem maskedCover_B (hc0 : ¬Scalar.cmpi .ne (Scalar.extui (Scalar.cmpi .eq a1 0#32)) 0#32 = 1#1) (hc1 : ¬c2 = 1#1) (y : S512x1024.Idx) : ∃ pc ∈ (maskedRun_B c a1 c2 arg2 harg2 arg3 harg3 arg4 harg4 arg5 harg5 arg6 harg6 arg7 harg7 x0 x1 x2 x3 xs0 hc0 hc1).1, y ∈ pc.1.set := View.cover_of_tiledL _ S512x1024.size (by sl_kernel_rfl) y
theorem maskedCover_C (hc0 : ¬Scalar.cmpi .ne (Scalar.extui (Scalar.cmpi .eq a1 0#32)) 0#32 = 1#1) (hc1 : c2 = 1#1) (y : S512x1024.Idx) : ∃ pc ∈ (maskedRun_C c a1 c2 arg2 harg2 arg3 harg3 arg4 harg4 arg5 harg5 arg6 harg6 arg7 harg7 x0 x1 x2 x3 xs0 hc0 hc1).2.1, y ∈ pc.1.set := View.cover_of_tiledL _ S512x1024.size (by sl_kernel_rfl) y
theorem maskedCoverOut_C (hc0 : ¬Scalar.cmpi .ne (Scalar.extui (Scalar.cmpi .eq a1 0#32)) 0#32 = 1#1) (hc1 : c2 = 1#1) (y : S512x1024.Idx) : ∃ pc ∈ (maskedRun_C c a1 c2 arg2 harg2 arg3 harg3 arg4 harg4 arg5 harg5 arg6 harg6 arg7 harg7 x0 x1 x2 x3 xs0 hc0 hc1).1, y ∈ pc.1.set := View.cover_of_tiledL _ S512x1024.size (by sl_kernel_rfl) y

theorem zeroOff : (![0, 0] : Fin 2 → Nat) = fun _ => 0 := funext fun a => by fin_cases a <;> rfl

variable (v : View sig .tc .vmem S512x1024 .f32)

/-- At the first contraction index the running sum is the block product added to zeros; -/
theorem maskedAcc_A (hc0 : Scalar.cmpi .ne (Scalar.extui (Scalar.cmpi .eq a1 0#32)) 0#32 = 1#1) (hc1 : ¬c2 = 1#1) : v.read (Elt F) (v.writes (Elt F) v.junk (maskedRun_A c a1 c2 arg2 harg2 arg3 harg3 arg4 harg4 arg5 harg5 arg6 harg6 arg7 harg7 x0 x1 x2 x3 hc0 hc1).1) = k0_pay2 x1 x2 x0 (k0_pay1 (F := F)) := by
  rw [View.read_writes_eq_canon _ _ _ (maskedCover_A c a1 c2 arg2 harg2 arg3 harg3 arg4 harg4 arg5 harg5 arg6 harg6 arg7 harg7 x0 x1 x2 x3 hc0 hc1)]
  unfold maskedRun_A
  dsimp only
  sl_unfold_words
  rw [View.canon_cons_unit_zero (S := S512x1024) zeroOff, View.readCov_unit_zero (S := S512x1024) _ zeroOff]
  simp only [View.readAt_eq_ld, harg2.read_unread, harg3.read_unread, harg4.read_unread, View.ld_unit_zero (S := S512x1024) zeroOff, View.ld_unit_zero (S := S1024x1024) zeroOff]

/-- at every other one it is the block product added to the sum so far. -/
theorem maskedAcc_B (hc0 : ¬Scalar.cmpi .ne (Scalar.extui (Scalar.cmpi .eq a1 0#32)) 0#32 = 1#1) (hc1 : ¬c2 = 1#1) : v.read (Elt F) (v.writes (Elt F) v.junk (maskedRun_B c a1 c2 arg2 harg2 arg3 harg3 arg4 harg4 arg5 harg5 arg6 harg6 arg7 harg7 x0 x1 x2 x3 xs0 hc0 hc1).1) = k0_pay2 x1 x2 x0 xs0 := by
  rw [View.read_writes_eq_canon _ _ _ (maskedCover_B c a1 c2 arg2 harg2 arg3 harg3 arg4 harg4 arg5 harg5 arg6 harg6 arg7 harg7 x0 x1 x2 x3 xs0 hc0 hc1)]
  unfold maskedRun_B
  dsimp only
  sl_unfold_words
  rw [View.canon_unit_zero zeroOff]
  simp only [View.readAt_eq_ld, harg2.read_unread, harg3.read_unread, harg4.read_unread, harg7.read_unread, View.ld_unit_zero (S := S512x1024) zeroOff, View.ld_unit_zero (S := S1024x1024) zeroOff]

theorem maskedAcc_C (hc0 : ¬Scalar.cmpi .ne (Scalar.extui (Scalar.cmpi .eq a1 0#32)) 0#32 = 1#1) (hc1 : c2 = 1#1) : v.read (Elt F) (v.writes (Elt F) v.junk (maskedRun_C c a1 c2 arg2 harg2 arg3 harg3 arg4 harg4 arg5 harg5 arg6 harg6 arg7 harg7 x0 x1 x2 x3 xs0 hc0 hc1).2.1) = k0_pay2 x1 x2 x0 xs0 := by
  rw [View.read_writes_eq_canon _ _ _ (maskedCover_C c a1 c2 arg2 harg2 arg3 harg3 arg4 harg4 arg5 harg5 arg6 harg6 arg7 harg7 x0 x1 x2 x3 xs0 hc0 hc1)]
  unfold maskedRun_C
  dsimp only
  sl_unfold_words
  rw [View.canon_unit_zero zeroOff]
  simp only [View.readAt_eq_ld, harg2.read_unread, harg3.read_unread, harg4.read_unread, harg7.read_unread, View.ld_unit_zero (S := S512x1024) zeroOff, View.ld_unit_zero (S := S1024x1024) zeroOff]

/-- At the last contraction index the result is the running sum plus the bias row, cut off below at zero. -/
theorem maskedOut_C (hc0 : ¬Scalar.cmpi .ne (Scalar.extui (Scalar.cmpi .eq a1 0#32)) 0#32 = 1#1) (hc1 : c2 = 1#1) : v.read (Elt F) (v.writes (Elt F) v.junk (maskedRun_C c a1 c2 arg2 harg2 arg3 harg3 arg4 harg4 arg5 harg5 arg6 harg6 arg7 harg7 x0 x1 x2 x3 xs0 hc0 hc1).1) = k0_pay3 (k0_pay2 x1 x2 x0 xs0) x3 := by
  rw [View.read_writes_eq_canon _ _ _ (maskedCoverOut_C c a1 c2 arg2 harg2 arg3 harg3 arg4 harg4 arg5 harg5 arg6 harg6 arg7 harg7 x0 x1 x2 x3 xs0 hc0 hc1)]
  unfold maskedRun_C
  dsimp only
  sl_unfold_words
  rw [View.canon_unit_zero zeroOff]
  simp only [View.readCov_unit_zero (S := S512x1024) _ zeroOff, View.readAt_eq_ld, harg2.read_unread, harg3.read_unread, harg4.read_unread, harg5.read_unread, harg7.read_unread, View.ld_unit_zero (S := S512x1024) zeroOff, View.ld_unit_zero (S := S1024x1024) zeroOff, View.ld_unit_zero (S := S1x1024) zeroOff]

end Cert.Kernel.Hand

end
-- ==== Proof.Reg0K.lean ====
import proofs.«174655_j53695681135127_1_alg».proof.Proof.MaskedBodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev scM0 : Memref sig .tc .vmem S512x1024 .f32 := Memref.whole cc0_scratch0
abbrev VS0 : View sig .tc .vmem S512x1024 .f32 := scM0.view
abbrev VO0 : View sig .tc .vmem S512x1024 .f32 := (Memref.whole cc0_stg4_0 : Memref sig .tc .vmem S512x1024 .f32).view

theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

section
variable (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

def sout0_A (hc0 : cond0_0 i) (hc1 : ¬cond0_1 i) (x0 : Vec F S512x1024 .f32) (x1 : Vec F S1024x1024 .f32) (x2 : Vec F S1024x1024 .f32) (x3 : Vec F S1x1024 .f32) : Vec F S512x1024 .f32 :=
  VS0.read (Elt F) (VS0.writes (Elt F) VS0.junk (maskedRun_A c _ _ arg2 harg2 arg3 harg3 arg4 harg4 arg5 harg5 arg6 harg6 arg7 harg7 x0 x1 x2 x3 hc0 hc1).1)
def sout0_B (hc0 : ¬cond0_0 i) (hc1 : ¬cond0_1 i) (x0 : Vec F S512x1024 .f32) (x1 : Vec F S1024x1024 .f32) (x2 : Vec F S1024x1024 .f32) (x3 : Vec F S1x1024 .f32) (xs0 : Vec F S512x1024 .f32) : Vec F S512x1024 .f32 :=
  VS0.read (Elt F) (VS0.writes (Elt F) VS0.junk (maskedRun_B c _ _ arg2 harg2 arg3 harg3 arg4 harg4 arg5 harg5 arg6 harg6 arg7 harg7 x0 x1 x2 x3 xs0 hc0 hc1).1)
def sout0_C (hc0 : ¬cond0_0 i) (hc1 : cond0_1 i) (x0 : Vec F S512x1024 .f32) (x1 : Vec F S1024x1024 .f32) (x2 : Vec F S1024x1024 .f32) (x3 : Vec F S1x1024 .f32) (xs0 : Vec F S512x1024 .f32) : Vec F S512x1024 .f32 :=
  VS0.read (Elt F) (VS0.writes (Elt F) VS0.junk (maskedRun_C c _ _ arg2 harg2 arg3 harg3 arg4 harg4 arg5 harg5 arg6 harg6 arg7 harg7 x0 x1 x2 x3 xs0 hc0 hc1).2.1)
def out0_C (hc0 : ¬cond0_0 i) (hc1 : cond0_1 i) (x0 : Vec F S512x1024 .f32) (x1 : Vec F S1024x1024 .f32) (x2 : Vec F S1024x1024 .f32) (x3 : Vec F S1x1024 .f32) (xs0 : Vec F S512x1024 .f32) : Vec F S512x1024 .f32 :=
  VO0.read (Elt F) (VO0.writes (Elt F) VO0.junk (maskedRun_C c _ _ arg2 harg2 arg3 harg3 arg4 harg4 arg5 harg5 arg6 harg6 arg7 harg7 x0 x1 x2 x3 xs0 hc0 hc1).1)

end

def outsAt0 (c : Dev nD) : (n : ℕ) → n < cfg0.N → Vec F S512x1024 .f32 × Vec F S512x1024 .f32
  | 0, hn => (iblk0 V c 4 ⟨0, hn⟩, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 20 = 0 then
      if h1 : (n + 1) % 20 = 19 then
        False.elim (by omega)
      else
        (iblk0 V c 4 ⟨n + 1, hn⟩, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 20 = 19 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (iblk0 V c 4 ⟨n + 1, hn⟩, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 20 = 0) (h1 : ¬t.val % 20 = 19) :
    outsAt0 V c t.val t.isLt = (iblk0 V c 4 t, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 20 = 0) (h1 : ¬t.val % 20 = 19) :
    outsAt0 V c t.val t.isLt = (iblk0 V c 4 t, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 20 = 0) (h1 : t.val % 20 = 19) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [cc0_eq_maskedBody]
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 20 = 0
  · by_cases h1 : t.val % 20 = 19
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk0 V c 0 t) (iblk0 V c 1 t) (iblk0 V c 2 t) (iblk0 V c 3 t) ((hcond0_0 t).mpr h0) (fun h => h1 ((hcond0_1 t).mp h))).2 _ Set.univ _)
        iframe H0 H1 H2 H3 H4 HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk0 V c 0 t) (iblk0 V c 1 t) (iblk0 V c 2 t) (iblk0 V c 3 t) ((hcond0_0 t).mpr h0) (fun h => h1 ((hcond0_1 t).mp h))).2 _ Set.univ _)
        iframe H0 H1 H2 H3 H4
        isplitl [HS0]; · iexists _; iexact HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
  · by_cases h1 : t.val % 20 = 19
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      have hz : t.val ≠ 0 := by omega
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_C c _ _ _ _ _ _ _ _ _ _ _ _ _ _ (iblk0 V c 0 t) (iblk0 V c 1 t) (iblk0 V c 2 t) (iblk0 V c 3 t) _ (fun h => h0 ((hcond0_0 t).mp h)) ((hcond0_1 t).mpr h1)).2.2 Set.univ _)
      iframe H0 H1 H2 H3 HS0
      isplitl [H4]; · iexists _; iexact H4
      iintro ⟨H0, H1, H2, H3, ⟨%e4, H4⟩, ⟨%es0, HS0⟩⟩
      iframe Hrest Hg Ho H0 H1 H2 H3
      isplitl [HS0]
      · unfold owns; iexists _; isplitr
        swap; · iexact HS0
        ipureintro; exact View.read_writes_of_cover _ _ _ _ _ (maskedCover_C c _ _ _ _ _ _ _ _ _ _ _ _ _ _ _ _ _ _ _ _ _)
      unfold owns; iexists _; isplitr
      swap; · iexact H4
      ipureintro; exact View.read_writes_of_cover _ _ _ _ _ (maskedCoverOut_C c _ _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      have hz : t.val ≠ 0 := by omega
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_B c _ _ _ _ _ _ _ _ _ _ _ _ _ _ (iblk0 V c 0 t) (iblk0 V c 1 t) (iblk0 V c 2 t) (iblk0 V c 3 t) _ (fun h => h0 ((hcond0_0 t).mp h)) (fun h => h1 ((hcond0_1 t).mp h))).2 _ Set.univ _)
      iframe H0 H1 H2 H3 H4 HS0
      iintro ⟨H0, H1, H2, H3, H4, ⟨%es0, HS0⟩⟩
      iframe Hrest Hg Ho H0 H1 H2 H3
      isplitl [HS0]
      · unfold owns; iexists _; isplitr
        swap; · iexact HS0
        ipureintro; exact View.read_writes_of_cover _ _ _ _ _ (maskedCover_B c _ _ _ _ _ _ _ _ _ _ _ _ _ _ _ _ _ _ _ _ _)
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have ht : (Fin.last cfg0.N).val ≠ 0 := by rw [Fin.val_last]; have : cfg0.N = 100 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Cert.Kernel.Hand

end
-- ==== Proof.Reg1K.lean ====
import proofs.«174655_j53695681135127_1_alg».proof.Proof.MaskedBodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
abbrev scM1 : Memref sig .tc .vmem S512x1024 .f32 := Memref.whole cc1_scratch0
abbrev VS1 : View sig .tc .vmem S512x1024 .f32 := scM1.view
abbrev VO1 : View sig .tc .vmem S512x1024 .f32 := (Memref.whole cc1_stg4_0 : Memref sig .tc .vmem S512x1024 .f32).view

theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

section
variable (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

def sout1_A (hc0 : cond1_0 i) (hc1 : ¬cond1_1 i) (x0 : Vec F S512x1024 .f32) (x1 : Vec F S1024x1024 .f32) (x2 : Vec F S1024x1024 .f32) (x3 : Vec F S1x1024 .f32) : Vec F S512x1024 .f32 :=
  VS1.read (Elt F) (VS1.writes (Elt F) VS1.junk (maskedRun_A c _ _ arg2 harg2 arg3 harg3 arg4 harg4 arg5 harg5 arg6 harg6 arg7 harg7 x0 x1 x2 x3 hc0 hc1).1)
def sout1_B (hc0 : ¬cond1_0 i) (hc1 : ¬cond1_1 i) (x0 : Vec F S512x1024 .f32) (x1 : Vec F S1024x1024 .f32) (x2 : Vec F S1024x1024 .f32) (x3 : Vec F S1x1024 .f32) (xs0 : Vec F S512x1024 .f32) : Vec F S512x1024 .f32 :=
  VS1.read (Elt F) (VS1.writes (Elt F) VS1.junk (maskedRun_B c _ _ arg2 harg2 arg3 harg3 arg4 harg4 arg5 harg5 arg6 harg6 arg7 harg7 x0 x1 x2 x3 xs0 hc0 hc1).1)
def sout1_C (hc0 : ¬cond1_0 i) (hc1 : cond1_1 i) (x0 : Vec F S512x1024 .f32) (x1 : Vec F S1024x1024 .f32) (x2 : Vec F S1024x1024 .f32) (x3 : Vec F S1x1024 .f32) (xs0 : Vec F S512x1024 .f32) : Vec F S512x1024 .f32 :=
  VS1.read (Elt F) (VS1.writes (Elt F) VS1.junk (maskedRun_C c _ _ arg2 harg2 arg3 harg3 arg4 harg4 arg5 harg5 arg6 harg6 arg7 harg7 x0 x1 x2 x3 xs0 hc0 hc1).2.1)
def out1_C (hc0 : ¬cond1_0 i) (hc1 : cond1_1 i) (x0 : Vec F S512x1024 .f32) (x1 : Vec F S1024x1024 .f32) (x2 : Vec F S1024x1024 .f32) (x3 : Vec F S1x1024 .f32) (xs0 : Vec F S512x1024 .f32) : Vec F S512x1024 .f32 :=
  VO1.read (Elt F) (VO1.writes (Elt F) VO1.junk (maskedRun_C c _ _ arg2 harg2 arg3 harg3 arg4 harg4 arg5 harg5 arg6 harg6 arg7 harg7 x0 x1 x2 x3 xs0 hc0 hc1).1)

end

def outsAt1 (c : Dev nD) : (n : ℕ) → n < cfg1.N → Vec F S512x1024 .f32 × Vec F S512x1024 .f32
  | 0, hn => (iblk1 V c 4 ⟨0, hn⟩, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 5 = 0 then
      if h1 : (n + 1) % 5 = 4 then
        False.elim (by omega)
      else
        (iblk1 V c 4 ⟨n + 1, hn⟩, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 5 = 4 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (iblk1 V c 4 ⟨n + 1, hn⟩, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 5 = 0) (h1 : ¬t.val % 5 = 4) :
    outsAt1 V c t.val t.isLt = (iblk1 V c 4 t, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (iblk1 V c 4 t, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq_maskedBody]
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 15 := lt_of_lt_of_eq t.isLt (show cfg1.N = 15 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 5 = 0
  · by_cases h1 : t.val % 5 = 4
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk1 V c 0 t) (iblk1 V c 1 t) (iblk1 V c 2 t) (iblk1 V c 3 t) ((hcond1_0 t).mpr h0) (fun h => h1 ((hcond1_1 t).mp h))).2 _ Set.univ _)
        iframe H0 H1 H2 H3 H4 HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk1 V c 0 t) (iblk1 V c 1 t) (iblk1 V c 2 t) (iblk1 V c 3 t) ((hcond1_0 t).mpr h0) (fun h => h1 ((hcond1_1 t).mp h))).2 _ Set.univ _)
        iframe H0 H1 H2 H3 H4
        isplitl [HS0]; · iexists _; iexact HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
  · by_cases h1 : t.val % 5 = 4
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_C c _ _ _ _ _ _ _ _ _ _ _ _ _ _ (iblk1 V c 0 t) (iblk1 V c 1 t) (iblk1 V c 2 t) (iblk1 V c 3 t) _ (fun h => h0 ((hcond1_0 t).mp h)) ((hcond1_1 t).mpr h1)).2.2 Set.univ _)
      iframe H0 H1 H2 H3 HS0
      isplitl [H4]; · iexists _; iexact H4
      iintro ⟨H0, H1, H2, H3, ⟨%e4, H4⟩, ⟨%es0, HS0⟩⟩
      iframe Hrest Hg Ho H0 H1 H2 H3
      isplitl [HS0]
      · unfold owns; iexists _; isplitr
        swap; · iexact HS0
        ipureintro; exact View.read_writes_of_cover _ _ _ _ _ (maskedCover_C c _ _ _ _ _ _ _ _ _ _ _ _ _ _ _ _ _ _ _ _ _)
      unfold owns; iexists _; isplitr
      swap; · iexact H4
      ipureintro; exact View.read_writes_of_cover _ _ _ _ _ (maskedCoverOut_C c _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_B c _ _ _ _ _ _ _ _ _ _ _ _ _ _ (iblk1 V c 0 t) (iblk1 V c 1 t) (iblk1 V c 2 t) (iblk1 V c 3 t) _ (fun h => h0 ((hcond1_0 t).mp h)) (fun h => h1 ((hcond1_1 t).mp h))).2 _ Set.univ _)
      iframe H0 H1 H2 H3 H4 HS0
      iintro ⟨H0, H1, H2, H3, H4, ⟨%es0, HS0⟩⟩
      iframe Hrest Hg Ho H0 H1 H2 H3
      isplitl [HS0]
      · unfold owns; iexists _; isplitr
        swap; · iexact HS0
        ipureintro; exact View.read_writes_of_cover _ _ _ _ _ (maskedCover_B c _ _ _ _ _ _ _ _ _ _ _ _ _ _ _ _ _ _ _ _ _)
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 15 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

end Cert.Kernel.Hand

end
-- ==== Proof.Reg2K.lean ====
import proofs.«174655_j53695681135127_1_alg».proof.Proof.MaskedBodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1024 .f32 := win2_4.stage (cfg2.slots t 4)
abbrev hs2_4 (t : Fin cfg2.N) : (ms2_4 t).IsWhole := hstage2_4 ((cfg2.slots t 4).cast nbuf2_4)
abbrev scM2 : Memref sig .tc .vmem S512x1024 .f32 := Memref.whole cc2_scratch0
abbrev VS2 : View sig .tc .vmem S512x1024 .f32 := scM2.view
abbrev VO2 : View sig .tc .vmem S512x1024 .f32 := (Memref.whole cc2_stg4_0 : Memref sig .tc .vmem S512x1024 .f32).view

theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

section
variable (c : Dev nD) (i : grid2.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

def sout2_A (hc0 : cond2_0 i) (hc1 : ¬cond2_1 i) (x0 : Vec F S512x1024 .f32) (x1 : Vec F S1024x1024 .f32) (x2 : Vec F S1024x1024 .f32) (x3 : Vec F S1x1024 .f32) : Vec F S512x1024 .f32 :=
  VS2.read (Elt F) (VS2.writes (Elt F) VS2.junk (maskedRun_A c _ _ arg2 harg2 arg3 harg3 arg4 harg4 arg5 harg5 arg6 harg6 arg7 harg7 x0 x1 x2 x3 hc0 hc1).1)
def sout2_B (hc0 : ¬cond2_0 i) (hc1 : ¬cond2_1 i) (x0 : Vec F S512x1024 .f32) (x1 : Vec F S1024x1024 .f32) (x2 : Vec F S1024x1024 .f32) (x3 : Vec F S1x1024 .f32) (xs0 : Vec F S512x1024 .f32) : Vec F S512x1024 .f32 :=
  VS2.read (Elt F) (VS2.writes (Elt F) VS2.junk (maskedRun_B c _ _ arg2 harg2 arg3 harg3 arg4 harg4 arg5 harg5 arg6 harg6 arg7 harg7 x0 x1 x2 x3 xs0 hc0 hc1).1)
def sout2_C (hc0 : ¬cond2_0 i) (hc1 : cond2_1 i) (x0 : Vec F S512x1024 .f32) (x1 : Vec F S1024x1024 .f32) (x2 : Vec F S1024x1024 .f32) (x3 : Vec F S1x1024 .f32) (xs0 : Vec F S512x1024 .f32) : Vec F S512x1024 .f32 :=
  VS2.read (Elt F) (VS2.writes (Elt F) VS2.junk (maskedRun_C c _ _ arg2 harg2 arg3 harg3 arg4 harg4 arg5 harg5 arg6 harg6 arg7 harg7 x0 x1 x2 x3 xs0 hc0 hc1).2.1)
def out2_C (hc0 : ¬cond2_0 i) (hc1 : cond2_1 i) (x0 : Vec F S512x1024 .f32) (x1 : Vec F S1024x1024 .f32) (x2 : Vec F S1024x1024 .f32) (x3 : Vec F S1x1024 .f32) (xs0 : Vec F S512x1024 .f32) : Vec F S512x1024 .f32 :=
  VO2.read (Elt F) (VO2.writes (Elt F) VO2.junk (maskedRun_C c _ _ arg2 harg2 arg3 harg3 arg4 harg4 arg5 harg5 arg6 harg6 arg7 harg7 x0 x1 x2 x3 xs0 hc0 hc1).1)

end

def outsAt2 (c : Dev nD) : (n : ℕ) → n < cfg2.N → Vec F S512x1024 .f32 × Vec F S512x1024 .f32
  | 0, hn => (iblk2 V c 4 ⟨0, hn⟩, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      if h1 : (n + 1) % 8 = 7 then
        False.elim (by omega)
      else
        (iblk2 V c 4 ⟨n + 1, hn⟩, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 8 = 7 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (iblk2 V c 4 ⟨n + 1, hn⟩, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (iblk2 V c 4 t, sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (iblk2 V c 4 t, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq_maskedBody]
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 24 := lt_of_lt_of_eq t.isLt (show cfg2.N = 24 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 8 = 0
  · by_cases h1 : t.val % 8 = 7
    · exfalso; omega
    · rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk2 V c 0 t) (iblk2 V c 1 t) (iblk2 V c 2 t) (iblk2 V c 3 t) ((hcond2_0 t).mpr h0) (fun h => h1 ((hcond2_1 t).mp h))).2 _ Set.univ _)
        iframe H0 H1 H2 H3 H4 HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk2 V c 0 t) (iblk2 V c 1 t) (iblk2 V c 2 t) (iblk2 V c 3 t) ((hcond2_0 t).mpr h0) (fun h => h1 ((hcond2_1 t).mp h))).2 _ Set.univ _)
        iframe H0 H1 H2 H3 H4
        isplitl [HS0]; · iexists _; iexact HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
  · by_cases h1 : t.val % 8 = 7
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C sout2_C; (try dsimp only)
      have hz : t.val ≠ 0 := by omega
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_C c _ _ _ _ _ _ _ _ _ _ _ _ _ _ (iblk2 V c 0 t) (iblk2 V c 1 t) (iblk2 V c 2 t) (iblk2 V c 3 t) _ (fun h => h0 ((hcond2_0 t).mp h)) ((hcond2_1 t).mpr h1)).2.2 Set.univ _)
      iframe H0 H1 H2 H3 HS0
      isplitl [H4]; · iexists _; iexact H4
      iintro ⟨H0, H1, H2, H3, ⟨%e4, H4⟩, ⟨%es0, HS0⟩⟩
      iframe Hrest Hg Ho H0 H1 H2 H3
      isplitl [HS0]
      · unfold owns; iexists _; isplitr
        swap; · iexact HS0
        ipureintro; exact View.read_writes_of_cover _ _ _ _ _ (maskedCover_C c _ _ _ _ _ _ _ _ _ _ _ _ _ _ _ _ _ _ _ _ _)
      unfold owns; iexists _; isplitr
      swap; · iexact H4
      ipureintro; exact View.read_writes_of_cover _ _ _ _ _ (maskedCoverOut_C c _ _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B; (try dsimp only)
      have hz : t.val ≠ 0 := by omega
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_B c _ _ _ _ _ _ _ _ _ _ _ _ _ _ (iblk2 V c 0 t) (iblk2 V c 1 t) (iblk2 V c 2 t) (iblk2 V c 3 t) _ (fun h => h0 ((hcond2_0 t).mp h)) (fun h => h1 ((hcond2_1 t).mp h))).2 _ Set.univ _)
      iframe H0 H1 H2 H3 H4 HS0
      iintro ⟨H0, H1, H2, H3, H4, ⟨%es0, HS0⟩⟩
      iframe Hrest Hg Ho H0 H1 H2 H3
      isplitl [HS0]
      · unfold owns; iexists _; isplitr
        swap; · iexact HS0
        ipureintro; exact View.read_writes_of_cover _ _ _ _ _ (maskedCover_B c _ _ _ _ _ _ _ _ _ _ _ _ _ _ _ _ _ _ _ _ _)
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have ht : (Fin.last cfg2.N).val ≠ 0 := by rw [Fin.val_last]; have : cfg2.N = 24 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

end Cert.Kernel.Hand

end
-- ==== Proof.Reg3K.lean ====
import proofs.«174655_j53695681135127_1_alg».proof.Proof.MaskedBodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 3 = 0 :=
  (by decide +kernel : ∀ t : Fin grid3.N, cond3_0 (grid3.coords t) ↔ t.val % 3 = 0)

abbrev cond3_1 (i : grid3.Coords) : Prop := k3_cond2 i = 1#1
theorem hcond3_1 : ∀ t : Fin cfg3.N, cond3_1 (grid3.coords t) ↔ t.val % 3 = 2 :=
  (by decide +kernel : ∀ t : Fin grid3.N, cond3_1 (grid3.coords t) ↔ t.val % 3 = 2)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x1024 .f32 := win3_4.stage (cfg3.slots t 4)
abbrev hs3_4 (t : Fin cfg3.N) : (ms3_4 t).IsWhole := hstage3_4 ((cfg3.slots t 4).cast nbuf3_4)
abbrev scM3 : Memref sig .tc .vmem S512x1024 .f32 := Memref.whole cc3_scratch0
abbrev VS3 : View sig .tc .vmem S512x1024 .f32 := scM3.view
abbrev VO3 : View sig .tc .vmem S512x1024 .f32 := (Memref.whole cc3_stg4_0 : Memref sig .tc .vmem S512x1024 .f32).view

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

section
variable (c : Dev nD) (i : grid3.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

def sout3_A (hc0 : cond3_0 i) (hc1 : ¬cond3_1 i) (x0 : Vec F S512x1024 .f32) (x1 : Vec F S1024x1024 .f32) (x2 : Vec F S1024x1024 .f32) (x3 : Vec F S1x1024 .f32) : Vec F S512x1024 .f32 :=
  VS3.read (Elt F) (VS3.writes (Elt F) VS3.junk (maskedRun_A c _ _ arg2 harg2 arg3 harg3 arg4 harg4 arg5 harg5 arg6 harg6 arg7 harg7 x0 x1 x2 x3 hc0 hc1).1)
def sout3_B (hc0 : ¬cond3_0 i) (hc1 : ¬cond3_1 i) (x0 : Vec F S512x1024 .f32) (x1 : Vec F S1024x1024 .f32) (x2 : Vec F S1024x1024 .f32) (x3 : Vec F S1x1024 .f32) (xs0 : Vec F S512x1024 .f32) : Vec F S512x1024 .f32 :=
  VS3.read (Elt F) (VS3.writes (Elt F) VS3.junk (maskedRun_B c _ _ arg2 harg2 arg3 harg3 arg4 harg4 arg5 harg5 arg6 harg6 arg7 harg7 x0 x1 x2 x3 xs0 hc0 hc1).1)
def sout3_C (hc0 : ¬cond3_0 i) (hc1 : cond3_1 i) (x0 : Vec F S512x1024 .f32) (x1 : Vec F S1024x1024 .f32) (x2 : Vec F S1024x1024 .f32) (x3 : Vec F S1x1024 .f32) (xs0 : Vec F S512x1024 .f32) : Vec F S512x1024 .f32 :=
  VS3.read (Elt F) (VS3.writes (Elt F) VS3.junk (maskedRun_C c _ _ arg2 harg2 arg3 harg3 arg4 harg4 arg5 harg5 arg6 harg6 arg7 harg7 x0 x1 x2 x3 xs0 hc0 hc1).2.1)
def out3_C (hc0 : ¬cond3_0 i) (hc1 : cond3_1 i) (x0 : Vec F S512x1024 .f32) (x1 : Vec F S1024x1024 .f32) (x2 : Vec F S1024x1024 .f32) (x3 : Vec F S1x1024 .f32) (xs0 : Vec F S512x1024 .f32) : Vec F S512x1024 .f32 :=
  VO3.read (Elt F) (VO3.writes (Elt F) VO3.junk (maskedRun_C c _ _ arg2 harg2 arg3 harg3 arg4 harg4 arg5 harg5 arg6 harg6 arg7 harg7 x0 x1 x2 x3 xs0 hc0 hc1).1)

end

def outsAt3 (c : Dev nD) : (n : ℕ) → n < cfg3.N → Vec F S512x1024 .f32 × Vec F S512x1024 .f32
  | 0, hn => (iblk3 V c 4 ⟨0, hn⟩, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 3 = 0 then
      if h1 : (n + 1) % 3 = 2 then
        False.elim (by omega)
      else
        (iblk3 V c 4 ⟨n + 1, hn⟩, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 3 = 2 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        (iblk3 V c 4 ⟨n + 1, hn⟩, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

theorem outsAt3_A (c : Dev nD) (t : Fin cfg3.N) (h0 : t.val % 3 = 0) (h1 : ¬t.val % 3 = 2) :
    outsAt3 V c t.val t.isLt = (iblk3 V c 4 t, sout3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

theorem outsAt3_B (c : Dev nD) (t : Fin cfg3.N) (h0 : ¬t.val % 3 = 0) (h1 : ¬t.val % 3 = 2) :
    outsAt3 V c t.val t.isLt = (iblk3 V c 4 t, sout3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 3 = 0) (h1 : t.val % 3 = 2) :
    outsAt3 V c t.val t.isLt = (out3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq_maskedBody]
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 9 := lt_of_lt_of_eq t.isLt (show cfg3.N = 9 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h0 : t.val % 3 = 0
  · by_cases h1 : t.val % 3 = 2
    · exfalso; omega
    · rw [Dat.leavesExact_idle (dat3 V c) 4 t (idleAt3_4 t (fun h => h1 ((hcond3_1 t).mp h))) (noFlush3_4 t (fun h => h1 ((hcond3_1 t).mp h)))]
      rw [outsAt3_A V c t h0 h1]
      unfold sout3_A; (try dsimp only)
      by_cases hz : t.val = 0
      · rw [PhiS3_castSucc V c t, PhiS3_zero V c _ _ hz, PhiA3_eq]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk3 V c 0 t) (iblk3 V c 1 t) (iblk3 V c 2 t) (iblk3 V c 3 t) ((hcond3_0 t).mpr h0) (fun h => h1 ((hcond3_1 t).mp h))).2 _ Set.univ _)
        iframe H0 H1 H2 H3 H4 HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
      · rw [PhiS3_castSucc V c t, PhiS3_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk3 V c 0 t) (iblk3 V c 1 t) (iblk3 V c 2 t) (iblk3 V c 3 t) ((hcond3_0 t).mpr h0) (fun h => h1 ((hcond3_1 t).mp h))).2 _ Set.univ _)
        iframe H0 H1 H2 H3 H4
        isplitl [HS0]; · iexists _; iexact HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
  · by_cases h1 : t.val % 3 = 2
    · rw [show (dat3 V c).leavesExact 4 t = owns (c : Thread nD τ) (ms3_4 t) fullShare ((dat3 V c).after 4 t) from by
        unfold Dat.leavesExact; rw [liveAt3_4 t ((hcond3_1 t).mpr h1)], after3_4]
      rw [outsAt3_C V c t h0 h1]
      unfold out3_C sout3_C; (try dsimp only)
      have hz : t.val ≠ 0 := by omega
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_C c _ _ _ _ _ _ _ _ _ _ _ _ _ _ (iblk3 V c 0 t) (iblk3 V c 1 t) (iblk3 V c 2 t) (iblk3 V c 3 t) _ (fun h => h0 ((hcond3_0 t).mp h)) ((hcond3_1 t).mpr h1)).2.2 Set.univ _)
      iframe H0 H1 H2 H3 HS0
      isplitl [H4]; · iexists _; iexact H4
      iintro ⟨H0, H1, H2, H3, ⟨%e4, H4⟩, ⟨%es0, HS0⟩⟩
      iframe Hrest Hg Ho H0 H1 H2 H3
      isplitl [HS0]
      · unfold owns; iexists _; isplitr
        swap; · iexact HS0
        ipureintro; exact View.read_writes_of_cover _ _ _ _ _ (maskedCover_C c _ _ _ _ _ _ _ _ _ _ _ _ _ _ _ _ _ _ _ _ _)
      unfold owns; iexists _; isplitr
      swap; · iexact H4
      ipureintro; exact View.read_writes_of_cover _ _ _ _ _ (maskedCoverOut_C c _ _ _ _ _ _ _ _ _ _ _ _ _ _ _ _ _ _ _ _ _)
    · rw [Dat.leavesExact_idle (dat3 V c) 4 t (idleAt3_4 t (fun h => h1 ((hcond3_1 t).mp h))) (noFlush3_4 t (fun h => h1 ((hcond3_1 t).mp h)))]
      rw [outsAt3_B V c t h0 h1]
      unfold sout3_B; (try dsimp only)
      have hz : t.val ≠ 0 := by omega
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_B c _ _ _ _ _ _ _ _ _ _ _ _ _ _ (iblk3 V c 0 t) (iblk3 V c 1 t) (iblk3 V c 2 t) (iblk3 V c 3 t) _ (fun h => h0 ((hcond3_0 t).mp h)) (fun h => h1 ((hcond3_1 t).mp h))).2 _ Set.univ _)
      iframe H0 H1 H2 H3 H4 HS0
      iintro ⟨H0, H1, H2, H3, H4, ⟨%es0, HS0⟩⟩
      iframe Hrest Hg Ho H0 H1 H2 H3
      isplitl [HS0]
      · unfold owns; iexists _; isplitr
        swap; · iexact HS0
        ipureintro; exact View.read_writes_of_cover _ _ _ _ _ (maskedCover_B c _ _ _ _ _ _ _ _ _ _ _ _ _ _ _ _ _ _ _ _ _)
      iexists _; iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  have ht : (Fin.last cfg3.N).val ≠ 0 := by rw [Fin.val_last]; have : cfg3.N = 9 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

end Cert.Kernel.Hand

end
-- ==== Proof.Reg4K.lean ====
import proofs.«174655_j53695681135127_1_alg».proof.Proof.Gen.Kernel.Launch
import proofs.«174655_j53695681135127_1_alg».proof.Proof.Gen.Kernel.Skeleton
import proofs.«174655_j53695681135127_1_alg».proof.Proof.Gen.Kernel.Points
import Idealize.ShloMosaic.Lib.Pipeline.FrameBody
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 6 = 0 :=
  (by decide +kernel : ∀ t : Fin grid4.N, cond4_0 (grid4.coords t) ↔ t.val % 6 = 0)

abbrev cond4_1 (i : grid4.Coords) : Prop := k4_cond2 i = 1#1
theorem hcond4_1 : ∀ t : Fin cfg4.N, cond4_1 (grid4.coords t) ↔ t.val % 6 = 5 :=
  (by decide +kernel : ∀ t : Fin grid4.N, cond4_1 (grid4.coords t) ↔ t.val % 6 = 5)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S512x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x1024 .f32 := win4_3.stage (cfg4.slots t 3)
abbrev hs4_3 (t : Fin cfg4.N) : (ms4_3 t).IsWhole := hstage4_3 ((cfg4.slots t 3).cast nbuf4_3)

abbrev scM4 : Memref sig .tc .vmem S512x1024 .f32 := Memref.whole cc4_scratch0
abbrev VS4 : View sig .tc .vmem S512x1024 .f32 := scM4.view

abbrev VO4 : View sig .tc .vmem S512x1024 .f32 := (Memref.whole cc4_stg3_0 : Memref sig .tc .vmem S512x1024 .f32).view

theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

section
variable (c : Dev nD) (i : grid4.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole)

set_option maxHeartbeats 4000000 in
noncomputable def kernelRun4_A (hc0 : cond4_0 i) (hc1 : ¬cond4_1 i)
    (x0 : Vec F S512x1024 .f32) (x1 : Vec F S1024x1024 .f32) (x2 : Vec F S1x1024 .f32) :
    { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__dense_kernel i arg2 harg2 arg3 harg3 arg4 harg4 arg5 harg5 arg6 harg6) K } := by
  refine ⟨?_, fun xi3 E K => ?run⟩
  case run =>
    simp only [cc4__dense_kernel_eq_skeleton]; unfold cc4__dense_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
noncomputable def kernelRun4_B (hc0 : ¬cond4_0 i) (hc1 : ¬cond4_1 i)
    (x0 : Vec F S512x1024 .f32) (x1 : Vec F S1024x1024 .f32) (x2 : Vec F S1x1024 .f32) (xs0 : Vec F S512x1024 .f32) :
    { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__dense_kernel i arg2 harg2 arg3 harg3 arg4 harg4 arg5 harg5 arg6 harg6) K } := by
  refine ⟨?_, fun xi3 E K => ?run⟩
  case run =>
    simp only [cc4__dense_kernel_eq_skeleton]; unfold cc4__dense_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
noncomputable def kernelRun4_C (hc0 : ¬cond4_0 i) (hc1 : cond4_1 i)
    (x0 : Vec F S512x1024 .f32) (x1 : Vec F S1024x1024 .f32) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__dense_kernel i arg2 harg2 arg3 harg3 arg4 harg4 arg5 harg5 arg6 harg6) K } := by
  refine ⟨?_, ?_, fun E K => ?run⟩
  case run =>
    simp only [cc4__dense_kernel_eq_skeleton]; unfold cc4__dense_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

def sout4_A (hc0 : cond4_0 i) (hc1 : ¬cond4_1 i) (x0 : Vec F S512x1024 .f32) (x1 : Vec F S1024x1024 .f32) (x2 : Vec F S1x1024 .f32) : Vec F S512x1024 .f32 :=
  VS4.read (Elt F) (VS4.writes (Elt F) VS4.junk (kernelRun4_A c i arg2 harg2 arg3 harg3 arg4 harg4 arg5 harg5 arg6 harg6 hc0 hc1 x0 x1 x2).1)
theorem scover4_A (hc0 : cond4_0 i) (hc1 : ¬cond4_1 i) (x0 : Vec F S512x1024 .f32) (x1 : Vec F S1024x1024 .f32) (x2 : Vec F S1x1024 .f32) (y : S512x1024.Idx) :
    ∃ pc ∈ (kernelRun4_A c i arg2 harg2 arg3 harg3 arg4 harg4 arg5 harg5 arg6 harg6 hc0 hc1 x0 x1 x2).1, y ∈ pc.1.set :=
  View.cover_of_tiledL (kernelRun4_A c i arg2 harg2 arg3 harg3 arg4 harg4 arg5 harg5 arg6 harg6 hc0 hc1 x0 x1 x2).1 S512x1024.size (by sl_kernel_rfl) y

def sout4_B (hc0 : ¬cond4_0 i) (hc1 : ¬cond4_1 i) (x0 : Vec F S512x1024 .f32) (x1 : Vec F S1024x1024 .f32) (x2 : Vec F S1x1024 .f32) (xs0 : Vec F S512x1024 .f32) : Vec F S512x1024 .f32 :=
  VS4.read (Elt F) (VS4.writes (Elt F) VS4.junk (kernelRun4_B c i arg2 harg2 arg3 harg3 arg4 harg4 arg5 harg5 arg6 harg6 hc0 hc1 x0 x1 x2 xs0).1)
theorem scover4_B (hc0 : ¬cond4_0 i) (hc1 : ¬cond4_1 i) (x0 : Vec F S512x1024 .f32) (x1 : Vec F S1024x1024 .f32) (x2 : Vec F S1x1024 .f32) (xs0 : Vec F S512x1024 .f32) (y : S512x1024.Idx) :
    ∃ pc ∈ (kernelRun4_B c i arg2 harg2 arg3 harg3 arg4 harg4 arg5 harg5 arg6 harg6 hc0 hc1 x0 x1 x2 xs0).1, y ∈ pc.1.set :=
  View.cover_of_tiledL (kernelRun4_B c i arg2 harg2 arg3 harg3 arg4 harg4 arg5 harg5 arg6 harg6 hc0 hc1 x0 x1 x2 xs0).1 S512x1024.size (by sl_kernel_rfl) y

def sout4_C (hc0 : ¬cond4_0 i) (hc1 : cond4_1 i) (x0 : Vec F S512x1024 .f32) (x1 : Vec F S1024x1024 .f32) (x2 : Vec F S1x1024 .f32) (xs0 : Vec F S512x1024 .f32) : Vec F S512x1024 .f32 :=
  VS4.read (Elt F) (VS4.writes (Elt F) VS4.junk (kernelRun4_C c i arg2 harg2 arg3 harg3 arg4 harg4 arg5 harg5 arg6 harg6 hc0 hc1 x0 x1 x2 xs0).2.1)
theorem scover4_C (hc0 : ¬cond4_0 i) (hc1 : cond4_1 i) (x0 : Vec F S512x1024 .f32) (x1 : Vec F S1024x1024 .f32) (x2 : Vec F S1x1024 .f32) (xs0 : Vec F S512x1024 .f32) (y : S512x1024.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S512x1024.size (by sl_kernel_rfl) y

def out4_C (hc0 : ¬cond4_0 i) (hc1 : cond4_1 i) (x0 : Vec F S512x1024 .f32) (x1 : Vec F S1024x1024 .f32) (x2 : Vec F S1x1024 .f32) (xs0 : Vec F S512x1024 .f32) : Vec F S512x1024 .f32 :=
  VO4.read (Elt F) (VO4.writes (Elt F) VO4.junk (kernelRun4_C c i arg2 harg2 arg3 harg3 arg4 harg4 arg5 harg5 arg6 harg6 hc0 hc1 x0 x1 x2 xs0).1)
theorem cover4_C (hc0 : ¬cond4_0 i) (hc1 : cond4_1 i) (x0 : Vec F S512x1024 .f32) (x1 : Vec F S1024x1024 .f32) (x2 : Vec F S1x1024 .f32) (xs0 : Vec F S512x1024 .f32) (y : S512x1024.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S512x1024.size (by sl_kernel_rfl) y

end

def outsAt4 (c : Dev nD) : (n : ℕ) → n < cfg4.N → Vec F S512x1024 .f32 × Vec F S512x1024 .f32
  | 0, hn => (iblk4 V c 3 ⟨0, hn⟩, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 6 = 0 then
      if h1 : (n + 1) % 6 = 5 then
        False.elim (by omega)
      else
        (iblk4 V c 3 ⟨n + 1, hn⟩, sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 6 = 5 then
        (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (iblk4 V c 3 ⟨n + 1, hn⟩, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 6 = 0) (h1 : ¬t.val % 6 = 5) :
    outsAt4 V c t.val t.isLt = (iblk4 V c 3 t, sout4_A c (grid4.coords t) (ms4_0 t) (hs4_0 t) (ms4_1 t) (hs4_1 t) (ms4_2 t) (hs4_2 t) (ms4_3 t) (hs4_3 t) scM4 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 6 = 0) (h1 : ¬t.val % 6 = 5) :
    outsAt4 V c t.val t.isLt = (iblk4 V c 3 t, sout4_B c (grid4.coords t) (ms4_0 t) (hs4_0 t) (ms4_1 t) (hs4_1 t) (ms4_2 t) (hs4_2 t) (ms4_3 t) (hs4_3 t) scM4 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 6 = 0) (h1 : t.val % 6 = 5) :
    outsAt4 V c t.val t.isLt = (out4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 6 := lt_of_lt_of_eq t.isLt (show cfg4.N = 6 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 6 = 0
  · by_cases h1 : t.val % 6 = 5
    · exfalso; omega
    · rw [Dat.leavesExact_idle (dat4 V c) 3 t (idleAt4_3 t (fun h => h1 ((hcond4_1 t).mp h))) (noFlush4_3 t (fun h => h1 ((hcond4_1 t).mp h)))]
      rw [outsAt4_A V c t h0 h1]
      unfold sout4_A; (try dsimp only)
      have hz : t.val = 0 := by omega
      rw [PhiS4_castSucc V c t, PhiS4_zero V c _ _ hz, PhiA4_eq]
      iintro ⟨⟨⟨HS0, Hrest⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2 _ Set.univ _)
      iframe H0 H1 H2 H3 HS0
      iintro ⟨H0, H1, H2, H3, ⟨%es0, HS0⟩⟩
      iframe Hrest Hg Ho H0 H1 H2
      isplitl [HS0]
      · unfold owns; iexists _; isplitr
        swap; · iexact HS0
        ipureintro; exact View.read_writes_of_cover _ _ _ _ _ (scover4_A c _ _ _ _ _ _ _ _ _ _ _ _ _ _ _ _)
      iexists _; iexact H3
  · by_cases h1 : t.val % 6 = 5
    · rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold out4_C sout4_C; (try dsimp only)
      have hz : t.val ≠ 0 := by omega
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      iframe H0 H1 H2 HS0
      isplitl [H3]; · iexists _; iexact H3
      iintro ⟨H0, H1, H2, ⟨%e3, H3⟩, ⟨%es0, HS0⟩⟩
      iframe Hrest Hg Ho H0 H1 H2
      isplitl [HS0]
      · unfold owns; iexists _; isplitr
        swap; · iexact HS0
        ipureintro; exact View.read_writes_of_cover _ _ _ _ _ (scover4_C c _ _ _ _ _ _ _ _ _ _ _ _ _ _ _ _ _)
      unfold owns; iexists _; isplitr
      swap; · iexact H3
      ipureintro; exact View.read_writes_of_cover _ _ _ _ _ (cover4_C c _ _ _ _ _ _ _ _ _ _ _ _ _ _ _ _ _)
    · rw [Dat.leavesExact_idle (dat4 V c) 3 t (idleAt4_3 t (fun h => h1 ((hcond4_1 t).mp h))) (noFlush4_3 t (fun h => h1 ((hcond4_1 t).mp h)))]
      rw [outsAt4_B V c t h0 h1]
      unfold sout4_B; (try dsimp only)
      have hz : t.val ≠ 0 := by omega
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2 _ Set.univ _)
      iframe H0 H1 H2 H3 HS0
      iintro ⟨H0, H1, H2, H3, ⟨%es0, HS0⟩⟩
      iframe Hrest Hg Ho H0 H1 H2
      isplitl [HS0]
      · unfold owns; iexists _; isplitr
        swap; · iexact HS0
        ipureintro; exact View.read_writes_of_cover _ _ _ _ _ (scover4_B c _ _ _ _ _ _ _ _ _ _ _ _ _ _ _ _ _)
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  have ht : (Fin.last cfg4.N).val ≠ 0 := by rw [Fin.val_last]; have : cfg4.N = 6 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

end Cert.Kernel.Hand

end
-- ==== Proof.Reg5K.lean ====
import proofs.«174655_j53695681135127_1_alg».proof.Proof.Gen.Kernel.Launch
import proofs.«174655_j53695681135127_1_alg».proof.Proof.Gen.Kernel.Skeleton
import proofs.«174655_j53695681135127_1_alg».proof.Proof.Gen.Kernel.Points
import Idealize.ShloMosaic.Lib.Pipeline.FrameBody
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 1 = 0 :=
  (by decide +kernel : ∀ t : Fin grid5.N, cond5_0 (grid5.coords t) ↔ t.val % 1 = 0)

abbrev cond5_1 (i : grid5.Coords) : Prop := k5_cond2 i = 1#1
theorem hcond5_1 : ∀ t : Fin cfg5.N, cond5_1 (grid5.coords t) ↔ t.val % 1 = 0 :=
  (by decide +kernel : ∀ t : Fin grid5.N, cond5_1 (grid5.coords t) ↔ t.val % 1 = 0)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel

theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel

abbrev ms5_0 (t : Fin cfg5.N) : Memref sig .tc .vmem S512x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S256x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x256 .f32 := win5_3.stage (cfg5.slots t 3)
abbrev hs5_3 (t : Fin cfg5.N) : (ms5_3 t).IsWhole := hstage5_3 ((cfg5.slots t 3).cast nbuf5_3)

abbrev scM5 : Memref sig .tc .vmem S512x256 .f32 := Memref.whole cc5_scratch0
abbrev VS5 : View sig .tc .vmem S512x256 .f32 := scM5.view

abbrev VO5 : View sig .tc .vmem S512x256 .f32 := (Memref.whole cc5_stg3_0 : Memref sig .tc .vmem S512x256 .f32).view

theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

section
variable (c : Dev nD) (i : grid5.Coords) (arg2 : Memref sig .tc .vmem S512x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole)

set_option maxHeartbeats 4000000 in
noncomputable def kernelRun5_D (hc0 : cond5_0 i) (hc1 : cond5_1 i)
    (x0 : Vec F S512x1024 .f32) (x1 : Vec F S256x1024 .f32) (x2 : Vec F S1x256 .f32) :
    Σ' (L3 : List (View.Piece (Elt F) S512x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__dense_kernel i arg2 harg2 arg3 harg3 arg4 harg4 arg5 harg5 arg6 harg6) K } := by
  refine ⟨?_, ?_, fun E K => ?run⟩
  case run =>
    simp only [cc5__dense_kernel_eq_skeleton]; unfold cc5__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

def sout5_D (hc0 : cond5_0 i) (hc1 : cond5_1 i) (x0 : Vec F S512x1024 .f32) (x1 : Vec F S256x1024 .f32) (x2 : Vec F S1x256 .f32) : Vec F S512x256 .f32 :=
  VS5.read (Elt F) (VS5.writes (Elt F) VS5.junk (kernelRun5_D c i arg2 harg2 arg3 harg3 arg4 harg4 arg5 harg5 arg6 harg6 hc0 hc1 x0 x1 x2).2.1)
theorem scover5_D (hc0 : cond5_0 i) (hc1 : cond5_1 i) (x0 : Vec F S512x1024 .f32) (x1 : Vec F S256x1024 .f32) (x2 : Vec F S1x256 .f32) (y : S512x256.Idx) :
    ∃ pc ∈ (kernelRun5_D c i arg2 harg2 arg3 harg3 arg4 harg4 arg5 harg5 arg6 harg6 hc0 hc1 x0 x1 x2).2.1, y ∈ pc.1.set :=
  View.cover_of_tiledL (kernelRun5_D c i arg2 harg2 arg3 harg3 arg4 harg4 arg5 harg5 arg6 harg6 hc0 hc1 x0 x1 x2).2.1 S512x256.size (by sl_kernel_rfl) y

def out5_D (hc0 : cond5_0 i) (hc1 : cond5_1 i) (x0 : Vec F S512x1024 .f32) (x1 : Vec F S256x1024 .f32) (x2 : Vec F S1x256 .f32) : Vec F S512x256 .f32 :=
  VO5.read (Elt F) (VO5.writes (Elt F) VO5.junk (kernelRun5_D c i arg2 harg2 arg3 harg3 arg4 harg4 arg5 harg5 arg6 harg6 hc0 hc1 x0 x1 x2).1)
theorem cover5_D (hc0 : cond5_0 i) (hc1 : cond5_1 i) (x0 : Vec F S512x1024 .f32) (x1 : Vec F S256x1024 .f32) (x2 : Vec F S1x256 .f32) (y : S512x256.Idx) :
    ∃ pc ∈ (kernelRun5_D c i arg2 harg2 arg3 harg3 arg4 harg4 arg5 harg5 arg6 harg6 hc0 hc1 x0 x1 x2).1, y ∈ pc.1.set :=
  View.cover_of_tiledL (kernelRun5_D c i arg2 harg2 arg3 harg3 arg4 harg4 arg5 harg5 arg6 harg6 hc0 hc1 x0 x1 x2).1 S512x256.size (by sl_kernel_rfl) y

end

def outsAt5 (c : Dev nD) (n : ℕ) (hn : n < cfg5.N) : Vec F S512x256 .f32 × Vec F S512x256 .f32 :=
  have h0 : n % 1 = 0 := Nat.mod_one n
  (out5_D c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5 (Memref.isWhole_whole _) ((hcond5_0 ⟨n, hn⟩).mpr h0) ((hcond5_1 ⟨n, hn⟩).mpr h0) (iblk5 V c 0 ⟨n, hn⟩) (iblk5 V c 1 ⟨n, hn⟩) (iblk5 V c 2 ⟨n, hn⟩), sout5_D c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5 (Memref.isWhole_whole _) ((hcond5_0 ⟨n, hn⟩).mpr h0) ((hcond5_1 ⟨n, hn⟩).mpr h0) (iblk5 V c 0 ⟨n, hn⟩) (iblk5 V c 1 ⟨n, hn⟩) (iblk5 V c 2 ⟨n, hn⟩))

def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 1 := lt_of_lt_of_eq t.isLt (show cfg5.N = 1 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have h0 : t.val % 1 = 0 := Nat.mod_one _
  have hz : t.val = 0 := by omega
  rw [show (dat5 V c).leavesExact 3 t = owns (c : Thread nD τ) (ms5_3 t) fullShare ((dat5 V c).after 3 t) from by
    unfold Dat.leavesExact; rw [liveAt5_3 t ((hcond5_1 t).mpr h0)], after5_3]
  unfold outsAt5 out5_D sout5_D; (try dsimp only)
  rw [PhiS5_castSucc V c t, PhiS5_zero V c _ _ hz, PhiA5_eq]
  iintro ⟨⟨⟨HS0, Hrest⟩, Hg⟩, Ho, ⟨%d0, H0⟩, ⟨%d1, H1⟩, ⟨%d2, H2⟩, ⟨%d3, H3⟩⟩
  iapply ((kernelRun5_D c (grid5.coords t) _ _ _ _ _ _ _ _ _ _ ((hcond5_0 t).mpr h0) ((hcond5_1 t).mpr h0) (iblk5 V c 0 t) (iblk5 V c 1 t) (iblk5 V c 2 t)).2.2 Set.univ _)
  iframe H0 H1 H2 HS0
  isplitl [H3]; · iexists _; iexact H3
  iintro ⟨H0, H1, H2, ⟨%e3, H3⟩, ⟨%es0, HS0⟩⟩
  iframe Hrest Hg Ho H0 H1 H2
  isplitl [HS0]
  · unfold owns; iexists _; isplitr
    swap; · iexact HS0
    ipureintro; exact View.read_writes_of_cover _ _ _ _ _ (scover5_D c _ _ _ _ _ _ _ _ _ _ _ _ _ _ _ _)
  unfold owns; iexists _; isplitr
  swap; · iexact H3
  ipureintro; exact View.read_writes_of_cover _ _ _ _ _ (cover5_D c _ _ _ _ _ _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  have ht : (Fin.last cfg5.N).val ≠ 0 := by rw [Fin.val_last]; have : cfg5.N = 1 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨HS0, Hrest⟩, Hg⟩
  isplitl [HS0 Hrest]
  · isplitl [HS0]
    · iexists _; iexact HS0
    iexact Hrest
  iexact Hg

end Cert.Kernel.Hand

end
-- ==== Proof.Reg6K.lean ====
import proofs.«174655_j53695681135127_1_alg».proof.Proof.Gen.Kernel.Launch
import proofs.«174655_j53695681135127_1_alg».proof.Proof.Gen.Kernel.Skeleton
import proofs.«174655_j53695681135127_1_alg».proof.Proof.Gen.Kernel.Points
import Idealize.ShloMosaic.Lib.Pipeline.FrameBody
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 1 = 0 :=
  (by decide +kernel : ∀ t : Fin grid6.N, cond6_0 (grid6.coords t) ↔ t.val % 1 = 0)

abbrev cond6_1 (i : grid6.Coords) : Prop := k6_cond2 i = 1#1
theorem hcond6_1 : ∀ t : Fin cfg6.N, cond6_1 (grid6.coords t) ↔ t.val % 1 = 0 :=
  (by decide +kernel : ∀ t : Fin grid6.N, cond6_1 (grid6.coords t) ↔ t.val % 1 = 0)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel

theorem idleAt6_3 : ∀ t : Fin cfg6.N, ¬cond6_1 (grid6.coords t) → cfg6.idle 3 (grid6.coords t) = true := by decide +kernel
theorem noFlush6_3 : ∀ t : Fin cfg6.N, ¬cond6_1 (grid6.coords t) → (cfg6.win 3).flush t = false := by decide +kernel
theorem liveAt6_3 : ∀ t : Fin cfg6.N, cond6_1 (grid6.coords t) → cfg6.idle 3 (grid6.coords t) = false := by decide +kernel

abbrev ms6_0 (t : Fin cfg6.N) : Memref sig .tc .vmem S512x256 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S512x128 .f32 := win6_3.stage (cfg6.slots t 3)
abbrev hs6_3 (t : Fin cfg6.N) : (ms6_3 t).IsWhole := hstage6_3 ((cfg6.slots t 3).cast nbuf6_3)

abbrev scM6 : Memref sig .tc .vmem S512x128 .f32 := Memref.whole cc6_scratch0
abbrev VS6 : View sig .tc .vmem S512x128 .f32 := scM6.view

abbrev VO6 : View sig .tc .vmem S512x128 .f32 := (Memref.whole cc6_stg3_0 : Memref sig .tc .vmem S512x128 .f32).view

theorem PhiA6_eq (c : Dev nD) :
    (Pipeline.ΦA spec6 c : sProp 𝕄)
      = iprop(iprop((∃ d, owns (c : Thread nD τ) scM6 fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

section
variable (c : Dev nD) (i : grid6.Coords) (arg2 : Memref sig .tc .vmem S512x256 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole)

set_option maxHeartbeats 4000000 in
noncomputable def kernelRun6_D (hc0 : cond6_0 i) (hc1 : cond6_1 i)
    (x0 : Vec F S512x256 .f32) (x1 : Vec F S128x256 .f32) (x2 : Vec F S1x128 .f32) :
    Σ' (L3 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc6__dense_kernel i arg2 harg2 arg3 harg3 arg4 harg4 arg5 harg5 arg6 harg6) K } := by
  refine ⟨?_, ?_, fun E K => ?run⟩
  case run =>
    simp only [cc6__dense_kernel_eq_skeleton]; unfold cc6__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

def sout6_D (hc0 : cond6_0 i) (hc1 : cond6_1 i) (x0 : Vec F S512x256 .f32) (x1 : Vec F S128x256 .f32) (x2 : Vec F S1x128 .f32) : Vec F S512x128 .f32 :=
  VS6.read (Elt F) (VS6.writes (Elt F) VS6.junk (kernelRun6_D c i arg2 harg2 arg3 harg3 arg4 harg4 arg5 harg5 arg6 harg6 hc0 hc1 x0 x1 x2).2.1)
theorem scover6_D (hc0 : cond6_0 i) (hc1 : cond6_1 i) (x0 : Vec F S512x256 .f32) (x1 : Vec F S128x256 .f32) (x2 : Vec F S1x128 .f32) (y : S512x128.Idx) :
    ∃ pc ∈ (kernelRun6_D c i arg2 harg2 arg3 harg3 arg4 harg4 arg5 harg5 arg6 harg6 hc0 hc1 x0 x1 x2).2.1, y ∈ pc.1.set :=
  View.cover_of_tiledL (kernelRun6_D c i arg2 harg2 arg3 harg3 arg4 harg4 arg5 harg5 arg6 harg6 hc0 hc1 x0 x1 x2).2.1 S512x128.size (by sl_kernel_rfl) y

def out6_D (hc0 : cond6_0 i) (hc1 : cond6_1 i) (x0 : Vec F S512x256 .f32) (x1 : Vec F S128x256 .f32) (x2 : Vec F S1x128 .f32) : Vec F S512x128 .f32 :=
  VO6.read (Elt F) (VO6.writes (Elt F) VO6.junk (kernelRun6_D c i arg2 harg2 arg3 harg3 arg4 harg4 arg5 harg5 arg6 harg6 hc0 hc1 x0 x1 x2).1)
theorem cover6_D (hc0 : cond6_0 i) (hc1 : cond6_1 i) (x0 : Vec F S512x256 .f32) (x1 : Vec F S128x256 .f32) (x2 : Vec F S1x128 .f32) (y : S512x128.Idx) :
    ∃ pc ∈ (kernelRun6_D c i arg2 harg2 arg3 harg3 arg4 harg4 arg5 harg5 arg6 harg6 hc0 hc1 x0 x1 x2).1, y ∈ pc.1.set :=
  View.cover_of_tiledL (kernelRun6_D c i arg2 harg2 arg3 harg3 arg4 harg4 arg5 harg5 arg6 harg6 hc0 hc1 x0 x1 x2).1 S512x128.size (by sl_kernel_rfl) y

end

def outsAt6 (c : Dev nD) (n : ℕ) (hn : n < cfg6.N) : Vec F S512x128 .f32 × Vec F S512x128 .f32 :=
  have h0 : n % 1 = 0 := Nat.mod_one n
  (out6_D c (grid6.coords ⟨n, hn⟩) (ms6_0 ⟨n, hn⟩) (hs6_0 ⟨n, hn⟩) (ms6_1 ⟨n, hn⟩) (hs6_1 ⟨n, hn⟩) (ms6_2 ⟨n, hn⟩) (hs6_2 ⟨n, hn⟩) (ms6_3 ⟨n, hn⟩) (hs6_3 ⟨n, hn⟩) scM6 (Memref.isWhole_whole _) ((hcond6_0 ⟨n, hn⟩).mpr h0) ((hcond6_1 ⟨n, hn⟩).mpr h0) (iblk6 V c 0 ⟨n, hn⟩) (iblk6 V c 1 ⟨n, hn⟩) (iblk6 V c 2 ⟨n, hn⟩), sout6_D c (grid6.coords ⟨n, hn⟩) (ms6_0 ⟨n, hn⟩) (hs6_0 ⟨n, hn⟩) (ms6_1 ⟨n, hn⟩) (hs6_1 ⟨n, hn⟩) (ms6_2 ⟨n, hn⟩) (hs6_2 ⟨n, hn⟩) (ms6_3 ⟨n, hn⟩) (hs6_3 ⟨n, hn⟩) scM6 (Memref.isWhole_whole _) ((hcond6_0 ⟨n, hn⟩).mpr h0) ((hcond6_1 ⟨n, hn⟩).mpr h0) (iblk6 V c 0 ⟨n, hn⟩) (iblk6 V c 1 ⟨n, hn⟩) (iblk6 V c 2 ⟨n, hn⟩))

def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 1 := lt_of_lt_of_eq t.isLt (show cfg6.N = 1 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have h0 : t.val % 1 = 0 := Nat.mod_one _
  have hz : t.val = 0 := by omega
  rw [show (dat6 V c).leavesExact 3 t = owns (c : Thread nD τ) (ms6_3 t) fullShare ((dat6 V c).after 3 t) from by
    unfold Dat.leavesExact; rw [liveAt6_3 t ((hcond6_1 t).mpr h0)], after6_3]
  unfold outsAt6 out6_D sout6_D; (try dsimp only)
  rw [PhiS6_castSucc V c t, PhiS6_zero V c _ _ hz, PhiA6_eq]
  iintro ⟨⟨⟨HS0, Hrest⟩, Hg⟩, Ho, ⟨%d0, H0⟩, ⟨%d1, H1⟩, ⟨%d2, H2⟩, ⟨%d3, H3⟩⟩
  iapply ((kernelRun6_D c (grid6.coords t) _ _ _ _ _ _ _ _ _ _ ((hcond6_0 t).mpr h0) ((hcond6_1 t).mpr h0) (iblk6 V c 0 t) (iblk6 V c 1 t) (iblk6 V c 2 t)).2.2 Set.univ _)
  iframe H0 H1 H2 HS0
  isplitl [H3]; · iexists _; iexact H3
  iintro ⟨H0, H1, H2, ⟨%e3, H3⟩, ⟨%es0, HS0⟩⟩
  iframe Hrest Hg Ho H0 H1 H2
  isplitl [HS0]
  · unfold owns; iexists _; isplitr
    swap; · iexact HS0
    ipureintro; exact View.read_writes_of_cover _ _ _ _ _ (scover6_D c _ _ _ _ _ _ _ _ _ _ _ _ _ _ _ _)
  unfold owns; iexists _; isplitr
  swap; · iexact H3
  ipureintro; exact View.read_writes_of_cover _ _ _ _ _ (cover6_D c _ _ _ _ _ _ _ _ _ _ _ _ _ _ _ _)

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  have ht : (Fin.last cfg6.N).val ≠ 0 := by rw [Fin.val_last]; have : cfg6.N = 1 := N_6; omega
  rw [show (dat6 V c).Φ (Fin.last cfg6.N) = PhiS6 V c (Fin.last cfg6.N).val (Nat.le_of_lt_succ (Fin.last cfg6.N).isLt) from rfl, PhiS6_pos V c _ _ ht, PhiA6_eq]
  iintro ⟨⟨HS0, Hrest⟩, Hg⟩
  isplitl [HS0 Hrest]
  · isplitl [HS0]
    · iexists _; iexact HS0
    iexact Hrest
  iexact Hg

end Cert.Kernel.Hand

end
-- ==== Proof.RegSegK.lean ====
import proofs.«174655_j53695681135127_1_alg».proof.Proof.RegionsK
import proofs.«174655_j53695681135127_1_alg».proof.Proof.Reg0K
import proofs.«174655_j53695681135127_1_alg».proof.Proof.Reg1K
import proofs.«174655_j53695681135127_1_alg».proof.Proof.Reg2K
import proofs.«174655_j53695681135127_1_alg».proof.Proof.Reg3K
import proofs.«174655_j53695681135127_1_alg».proof.Proof.Reg4K
import proofs.«174655_j53695681135127_1_alg».proof.Proof.Reg5K
import proofs.«174655_j53695681135127_1_alg».proof.Proof.Reg6K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev Vt (W : Dev nD → Valuation τ sig (Elt F)) : (c : Dev nD) → (b : Ref sig .tc) → Buf (Elt F) ((c : Thread nD τ).loc b) :=
  fun c b => W c b

structure Ok : Prop where
  h0 : ∀ c : Dev nD, outs 10 main_v8 c = (dat0 (Vt (V9 m)) c).arrAt 4 cfg0.N
  h1 : ∀ c : Dev nD, outs 20 main_v15 c = (dat1 (Vt (V19 m outs)) c).arrAt 4 cfg1.N
  h2 : ∀ c : Dev nD, outs 30 main_v23 c = (dat2 (Vt (V29 m outs)) c).arrAt 4 cfg2.N
  h3 : ∀ c : Dev nD, outs 40 main_v30 c = (dat3 (Vt (V39 m outs)) c).arrAt 4 cfg3.N
  h4 : ∀ c : Dev nD, outs 48 main_v37 c = (dat4 (Vt (V47 m outs)) c).arrAt 3 cfg4.N
  h5 : ∀ c : Dev nD, outs 56 main_v42 c = (dat5 (Vt (V55 m outs)) c).arrAt 3 cfg5.N
  h6 : ∀ c : Dev nD, outs 64 main_v47 c = (dat6 (Vt (V63 m outs)) c).arrAt 3 cfg6.N

def pdats : (p : Fin 7) → (c : Dev nD) → Dat τ (Elt F) Unit ℕ (UR sig nD τ) ℕ (cfgs p) c
  | ⟨0, _⟩ => fun c => dat0 (Vt (V9 m)) c
  | ⟨1, _⟩ => fun c => dat1 (Vt (V19 m outs)) c
  | ⟨2, _⟩ => fun c => dat2 (Vt (V29 m outs)) c
  | ⟨3, _⟩ => fun c => dat3 (Vt (V39 m outs)) c
  | ⟨4, _⟩ => fun c => dat4 (Vt (V47 m outs)) c
  | ⟨5, _⟩ => fun c => dat5 (Vt (V55 m outs)) c
  | ⟨6, _⟩ => fun c => dat6 (Vt (V63 m outs)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- what an update writes at a reference is read back there
theorem updSelf (V : Valuation τ sig (Elt F)) (y : Ref sig .tc) (v) : v = Function.update V y v y := by
  rw [Function.update_self]

set_option backward.isDefEq.respectTransparency.types false in
-- a region's record: its inputs are read off the valuation before it, its one output window `o` off the one after it
def mkReg (p : Fin 7) (lf : Pipeline.LaunchFacts (nD := nD) (τ := τ) cfgs p) (Vp Vq : Dev nD → Valuation τ sig (Elt F))
    (hb : ∀ c, BodyObligation (pdats m outs p c) (defs₀ (F := F)) Variants.none () Set.univ)
    (hi : ∀ c, Pipeline.ΦA (cfgs p).spec c ⊢ (pdats m outs p c).Φ 0)
    (ho : ∀ c, (pdats m outs p c).Φ (Fin.last (cfgs p).N) ⊢ Pipeline.ΦA (cfgs p).spec c)
    (howed : ∀ c t, (pdats m outs p c).owed t = 0) (hrec : ∀ c x, x ∈ (pdats m outs p c).recorded 0) (hsh : ∀ c w, (pdats m outs p c).q w = fullShare)
    (hA : ∀ c w, (pdats m outs p c).A w = Vt Vp c (Pipeline.arrRef (cfgs p).spec w))
    (o : Fin (cfgs p).W) (hio : ∀ w, w ≠ o → ((cfgs p).win w).isOut = false)
    (hq : ∀ c (r : Ref sig .tc), r ∉ [Pipeline.arrRef (cfgs p).spec o] → Vq c r = Vp c r)
    (hO : ∀ c, (pdats m outs p c).arrAt o (cfgs p).N = Vq c (Pipeline.arrRef (cfgs p).spec o)) :
    Pipeline.RegionSeg (pcfgs (F := F)) adm (pdats m outs) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vp c) ∗ R c)
  post c := iprop(StableHlo.held (c : Thread nD τ) (Pipeline.ucRefs τ sig) (Vq c) ∗ R c)
  X c := iprop(∃ r, prngReg c r)
  Y c := iprop(∃ r, prngReg c r)
  Z c := Pipeline.unscopedRest (Ix := Unit) (Name := ℕ) (U := UR sig nD τ) (Lvl := ℕ) (cfgs p).spec c (Vt Vp c)
  hentry c := by
    rw [Pipeline.ownSems0_none]
    have hsplit := Pipeline.arrays_of_unscopedBufs (p := p) (pcfgs (F := F)) adm (pdats m outs) lf.win lf.arr_whole c
      ((pdats m outs p c).share_full (hsh c)) (Vt Vp c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    iintro ⟨Hp, -, Hr⟩
    iapply (hi c)
    unfold Pipeline.ΦA
    isplitl [Hr]; · iexact Hr
    iexact Hp
  hout c := by
    rw [Pipeline.ownSems0_none]
    have hΦ := ho c
    unfold Pipeline.ΦA at hΦ
    iintro H
    ihave H' := hΦ $$ H
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m outs) ((pdats m outs p c).share_full (hsh c))
      (Vt Vp c) (Vt Vq c) ((pdats m outs p c).arrAt · (cfgs p).N)
      (fun w => by
        by_cases h : w = o
        · subst h; exact hO c
        · exact ((Dat.arrAt_in _ w (hio w h) _).trans (hA c w)).trans (hq c _ fun hm => h (lf.win.arr_inj (List.mem_singleton.mp hm))).symm)
      (fun b hb => hq c b fun h => hb (Finset.mem_image.mpr ⟨o, Finset.mem_univ _, (List.mem_singleton.mp h).symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 (hok : Ok m outs) : Pipeline.RegionSeg (pcfgs (F := F)) adm (pdats m outs) () defs₀ 𝒱₀ L lv 0 :=
  mkReg m outs 0 launch0 (V9 m) (V10 m outs) (body_obligation0 _) (hin0 _) (hout0 _) (fun _ _ => rfl) (fun _ _ => trivial) (fun _ _ => rfl) (fun _ _ => rfl)
    4 (by decide) (V10_of m outs) fun c => (hok.h0 c).symm.trans (updSelf ..)

def reg1 (hok : Ok m outs) : Pipeline.RegionSeg (pcfgs (F := F)) adm (pdats m outs) () defs₀ 𝒱₀ L lv 1 :=
  mkReg m outs 1 launch1 (V19 m outs) (V20 m outs) (body_obligation1 _) (hin1 _) (hout1 _) (fun _ _ => rfl) (fun _ _ => trivial) (fun _ _ => rfl) (fun _ _ => rfl)
    4 (by decide) (V20_of m outs) fun c => (hok.h1 c).symm.trans (updSelf ..)

def reg2 (hok : Ok m outs) : Pipeline.RegionSeg (pcfgs (F := F)) adm (pdats m outs) () defs₀ 𝒱₀ L lv 2 :=
  mkReg m outs 2 launch2 (V29 m outs) (V30 m outs) (body_obligation2 _) (hin2 _) (hout2 _) (fun _ _ => rfl) (fun _ _ => trivial) (fun _ _ => rfl) (fun _ _ => rfl)
    4 (by decide) (V30_of m outs) fun c => (hok.h2 c).symm.trans (updSelf ..)

def reg3 (hok : Ok m outs) : Pipeline.RegionSeg (pcfgs (F := F)) adm (pdats m outs) () defs₀ 𝒱₀ L lv 3 :=
  mkReg m outs 3 launch3 (V39 m outs) (V40 m outs) (body_obligation3 _) (hin3 _) (hout3 _) (fun _ _ => rfl) (fun _ _ => trivial) (fun _ _ => rfl) (fun _ _ => rfl)
    4 (by decide) (V40_of m outs) fun c => (hok.h3 c).symm.trans (updSelf ..)

def reg4 (hok : Ok m outs) : Pipeline.RegionSeg (pcfgs (F := F)) adm (pdats m outs) () defs₀ 𝒱₀ L lv 4 :=
  mkReg m outs 4 launch4 (V47 m outs) (V48 m outs) (body_obligation4 _) (hin4 _) (hout4 _) (fun _ _ => rfl) (fun _ _ => trivial) (fun _ _ => rfl) (fun _ _ => rfl)
    3 (by decide) (V48_of m outs) fun c => (hok.h4 c).symm.trans (updSelf ..)

def reg5 (hok : Ok m outs) : Pipeline.RegionSeg (pcfgs (F := F)) adm (pdats m outs) () defs₀ 𝒱₀ L lv 5 :=
  mkReg m outs 5 launch5 (V55 m outs) (V56 m outs) (body_obligation5 _) (hin5 _) (hout5 _) (fun _ _ => rfl) (fun _ _ => trivial) (fun _ _ => rfl) (fun _ _ => rfl)
    3 (by decide) (V56_of m outs) fun c => (hok.h5 c).symm.trans (updSelf ..)

def reg6 (hok : Ok m outs) : Pipeline.RegionSeg (pcfgs (F := F)) adm (pdats m outs) () defs₀ 𝒱₀ L lv 6 :=
  mkReg m outs 6 launch6 (V63 m outs) (V64 m outs) (body_obligation6 _) (hin6 _) (hout6 _) (fun _ _ => rfl) (fun _ _ => trivial) (fun _ _ => rfl) (fun _ _ => rfl)
    3 (by decide) (V64_of m outs) fun c => (hok.h6 c).symm.trans (updSelf ..)

end Cert.Kernel.Hand

end
-- ==== Proof.RunK.lean ====
import proofs.«174655_j53695681135127_1_alg».proof.Proof.RegSegK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

variable (ρ : Dev nD → PrngReg)

-- what a device holds at launch besides its buffers
abbrev I₀ (c : Dev nD) : sProp 𝕄 :=
  iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (fun _ => iprop(emp) : Dev nD → sProp 𝕄) c)

def E : Fin 8 → Dev nD → sProp 𝕄 := fun _ c => R c

theorem hE0c (c : Dev nD) : I₀ (F := F) ρ c ⊢ (E (F := F) 0 c : sProp 𝕄) := by
  unfold E
  iintro ⟨-, HO, -, Hp, -⟩
  isplitl [Hp]; · iexists _; iexact Hp
  iexists ∅; iexact HO

theorem hE0 : iprop((bigSep Finset.univ (I₀ (F := F) ρ)) ∗ levAts L lv) ⊢ (|={Set.univ}=> bigSep Finset.univ (E (F := F) 0) : sProp 𝕄) := by
  have hall : bigSep Finset.univ (I₀ (F := F) ρ) ⊢ (bigSep Finset.univ (E (F := F) 0) : sProp 𝕄) :=
    bigSep_mono fun c _ => hE0c ρ c
  iintro ⟨H, -⟩
  imodintro
  ihave H' := hall $$ H
  iexact H'

theorem hE7 (c : Dev nD) : E (F := F) 7 c ⊢ (iprop(∃ W, owes (c : Thread nD τ) (0 : CellTallies nD τ sig Unit) W) : sProp 𝕄) := by
  unfold E
  iintro ⟨-, H⟩; iexact H

theorem hu0 : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
set_option maxHeartbeats 4000000 in

theorem run_all (hok : Ok m outs) :
    θ_run defs (onTc (τ := τ) (main (F := F))) ⟨m, fun _ => 0, ρ⟩ (fun r => ∀ c : Dev nD,
      ∀ b ∈ Pipeline.ucRefs τ sig, r.2.mem ((c : Thread nD τ).1, b) = V65 m outs c b) := by
  refine Pipeline.θ_run_regions_kit_dev (pcfgs (F := F)) adm (pdats m outs) () cellOf_inj emb₁ defs₀ 𝒱₀ L lv m ρ main
    (segs m outs 𝒱₀ L lv E () (pdats m outs) (reg0 m outs hok) (reg1 m outs hok) (reg2 m outs hok) (reg3 m outs hok) (reg4 m outs hok) (reg5 m outs hok) (reg6 m outs hok))
    (fun c Q => by
      rewrite [main_chain c, Seg.run_eq_chain]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj)) hu0
    (T₀ := fun c => iprop(StableHlo.held (c : Thread nD τ) (Pipeline.ucRefs τ sig) (V0 m c) ∗ E 0 c))
    (Tₙ := fun c => StableHlo.held (c : Thread nD τ) (Pipeline.ucRefs τ sig) (V65 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE7 c)⟩)
    (hinit := ?_) (QY := fun c s => ∀ b ∈ Pipeline.ucRefs τ sig, s.mem ((c : Thread nD τ).1, b) = V65 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (fun _ => iprop(emp) : Dev nD → sProp 𝕄) c))
        ⊢ (iprop((bigSep Finset.univ fun c : Dev nD => StableHlo.held (c : Thread nD τ) (Pipeline.ucRefs τ sig) (V0 m c))
            ∗ bigSep Finset.univ (I₀ (F := F) ρ)) : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    have hE0' := hE0 (F := F) ρ
    iintro ⟨H, Hla⟩
    ihave H' := hsplit $$ H
    icases H' with ⟨Hh, Hr⟩
    imod hE0' $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V65 m outs c) s') $$ [Hh HSI]
    · isplitl [Hh] <;> iassumption
    icases Hr with ⟨%h, HSI⟩
    imodintro
    isplitr
    · ipureintro
      exact h
    · iexact HSI

end Cert.Kernel.Hand

end
-- ==== Proof.OutsK.lean ====
import proofs.«174655_j53695681135127_1_alg».proof.Proof.RegSegK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a stage's valuation depends on the outputs only through the array written just before it and the stage before
theorem V19_congr (o o' : Outs (F := F)) (h : ∀ c, o 10 main_v8 c = o' 10 main_v8 c) : V19 m o = V19 m o' := by
  funext c
  dsimp only [V19, V18, V17, V16, V15, V14, V13, V12, V11, V10]
  rw [h c]

theorem V29_congr (o o' : Outs (F := F)) (hV : V19 m o = V19 m o') (h : ∀ c, o 20 main_v15 c = o' 20 main_v15 c) : V29 m o = V29 m o' := by
  funext c
  dsimp only [V29, V28, V27, V26, V25, V24, V23, V22, V21, V20]
  rw [h c, hV]

theorem V39_congr (o o' : Outs (F := F)) (hV : V29 m o = V29 m o') (h : ∀ c, o 30 main_v23 c = o' 30 main_v23 c) : V39 m o = V39 m o' := by
  funext c
  dsimp only [V39, V38, V37, V36, V35, V34, V33, V32, V31, V30]
  rw [h c, hV]

theorem V47_congr (o o' : Outs (F := F)) (hV : V39 m o = V39 m o') (h : ∀ c, o 40 main_v30 c = o' 40 main_v30 c) : V47 m o = V47 m o' := by
  funext c
  dsimp only [V47, V46, V45, V44, V43, V42, V41, V40]
  rw [h c, hV]

theorem V55_congr (o o' : Outs (F := F)) (hV : V47 m o = V47 m o') (h : ∀ c, o 48 main_v37 c = o' 48 main_v37 c) : V55 m o = V55 m o' := by
  funext c
  dsimp only [V55, V54, V53, V52, V51, V50, V49, V48]
  rw [h c, hV]

theorem V63_congr (o o' : Outs (F := F)) (hV : V55 m o = V55 m o') (h : ∀ c, o 56 main_v42 c = o' 56 main_v42 c) : V63 m o = V63 m o' := by
  funext c
  dsimp only [V63, V62, V61, V60, V59, V58, V57, V56]
  rw [h c, hV]

def o0 (c : Dev nD) : Buf (Elt F) ((c : Thread nD τ).loc main_v8) := (dat0 (Vt (V9 m)) c).arrAt 4 cfg0.N

def st0 (c : Dev nD) : (r : Ref sig .tc) → Buf (Elt F) ((c : Thread nD τ).loc r) :=
  Function.update (fun r => Vt (V9 m) c r) main_v8 (o0 m c)
def outs1 : Outs (F := F) := fun _ r c => st0 m c r

def o1 (c : Dev nD) : Buf (Elt F) ((c : Thread nD τ).loc main_v15) := (dat1 (Vt (V19 m (outs1 m))) c).arrAt 4 cfg1.N
def st1 (c : Dev nD) : (r : Ref sig .tc) → Buf (Elt F) ((c : Thread nD τ).loc r) :=
  Function.update (st0 m c) main_v15 (o1 m c)
def outs2 : Outs (F := F) := fun _ r c => st1 m c r

def o2 (c : Dev nD) : Buf (Elt F) ((c : Thread nD τ).loc main_v23) := (dat2 (Vt (V29 m (outs2 m))) c).arrAt 4 cfg2.N
def st2 (c : Dev nD) : (r : Ref sig .tc) → Buf (Elt F) ((c : Thread nD τ).loc r) :=
  Function.update (st1 m c) main_v23 (o2 m c)
def outs3 : Outs (F := F) := fun _ r c => st2 m c r

def o3 (c : Dev nD) : Buf (Elt F) ((c : Thread nD τ).loc main_v30) := (dat3 (Vt (V39 m (outs3 m))) c).arrAt 4 cfg3.N
def st3 (c : Dev nD) : (r : Ref sig .tc) → Buf (Elt F) ((c : Thread nD τ).loc r) :=
  Function.update (st2 m c) main_v30 (o3 m c)
def outs4 : Outs (F := F) := fun _ r c => st3 m c r

def o4 (c : Dev nD) : Buf (Elt F) ((c : Thread nD τ).loc main_v37) := (dat4 (Vt (V47 m (outs4 m))) c).arrAt 3 cfg4.N
def st4 (c : Dev nD) : (r : Ref sig .tc) → Buf (Elt F) ((c : Thread nD τ).loc r) :=
  Function.update (st3 m c) main_v37 (o4 m c)
def outs5 : Outs (F := F) := fun _ r c => st4 m c r

def o5 (c : Dev nD) : Buf (Elt F) ((c : Thread nD τ).loc main_v42) := (dat5 (Vt (V55 m (outs5 m))) c).arrAt 3 cfg5.N
def st5 (c : Dev nD) : (r : Ref sig .tc) → Buf (Elt F) ((c : Thread nD τ).loc r) :=
  Function.update (st4 m c) main_v42 (o5 m c)
def outs6 : Outs (F := F) := fun _ r c => st5 m c r

def o6 (c : Dev nD) : Buf (Elt F) ((c : Thread nD τ).loc main_v47) := (dat6 (Vt (V63 m (outs6 m))) c).arrAt 3 cfg6.N
def st6 (c : Dev nD) : (r : Ref sig .tc) → Buf (Elt F) ((c : Thread nD τ).loc r) :=
  Function.update (st5 m c) main_v47 (o6 m c)
def outs7 : Outs (F := F) := fun _ r c => st6 m c r

-- away from the references written later, a state already holds what the last state holds
theorem agree5 (c : Dev nD) (r : Ref sig .tc) (h0 : r ≠ main_v47 := by decide) : st5 m c r = st6 m c r :=
  (Function.update_of_ne h0 ..).symm
theorem agree4 (c : Dev nD) (r : Ref sig .tc) (h0 : r ≠ main_v42 := by decide) (h1 : r ≠ main_v47 := by decide) : st4 m c r = st6 m c r :=
  (Function.update_of_ne h0 ..).symm.trans (agree5 m c r h1)
theorem agree3 (c : Dev nD) (r : Ref sig .tc) (h0 : r ≠ main_v37 := by decide) (h1 : r ≠ main_v42 := by decide) (h2 : r ≠ main_v47 := by decide) : st3 m c r = st6 m c r :=
  (Function.update_of_ne h0 ..).symm.trans (agree4 m c r h1 h2)
theorem agree2 (c : Dev nD) (r : Ref sig .tc) (h0 : r ≠ main_v30 := by decide) (h1 : r ≠ main_v37 := by decide) (h2 : r ≠ main_v42 := by decide) (h3 : r ≠ main_v47 := by decide) : st2 m c r = st6 m c r :=
  (Function.update_of_ne h0 ..).symm.trans (agree3 m c r h1 h2 h3)
theorem agree1 (c : Dev nD) (r : Ref sig .tc) (h0 : r ≠ main_v23 := by decide) (h1 : r ≠ main_v30 := by decide) (h2 : r ≠ main_v37 := by decide) (h3 : r ≠ main_v42 := by decide) (h4 : r ≠ main_v47 := by decide) : st1 m c r = st6 m c r :=
  (Function.update_of_ne h0 ..).symm.trans (agree2 m c r h1 h2 h3 h4)
theorem agree0 (c : Dev nD) (r : Ref sig .tc) (h0 : r ≠ main_v15 := by decide) (h1 : r ≠ main_v23 := by decide) (h2 : r ≠ main_v30 := by decide) (h3 : r ≠ main_v37 := by decide) (h4 : r ≠ main_v42 := by decide) (h5 : r ≠ main_v47 := by decide) : st0 m c r = st6 m c r :=
  (Function.update_of_ne h0 ..).symm.trans (agree1 m c r h1 h2 h3 h4 h5)

def outsAll : Outs (F := F) := outs7 m

theorem ok_all : Ok m (outsAll m) where
  h0 c := (agree0 m c main_v8).symm.trans (Function.update_self ..)
  h1 c := by
    refine ((agree1 m c main_v15).symm.trans (Function.update_self ..)).trans ?_
    unfold o1
    rw [V19_congr m (outs1 m) (outsAll m) fun c => agree0 m c main_v8]
  h2 c := by
    refine ((agree2 m c main_v23).symm.trans (Function.update_self ..)).trans ?_
    unfold o2
    rw [V29_congr m (outs2 m) (outsAll m) (V19_congr m (outs2 m) (outsAll m) fun c => agree1 m c main_v8) fun c => agree1 m c main_v15]
  h3 c := by
    refine ((agree3 m c main_v30).symm.trans (Function.update_self ..)).trans ?_
    unfold o3
    rw [V39_congr m (outs3 m) (outsAll m) (V29_congr m (outs3 m) (outsAll m) (V19_congr m (outs3 m) (outsAll m) fun c => agree2 m c main_v8) fun c => agree2 m c main_v15) fun c => agree2 m c main_v23]
  h4 c := by
    refine ((agree4 m c main_v37).symm.trans (Function.update_self ..)).trans ?_
    unfold o4
    rw [V47_congr m (outs4 m) (outsAll m) (V39_congr m (outs4 m) (outsAll m) (V29_congr m (outs4 m) (outsAll m) (V19_congr m (outs4 m) (outsAll m) fun c => agree3 m c main_v8) fun c => agree3 m c main_v15) fun c => agree3 m c main_v23) fun c => agree3 m c main_v30]
  h5 c := by
    refine ((agree5 m c main_v42).symm.trans (Function.update_self ..)).trans ?_
    unfold o5
    rw [V55_congr m (outs5 m) (outsAll m) (V47_congr m (outs5 m) (outsAll m) (V39_congr m (outs5 m) (outsAll m) (V29_congr m (outs5 m) (outsAll m) (V19_congr m (outs5 m) (outsAll m) fun c => agree4 m c main_v8) fun c => agree4 m c main_v15) fun c => agree4 m c main_v23) fun c => agree4 m c main_v30) fun c => agree4 m c main_v37]
  h6 c := by
    refine (Function.update_self main_v47 (o6 m c) (st5 m c)).trans ?_
    unfold o6
    rw [V63_congr m (outs6 m) (outsAll m) (V55_congr m (outs6 m) (outsAll m) (V47_congr m (outs6 m) (outsAll m) (V39_congr m (outs6 m) (outsAll m) (V29_congr m (outs6 m) (outsAll m) (V19_congr m (outs6 m) (outsAll m) fun c => agree5 m c main_v8) fun c => agree5 m c main_v15) fun c => agree5 m c main_v23) fun c => agree5 m c main_v30) fun c => agree5 m c main_v37) fun c => agree5 m c main_v42]

end Cert.Kernel.Hand

end
-- ==== Proof.FrameK.lean ====
import proofs.«174655_j53695681135127_1_alg».proof.Proof.RunK
import proofs.«174655_j53695681135127_1_alg».proof.Proof.OutsK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- every argument is a reference the run speaks of and that no item writes, so it ends as launched
theorem run_post : θ_run defs (onTc (τ := τ) (main (F := F))) ⟨m, fun _ => 0, ρ⟩ (fun r => ∀ c : Dev nD,
      r.2.mem ((c.tc : Thread nD τ).loc main_v48) = V65 m (outsAll m) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    have g (x : Ref sig .tc) (hx : ¬(Proc.devRef (τ := τ) .tc x).isScoped := by decide) :
        r.2.mem ((c.tc : Thread nD τ).loc x) = V65 m (outsAll m) c x :=
      h c (Proc.devRef .tc x) (Finset.mem_filter.mpr ⟨StableHlo.devRef_mem_tcRefs x, hx⟩)
    have k (x : Ref sig .tc) (hx : ¬(Proc.devRef (τ := τ) .tc x).isScoped := by decide) (hn : allW.Forall (x ∉ ·) := by decide) :
        r.2.mem ((c.tc : Thread nD τ).loc x) = m ((c.tc : Thread nD τ).loc x) :=
      (g x hx).trans (V65_of_notMem m (outsAll m) c x hn)
    ⟨g main_v48, k main_arg0, k main_arg1, k main_arg2, k main_arg3, k main_arg4, k main_arg5, k main_arg6, k main_arg7, k main_arg8, k main_arg9, k main_arg10, k main_arg11, k main_arg12, k main_arg13, k main_arg14, k main_arg15, k main_arg16, k main_arg17, k main_arg18⟩)
    (run_all m (outsAll m) ρ (ok_all m))

end Cert.Kernel.Hand

end
-- ==== Proof.RegionsKI.lean ====
import proofs.«174655_j53695681135127_1_alg».proof.Proof.Gen.KernelIdeal.Launch
import Idealize.ShloMosaic.Lib.Pipeline.Frame
import Idealize.ShloMosaic.Lib.Pipeline.Regions

set_option maxRecDepth 1228

noncomputable section

namespace Cert.KernelIdeal.GenP

open Cert.KernelIdeal.Gen Idealize.ShloMosaic Idealize.ShloMosaic.TcCoe
open Idealize.SL.RA Idealize.SL.BI
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

section

variable (c : Dev nD) (r : Ref sig .tc)

abbrev V0 : Valuation τ sig (Elt F) := fun b => m (c, b)
abbrev V1 := StableHlo.after hostOps0 (V0 m c)
abbrev V2 := StableHlo.after hostOps0_1 (V1 m c)
abbrev V3 := StableHlo.after hostOps0_2 (V2 m c)
abbrev V4 := StableHlo.after hostOps0_3 (V3 m c)
abbrev V5 := StableHlo.after hostOps0_4 (V4 m c)
abbrev V6 := StableHlo.after hostOps0_5 (V5 m c)
abbrev V7 := StableHlo.after hostOps0_6 (V6 m c)
abbrev V8 := StableHlo.after hostOps0_7 (V7 m c)
abbrev V9 := StableHlo.after hostOps0_8 (V8 m c)
abbrev V10 : Valuation τ sig (Elt F) := Function.update (V9 m c) main_v8 (outs 10 main_v8 c)
abbrev V11 := StableHlo.after hostOps1 (V10 m outs c)
abbrev V12 := StableHlo.after hostOps1_1 (V11 m outs c)
abbrev V13 := StableHlo.after hostOps1_2 (V12 m outs c)
abbrev V14 := StableHlo.after hostOps1_3 (V13 m outs c)
abbrev V15 := StableHlo.after hostOps1_4 (V14 m outs c)
abbrev V16 := StableHlo.after hostOps1_5 (V15 m outs c)
abbrev V17 := StableHlo.after hostOps1_6 (V16 m outs c)
abbrev V18 := StableHlo.after hostOps1_7 (V17 m outs c)
abbrev V19 := StableHlo.after hostOps1_8 (V18 m outs c)
abbrev V20 : Valuation τ sig (Elt F) := Function.update (V19 m outs c) main_v15 (outs 20 main_v15 c)
abbrev V21 := StableHlo.after hostOps2 (V20 m outs c)
abbrev V22 := StableHlo.after hostOps2_1 (V21 m outs c)
abbrev V23 := StableHlo.after hostOps2_2 (V22 m outs c)
abbrev V24 := StableHlo.after hostOps2_3 (V23 m outs c)
abbrev V25 := StableHlo.after hostOps2_4 (V24 m outs c)
abbrev V26 := StableHlo.after hostOps2_5 (V25 m outs c)
abbrev V27 := StableHlo.after hostOps2_6 (V26 m outs c)
abbrev V28 := StableHlo.after hostOps2_7 (V27 m outs c)
abbrev V29 := StableHlo.after hostOps2_8 (V28 m outs c)
abbrev V30 : Valuation τ sig (Elt F) := Function.update (V29 m outs c) main_v23 (outs 30 main_v23 c)
abbrev V31 := StableHlo.after hostOps3 (V30 m outs c)
abbrev V32 := StableHlo.after hostOps3_1 (V31 m outs c)
abbrev V33 := StableHlo.after hostOps3_2 (V32 m outs c)
abbrev V34 := StableHlo.after hostOps3_3 (V33 m outs c)
abbrev V35 := StableHlo.after hostOps3_4 (V34 m outs c)
abbrev V36 := StableHlo.after hostOps3_5 (V35 m outs c)
abbrev V37 := StableHlo.after hostOps3_6 (V36 m outs c)
abbrev V38 := StableHlo.after hostOps3_7 (V37 m outs c)
abbrev V39 := StableHlo.after hostOps3_8 (V38 m outs c)
abbrev V40 : Valuation τ sig (Elt F) := Function.update (V39 m outs c) main_v30 (outs 40 main_v30 c)
abbrev V41 := StableHlo.after hostOps4 (V40 m outs c)
abbrev V42 := StableHlo.after hostOps4_1 (V41 m outs c)
abbrev V43 := StableHlo.after hostOps4_2 (V42 m outs c)
abbrev V44 := StableHlo.after hostOps4_3 (V43 m outs c)
abbrev V45 := StableHlo.after hostOps4_4 (V44 m outs c)
abbrev V46 := StableHlo.after hostOps4_5 (V45 m outs c)
abbrev V47 := StableHlo.after hostOps4_6 (V46 m outs c)
abbrev V48 : Valuation τ sig (Elt F) := Function.update (V47 m outs c) main_v37 (outs 48 main_v37 c)
abbrev V49 := StableHlo.after hostOps5 (V48 m outs c)
abbrev V50 := StableHlo.after hostOps5_1 (V49 m outs c)
abbrev V51 := StableHlo.after hostOps5_2 (V50 m outs c)
abbrev V52 := StableHlo.after hostOps5_3 (V51 m outs c)
abbrev V53 := StableHlo.after hostOps5_4 (V52 m outs c)
abbrev V54 := StableHlo.after hostOps5_5 (V53 m outs c)
abbrev V55 := StableHlo.after hostOps5_6 (V54 m outs c)
abbrev V56 : Valuation τ sig (Elt F) := Function.update (V55 m outs c) main_v42 (outs 56 main_v42 c)
abbrev V57 := StableHlo.after hostOps6 (V56 m outs c)
abbrev V58 := StableHlo.after hostOps6_1 (V57 m outs c)
abbrev V59 := StableHlo.after hostOps6_2 (V58 m outs c)
abbrev V60 := StableHlo.after hostOps6_3 (V59 m outs c)
abbrev V61 := StableHlo.after hostOps6_4 (V60 m outs c)
abbrev V62 := StableHlo.after hostOps6_5 (V61 m outs c)
abbrev V63 := StableHlo.after hostOps6_6 (V62 m outs c)
abbrev V64 : Valuation τ sig (Elt F) := Function.update (V63 m outs c) main_v47 (outs 64 main_v47 c)
abbrev V65 := StableHlo.after hostOps7 (V64 m outs c)

abbrev hostOps0_W : List (Ref sig .tc) := [main_v0, main_v1, main_v2, main_c]
abbrev hostOps0_1_W : List (Ref sig .tc) := [main_call0_v0, main_v3]
abbrev hostOps0_2_W : List (Ref sig .tc) := [main_c_0]
abbrev hostOps0_3_W : List (Ref sig .tc) := [main_call1_v0, main_v4]
abbrev hostOps0_4_W : List (Ref sig .tc) := [main_c_1]
abbrev hostOps0_5_W : List (Ref sig .tc) := [main_call2_v0, main_v5]
abbrev hostOps0_6_W : List (Ref sig .tc) := [main_c_2]
abbrev hostOps0_7_W : List (Ref sig .tc) := [main_call3_v0, main_v6]
abbrev hostOps0_8_W : List (Ref sig .tc) := [main_v7]
abbrev hostOps1_W : List (Ref sig .tc) := [main_v9, main_c_3]
abbrev hostOps1_1_W : List (Ref sig .tc) := [main_call4_v0, main_v10]
abbrev hostOps1_2_W : List (Ref sig .tc) := [main_c_4]
abbrev hostOps1_3_W : List (Ref sig .tc) := [main_call5_v0, main_v11]
abbrev hostOps1_4_W : List (Ref sig .tc) := [main_c_5]
abbrev hostOps1_5_W : List (Ref sig .tc) := [main_call6_v0, main_v12]
abbrev hostOps1_6_W : List (Ref sig .tc) := [main_c_6]
abbrev hostOps1_7_W : List (Ref sig .tc) := [main_call7_v0, main_v13]
abbrev hostOps1_8_W : List (Ref sig .tc) := [main_v14]
abbrev hostOps2_W : List (Ref sig .tc) := [main_v16, main_v17, main_c_7]
abbrev hostOps2_1_W : List (Ref sig .tc) := [main_call8_v0, main_v18]
abbrev hostOps2_2_W : List (Ref sig .tc) := [main_c_8]
abbrev hostOps2_3_W : List (Ref sig .tc) := [main_call9_v0, main_v19]
abbrev hostOps2_4_W : List (Ref sig .tc) := [main_c_9]
abbrev hostOps2_5_W : List (Ref sig .tc) := [main_call10_v0, main_v20]
abbrev hostOps2_6_W : List (Ref sig .tc) := [main_c_10]
abbrev hostOps2_7_W : List (Ref sig .tc) := [main_call11_v0, main_v21]
abbrev hostOps2_8_W : List (Ref sig .tc) := [main_v22]
abbrev hostOps3_W : List (Ref sig .tc) := [main_v24, main_c_11]
abbrev hostOps3_1_W : List (Ref sig .tc) := [main_call12_v0, main_v25]
abbrev hostOps3_2_W : List (Ref sig .tc) := [main_c_12]
abbrev hostOps3_3_W : List (Ref sig .tc) := [main_call13_v0, main_v26]
abbrev hostOps3_4_W : List (Ref sig .tc) := [main_c_13]
abbrev hostOps3_5_W : List (Ref sig .tc) := [main_call14_v0, main_v27]
abbrev hostOps3_6_W : List (Ref sig .tc) := [main_c_14]
abbrev hostOps3_7_W : List (Ref sig .tc) := [main_call15_v0, main_v28]
abbrev hostOps3_8_W : List (Ref sig .tc) := [main_v29]
abbrev hostOps4_W : List (Ref sig .tc) := [main_v31, main_v32, main_c_15]
abbrev hostOps4_1_W : List (Ref sig .tc) := [main_call16_v0, main_v33]
abbrev hostOps4_2_W : List (Ref sig .tc) := [main_c_16]
abbrev hostOps4_3_W : List (Ref sig .tc) := [main_call17_v0, main_v34]
abbrev hostOps4_4_W : List (Ref sig .tc) := [main_c_17]
abbrev hostOps4_5_W : List (Ref sig .tc) := [main_call18_v0, main_v35]
abbrev hostOps4_6_W : List (Ref sig .tc) := [main_v36]
abbrev hostOps5_W : List (Ref sig .tc) := [main_c_18]
abbrev hostOps5_1_W : List (Ref sig .tc) := [main_call19_v0, main_v38]
abbrev hostOps5_2_W : List (Ref sig .tc) := [main_c_19]
abbrev hostOps5_3_W : List (Ref sig .tc) := [main_call20_v0, main_v39]
abbrev hostOps5_4_W : List (Ref sig .tc) := [main_c_20]
abbrev hostOps5_5_W : List (Ref sig .tc) := [main_call21_v0, main_v40]
abbrev hostOps5_6_W : List (Ref sig .tc) := [main_v41]
abbrev hostOps6_W : List (Ref sig .tc) := [main_c_21]
abbrev hostOps6_1_W : List (Ref sig .tc) := [main_call22_v0, main_v43]
abbrev hostOps6_2_W : List (Ref sig .tc) := [main_c_22]
abbrev hostOps6_3_W : List (Ref sig .tc) := [main_call23_v0, main_v44]
abbrev hostOps6_4_W : List (Ref sig .tc) := [main_c_23]
abbrev hostOps6_5_W : List (Ref sig .tc) := [main_call24_v0, main_v45]
abbrev hostOps6_6_W : List (Ref sig .tc) := [main_v46]
abbrev hostOps7_W : List (Ref sig .tc) := [main_v48]

-- an operation that writes one reference of a list writes inside the list
theorem wr {y : Ref sig .tc} {W : List (Ref sig .tc)} (h : y ∈ W := by decide) :
    ({Proc.devRef (τ := τ) .tc y} : Finset (DevRef τ sig)) ⊆ (W.map (Proc.devRef (τ := τ) .tc)).toFinset :=
  Finset.singleton_subset_iff.2 (List.mem_toFinset.2 (List.mem_map_of_mem h))

-- an update at one reference leaves every other reference as it was
theorem upd_of (V : Valuation τ sig (Elt F)) {y r : Ref sig .tc} (v) (h : r ∉ [y]) : Function.update V y v r = V r :=
  Function.update_of_ne (StableHlo.devRef_ne_of_ne (List.ne_of_not_mem_cons h)) ..

theorem V1_of (h : r ∉ hostOps0_W) : V1 m c r = V0 m c r :=
  StableHlo.after_of_writes_sub _ _ ⟨wr, wr, wr, wr⟩ h
theorem V2_of (h : r ∉ hostOps0_1_W) : V2 m c r = V1 m c r :=
  StableHlo.after_of_writes_sub _ _ ⟨wr, wr⟩ h
theorem V3_of (h : r ∉ hostOps0_2_W) : V3 m c r = V2 m c r :=
  StableHlo.after_of_writes_sub _ _ wr h
theorem V4_of (h : r ∉ hostOps0_3_W) : V4 m c r = V3 m c r :=
  StableHlo.after_of_writes_sub _ _ ⟨wr, wr⟩ h
theorem V5_of (h : r ∉ hostOps0_4_W) : V5 m c r = V4 m c r :=
  StableHlo.after_of_writes_sub _ _ wr h
theorem V6_of (h : r ∉ hostOps0_5_W) : V6 m c r = V5 m c r :=
  StableHlo.after_of_writes_sub _ _ ⟨wr, wr⟩ h
theorem V7_of (h : r ∉ hostOps0_6_W) : V7 m c r = V6 m c r :=
  StableHlo.after_of_writes_sub _ _ wr h
theorem V8_of (h : r ∉ hostOps0_7_W) : V8 m c r = V7 m c r :=
  StableHlo.after_of_writes_sub _ _ ⟨wr, wr⟩ h
theorem V9_of (h : r ∉ hostOps0_8_W) : V9 m c r = V8 m c r :=
  StableHlo.after_of_writes_sub _ _ wr h
theorem V10_of (h : r ∉ ([main_v8] : List (Ref sig .tc))) : V10 m outs c r = V9 m c r :=
  upd_of _ _ h
theorem V11_of (h : r ∉ hostOps1_W) : V11 m outs c r = V10 m outs c r :=
  StableHlo.after_of_writes_sub _ _ ⟨wr, wr⟩ h
theorem V12_of (h : r ∉ hostOps1_1_W) : V12 m outs c r = V11 m outs c r :=
  StableHlo.after_of_writes_sub _ _ ⟨wr, wr⟩ h
theorem V13_of (h : r ∉ hostOps1_2_W) : V13 m outs c r = V12 m outs c r :=
  StableHlo.after_of_writes_sub _ _ wr h
theorem V14_of (h : r ∉ hostOps1_3_W) : V14 m outs c r = V13 m outs c r :=
  StableHlo.after_of_writes_sub _ _ ⟨wr, wr⟩ h
theorem V15_of (h : r ∉ hostOps1_4_W) : V15 m outs c r = V14 m outs c r :=
  StableHlo.after_of_writes_sub _ _ wr h
theorem V16_of (h : r ∉ hostOps1_5_W) : V16 m outs c r = V15 m outs c r :=
  StableHlo.after_of_writes_sub _ _ ⟨wr, wr⟩ h
theorem V17_of (h : r ∉ hostOps1_6_W) : V17 m outs c r = V16 m outs c r :=
  StableHlo.after_of_writes_sub _ _ wr h
theorem V18_of (h : r ∉ hostOps1_7_W) : V18 m outs c r = V17 m outs c r :=
  StableHlo.after_of_writes_sub _ _ ⟨wr, wr⟩ h
theorem V19_of (h : r ∉ hostOps1_8_W) : V19 m outs c r = V18 m outs c r :=
  StableHlo.after_of_writes_sub _ _ wr h
theorem V20_of (h : r ∉ ([main_v15] : List (Ref sig .tc))) : V20 m outs c r = V19 m outs c r :=
  upd_of _ _ h
theorem V21_of (h : r ∉ hostOps2_W) : V21 m outs c r = V20 m outs c r :=
  StableHlo.after_of_writes_sub _ _ ⟨wr, wr, wr⟩ h
theorem V22_of (h : r ∉ hostOps2_1_W) : V22 m outs c r = V21 m outs c r :=
  StableHlo.after_of_writes_sub _ _ ⟨wr, wr⟩ h
theorem V23_of (h : r ∉ hostOps2_2_W) : V23 m outs c r = V22 m outs c r :=
  StableHlo.after_of_writes_sub _ _ wr h
theorem V24_of (h : r ∉ hostOps2_3_W) : V24 m outs c r = V23 m outs c r :=
  StableHlo.after_of_writes_sub _ _ ⟨wr, wr⟩ h
theorem V25_of (h : r ∉ hostOps2_4_W) : V25 m outs c r = V24 m outs c r :=
  StableHlo.after_of_writes_sub _ _ wr h
theorem V26_of (h : r ∉ hostOps2_5_W) : V26 m outs c r = V25 m outs c r :=
  StableHlo.after_of_writes_sub _ _ ⟨wr, wr⟩ h
theorem V27_of (h : r ∉ hostOps2_6_W) : V27 m outs c r = V26 m outs c r :=
  StableHlo.after_of_writes_sub _ _ wr h
theorem V28_of (h : r ∉ hostOps2_7_W) : V28 m outs c r = V27 m outs c r :=
  StableHlo.after_of_writes_sub _ _ ⟨wr, wr⟩ h
theorem V29_of (h : r ∉ hostOps2_8_W) : V29 m outs c r = V28 m outs c r :=
  StableHlo.after_of_writes_sub _ _ wr h
theorem V30_of (h : r ∉ ([main_v23] : List (Ref sig .tc))) : V30 m outs c r = V29 m outs c r :=
  upd_of _ _ h
theorem V31_of (h : r ∉ hostOps3_W) : V31 m outs c r = V30 m outs c r :=
  StableHlo.after_of_writes_sub _ _ ⟨wr, wr⟩ h
theorem V32_of (h : r ∉ hostOps3_1_W) : V32 m outs c r = V31 m outs c r :=
  StableHlo.after_of_writes_sub _ _ ⟨wr, wr⟩ h
theorem V33_of (h : r ∉ hostOps3_2_W) : V33 m outs c r = V32 m outs c r :=
  StableHlo.after_of_writes_sub _ _ wr h
theorem V34_of (h : r ∉ hostOps3_3_W) : V34 m outs c r = V33 m outs c r :=
  StableHlo.after_of_writes_sub _ _ ⟨wr, wr⟩ h
theorem V35_of (h : r ∉ hostOps3_4_W) : V35 m outs c r = V34 m outs c r :=
  StableHlo.after_of_writes_sub _ _ wr h
theorem V36_of (h : r ∉ hostOps3_5_W) : V36 m outs c r = V35 m outs c r :=
  StableHlo.after_of_writes_sub _ _ ⟨wr, wr⟩ h
theorem V37_of (h : r ∉ hostOps3_6_W) : V37 m outs c r = V36 m outs c r :=
  StableHlo.after_of_writes_sub _ _ wr h
theorem V38_of (h : r ∉ hostOps3_7_W) : V38 m outs c r = V37 m outs c r :=
  StableHlo.after_of_writes_sub _ _ ⟨wr, wr⟩ h
theorem V39_of (h : r ∉ hostOps3_8_W) : V39 m outs c r = V38 m outs c r :=
  StableHlo.after_of_writes_sub _ _ wr h
theorem V40_of (h : r ∉ ([main_v30] : List (Ref sig .tc))) : V40 m outs c r = V39 m outs c r :=
  upd_of _ _ h
theorem V41_of (h : r ∉ hostOps4_W) : V41 m outs c r = V40 m outs c r :=
  StableHlo.after_of_writes_sub _ _ ⟨wr, wr, wr⟩ h
theorem V42_of (h : r ∉ hostOps4_1_W) : V42 m outs c r = V41 m outs c r :=
  StableHlo.after_of_writes_sub _ _ ⟨wr, wr⟩ h
theorem V43_of (h : r ∉ hostOps4_2_W) : V43 m outs c r = V42 m outs c r :=
  StableHlo.after_of_writes_sub _ _ wr h
theorem V44_of (h : r ∉ hostOps4_3_W) : V44 m outs c r = V43 m outs c r :=
  StableHlo.after_of_writes_sub _ _ ⟨wr, wr⟩ h
theorem V45_of (h : r ∉ hostOps4_4_W) : V45 m outs c r = V44 m outs c r :=
  StableHlo.after_of_writes_sub _ _ wr h
theorem V46_of (h : r ∉ hostOps4_5_W) : V46 m outs c r = V45 m outs c r :=
  StableHlo.after_of_writes_sub _ _ ⟨wr, wr⟩ h
theorem V47_of (h : r ∉ hostOps4_6_W) : V47 m outs c r = V46 m outs c r :=
  StableHlo.after_of_writes_sub _ _ wr h
theorem V48_of (h : r ∉ ([main_v37] : List (Ref sig .tc))) : V48 m outs c r = V47 m outs c r :=
  upd_of _ _ h
theorem V49_of (h : r ∉ hostOps5_W) : V49 m outs c r = V48 m outs c r :=
  StableHlo.after_of_writes_sub _ _ wr h
theorem V50_of (h : r ∉ hostOps5_1_W) : V50 m outs c r = V49 m outs c r :=
  StableHlo.after_of_writes_sub _ _ ⟨wr, wr⟩ h
theorem V51_of (h : r ∉ hostOps5_2_W) : V51 m outs c r = V50 m outs c r :=
  StableHlo.after_of_writes_sub _ _ wr h
theorem V52_of (h : r ∉ hostOps5_3_W) : V52 m outs c r = V51 m outs c r :=
  StableHlo.after_of_writes_sub _ _ ⟨wr, wr⟩ h
theorem V53_of (h : r ∉ hostOps5_4_W) : V53 m outs c r = V52 m outs c r :=
  StableHlo.after_of_writes_sub _ _ wr h
theorem V54_of (h : r ∉ hostOps5_5_W) : V54 m outs c r = V53 m outs c r :=
  StableHlo.after_of_writes_sub _ _ ⟨wr, wr⟩ h
theorem V55_of (h : r ∉ hostOps5_6_W) : V55 m outs c r = V54 m outs c r :=
  StableHlo.after_of_writes_sub _ _ wr h
theorem V56_of (h : r ∉ ([main_v42] : List (Ref sig .tc))) : V56 m outs c r = V55 m outs c r :=
  upd_of _ _ h
theorem V57_of (h : r ∉ hostOps6_W) : V57 m outs c r = V56 m outs c r :=
  StableHlo.after_of_writes_sub _ _ wr h
theorem V58_of (h : r ∉ hostOps6_1_W) : V58 m outs c r = V57 m outs c r :=
  StableHlo.after_of_writes_sub _ _ ⟨wr, wr⟩ h
theorem V59_of (h : r ∉ hostOps6_2_W) : V59 m outs c r = V58 m outs c r :=
  StableHlo.after_of_writes_sub _ _ wr h
theorem V60_of (h : r ∉ hostOps6_3_W) : V60 m outs c r = V59 m outs c r :=
  StableHlo.after_of_writes_sub _ _ ⟨wr, wr⟩ h
theorem V61_of (h : r ∉ hostOps6_4_W) : V61 m outs c r = V60 m outs c r :=
  StableHlo.after_of_writes_sub _ _ wr h
theorem V62_of (h : r ∉ hostOps6_5_W) : V62 m outs c r = V61 m outs c r :=
  StableHlo.after_of_writes_sub _ _ ⟨wr, wr⟩ h
theorem V63_of (h : r ∉ hostOps6_6_W) : V63 m outs c r = V62 m outs c r :=
  StableHlo.after_of_writes_sub _ _ wr h
theorem V64_of (h : r ∉ ([main_v47] : List (Ref sig .tc))) : V64 m outs c r = V63 m outs c r :=
  upd_of _ _ h
theorem V65_of (h : r ∉ hostOps7_W) : V65 m outs c r = V64 m outs c r :=
  StableHlo.after_of_writes_sub _ _ wr h

abbrev allW : List (List (Ref sig .tc)) :=
  [hostOps0_W, hostOps0_1_W, hostOps0_2_W, hostOps0_3_W, hostOps0_4_W, hostOps0_5_W, hostOps0_6_W, hostOps0_7_W, hostOps0_8_W, [main_v8], hostOps1_W, hostOps1_1_W, hostOps1_2_W, hostOps1_3_W, hostOps1_4_W, hostOps1_5_W, hostOps1_6_W, hostOps1_7_W, hostOps1_8_W, [main_v15], hostOps2_W, hostOps2_1_W, hostOps2_2_W, hostOps2_3_W, hostOps2_4_W, hostOps2_5_W, hostOps2_6_W, hostOps2_7_W, hostOps2_8_W, [main_v23], hostOps3_W, hostOps3_1_W, hostOps3_2_W, hostOps3_3_W, hostOps3_4_W, hostOps3_5_W, hostOps3_6_W, hostOps3_7_W, hostOps3_8_W, [main_v30], hostOps4_W, hostOps4_1_W, hostOps4_2_W, hostOps4_3_W, hostOps4_4_W, hostOps4_5_W, hostOps4_6_W, [main_v37], hostOps5_W, hostOps5_1_W, hostOps5_2_W, hostOps5_3_W, hostOps5_4_W, hostOps5_5_W, hostOps5_6_W, [main_v42], hostOps6_W, hostOps6_1_W, hostOps6_2_W, hostOps6_3_W, hostOps6_4_W, hostOps6_5_W, hostOps6_6_W, [main_v47], hostOps7_W]

-- a reference no item writes holds its launch contents at the end
theorem V65_of_notMem (h : allW.Forall (r ∉ ·)) : V65 m outs c r = m ((c : Thread nD τ).loc r) := by
  obtain ⟨h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65⟩ := h
  rw [V65_of, V64_of, V63_of, V62_of, V61_of, V60_of, V59_of, V58_of, V57_of, V56_of, V55_of, V54_of, V53_of, V52_of, V51_of, V50_of, V49_of, V48_of, V47_of, V46_of, V45_of, V44_of, V43_of, V42_of, V41_of, V40_of, V39_of, V38_of, V37_of, V36_of, V35_of, V34_of, V33_of, V32_of, V31_of, V30_of, V29_of, V28_of, V27_of, V26_of, V25_of, V24_of, V23_of, V22_of, V21_of, V20_of, V19_of, V18_of, V17_of, V16_of, V15_of, V14_of, V13_of, V12_of, V11_of, V10_of, V9_of, V8_of, V7_of, V6_of, V5_of, V4_of, V3_of, V2_of, V1_of] <;> assumption

theorem V65_main_arg13 : V65 m outs c main_arg13 = m ((c : Thread nD τ).loc main_arg13) :=
  V65_of_notMem m outs c _ (by decide)
theorem V65_main_arg14 : V65 m outs c main_arg14 = m ((c : Thread nD τ).loc main_arg14) :=
  V65_of_notMem m outs c _ (by decide)
theorem V65_main_arg15 : V65 m outs c main_arg15 = m ((c : Thread nD τ).loc main_arg15) :=
  V65_of_notMem m outs c _ (by decide)
theorem V65_main_arg16 : V65 m outs c main_arg16 = m ((c : Thread nD τ).loc main_arg16) :=
  V65_of_notMem m outs c _ (by decide)
theorem V65_main_arg17 : V65 m outs c main_arg17 = m ((c : Thread nD τ).loc main_arg17) :=
  V65_of_notMem m outs c _ (by decide)
theorem V65_main_arg18 : V65 m outs c main_arg18 = m ((c : Thread nD τ).loc main_arg18) :=
  V65_of_notMem m outs c _ (by decide)

end

section

variable {Ix : Type} [DecidableEq Ix] {U : Type} [URA U] {Lvl : Type} [Preorder Lvl]

abbrev adm : (p : Fin 7) → (pcfgs (F := F) p).Adm := fun p => (cfgs p).toPCfg_adm

-- a line of host operations as one segment of the run
abbrev hseg {𝒱₀ : Variants} {L : GSem nD τ sig → Finset Ix} {lv : GSem nD τ sig → Ix → Lvl} {ops : List (HloOp τ sig (Elt F))}
    (hs : ops.Forall fun op => op.bufs ⊆ StableHlo.tcRefs τ sig) (V : Dev nD → Valuation τ sig (Elt F))
    (e : Dev nD → sProp (MT nD τ sig Ix (Elt F) ℕ U Lvl)) (hf : ops.Forall fun op => op.fresh = ∅ := by repeat' constructor) :
    HostSeg (Ix := Ix) (Name := ℕ) (U := U) (Lvl := Lvl) (pcfgs (F := F)) defs₀ 𝒱₀ L lv :=
  HostSeg.ofOps _ _ _ _ _ (Pipeline.ucRefs τ sig) ops (fun op h => Pipeline.sub_ucRefs op (List.forall_iff_forall_mem.mp hs op h))
    (List.forall_iff_forall_mem.mp hf) V e

abbrev segs (𝒱₀ : Variants) (L : GSem nD τ sig → Finset Ix) (lv : GSem nD τ sig → Ix → Lvl) (E : Fin 8 → Dev nD → sProp (MT nD τ sig Ix (Elt F) ℕ U Lvl)) (ι : Ix)
    (pdats : (p : Fin 7) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (c : Dev nD) :
    List (Seg (pcfgs (F := F)) adm pdats ι defs₀ 𝒱₀ L lv) :=
  [.host (hseg hostOps0_sub (V0 m) (E 0)), .host (hseg hostOps0_1_sub (V1 m) (E 0)), .host (hseg hostOps0_2_sub (V2 m) (E 0)), .host (hseg hostOps0_3_sub (V3 m) (E 0)), .host (hseg hostOps0_4_sub (V4 m) (E 0)), .host (hseg hostOps0_5_sub (V5 m) (E 0)), .host (hseg hostOps0_6_sub (V6 m) (E 0)), .host (hseg hostOps0_7_sub (V7 m) (E 0)), .host (hseg hostOps0_8_sub (V8 m) (E 0)), .region R0, .host (hseg hostOps1_sub (V10 m outs) (E 1)), .host (hseg hostOps1_1_sub (V11 m outs) (E 1)), .host (hseg hostOps1_2_sub (V12 m outs) (E 1)), .host (hseg hostOps1_3_sub (V13 m outs) (E 1)), .host (hseg hostOps1_4_sub (V14 m outs) (E 1)), .host (hseg hostOps1_5_sub (V15 m outs) (E 1)), .host (hseg hostOps1_6_sub (V16 m outs) (E 1)), .host (hseg hostOps1_7_sub (V17 m outs) (E 1)), .host (hseg hostOps1_8_sub (V18 m outs) (E 1)), .region R1, .host (hseg hostOps2_sub (V20 m outs) (E 2)), .host (hseg hostOps2_1_sub (V21 m outs) (E 2)), .host (hseg hostOps2_2_sub (V22 m outs) (E 2)), .host (hseg hostOps2_3_sub (V23 m outs) (E 2)), .host (hseg hostOps2_4_sub (V24 m outs) (E 2)), .host (hseg hostOps2_5_sub (V25 m outs) (E 2)), .host (hseg hostOps2_6_sub (V26 m outs) (E 2)), .host (hseg hostOps2_7_sub (V27 m outs) (E 2)), .host (hseg hostOps2_8_sub (V28 m outs) (E 2)), .region R2, .host (hseg hostOps3_sub (V30 m outs) (E 3)), .host (hseg hostOps3_1_sub (V31 m outs) (E 3)), .host (hseg hostOps3_2_sub (V32 m outs) (E 3)), .host (hseg hostOps3_3_sub (V33 m outs) (E 3)), .host (hseg hostOps3_4_sub (V34 m outs) (E 3)), .host (hseg hostOps3_5_sub (V35 m outs) (E 3)), .host (hseg hostOps3_6_sub (V36 m outs) (E 3)), .host (hseg hostOps3_7_sub (V37 m outs) (E 3)), .host (hseg hostOps3_8_sub (V38 m outs) (E 3)), .region R3, .host (hseg hostOps4_sub (V40 m outs) (E 4)), .host (hseg hostOps4_1_sub (V41 m outs) (E 4)), .host (hseg hostOps4_2_sub (V42 m outs) (E 4)), .host (hseg hostOps4_3_sub (V43 m outs) (E 4)), .host (hseg hostOps4_4_sub (V44 m outs) (E 4)), .host (hseg hostOps4_5_sub (V45 m outs) (E 4)), .host (hseg hostOps4_6_sub (V46 m outs) (E 4)), .region R4, .host (hseg hostOps5_sub (V48 m outs) (E 5)), .host (hseg hostOps5_1_sub (V49 m outs) (E 5)), .host (hseg hostOps5_2_sub (V50 m outs) (E 5)), .host (hseg hostOps5_3_sub (V51 m outs) (E 5)), .host (hseg hostOps5_4_sub (V52 m outs) (E 5)), .host (hseg hostOps5_5_sub (V53 m outs) (E 5)), .host (hseg hostOps5_6_sub (V54 m outs) (E 5)), .region R5, .host (hseg hostOps6_sub (V56 m outs) (E 6)), .host (hseg hostOps6_1_sub (V57 m outs) (E 6)), .host (hseg hostOps6_2_sub (V58 m outs) (E 6)), .host (hseg hostOps6_3_sub (V59 m outs) (E 6)), .host (hseg hostOps6_4_sub (V60 m outs) (E 6)), .host (hseg hostOps6_5_sub (V61 m outs) (E 6)), .host (hseg hostOps6_6_sub (V62 m outs) (E 6)), .region R6, .host (hseg hostOps7_sub (V64 m outs) (E 7))]

end

end Cert.KernelIdeal.GenP

end
-- ==== Proof.MaskedBodyKI.lean ====
import proofs.«174655_j53695681135127_1_alg».proof.Proof.Gen.KernelIdeal.Launch
import proofs.«174655_j53695681135127_1_alg».proof.Proof.Gen.KernelIdeal.Skeleton
import proofs.«174655_j53695681135127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One grid point of the masked linear layer, as a function of the two scalars the point contributes: the contraction index a1 and the test c2 that it is the last one. -/
def maskedBody (a1 : BitVec 32) (c2 : BitVec 1) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) : Prog (TpuEff nD τ sig (Elt F) Λ₀ .tc) PUnit := do
  if _h : Scalar.cmpi .ne (Scalar.extui (Scalar.cmpi .eq a1 0#32)) 0#32 = 1#1 then do
    let _ ← Prog.lift (.load arg7 (Rect.unit (s := S512x1024) ![0, 0] S512x1024.size inb_S512x1024_S512x1024_0_0).toLoadRect (View.loadsAt_vmem h_S512x1024))
    Prog.lift (.store arg7 (Rect.unit (s := S512x1024) ![0, 0] S512x1024.size inb_S512x1024_S512x1024_0_0) (k0_pay1 (F := F)) Finset.univ (View.stores_vmem_bits_univ h_S512x1024 rfl) (.inl rfl))
    pure ⟨⟩
  else do
    pure ⟨⟩
  let v3 ← Prog.lift (.load arg3 (Rect.unit (s := S1024x1024) ![0, 0] S1024x1024.size inb_S1024x1024_S1024x1024_0_0).toLoadRect (View.loadsAt_vmem h_S1024x1024))
  let v6 ← Prog.lift (.load arg4 (Rect.unit (s := S1024x1024) ![0, 0] S1024x1024.size inb_S1024x1024_S1024x1024_0_0).toLoadRect (View.loadsAt_vmem h_S1024x1024))
  let v10 ← Prog.lift (.load arg2 (Rect.unit (s := S512x1024) ![0, 0] S512x1024.size inb_S512x1024_S512x1024_0_0).toLoadRect (View.loadsAt_vmem h_S512x1024))
  let v13 ← Prog.lift (.load arg7 (Rect.unit (s := S512x1024) ![0, 0] S512x1024.size inb_S512x1024_S512x1024_0_0).toLoadRect (View.loadsAt_vmem h_S512x1024))
  let _ ← Prog.lift (.load arg7 (Rect.unit (s := S512x1024) ![0, 0] S512x1024.size inb_S512x1024_S512x1024_0_0).toLoadRect (View.loadsAt_vmem h_S512x1024))
  Prog.lift (.store arg7 (Rect.unit (s := S512x1024) ![0, 0] S512x1024.size inb_S512x1024_S512x1024_0_0) (k0_pay2 v3 v6 v10 v13) Finset.univ (View.stores_vmem_bits_univ h_S512x1024 rfl) (.inl rfl))
  if _h : c2 = 1#1 then do
    let v22 ← Prog.lift (.load arg7 (Rect.unit (s := S512x1024) ![0, 0] S512x1024.size inb_S512x1024_S512x1024_0_0).toLoadRect (View.loadsAt_vmem h_S512x1024))
    let v23 ← Prog.lift (.load arg5 (Rect.unit (s := S1x1024) ![0, 0] S1x1024.size inb_S1x1024_S1x1024_0_0).toLoadRect (View.loadsAt_vmem h_S1x1024))
    let _ ← Prog.lift (.load arg6 (Rect.unit (s := S512x1024) ![0, 0] S512x1024.size inb_S512x1024_S512x1024_0_0).toLoadRect (View.loadsAt_vmem h_S512x1024))
    Prog.lift (.store arg6 (Rect.unit (s := S512x1024) ![0, 0] S512x1024.size inb_S512x1024_S512x1024_0_0) (k0_pay3 v22 v23) Finset.univ (View.stores_vmem_bits_univ h_S512x1024 rfl) (.inl rfl))
    pure ⟨⟩
  else do
    pure ⟨⟩
  pure ⟨⟩

theorem cc0_eq_maskedBody (i : grid0.Coords) : cc0__masked_linear_kernel (F := F) i = maskedBody (BitVec.ofNat 32 (i 1).val) (k0_cond2 i) := by
  rw [cc0__masked_linear_kernel_eq_skeleton]; rfl
theorem cc1_eq_maskedBody (i : grid1.Coords) : cc1__masked_linear_kernel (F := F) i = maskedBody (BitVec.ofNat 32 (i 1).val) (k1_cond2 i) := by
  rw [cc1__masked_linear_kernel_eq_skeleton]; rfl
theorem cc2_eq_maskedBody (i : grid2.Coords) : cc2__masked_linear_kernel (F := F) i = maskedBody (BitVec.ofNat 32 (i 1).val) (k2_cond2 i) := by
  rw [cc2__masked_linear_kernel_eq_skeleton]; rfl
theorem cc3_eq_maskedBody (i : grid3.Coords) : cc3__masked_linear_kernel (F := F) i = maskedBody (BitVec.ofNat 32 (i 1).val) (k3_cond2 i) := by
  rw [cc3__masked_linear_kernel_eq_skeleton]; rfl

variable (c : Dev nD) (a1 : BitVec 32) (c2 : BitVec 1) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
  (x0 : Vec F S512x1024 .f32) (x1 : Vec F S1024x1024 .f32) (x2 : Vec F S1024x1024 .f32) (x3 : Vec F S1x1024 .f32) (xs0 : Vec F S512x1024 .f32)

set_option maxHeartbeats 4000000 in
/-- The contraction index is the first and not the last. -/
def maskedRun_A (hc0 : Scalar.cmpi .ne (Scalar.extui (Scalar.cmpi .eq a1 0#32)) 0#32 = 1#1) (hc1 : ¬c2 = 1#1) :
    { LS0 : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (maskedBody a1 c2 arg2 harg2 arg3 harg3 arg4 harg4 arg5 harg5 arg6 harg6 arg7 harg7) K } := by
  refine ⟨?_, fun xi4 E K => ?run⟩
  case run =>
    unfold maskedBody owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- The contraction index is neither the first nor the last; xs0 is the running sum so far. -/
def maskedRun_B (hc0 : ¬Scalar.cmpi .ne (Scalar.extui (Scalar.cmpi .eq a1 0#32)) 0#32 = 1#1) (hc1 : ¬c2 = 1#1) :
    { LS0 : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (maskedBody a1 c2 arg2 harg2 arg3 harg3 arg4 harg4 arg5 harg5 arg6 harg6 arg7 harg7) K } := by
  refine ⟨?_, fun xi4 E K => ?run⟩
  case run =>
    unfold maskedBody owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 4000000 in
/-- The contraction index is the last and not the first; xs0 is the running sum so far. -/
def maskedRun_C (hc0 : ¬Scalar.cmpi .ne (Scalar.extui (Scalar.cmpi .eq a1 0#32)) 0#32 = 1#1) (hc1 : c2 = 1#1) :
    Σ' (L4 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (maskedBody a1 c2 arg2 harg2 arg3 harg3 arg4 harg4 arg5 harg5 arg6 harg6 arg7 harg7) K } := by
  refine ⟨?_, ?_, fun E K => ?run⟩
  case run =>
    unfold maskedBody owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS

theorem maskedCover_A (hc0 : Scalar.cmpi .ne (Scalar.extui (Scalar.cmpi .eq a1 0#32)) 0#32 = 1#1) (hc1 : ¬c2 = 1#1) (y : S512x1024.Idx) : ∃ pc ∈ (maskedRun_A c a1 c2 arg2 harg2 arg3 harg3 arg4 harg4 arg5 harg5 arg6 harg6 arg7 harg7 x0 x1 x2 x3 hc0 hc1).1, y ∈ pc.1.set := View.cover_of_tiledL _ S512x1024.size (by sl_kernel_rfl) y
theorem maskedCover_B (hc0 : ¬Scalar.cmpi .ne (Scalar.extui (Scalar.cmpi .eq a1 0#32)) 0#32 = 1#1) (hc1 : ¬c2 = 1#1) (y : S512x1024.Idx) : ∃ pc ∈ (maskedRun_B c a1 c2 arg2 harg2 arg3 harg3 arg4 harg4 arg5 harg5 arg6 harg6 arg7 harg7 x0 x1 x2 x3 xs0 hc0 hc1).1, y ∈ pc.1.set := View.cover_of_tiledL _ S512x1024.size (by sl_kernel_rfl) y
theorem maskedCover_C (hc0 : ¬Scalar.cmpi .ne (Scalar.extui (Scalar.cmpi .eq a1 0#32)) 0#32 = 1#1) (hc1 : c2 = 1#1) (y : S512x1024.Idx) : ∃ pc ∈ (maskedRun_C c a1 c2 arg2 harg2 arg3 harg3 arg4 harg4 arg5 harg5 arg6 harg6 arg7 harg7 x0 x1 x2 x3 xs0 hc0 hc1).2.1, y ∈ pc.1.set := View.cover_of_tiledL _ S512x1024.size (by sl_kernel_rfl) y
theorem maskedCoverOut_C (hc0 : ¬Scalar.cmpi .ne (Scalar.extui (Scalar.cmpi .eq a1 0#32)) 0#32 = 1#1) (hc1 : c2 = 1#1) (y : S512x1024.Idx) : ∃ pc ∈ (maskedRun_C c a1 c2 arg2 harg2 arg3 harg3 arg4 harg4 arg5 harg5 arg6 harg6 arg7 harg7 x0 x1 x2 x3 xs0 hc0 hc1).1, y ∈ pc.1.set := View.cover_of_tiledL _ S512x1024.size (by sl_kernel_rfl) y

theorem zeroOff : (![0, 0] : Fin 2 → Nat) = fun _ => 0 := funext fun a => by fin_cases a <;> rfl

variable (v : View sig .tc .vmem S512x1024 .f32)

/-- At the first contraction index the running sum is the block product added to zeros; -/
theorem maskedAcc_A (hc0 : Scalar.cmpi .ne (Scalar.extui (Scalar.cmpi .eq a1 0#32)) 0#32 = 1#1) (hc1 : ¬c2 = 1#1) : v.read (Elt F) (v.writes (Elt F) v.junk (maskedRun_A c a1 c2 arg2 harg2 arg3 harg3 arg4 harg4 arg5 harg5 arg6 harg6 arg7 harg7 x0 x1 x2 x3 hc0 hc1).1) = k0_pay2 x1 x2 x0 (k0_pay1 (F := F)) := by
  rw [View.read_writes_eq_canon _ _ _ (maskedCover_A c a1 c2 arg2 harg2 arg3 harg3 arg4 harg4 arg5 harg5 arg6 harg6 arg7 harg7 x0 x1 x2 x3 hc0 hc1)]
  unfold maskedRun_A
  dsimp only
  sl_unfold_words
  rw [View.canon_cons_unit_zero (S := S512x1024) zeroOff, View.readCov_unit_zero (S := S512x1024) _ zeroOff]
  simp only [View.readAt_eq_ld, harg2.read_unread, harg3.read_unread, harg4.read_unread, View.ld_unit_zero (S := S512x1024) zeroOff, View.ld_unit_zero (S := S1024x1024) zeroOff]

/-- at every other one it is the block product added to the sum so far. -/
theorem maskedAcc_B (hc0 : ¬Scalar.cmpi .ne (Scalar.extui (Scalar.cmpi .eq a1 0#32)) 0#32 = 1#1) (hc1 : ¬c2 = 1#1) : v.read (Elt F) (v.writes (Elt F) v.junk (maskedRun_B c a1 c2 arg2 harg2 arg3 harg3 arg4 harg4 arg5 harg5 arg6 harg6 arg7 harg7 x0 x1 x2 x3 xs0 hc0 hc1).1) = k0_pay2 x1 x2 x0 xs0 := by
  rw [View.read_writes_eq_canon _ _ _ (maskedCover_B c a1 c2 arg2 harg2 arg3 harg3 arg4 harg4 arg5 harg5 arg6 harg6 arg7 harg7 x0 x1 x2 x3 xs0 hc0 hc1)]
  unfold maskedRun_B
  dsimp only
  sl_unfold_words
  rw [View.canon_unit_zero zeroOff]
  simp only [View.readAt_eq_ld, harg2.read_unread, harg3.read_unread, harg4.read_unread, harg7.read_unread, View.ld_unit_zero (S := S512x1024) zeroOff, View.ld_unit_zero (S := S1024x1024) zeroOff]

theorem maskedAcc_C (hc0 : ¬Scalar.cmpi .ne (Scalar.extui (Scalar.cmpi .eq a1 0#32)) 0#32 = 1#1) (hc1 : c2 = 1#1) : v.read (Elt F) (v.writes (Elt F) v.junk (maskedRun_C c a1 c2 arg2 harg2 arg3 harg3 arg4 harg4 arg5 harg5 arg6 harg6 arg7 harg7 x0 x1 x2 x3 xs0 hc0 hc1).2.1) = k0_pay2 x1 x2 x0 xs0 := by
  rw [View.read_writes_eq_canon _ _ _ (maskedCover_C c a1 c2 arg2 harg2 arg3 harg3 arg4 harg4 arg5 harg5 arg6 harg6 arg7 harg7 x0 x1 x2 x3 xs0 hc0 hc1)]
  unfold maskedRun_C
  dsimp only
  sl_unfold_words
  rw [View.canon_unit_zero zeroOff]
  simp only [View.readAt_eq_ld, harg2.read_unread, harg3.read_unread, harg4.read_unread, harg7.read_unread, View.ld_unit_zero (S := S512x1024) zeroOff, View.ld_unit_zero (S := S1024x1024) zeroOff]

/-- At the last contraction index the result is the running sum plus the bias row, cut off below at zero. -/
theorem maskedOut_C (hc0 : ¬Scalar.cmpi .ne (Scalar.extui (Scalar.cmpi .eq a1 0#32)) 0#32 = 1#1) (hc1 : c2 = 1#1) : v.read (Elt F) (v.writes (Elt F) v.junk (maskedRun_C c a1 c2 arg2 harg2 arg3 harg3 arg4 harg4 arg5 harg5 arg6 harg6 arg7 harg7 x0 x1 x2 x3 xs0 hc0 hc1).1) = k0_pay3 (k0_pay2 x1 x2 x0 xs0) x3 := by
  rw [View.read_writes_eq_canon _ _ _ (maskedCoverOut_C c a1 c2 arg2 harg2 arg3 harg3 arg4 harg4 arg5 harg5 arg6 harg6 arg7 harg7 x0 x1 x2 x3 xs0 hc0 hc1)]
  unfold maskedRun_C
  dsimp only
  sl_unfold_words
  rw [View.canon_unit_zero zeroOff]
  simp only [View.readCov_unit_zero (S := S512x1024) _ zeroOff, View.readAt_eq_ld, harg2.read_unread, harg3.read_unread, harg4.read_unread, harg5.read_unread, harg7.read_unread, View.ld_unit_zero (S := S512x1024) zeroOff, View.ld_unit_zero (S := S1024x1024) zeroOff, View.ld_unit_zero (S := S1x1024) zeroOff]

end Cert.KernelIdeal.Hand

end
-- ==== Proof.Reg0KI.lean ====
import proofs.«174655_j53695681135127_1_alg».proof.Proof.MaskedBodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev scM0 : Memref sig .tc .vmem S512x1024 .f32 := Memref.whole cc0_scratch0
abbrev VS0 : View sig .tc .vmem S512x1024 .f32 := scM0.view
abbrev VO0 : View sig .tc .vmem S512x1024 .f32 := (Memref.whole cc0_stg4_0 : Memref sig .tc .vmem S512x1024 .f32).view

theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

section
variable (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

def sout0_A (hc0 : cond0_0 i) (hc1 : ¬cond0_1 i) (x0 : Vec F S512x1024 .f32) (x1 : Vec F S1024x1024 .f32) (x2 : Vec F S1024x1024 .f32) (x3 : Vec F S1x1024 .f32) : Vec F S512x1024 .f32 :=
  VS0.read (Elt F) (VS0.writes (Elt F) VS0.junk (maskedRun_A c _ _ arg2 harg2 arg3 harg3 arg4 harg4 arg5 harg5 arg6 harg6 arg7 harg7 x0 x1 x2 x3 hc0 hc1).1)
def sout0_B (hc0 : ¬cond0_0 i) (hc1 : ¬cond0_1 i) (x0 : Vec F S512x1024 .f32) (x1 : Vec F S1024x1024 .f32) (x2 : Vec F S1024x1024 .f32) (x3 : Vec F S1x1024 .f32) (xs0 : Vec F S512x1024 .f32) : Vec F S512x1024 .f32 :=
  VS0.read (Elt F) (VS0.writes (Elt F) VS0.junk (maskedRun_B c _ _ arg2 harg2 arg3 harg3 arg4 harg4 arg5 harg5 arg6 harg6 arg7 harg7 x0 x1 x2 x3 xs0 hc0 hc1).1)
def sout0_C (hc0 : ¬cond0_0 i) (hc1 : cond0_1 i) (x0 : Vec F S512x1024 .f32) (x1 : Vec F S1024x1024 .f32) (x2 : Vec F S1024x1024 .f32) (x3 : Vec F S1x1024 .f32) (xs0 : Vec F S512x1024 .f32) : Vec F S512x1024 .f32 :=
  VS0.read (Elt F) (VS0.writes (Elt F) VS0.junk (maskedRun_C c _ _ arg2 harg2 arg3 harg3 arg4 harg4 arg5 harg5 arg6 harg6 arg7 harg7 x0 x1 x2 x3 xs0 hc0 hc1).2.1)
def out0_C (hc0 : ¬cond0_0 i) (hc1 : cond0_1 i) (x0 : Vec F S512x1024 .f32) (x1 : Vec F S1024x1024 .f32) (x2 : Vec F S1024x1024 .f32) (x3 : Vec F S1x1024 .f32) (xs0 : Vec F S512x1024 .f32) : Vec F S512x1024 .f32 :=
  VO0.read (Elt F) (VO0.writes (Elt F) VO0.junk (maskedRun_C c _ _ arg2 harg2 arg3 harg3 arg4 harg4 arg5 harg5 arg6 harg6 arg7 harg7 x0 x1 x2 x3 xs0 hc0 hc1).1)

end

def outsAt0 (c : Dev nD) : (n : ℕ) → n < cfg0.N → Vec F S512x1024 .f32 × Vec F S512x1024 .f32
  | 0, hn => (iblk0 V c 4 ⟨0, hn⟩, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 20 = 0 then
      if h1 : (n + 1) % 20 = 19 then
        False.elim (by omega)
      else
        (iblk0 V c 4 ⟨n + 1, hn⟩, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 20 = 19 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (iblk0 V c 4 ⟨n + 1, hn⟩, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 20 = 0) (h1 : ¬t.val % 20 = 19) :
    outsAt0 V c t.val t.isLt = (iblk0 V c 4 t, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 20 = 0) (h1 : ¬t.val % 20 = 19) :
    outsAt0 V c t.val t.isLt = (iblk0 V c 4 t, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 20 = 0) (h1 : t.val % 20 = 19) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [cc0_eq_maskedBody]
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 20 = 0
  · by_cases h1 : t.val % 20 = 19
    · exfalso; omega
    · rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk0 V c 0 t) (iblk0 V c 1 t) (iblk0 V c 2 t) (iblk0 V c 3 t) ((hcond0_0 t).mpr h0) (fun h => h1 ((hcond0_1 t).mp h))).2 _ Set.univ _)
        iframe H0 H1 H2 H3 H4 HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk0 V c 0 t) (iblk0 V c 1 t) (iblk0 V c 2 t) (iblk0 V c 3 t) ((hcond0_0 t).mpr h0) (fun h => h1 ((hcond0_1 t).mp h))).2 _ Set.univ _)
        iframe H0 H1 H2 H3 H4
        isplitl [HS0]; · iexists _; iexact HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
  · by_cases h1 : t.val % 20 = 19
    · rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C sout0_C; (try dsimp only)
      have hz : t.val ≠ 0 := by omega
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_C c _ _ _ _ _ _ _ _ _ _ _ _ _ _ (iblk0 V c 0 t) (iblk0 V c 1 t) (iblk0 V c 2 t) (iblk0 V c 3 t) _ (fun h => h0 ((hcond0_0 t).mp h)) ((hcond0_1 t).mpr h1)).2.2 Set.univ _)
      iframe H0 H1 H2 H3 HS0
      isplitl [H4]; · iexists _; iexact H4
      iintro ⟨H0, H1, H2, H3, ⟨%e4, H4⟩, ⟨%es0, HS0⟩⟩
      iframe Hrest Hg Ho H0 H1 H2 H3
      isplitl [HS0]
      · unfold owns; iexists _; isplitr
        swap; · iexact HS0
        ipureintro; exact View.read_writes_of_cover _ _ _ _ _ (maskedCover_C c _ _ _ _ _ _ _ _ _ _ _ _ _ _ _ _ _ _ _ _ _)
      unfold owns; iexists _; isplitr
      swap; · iexact H4
      ipureintro; exact View.read_writes_of_cover _ _ _ _ _ (maskedCoverOut_C c _ _ _ _ _ _ _ _ _ _ _ _ _ _ _ _ _ _ _ _ _)
    · rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      have hz : t.val ≠ 0 := by omega
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_B c _ _ _ _ _ _ _ _ _ _ _ _ _ _ (iblk0 V c 0 t) (iblk0 V c 1 t) (iblk0 V c 2 t) (iblk0 V c 3 t) _ (fun h => h0 ((hcond0_0 t).mp h)) (fun h => h1 ((hcond0_1 t).mp h))).2 _ Set.univ _)
      iframe H0 H1 H2 H3 H4 HS0
      iintro ⟨H0, H1, H2, H3, H4, ⟨%es0, HS0⟩⟩
      iframe Hrest Hg Ho H0 H1 H2 H3
      isplitl [HS0]
      · unfold owns; iexists _; isplitr
        swap; · iexact HS0
        ipureintro; exact View.read_writes_of_cover _ _ _ _ _ (maskedCover_B c _ _ _ _ _ _ _ _ _ _ _ _ _ _ _ _ _ _ _ _ _)
      iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have ht : (Fin.last cfg0.N).val ≠ 0 := by rw [Fin.val_last]; have : cfg0.N = 100 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

end Cert.KernelIdeal.Hand

end
-- ==== Proof.Reg1KI.lean ====
import proofs.«174655_j53695681135127_1_alg».proof.Proof.MaskedBodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
abbrev scM1 : Memref sig .tc .vmem S512x1024 .f32 := Memref.whole cc1_scratch0
abbrev VS1 : View sig .tc .vmem S512x1024 .f32 := scM1.view
abbrev VO1 : View sig .tc .vmem S512x1024 .f32 := (Memref.whole cc1_stg4_0 : Memref sig .tc .vmem S512x1024 .f32).view

theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

section
variable (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

def sout1_A (hc0 : cond1_0 i) (hc1 : ¬cond1_1 i) (x0 : Vec F S512x1024 .f32) (x1 : Vec F S1024x1024 .f32) (x2 : Vec F S1024x1024 .f32) (x3 : Vec F S1x1024 .f32) : Vec F S512x1024 .f32 :=
  VS1.read (Elt F) (VS1.writes (Elt F) VS1.junk (maskedRun_A c _ _ arg2 harg2 arg3 harg3 arg4 harg4 arg5 harg5 arg6 harg6 arg7 harg7 x0 x1 x2 x3 hc0 hc1).1)
def sout1_B (hc0 : ¬cond1_0 i) (hc1 : ¬cond1_1 i) (x0 : Vec F S512x1024 .f32) (x1 : Vec F S1024x1024 .f32) (x2 : Vec F S1024x1024 .f32) (x3 : Vec F S1x1024 .f32) (xs0 : Vec F S512x1024 .f32) : Vec F S512x1024 .f32 :=
  VS1.read (Elt F) (VS1.writes (Elt F) VS1.junk (maskedRun_B c _ _ arg2 harg2 arg3 harg3 arg4 harg4 arg5 harg5 arg6 harg6 arg7 harg7 x0 x1 x2 x3 xs0 hc0 hc1).1)
def sout1_C (hc0 : ¬cond1_0 i) (hc1 : cond1_1 i) (x0 : Vec F S512x1024 .f32) (x1 : Vec F S1024x1024 .f32) (x2 : Vec F S1024x1024 .f32) (x3 : Vec F S1x1024 .f32) (xs0 : Vec F S512x1024 .f32) : Vec F S512x1024 .f32 :=
  VS1.read (Elt F) (VS1.writes (Elt F) VS1.junk (maskedRun_C c _ _ arg2 harg2 arg3 harg3 arg4 harg4 arg5 harg5 arg6 harg6 arg7 harg7 x0 x1 x2 x3 xs0 hc0 hc1).2.1)
def out1_C (hc0 : ¬cond1_0 i) (hc1 : cond1_1 i) (x0 : Vec F S512x1024 .f32) (x1 : Vec F S1024x1024 .f32) (x2 : Vec F S1024x1024 .f32) (x3 : Vec F S1x1024 .f32) (xs0 : Vec F S512x1024 .f32) : Vec F S512x1024 .f32 :=
  VO1.read (Elt F) (VO1.writes (Elt F) VO1.junk (maskedRun_C c _ _ arg2 harg2 arg3 harg3 arg4 harg4 arg5 harg5 arg6 harg6 arg7 harg7 x0 x1 x2 x3 xs0 hc0 hc1).1)

end

def outsAt1 (c : Dev nD) : (n : ℕ) → n < cfg1.N → Vec F S512x1024 .f32 × Vec F S512x1024 .f32
  | 0, hn => (iblk1 V c 4 ⟨0, hn⟩, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 5 = 0 then
      if h1 : (n + 1) % 5 = 4 then
        False.elim (by omega)
      else
        (iblk1 V c 4 ⟨n + 1, hn⟩, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 5 = 4 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (iblk1 V c 4 ⟨n + 1, hn⟩, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 5 = 0) (h1 : ¬t.val % 5 = 4) :
    outsAt1 V c t.val t.isLt = (iblk1 V c 4 t, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (iblk1 V c 4 t, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [cc1_eq_maskedBody]
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 15 := lt_of_lt_of_eq t.isLt (show cfg1.N = 15 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 5 = 0
  · by_cases h1 : t.val % 5 = 4
    · exfalso; omega
    · rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk1 V c 0 t) (iblk1 V c 1 t) (iblk1 V c 2 t) (iblk1 V c 3 t) ((hcond1_0 t).mpr h0) (fun h => h1 ((hcond1_1 t).mp h))).2 _ Set.univ _)
        iframe H0 H1 H2 H3 H4 HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk1 V c 0 t) (iblk1 V c 1 t) (iblk1 V c 2 t) (iblk1 V c 3 t) ((hcond1_0 t).mpr h0) (fun h => h1 ((hcond1_1 t).mp h))).2 _ Set.univ _)
        iframe H0 H1 H2 H3 H4
        isplitl [HS0]; · iexists _; iexact HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
  · by_cases h1 : t.val % 5 = 4
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_C c _ _ _ _ _ _ _ _ _ _ _ _ _ _ (iblk1 V c 0 t) (iblk1 V c 1 t) (iblk1 V c 2 t) (iblk1 V c 3 t) _ (fun h => h0 ((hcond1_0 t).mp h)) ((hcond1_1 t).mpr h1)).2.2 Set.univ _)
      iframe H0 H1 H2 H3 HS0
      isplitl [H4]; · iexists _; iexact H4
      iintro ⟨H0, H1, H2, H3, ⟨%e4, H4⟩, ⟨%es0, HS0⟩⟩
      iframe Hrest Hg Ho H0 H1 H2 H3
      isplitl [HS0]
      · unfold owns; iexists _; isplitr
        swap; · iexact HS0
        ipureintro; exact View.read_writes_of_cover _ _ _ _ _ (maskedCover_C c _ _ _ _ _ _ _ _ _ _ _ _ _ _ _ _ _ _ _ _ _)
      unfold owns; iexists _; isplitr
      swap; · iexact H4
      ipureintro; exact View.read_writes_of_cover _ _ _ _ _ (maskedCoverOut_C c _ _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_B c _ _ _ _ _ _ _ _ _ _ _ _ _ _ (iblk1 V c 0 t) (iblk1 V c 1 t) (iblk1 V c 2 t) (iblk1 V c 3 t) _ (fun h => h0 ((hcond1_0 t).mp h)) (fun h => h1 ((hcond1_1 t).mp h))).2 _ Set.univ _)
      iframe H0 H1 H2 H3 H4 HS0
      iintro ⟨H0, H1, H2, H3, H4, ⟨%es0, HS0⟩⟩
      iframe Hrest Hg Ho H0 H1 H2 H3
      isplitl [HS0]
      · unfold owns; iexists _; isplitr
        swap; · iexact HS0
        ipureintro; exact View.read_writes_of_cover _ _ _ _ _ (maskedCover_B c _ _ _ _ _ _ _ _ _ _ _ _ _ _ _ _ _ _ _ _ _)
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 15 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

end Cert.KernelIdeal.Hand

end
-- ==== Proof.Reg2KI.lean ====
import proofs.«174655_j53695681135127_1_alg».proof.Proof.MaskedBodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1024 .f32 := win2_4.stage (cfg2.slots t 4)
abbrev hs2_4 (t : Fin cfg2.N) : (ms2_4 t).IsWhole := hstage2_4 ((cfg2.slots t 4).cast nbuf2_4)
abbrev scM2 : Memref sig .tc .vmem S512x1024 .f32 := Memref.whole cc2_scratch0
abbrev VS2 : View sig .tc .vmem S512x1024 .f32 := scM2.view
abbrev VO2 : View sig .tc .vmem S512x1024 .f32 := (Memref.whole cc2_stg4_0 : Memref sig .tc .vmem S512x1024 .f32).view

theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

section
variable (c : Dev nD) (i : grid2.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

def sout2_A (hc0 : cond2_0 i) (hc1 : ¬cond2_1 i) (x0 : Vec F S512x1024 .f32) (x1 : Vec F S1024x1024 .f32) (x2 : Vec F S1024x1024 .f32) (x3 : Vec F S1x1024 .f32) : Vec F S512x1024 .f32 :=
  VS2.read (Elt F) (VS2.writes (Elt F) VS2.junk (maskedRun_A c _ _ arg2 harg2 arg3 harg3 arg4 harg4 arg5 harg5 arg6 harg6 arg7 harg7 x0 x1 x2 x3 hc0 hc1).1)
def sout2_B (hc0 : ¬cond2_0 i) (hc1 : ¬cond2_1 i) (x0 : Vec F S512x1024 .f32) (x1 : Vec F S1024x1024 .f32) (x2 : Vec F S1024x1024 .f32) (x3 : Vec F S1x1024 .f32) (xs0 : Vec F S512x1024 .f32) : Vec F S512x1024 .f32 :=
  VS2.read (Elt F) (VS2.writes (Elt F) VS2.junk (maskedRun_B c _ _ arg2 harg2 arg3 harg3 arg4 harg4 arg5 harg5 arg6 harg6 arg7 harg7 x0 x1 x2 x3 xs0 hc0 hc1).1)
def sout2_C (hc0 : ¬cond2_0 i) (hc1 : cond2_1 i) (x0 : Vec F S512x1024 .f32) (x1 : Vec F S1024x1024 .f32) (x2 : Vec F S1024x1024 .f32) (x3 : Vec F S1x1024 .f32) (xs0 : Vec F S512x1024 .f32) : Vec F S512x1024 .f32 :=
  VS2.read (Elt F) (VS2.writes (Elt F) VS2.junk (maskedRun_C c _ _ arg2 harg2 arg3 harg3 arg4 harg4 arg5 harg5 arg6 harg6 arg7 harg7 x0 x1 x2 x3 xs0 hc0 hc1).2.1)
def out2_C (hc0 : ¬cond2_0 i) (hc1 : cond2_1 i) (x0 : Vec F S512x1024 .f32) (x1 : Vec F S1024x1024 .f32) (x2 : Vec F S1024x1024 .f32) (x3 : Vec F S1x1024 .f32) (xs0 : Vec F S512x1024 .f32) : Vec F S512x1024 .f32 :=
  VO2.read (Elt F) (VO2.writes (Elt F) VO2.junk (maskedRun_C c _ _ arg2 harg2 arg3 harg3 arg4 harg4 arg5 harg5 arg6 harg6 arg7 harg7 x0 x1 x2 x3 xs0 hc0 hc1).1)

end

def outsAt2 (c : Dev nD) : (n : ℕ) → n < cfg2.N → Vec F S512x1024 .f32 × Vec F S512x1024 .f32
  | 0, hn => (iblk2 V c 4 ⟨0, hn⟩, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 8 = 0 then
      if h1 : (n + 1) % 8 = 7 then
        False.elim (by omega)
      else
        (iblk2 V c 4 ⟨n + 1, hn⟩, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 8 = 7 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (iblk2 V c 4 ⟨n + 1, hn⟩, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (iblk2 V c 4 t, sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (iblk2 V c 4 t, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq_maskedBody]
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 24 := lt_of_lt_of_eq t.isLt (show cfg2.N = 24 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 8 = 0
  · by_cases h1 : t.val % 8 = 7
    · exfalso; omega
    · rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk2 V c 0 t) (iblk2 V c 1 t) (iblk2 V c 2 t) (iblk2 V c 3 t) ((hcond2_0 t).mpr h0) (fun h => h1 ((hcond2_1 t).mp h))).2 _ Set.univ _)
        iframe H0 H1 H2 H3 H4 HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk2 V c 0 t) (iblk2 V c 1 t) (iblk2 V c 2 t) (iblk2 V c 3 t) ((hcond2_0 t).mpr h0) (fun h => h1 ((hcond2_1 t).mp h))).2 _ Set.univ _)
        iframe H0 H1 H2 H3 H4
        isplitl [HS0]; · iexists _; iexact HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
  · by_cases h1 : t.val % 8 = 7
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C sout2_C; (try dsimp only)
      have hz : t.val ≠ 0 := by omega
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_C c _ _ _ _ _ _ _ _ _ _ _ _ _ _ (iblk2 V c 0 t) (iblk2 V c 1 t) (iblk2 V c 2 t) (iblk2 V c 3 t) _ (fun h => h0 ((hcond2_0 t).mp h)) ((hcond2_1 t).mpr h1)).2.2 Set.univ _)
      iframe H0 H1 H2 H3 HS0
      isplitl [H4]; · iexists _; iexact H4
      iintro ⟨H0, H1, H2, H3, ⟨%e4, H4⟩, ⟨%es0, HS0⟩⟩
      iframe Hrest Hg Ho H0 H1 H2 H3
      isplitl [HS0]
      · unfold owns; iexists _; isplitr
        swap; · iexact HS0
        ipureintro; exact View.read_writes_of_cover _ _ _ _ _ (maskedCover_C c _ _ _ _ _ _ _ _ _ _ _ _ _ _ _ _ _ _ _ _ _)
      unfold owns; iexists _; isplitr
      swap; · iexact H4
      ipureintro; exact View.read_writes_of_cover _ _ _ _ _ (maskedCoverOut_C c _ _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B; (try dsimp only)
      have hz : t.val ≠ 0 := by omega
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_B c _ _ _ _ _ _ _ _ _ _ _ _ _ _ (iblk2 V c 0 t) (iblk2 V c 1 t) (iblk2 V c 2 t) (iblk2 V c 3 t) _ (fun h => h0 ((hcond2_0 t).mp h)) (fun h => h1 ((hcond2_1 t).mp h))).2 _ Set.univ _)
      iframe H0 H1 H2 H3 H4 HS0
      iintro ⟨H0, H1, H2, H3, H4, ⟨%es0, HS0⟩⟩
      iframe Hrest Hg Ho H0 H1 H2 H3
      isplitl [HS0]
      · unfold owns; iexists _; isplitr
        swap; · iexact HS0
        ipureintro; exact View.read_writes_of_cover _ _ _ _ _ (maskedCover_B c _ _ _ _ _ _ _ _ _ _ _ _ _ _ _ _ _ _ _ _ _)
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  have ht : (Fin.last cfg2.N).val ≠ 0 := by rw [Fin.val_last]; have : cfg2.N = 24 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

end Cert.KernelIdeal.Hand

end
-- ==== Proof.Reg3KI.lean ====
import proofs.«174655_j53695681135127_1_alg».proof.Proof.MaskedBodyKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 3 = 0 :=
  (by decide +kernel : ∀ t : Fin grid3.N, cond3_0 (grid3.coords t) ↔ t.val % 3 = 0)

abbrev cond3_1 (i : grid3.Coords) : Prop := k3_cond2 i = 1#1
theorem hcond3_1 : ∀ t : Fin cfg3.N, cond3_1 (grid3.coords t) ↔ t.val % 3 = 2 :=
  (by decide +kernel : ∀ t : Fin grid3.N, cond3_1 (grid3.coords t) ↔ t.val % 3 = 2)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

abbrev ms3_0 (t : Fin cfg3.N) : Memref sig .tc .vmem S512x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x1024 .f32 := win3_4.stage (cfg3.slots t 4)
abbrev hs3_4 (t : Fin cfg3.N) : (ms3_4 t).IsWhole := hstage3_4 ((cfg3.slots t 4).cast nbuf3_4)
abbrev scM3 : Memref sig .tc .vmem S512x1024 .f32 := Memref.whole cc3_scratch0
abbrev VS3 : View sig .tc .vmem S512x1024 .f32 := scM3.view
abbrev VO3 : View sig .tc .vmem S512x1024 .f32 := (Memref.whole cc3_stg4_0 : Memref sig .tc .vmem S512x1024 .f32).view

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

section
variable (c : Dev nD) (i : grid3.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

def sout3_A (hc0 : cond3_0 i) (hc1 : ¬cond3_1 i) (x0 : Vec F S512x1024 .f32) (x1 : Vec F S1024x1024 .f32) (x2 : Vec F S1024x1024 .f32) (x3 : Vec F S1x1024 .f32) : Vec F S512x1024 .f32 :=
  VS3.read (Elt F) (VS3.writes (Elt F) VS3.junk (maskedRun_A c _ _ arg2 harg2 arg3 harg3 arg4 harg4 arg5 harg5 arg6 harg6 arg7 harg7 x0 x1 x2 x3 hc0 hc1).1)
def sout3_B (hc0 : ¬cond3_0 i) (hc1 : ¬cond3_1 i) (x0 : Vec F S512x1024 .f32) (x1 : Vec F S1024x1024 .f32) (x2 : Vec F S1024x1024 .f32) (x3 : Vec F S1x1024 .f32) (xs0 : Vec F S512x1024 .f32) : Vec F S512x1024 .f32 :=
  VS3.read (Elt F) (VS3.writes (Elt F) VS3.junk (maskedRun_B c _ _ arg2 harg2 arg3 harg3 arg4 harg4 arg5 harg5 arg6 harg6 arg7 harg7 x0 x1 x2 x3 xs0 hc0 hc1).1)
def sout3_C (hc0 : ¬cond3_0 i) (hc1 : cond3_1 i) (x0 : Vec F S512x1024 .f32) (x1 : Vec F S1024x1024 .f32) (x2 : Vec F S1024x1024 .f32) (x3 : Vec F S1x1024 .f32) (xs0 : Vec F S512x1024 .f32) : Vec F S512x1024 .f32 :=
  VS3.read (Elt F) (VS3.writes (Elt F) VS3.junk (maskedRun_C c _ _ arg2 harg2 arg3 harg3 arg4 harg4 arg5 harg5 arg6 harg6 arg7 harg7 x0 x1 x2 x3 xs0 hc0 hc1).2.1)
def out3_C (hc0 : ¬cond3_0 i) (hc1 : cond3_1 i) (x0 : Vec F S512x1024 .f32) (x1 : Vec F S1024x1024 .f32) (x2 : Vec F S1024x1024 .f32) (x3 : Vec F S1x1024 .f32) (xs0 : Vec F S512x1024 .f32) : Vec F S512x1024 .f32 :=
  VO3.read (Elt F) (VO3.writes (Elt F) VO3.junk (maskedRun_C c _ _ arg2 harg2 arg3 harg3 arg4 harg4 arg5 harg5 arg6 harg6 arg7 harg7 x0 x1 x2 x3 xs0 hc0 hc1).1)

end

def outsAt3 (c : Dev nD) : (n : ℕ) → n < cfg3.N → Vec F S512x1024 .f32 × Vec F S512x1024 .f32
  | 0, hn => (iblk3 V c 4 ⟨0, hn⟩, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 3 = 0 then
      if h1 : (n + 1) % 3 = 2 then
        False.elim (by omega)
      else
        (iblk3 V c 4 ⟨n + 1, hn⟩, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 3 = 2 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        (iblk3 V c 4 ⟨n + 1, hn⟩, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

theorem outsAt3_A (c : Dev nD) (t : Fin cfg3.N) (h0 : t.val % 3 = 0) (h1 : ¬t.val % 3 = 2) :
    outsAt3 V c t.val t.isLt = (iblk3 V c 4 t, sout3_A c (grid3.coords t) (ms3_0 t) (hs3_0 t) (ms3_1 t) (hs3_1 t) (ms3_2 t) (hs3_2 t) (ms3_3 t) (hs3_3 t) (ms3_4 t) (hs3_4 t) scM3 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

theorem outsAt3_B (c : Dev nD) (t : Fin cfg3.N) (h0 : ¬t.val % 3 = 0) (h1 : ¬t.val % 3 = 2) :
    outsAt3 V c t.val t.isLt = (iblk3 V c 4 t, sout3_B c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 3 = 0) (h1 : t.val % 3 = 2) :
    outsAt3 V c t.val t.isLt = (out3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, sout3_C c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq_maskedBody]
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 9 := lt_of_lt_of_eq t.isLt (show cfg3.N = 9 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h0 : t.val % 3 = 0
  · by_cases h1 : t.val % 3 = 2
    · exfalso; omega
    · rw [Dat.leavesExact_idle (dat3 V c) 4 t (idleAt3_4 t (fun h => h1 ((hcond3_1 t).mp h))) (noFlush3_4 t (fun h => h1 ((hcond3_1 t).mp h)))]
      rw [outsAt3_A V c t h0 h1]
      unfold sout3_A; (try dsimp only)
      by_cases hz : t.val = 0
      · rw [PhiS3_castSucc V c t, PhiS3_zero V c _ _ hz, PhiA3_eq]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk3 V c 0 t) (iblk3 V c 1 t) (iblk3 V c 2 t) (iblk3 V c 3 t) ((hcond3_0 t).mpr h0) (fun h => h1 ((hcond3_1 t).mp h))).2 _ Set.univ _)
        iframe H0 H1 H2 H3 H4 HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
      · rw [PhiS3_castSucc V c t, PhiS3_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((maskedRun_A c _ _ _ _ _ _ _ _ _ _ _ _ _ _ (iblk3 V c 0 t) (iblk3 V c 1 t) (iblk3 V c 2 t) (iblk3 V c 3 t) ((hcond3_0 t).mpr h0) (fun h => h1 ((hcond3_1 t).mp h))).2 _ Set.univ _)
        iframe H0 H1 H2 H3 H4
        isplitl [HS0]; · iexists _; iexact HS0
        iintro ⟨H0, H1, H2, H3, H4, ⟨%es0, HS0⟩⟩
        iframe Hrest Hg Ho H0 H1 H2 H3
        isplitl [HS0]
        · unfold owns; iexists _; isplitr
          swap; · iexact HS0
          ipureintro; exact View.read_writes_of_cover _ _ _ _ _ (maskedCover_A c _ _ _ _ _ _ _ _ _ _ _ _ _ _ _ _ _ _ _ _)
        iexists _; iexact H4
  · by_cases h1 : t.val % 3 = 2
    · rw [show (dat3 V c).leavesExact 4 t = owns (c : Thread nD τ) (ms3_4 t) fullShare ((dat3 V c).after 4 t) from by
        unfold Dat.leavesExact; rw [liveAt3_4 t ((hcond3_1 t).mpr h1)], after3_4]
      rw [outsAt3_C V c t h0 h1]
      unfold out3_C sout3_C; (try dsimp only)
      have hz : t.val ≠ 0 := by omega
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_C c _ _ _ _ _ _ _ _ _ _ _ _ _ _ (iblk3 V c 0 t) (iblk3 V c 1 t) (iblk3 V c 2 t) (iblk3 V c 3 t) _ (fun h => h0 ((hcond3_0 t).mp h)) ((hcond3_1 t).mpr h1)).2.2 Set.univ _)
      iframe H0 H1 H2 H3 HS0
      isplitl [H4]; · iexists _; iexact H4
      iintro ⟨H0, H1, H2, H3, ⟨%e4, H4⟩, ⟨%es0, HS0⟩⟩
      iframe Hrest Hg Ho H0 H1 H2 H3
      isplitl [HS0]
      · unfold owns; iexists _; isplitr
        swap; · iexact HS0
        ipureintro; exact View.read_writes_of_cover _ _ _ _ _ (maskedCover_C c _ _ _ _ _ _ _ _ _ _ _ _ _ _ _ _ _ _ _ _ _)
      unfold owns; iexists _; isplitr
      swap; · iexact H4
      ipureintro; exact View.read_writes_of_cover _ _ _ _ _ (maskedCoverOut_C c _ _ _ _ _ _ _ _ _ _ _ _ _ _ _ _ _ _ _ _ _)
    · rw [Dat.leavesExact_idle (dat3 V c) 4 t (idleAt3_4 t (fun h => h1 ((hcond3_1 t).mp h))) (noFlush3_4 t (fun h => h1 ((hcond3_1 t).mp h)))]
      rw [outsAt3_B V c t h0 h1]
      unfold sout3_B; (try dsimp only)
      have hz : t.val ≠ 0 := by omega
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((maskedRun_B c _ _ _ _ _ _ _ _ _ _ _ _ _ _ (iblk3 V c 0 t) (iblk3 V c 1 t) (iblk3 V c 2 t) (iblk3 V c 3 t) _ (fun h => h0 ((hcond3_0 t).mp h)) (fun h => h1 ((hcond3_1 t).mp h))).2 _ Set.univ _)
      iframe H0 H1 H2 H3 H4 HS0
      iintro ⟨H0, H1, H2, H3, H4, ⟨%es0, HS0⟩⟩
      iframe Hrest Hg Ho H0 H1 H2 H3
      isplitl [HS0]
      · unfold owns; iexists _; isplitr
        swap; · iexact HS0
        ipureintro; exact View.read_writes_of_cover _ _ _ _ _ (maskedCover_B c _ _ _ _ _ _ _ _ _ _ _ _ _ _ _ _ _ _ _ _ _)
      iexists _; iexact H4

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  have ht : (Fin.last cfg3.N).val ≠ 0 := by rw [Fin.val_last]; have : cfg3.N = 9 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, Hrest⟩, Hg⟩
  isplitl [HS0 Hrest]
  · isplitl [HS0]
    · iexists _; iexact HS0
    iexact Hrest
  iexact Hg

end Cert.KernelIdeal.Hand

end
-- ==== Proof.Reg4KI.lean ====
import proofs.«174655_j53695681135127_1_alg».proof.Proof.Gen.KernelIdeal.Launch
import proofs.«174655_j53695681135127_1_alg».proof.Proof.Gen.KernelIdeal.Skeleton
import proofs.«174655_j53695681135127_1_alg».proof.Proof.Gen.KernelIdeal.Points
import Idealize.ShloMosaic.Lib.Pipeline.FrameBody
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 6 = 0 :=
  (by decide +kernel : ∀ t : Fin grid4.N, cond4_0 (grid4.coords t) ↔ t.val % 6 = 0)

abbrev cond4_1 (i : grid4.Coords) : Prop := k4_cond2 i = 1#1
theorem hcond4_1 : ∀ t : Fin cfg4.N, cond4_1 (grid4.coords t) ↔ t.val % 6 = 5 :=
  (by decide +kernel : ∀ t : Fin grid4.N, cond4_1 (grid4.coords t) ↔ t.val % 6 = 5)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S512x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x1024 .f32 := win4_3.stage (cfg4.slots t 3)
abbrev hs4_3 (t : Fin cfg4.N) : (ms4_3 t).IsWhole := hstage4_3 ((cfg4.slots t 3).cast nbuf4_3)

abbrev scM4 : Memref sig .tc .vmem S512x1024 .f32 := Memref.whole cc4_scratch0
abbrev VS4 : View sig .tc .vmem S512x1024 .f32 := scM4.view

abbrev VO4 : View sig .tc .vmem S512x1024 .f32 := (Memref.whole cc4_stg3_0 : Memref sig .tc .vmem S512x1024 .f32).view

theorem PhiA4_eq (c : Dev nD) :
    (Pipeline.ΦA spec4 c : sProp 𝕄)
      = iprop(iprop((∃ d, owns (c : Thread nD τ) scM4 fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

section
variable (c : Dev nD) (i : grid4.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole)

set_option maxHeartbeats 4000000 in
noncomputable def kernelRun4_A (hc0 : cond4_0 i) (hc1 : ¬cond4_1 i)
    (x0 : Vec F S512x1024 .f32) (x1 : Vec F S1024x1024 .f32) (x2 : Vec F S1x1024 .f32) :
    { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__dense_kernel i arg2 harg2 arg3 harg3 arg4 harg4 arg5 harg5 arg6 harg6) K } := by
  refine ⟨?_, fun xi3 E K => ?run⟩
  case run =>
    simp only [cc4__dense_kernel_eq_skeleton]; unfold cc4__dense_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
noncomputable def kernelRun4_B (hc0 : ¬cond4_0 i) (hc1 : ¬cond4_1 i)
    (x0 : Vec F S512x1024 .f32) (x1 : Vec F S1024x1024 .f32) (x2 : Vec F S1x1024 .f32) (xs0 : Vec F S512x1024 .f32) :
    { LS0 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__dense_kernel i arg2 harg2 arg3 harg3 arg4 harg4 arg5 harg5 arg6 harg6) K } := by
  refine ⟨?_, fun xi3 E K => ?run⟩
  case run =>
    simp only [cc4__dense_kernel_eq_skeleton]; unfold cc4__dense_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
noncomputable def kernelRun4_C (hc0 : ¬cond4_0 i) (hc1 : cond4_1 i)
    (x0 : Vec F S512x1024 .f32) (x1 : Vec F S1024x1024 .f32) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__dense_kernel i arg2 harg2 arg3 harg3 arg4 harg4 arg5 harg5 arg6 harg6) K } := by
  refine ⟨?_, ?_, fun E K => ?run⟩
  case run =>
    simp only [cc4__dense_kernel_eq_skeleton]; unfold cc4__dense_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

def sout4_A (hc0 : cond4_0 i) (hc1 : ¬cond4_1 i) (x0 : Vec F S512x1024 .f32) (x1 : Vec F S1024x1024 .f32) (x2 : Vec F S1x1024 .f32) : Vec F S512x1024 .f32 :=
  VS4.read (Elt F) (VS4.writes (Elt F) VS4.junk (kernelRun4_A c i arg2 harg2 arg3 harg3 arg4 harg4 arg5 harg5 arg6 harg6 hc0 hc1 x0 x1 x2).1)
theorem scover4_A (hc0 : cond4_0 i) (hc1 : ¬cond4_1 i) (x0 : Vec F S512x1024 .f32) (x1 : Vec F S1024x1024 .f32) (x2 : Vec F S1x1024 .f32) (y : S512x1024.Idx) :
    ∃ pc ∈ (kernelRun4_A c i arg2 harg2 arg3 harg3 arg4 harg4 arg5 harg5 arg6 harg6 hc0 hc1 x0 x1 x2).1, y ∈ pc.1.set :=
  View.cover_of_tiledL (kernelRun4_A c i arg2 harg2 arg3 harg3 arg4 harg4 arg5 harg5 arg6 harg6 hc0 hc1 x0 x1 x2).1 S512x1024.size (by sl_kernel_rfl) y

def sout4_B (hc0 : ¬cond4_0 i) (hc1 : ¬cond4_1 i) (x0 : Vec F S512x1024 .f32) (x1 : Vec F S1024x1024 .f32) (x2 : Vec F S1x1024 .f32) (xs0 : Vec F S512x1024 .f32) : Vec F S512x1024 .f32 :=
  VS4.read (Elt F) (VS4.writes (Elt F) VS4.junk (kernelRun4_B c i arg2 harg2 arg3 harg3 arg4 harg4 arg5 harg5 arg6 harg6 hc0 hc1 x0 x1 x2 xs0).1)
theorem scover4_B (hc0 : ¬cond4_0 i) (hc1 : ¬cond4_1 i) (x0 : Vec F S512x1024 .f32) (x1 : Vec F S1024x1024 .f32) (x2 : Vec F S1x1024 .f32) (xs0 : Vec F S512x1024 .f32) (y : S512x1024.Idx) :
    ∃ pc ∈ (kernelRun4_B c i arg2 harg2 arg3 harg3 arg4 harg4 arg5 harg5 arg6 harg6 hc0 hc1 x0 x1 x2 xs0).1, y ∈ pc.1.set :=
  View.cover_of_tiledL (kernelRun4_B c i arg2 harg2 arg3 harg3 arg4 harg4 arg5 harg5 arg6 harg6 hc0 hc1 x0 x1 x2 xs0).1 S512x1024.size (by sl_kernel_rfl) y

def sout4_C (hc0 : ¬cond4_0 i) (hc1 : cond4_1 i) (x0 : Vec F S512x1024 .f32) (x1 : Vec F S1024x1024 .f32) (x2 : Vec F S1x1024 .f32) (xs0 : Vec F S512x1024 .f32) : Vec F S512x1024 .f32 :=
  VS4.read (Elt F) (VS4.writes (Elt F) VS4.junk (kernelRun4_C c i arg2 harg2 arg3 harg3 arg4 harg4 arg5 harg5 arg6 harg6 hc0 hc1 x0 x1 x2 xs0).2.1)
theorem scover4_C (hc0 : ¬cond4_0 i) (hc1 : cond4_1 i) (x0 : Vec F S512x1024 .f32) (x1 : Vec F S1024x1024 .f32) (x2 : Vec F S1x1024 .f32) (xs0 : Vec F S512x1024 .f32) (y : S512x1024.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S512x1024.size (by sl_kernel_rfl) y

def out4_C (hc0 : ¬cond4_0 i) (hc1 : cond4_1 i) (x0 : Vec F S512x1024 .f32) (x1 : Vec F S1024x1024 .f32) (x2 : Vec F S1x1024 .f32) (xs0 : Vec F S512x1024 .f32) : Vec F S512x1024 .f32 :=
  VO4.read (Elt F) (VO4.writes (Elt F) VO4.junk (kernelRun4_C c i arg2 harg2 arg3 harg3 arg4 harg4 arg5 harg5 arg6 harg6 hc0 hc1 x0 x1 x2 xs0).1)
theorem cover4_C (hc0 : ¬cond4_0 i) (hc1 : cond4_1 i) (x0 : Vec F S512x1024 .f32) (x1 : Vec F S1024x1024 .f32) (x2 : Vec F S1x1024 .f32) (xs0 : Vec F S512x1024 .f32) (y : S512x1024.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S512x1024.size (by sl_kernel_rfl) y

end

def outsAt4 (c : Dev nD) : (n : ℕ) → n < cfg4.N → Vec F S512x1024 .f32 × Vec F S512x1024 .f32
  | 0, hn => (iblk4 V c 3 ⟨0, hn⟩, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 6 = 0 then
      if h1 : (n + 1) % 6 = 5 then
        False.elim (by omega)
      else
        (iblk4 V c 3 ⟨n + 1, hn⟩, sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 6 = 5 then
        (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (iblk4 V c 3 ⟨n + 1, hn⟩, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 6 = 0) (h1 : ¬t.val % 6 = 5) :
    outsAt4 V c t.val t.isLt = (iblk4 V c 3 t, sout4_A c (grid4.coords t) (ms4_0 t) (hs4_0 t) (ms4_1 t) (hs4_1 t) (ms4_2 t) (hs4_2 t) (ms4_3 t) (hs4_3 t) scM4 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 6 = 0) (h1 : ¬t.val % 6 = 5) :
    outsAt4 V c t.val t.isLt = (iblk4 V c 3 t, sout4_B c (grid4.coords t) (ms4_0 t) (hs4_0 t) (ms4_1 t) (hs4_1 t) (ms4_2 t) (hs4_2 t) (ms4_3 t) (hs4_3 t) scM4 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 6 = 0) (h1 : t.val % 6 = 5) :
    outsAt4 V c t.val t.isLt = (out4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2) ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 6 := lt_of_lt_of_eq t.isLt (show cfg4.N = 6 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 6 = 0
  · by_cases h1 : t.val % 6 = 5
    · exfalso; omega
    · rw [Dat.leavesExact_idle (dat4 V c) 3 t (idleAt4_3 t (fun h => h1 ((hcond4_1 t).mp h))) (noFlush4_3 t (fun h => h1 ((hcond4_1 t).mp h)))]
      rw [outsAt4_A V c t h0 h1]
      unfold sout4_A; (try dsimp only)
      have hz : t.val = 0 := by omega
      rw [PhiS4_castSucc V c t, PhiS4_zero V c _ _ hz, PhiA4_eq]
      iintro ⟨⟨⟨HS0, Hrest⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2 _ Set.univ _)
      iframe H0 H1 H2 H3 HS0
      iintro ⟨H0, H1, H2, H3, ⟨%es0, HS0⟩⟩
      iframe Hrest Hg Ho H0 H1 H2
      isplitl [HS0]
      · unfold owns; iexists _; isplitr
        swap; · iexact HS0
        ipureintro; exact View.read_writes_of_cover _ _ _ _ _ (scover4_A c _ _ _ _ _ _ _ _ _ _ _ _ _ _ _ _)
      iexists _; iexact H3
  · by_cases h1 : t.val % 6 = 5
    · rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold out4_C sout4_C; (try dsimp only)
      have hz : t.val ≠ 0 := by omega
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      iframe H0 H1 H2 HS0
      isplitl [H3]; · iexists _; iexact H3
      iintro ⟨H0, H1, H2, ⟨%e3, H3⟩, ⟨%es0, HS0⟩⟩
      iframe Hrest Hg Ho H0 H1 H2
      isplitl [HS0]
      · unfold owns; iexists _; isplitr
        swap; · iexact HS0
        ipureintro; exact View.read_writes_of_cover _ _ _ _ _ (scover4_C c _ _ _ _ _ _ _ _ _ _ _ _ _ _ _ _ _)
      unfold owns; iexists _; isplitr
      swap; · iexact H3
      ipureintro; exact View.read_writes_of_cover _ _ _ _ _ (cover4_C c _ _ _ _ _ _ _ _ _ _ _ _ _ _ _ _ _)
    · rw [Dat.leavesExact_idle (dat4 V c) 3 t (idleAt4_3 t (fun h => h1 ((hcond4_1 t).mp h))) (noFlush4_3 t (fun h => h1 ((hcond4_1 t).mp h)))]
      rw [outsAt4_B V c t h0 h1]
      unfold sout4_B; (try dsimp only)
      have hz : t.val ≠ 0 := by omega
      rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2 _ Set.univ _)
      iframe H0 H1 H2 H3 HS0
      iintro ⟨H0, H1, H2, H3, ⟨%es0, HS0⟩⟩
      iframe Hrest Hg Ho H0 H1 H2
      isplitl [HS0]
      · unfold owns; iexists _; isplitr
        swap; · iexact HS0
        ipureintro; exact View.read_writes_of_cover _ _ _ _ _ (scover4_B c _ _ _ _ _ _ _ _ _ _ _ _ _ _ _ _ _)
      iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  have ht : (Fin.last cfg4.N).val ≠ 0 := by rw [Fin.val_last]; have : cfg4.N = 6 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

end Cert.KernelIdeal.Hand

end
-- ==== Proof.Reg5KI.lean ====
import proofs.«174655_j53695681135127_1_alg».proof.Proof.Gen.KernelIdeal.Launch
import proofs.«174655_j53695681135127_1_alg».proof.Proof.Gen.KernelIdeal.Skeleton
import proofs.«174655_j53695681135127_1_alg».proof.Proof.Gen.KernelIdeal.Points
import Idealize.ShloMosaic.Lib.Pipeline.FrameBody
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 1 = 0 :=
  (by decide +kernel : ∀ t : Fin grid5.N, cond5_0 (grid5.coords t) ↔ t.val % 1 = 0)

abbrev cond5_1 (i : grid5.Coords) : Prop := k5_cond2 i = 1#1
theorem hcond5_1 : ∀ t : Fin cfg5.N, cond5_1 (grid5.coords t) ↔ t.val % 1 = 0 :=
  (by decide +kernel : ∀ t : Fin grid5.N, cond5_1 (grid5.coords t) ↔ t.val % 1 = 0)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel

theorem idleAt5_3 : ∀ t : Fin cfg5.N, ¬cond5_1 (grid5.coords t) → cfg5.idle 3 (grid5.coords t) = true := by decide +kernel
theorem noFlush5_3 : ∀ t : Fin cfg5.N, ¬cond5_1 (grid5.coords t) → (cfg5.win 3).flush t = false := by decide +kernel
theorem liveAt5_3 : ∀ t : Fin cfg5.N, cond5_1 (grid5.coords t) → cfg5.idle 3 (grid5.coords t) = false := by decide +kernel

abbrev ms5_0 (t : Fin cfg5.N) : Memref sig .tc .vmem S512x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S256x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x256 .f32 := win5_3.stage (cfg5.slots t 3)
abbrev hs5_3 (t : Fin cfg5.N) : (ms5_3 t).IsWhole := hstage5_3 ((cfg5.slots t 3).cast nbuf5_3)

abbrev scM5 : Memref sig .tc .vmem S512x256 .f32 := Memref.whole cc5_scratch0
abbrev VS5 : View sig .tc .vmem S512x256 .f32 := scM5.view

abbrev VO5 : View sig .tc .vmem S512x256 .f32 := (Memref.whole cc5_stg3_0 : Memref sig .tc .vmem S512x256 .f32).view

theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

section
variable (c : Dev nD) (i : grid5.Coords) (arg2 : Memref sig .tc .vmem S512x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole)

set_option maxHeartbeats 4000000 in
noncomputable def kernelRun5_D (hc0 : cond5_0 i) (hc1 : cond5_1 i)
    (x0 : Vec F S512x1024 .f32) (x1 : Vec F S256x1024 .f32) (x2 : Vec F S1x256 .f32) :
    Σ' (L3 : List (View.Piece (Elt F) S512x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5__dense_kernel i arg2 harg2 arg3 harg3 arg4 harg4 arg5 harg5 arg6 harg6) K } := by
  refine ⟨?_, ?_, fun E K => ?run⟩
  case run =>
    simp only [cc5__dense_kernel_eq_skeleton]; unfold cc5__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

def sout5_D (hc0 : cond5_0 i) (hc1 : cond5_1 i) (x0 : Vec F S512x1024 .f32) (x1 : Vec F S256x1024 .f32) (x2 : Vec F S1x256 .f32) : Vec F S512x256 .f32 :=
  VS5.read (Elt F) (VS5.writes (Elt F) VS5.junk (kernelRun5_D c i arg2 harg2 arg3 harg3 arg4 harg4 arg5 harg5 arg6 harg6 hc0 hc1 x0 x1 x2).2.1)
theorem scover5_D (hc0 : cond5_0 i) (hc1 : cond5_1 i) (x0 : Vec F S512x1024 .f32) (x1 : Vec F S256x1024 .f32) (x2 : Vec F S1x256 .f32) (y : S512x256.Idx) :
    ∃ pc ∈ (kernelRun5_D c i arg2 harg2 arg3 harg3 arg4 harg4 arg5 harg5 arg6 harg6 hc0 hc1 x0 x1 x2).2.1, y ∈ pc.1.set :=
  View.cover_of_tiledL (kernelRun5_D c i arg2 harg2 arg3 harg3 arg4 harg4 arg5 harg5 arg6 harg6 hc0 hc1 x0 x1 x2).2.1 S512x256.size (by sl_kernel_rfl) y

def out5_D (hc0 : cond5_0 i) (hc1 : cond5_1 i) (x0 : Vec F S512x1024 .f32) (x1 : Vec F S256x1024 .f32) (x2 : Vec F S1x256 .f32) : Vec F S512x256 .f32 :=
  VO5.read (Elt F) (VO5.writes (Elt F) VO5.junk (kernelRun5_D c i arg2 harg2 arg3 harg3 arg4 harg4 arg5 harg5 arg6 harg6 hc0 hc1 x0 x1 x2).1)
theorem cover5_D (hc0 : cond5_0 i) (hc1 : cond5_1 i) (x0 : Vec F S512x1024 .f32) (x1 : Vec F S256x1024 .f32) (x2 : Vec F S1x256 .f32) (y : S512x256.Idx) :
    ∃ pc ∈ (kernelRun5_D c i arg2 harg2 arg3 harg3 arg4 harg4 arg5 harg5 arg6 harg6 hc0 hc1 x0 x1 x2).1, y ∈ pc.1.set :=
  View.cover_of_tiledL (kernelRun5_D c i arg2 harg2 arg3 harg3 arg4 harg4 arg5 harg5 arg6 harg6 hc0 hc1 x0 x1 x2).1 S512x256.size (by sl_kernel_rfl) y

end

def outsAt5 (c : Dev nD) (n : ℕ) (hn : n < cfg5.N) : Vec F S512x256 .f32 × Vec F S512x256 .f32 :=
  have h0 : n % 1 = 0 := Nat.mod_one n
  (out5_D c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5 (Memref.isWhole_whole _) ((hcond5_0 ⟨n, hn⟩).mpr h0) ((hcond5_1 ⟨n, hn⟩).mpr h0) (iblk5 V c 0 ⟨n, hn⟩) (iblk5 V c 1 ⟨n, hn⟩) (iblk5 V c 2 ⟨n, hn⟩), sout5_D c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5 (Memref.isWhole_whole _) ((hcond5_0 ⟨n, hn⟩).mpr h0) ((hcond5_1 ⟨n, hn⟩).mpr h0) (iblk5 V c 0 ⟨n, hn⟩) (iblk5 V c 1 ⟨n, hn⟩) (iblk5 V c 2 ⟨n, hn⟩))

def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 1 := lt_of_lt_of_eq t.isLt (show cfg5.N = 1 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have h0 : t.val % 1 = 0 := Nat.mod_one _
  have hz : t.val = 0 := by omega
  rw [show (dat5 V c).leavesExact 3 t = owns (c : Thread nD τ) (ms5_3 t) fullShare ((dat5 V c).after 3 t) from by
    unfold Dat.leavesExact; rw [liveAt5_3 t ((hcond5_1 t).mpr h0)], after5_3]
  unfold outsAt5 out5_D sout5_D; (try dsimp only)
  rw [PhiS5_castSucc V c t, PhiS5_zero V c _ _ hz, PhiA5_eq]
  iintro ⟨⟨⟨HS0, Hrest⟩, Hg⟩, Ho, ⟨%d0, H0⟩, ⟨%d1, H1⟩, ⟨%d2, H2⟩, ⟨%d3, H3⟩⟩
  iapply ((kernelRun5_D c (grid5.coords t) _ _ _ _ _ _ _ _ _ _ ((hcond5_0 t).mpr h0) ((hcond5_1 t).mpr h0) (iblk5 V c 0 t) (iblk5 V c 1 t) (iblk5 V c 2 t)).2.2 Set.univ _)
  iframe H0 H1 H2 HS0
  isplitl [H3]; · iexists _; iexact H3
  iintro ⟨H0, H1, H2, ⟨%e3, H3⟩, ⟨%es0, HS0⟩⟩
  iframe Hrest Hg Ho H0 H1 H2
  isplitl [HS0]
  · unfold owns; iexists _; isplitr
    swap; · iexact HS0
    ipureintro; exact View.read_writes_of_cover _ _ _ _ _ (scover5_D c _ _ _ _ _ _ _ _ _ _ _ _ _ _ _ _)
  unfold owns; iexists _; isplitr
  swap; · iexact H3
  ipureintro; exact View.read_writes_of_cover _ _ _ _ _ (cover5_D c _ _ _ _ _ _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  have ht : (Fin.last cfg5.N).val ≠ 0 := by rw [Fin.val_last]; have : cfg5.N = 1 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨HS0, Hrest⟩, Hg⟩
  isplitl [HS0 Hrest]
  · isplitl [HS0]
    · iexists _; iexact HS0
    iexact Hrest
  iexact Hg

end Cert.KernelIdeal.Hand

end
-- ==== Proof.Reg6KI.lean ====
import proofs.«174655_j53695681135127_1_alg».proof.Proof.Gen.KernelIdeal.Launch
import proofs.«174655_j53695681135127_1_alg».proof.Proof.Gen.KernelIdeal.Skeleton
import proofs.«174655_j53695681135127_1_alg».proof.Proof.Gen.KernelIdeal.Points
import Idealize.ShloMosaic.Lib.Pipeline.FrameBody
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 1 = 0 :=
  (by decide +kernel : ∀ t : Fin grid6.N, cond6_0 (grid6.coords t) ↔ t.val % 1 = 0)

abbrev cond6_1 (i : grid6.Coords) : Prop := k6_cond2 i = 1#1
theorem hcond6_1 : ∀ t : Fin cfg6.N, cond6_1 (grid6.coords t) ↔ t.val % 1 = 0 :=
  (by decide +kernel : ∀ t : Fin grid6.N, cond6_1 (grid6.coords t) ↔ t.val % 1 = 0)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel

theorem idleAt6_3 : ∀ t : Fin cfg6.N, ¬cond6_1 (grid6.coords t) → cfg6.idle 3 (grid6.coords t) = true := by decide +kernel
theorem noFlush6_3 : ∀ t : Fin cfg6.N, ¬cond6_1 (grid6.coords t) → (cfg6.win 3).flush t = false := by decide +kernel
theorem liveAt6_3 : ∀ t : Fin cfg6.N, cond6_1 (grid6.coords t) → cfg6.idle 3 (grid6.coords t) = false := by decide +kernel

abbrev ms6_0 (t : Fin cfg6.N) : Memref sig .tc .vmem S512x256 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x256 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S512x128 .f32 := win6_3.stage (cfg6.slots t 3)
abbrev hs6_3 (t : Fin cfg6.N) : (ms6_3 t).IsWhole := hstage6_3 ((cfg6.slots t 3).cast nbuf6_3)

abbrev scM6 : Memref sig .tc .vmem S512x128 .f32 := Memref.whole cc6_scratch0
abbrev VS6 : View sig .tc .vmem S512x128 .f32 := scM6.view

abbrev VO6 : View sig .tc .vmem S512x128 .f32 := (Memref.whole cc6_stg3_0 : Memref sig .tc .vmem S512x128 .f32).view

theorem PhiA6_eq (c : Dev nD) :
    (Pipeline.ΦA spec6 c : sProp 𝕄)
      = iprop(iprop((∃ d, owns (c : Thread nD τ) scM6 fullShare d) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

section
variable (c : Dev nD) (i : grid6.Coords) (arg2 : Memref sig .tc .vmem S512x256 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole)

set_option maxHeartbeats 4000000 in
noncomputable def kernelRun6_D (hc0 : cond6_0 i) (hc1 : cond6_1 i)
    (x0 : Vec F S512x256 .f32) (x1 : Vec F S128x256 .f32) (x2 : Vec F S1x128 .f32) :
    Σ' (L3 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc6__dense_kernel i arg2 harg2 arg3 harg3 arg4 harg4 arg5 harg5 arg6 harg6) K } := by
  refine ⟨?_, ?_, fun E K => ?run⟩
  case run =>
    simp only [cc6__dense_kernel_eq_skeleton]; unfold cc6__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

def sout6_D (hc0 : cond6_0 i) (hc1 : cond6_1 i) (x0 : Vec F S512x256 .f32) (x1 : Vec F S128x256 .f32) (x2 : Vec F S1x128 .f32) : Vec F S512x128 .f32 :=
  VS6.read (Elt F) (VS6.writes (Elt F) VS6.junk (kernelRun6_D c i arg2 harg2 arg3 harg3 arg4 harg4 arg5 harg5 arg6 harg6 hc0 hc1 x0 x1 x2).2.1)
theorem scover6_D (hc0 : cond6_0 i) (hc1 : cond6_1 i) (x0 : Vec F S512x256 .f32) (x1 : Vec F S128x256 .f32) (x2 : Vec F S1x128 .f32) (y : S512x128.Idx) :
    ∃ pc ∈ (kernelRun6_D c i arg2 harg2 arg3 harg3 arg4 harg4 arg5 harg5 arg6 harg6 hc0 hc1 x0 x1 x2).2.1, y ∈ pc.1.set :=
  View.cover_of_tiledL (kernelRun6_D c i arg2 harg2 arg3 harg3 arg4 harg4 arg5 harg5 arg6 harg6 hc0 hc1 x0 x1 x2).2.1 S512x128.size (by sl_kernel_rfl) y

def out6_D (hc0 : cond6_0 i) (hc1 : cond6_1 i) (x0 : Vec F S512x256 .f32) (x1 : Vec F S128x256 .f32) (x2 : Vec F S1x128 .f32) : Vec F S512x128 .f32 :=
  VO6.read (Elt F) (VO6.writes (Elt F) VO6.junk (kernelRun6_D c i arg2 harg2 arg3 harg3 arg4 harg4 arg5 harg5 arg6 harg6 hc0 hc1 x0 x1 x2).1)
theorem cover6_D (hc0 : cond6_0 i) (hc1 : cond6_1 i) (x0 : Vec F S512x256 .f32) (x1 : Vec F S128x256 .f32) (x2 : Vec F S1x128 .f32) (y : S512x128.Idx) :
    ∃ pc ∈ (kernelRun6_D c i arg2 harg2 arg3 harg3 arg4 harg4 arg5 harg5 arg6 harg6 hc0 hc1 x0 x1 x2).1, y ∈ pc.1.set :=
  View.cover_of_tiledL (kernelRun6_D c i arg2 harg2 arg3 harg3 arg4 harg4 arg5 harg5 arg6 harg6 hc0 hc1 x0 x1 x2).1 S512x128.size (by sl_kernel_rfl) y

end

def outsAt6 (c : Dev nD) (n : ℕ) (hn : n < cfg6.N) : Vec F S512x128 .f32 × Vec F S512x128 .f32 :=
  have h0 : n % 1 = 0 := Nat.mod_one n
  (out6_D c (grid6.coords ⟨n, hn⟩) (ms6_0 ⟨n, hn⟩) (hs6_0 ⟨n, hn⟩) (ms6_1 ⟨n, hn⟩) (hs6_1 ⟨n, hn⟩) (ms6_2 ⟨n, hn⟩) (hs6_2 ⟨n, hn⟩) (ms6_3 ⟨n, hn⟩) (hs6_3 ⟨n, hn⟩) scM6 (Memref.isWhole_whole _) ((hcond6_0 ⟨n, hn⟩).mpr h0) ((hcond6_1 ⟨n, hn⟩).mpr h0) (iblk6 V c 0 ⟨n, hn⟩) (iblk6 V c 1 ⟨n, hn⟩) (iblk6 V c 2 ⟨n, hn⟩), sout6_D c (grid6.coords ⟨n, hn⟩) (ms6_0 ⟨n, hn⟩) (hs6_0 ⟨n, hn⟩) (ms6_1 ⟨n, hn⟩) (hs6_1 ⟨n, hn⟩) (ms6_2 ⟨n, hn⟩) (hs6_2 ⟨n, hn⟩) (ms6_3 ⟨n, hn⟩) (hs6_3 ⟨n, hn⟩) scM6 (Memref.isWhole_whole _) ((hcond6_0 ⟨n, hn⟩).mpr h0) ((hcond6_1 ⟨n, hn⟩).mpr h0) (iblk6 V c 0 ⟨n, hn⟩) (iblk6 V c 1 ⟨n, hn⟩) (iblk6 V c 2 ⟨n, hn⟩))

def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare ((outsAt6 V c n hn).2) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare ((outsAt6 V c (n - 1) (by omega)).2) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 1 := lt_of_lt_of_eq t.isLt (show cfg6.N = 1 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  have h0 : t.val % 1 = 0 := Nat.mod_one _
  have hz : t.val = 0 := by omega
  rw [show (dat6 V c).leavesExact 3 t = owns (c : Thread nD τ) (ms6_3 t) fullShare ((dat6 V c).after 3 t) from by
    unfold Dat.leavesExact; rw [liveAt6_3 t ((hcond6_1 t).mpr h0)], after6_3]
  unfold outsAt6 out6_D sout6_D; (try dsimp only)
  rw [PhiS6_castSucc V c t, PhiS6_zero V c _ _ hz, PhiA6_eq]
  iintro ⟨⟨⟨HS0, Hrest⟩, Hg⟩, Ho, ⟨%d0, H0⟩, ⟨%d1, H1⟩, ⟨%d2, H2⟩, ⟨%d3, H3⟩⟩
  iapply ((kernelRun6_D c (grid6.coords t) _ _ _ _ _ _ _ _ _ _ ((hcond6_0 t).mpr h0) ((hcond6_1 t).mpr h0) (iblk6 V c 0 t) (iblk6 V c 1 t) (iblk6 V c 2 t)).2.2 Set.univ _)
  iframe H0 H1 H2 HS0
  isplitl [H3]; · iexists _; iexact H3
  iintro ⟨H0, H1, H2, ⟨%e3, H3⟩, ⟨%es0, HS0⟩⟩
  iframe Hrest Hg Ho H0 H1 H2
  isplitl [HS0]
  · unfold owns; iexists _; isplitr
    swap; · iexact HS0
    ipureintro; exact View.read_writes_of_cover _ _ _ _ _ (scover6_D c _ _ _ _ _ _ _ _ _ _ _ _ _ _ _ _)
  unfold owns; iexists _; isplitr
  swap; · iexact H3
  ipureintro; exact View.read_writes_of_cover _ _ _ _ _ (cover6_D c _ _ _ _ _ _ _ _ _ _ _ _ _ _ _ _)

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  have ht : (Fin.last cfg6.N).val ≠ 0 := by rw [Fin.val_last]; have : cfg6.N = 1 := N_6; omega
  rw [show (dat6 V c).Φ (Fin.last cfg6.N) = PhiS6 V c (Fin.last cfg6.N).val (Nat.le_of_lt_succ (Fin.last cfg6.N).isLt) from rfl, PhiS6_pos V c _ _ ht, PhiA6_eq]
  iintro ⟨⟨HS0, Hrest⟩, Hg⟩
  isplitl [HS0 Hrest]
  · isplitl [HS0]
    · iexists _; iexact HS0
    iexact Hrest
  iexact Hg

end Cert.KernelIdeal.Hand

end
-- ==== Proof.RegSegKI.lean ====
import proofs.«174655_j53695681135127_1_alg».proof.Proof.RegionsKI
import proofs.«174655_j53695681135127_1_alg».proof.Proof.Reg0KI
import proofs.«174655_j53695681135127_1_alg».proof.Proof.Reg1KI
import proofs.«174655_j53695681135127_1_alg».proof.Proof.Reg2KI
import proofs.«174655_j53695681135127_1_alg».proof.Proof.Reg3KI
import proofs.«174655_j53695681135127_1_alg».proof.Proof.Reg4KI
import proofs.«174655_j53695681135127_1_alg».proof.Proof.Reg5KI
import proofs.«174655_j53695681135127_1_alg».proof.Proof.Reg6KI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev Vt (W : Dev nD → Valuation τ sig (Elt F)) : (c : Dev nD) → (b : Ref sig .tc) → Buf (Elt F) ((c : Thread nD τ).loc b) :=
  fun c b => W c b

structure Ok : Prop where
  h0 : ∀ c : Dev nD, outs 10 main_v8 c = (dat0 (Vt (V9 m)) c).arrAt 4 cfg0.N
  h1 : ∀ c : Dev nD, outs 20 main_v15 c = (dat1 (Vt (V19 m outs)) c).arrAt 4 cfg1.N
  h2 : ∀ c : Dev nD, outs 30 main_v23 c = (dat2 (Vt (V29 m outs)) c).arrAt 4 cfg2.N
  h3 : ∀ c : Dev nD, outs 40 main_v30 c = (dat3 (Vt (V39 m outs)) c).arrAt 4 cfg3.N
  h4 : ∀ c : Dev nD, outs 48 main_v37 c = (dat4 (Vt (V47 m outs)) c).arrAt 3 cfg4.N
  h5 : ∀ c : Dev nD, outs 56 main_v42 c = (dat5 (Vt (V55 m outs)) c).arrAt 3 cfg5.N
  h6 : ∀ c : Dev nD, outs 64 main_v47 c = (dat6 (Vt (V63 m outs)) c).arrAt 3 cfg6.N

def pdats : (p : Fin 7) → (c : Dev nD) → Dat τ (Elt F) Unit ℕ (UR sig nD τ) ℕ (cfgs p) c
  | ⟨0, _⟩ => fun c => dat0 (Vt (V9 m)) c
  | ⟨1, _⟩ => fun c => dat1 (Vt (V19 m outs)) c
  | ⟨2, _⟩ => fun c => dat2 (Vt (V29 m outs)) c
  | ⟨3, _⟩ => fun c => dat3 (Vt (V39 m outs)) c
  | ⟨4, _⟩ => fun c => dat4 (Vt (V47 m outs)) c
  | ⟨5, _⟩ => fun c => dat5 (Vt (V55 m outs)) c
  | ⟨6, _⟩ => fun c => dat6 (Vt (V63 m outs)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- what an update writes at a reference is read back there
theorem updSelf (V : Valuation τ sig (Elt F)) (y : Ref sig .tc) (v) : v = Function.update V y v y := by
  rw [Function.update_self]

set_option backward.isDefEq.respectTransparency.types false in
-- a region's record: its inputs are read off the valuation before it, its one output window `o` off the one after it
def mkReg (p : Fin 7) (lf : Pipeline.LaunchFacts (nD := nD) (τ := τ) cfgs p) (Vp Vq : Dev nD → Valuation τ sig (Elt F))
    (hb : ∀ c, BodyObligation (pdats m outs p c) (defs₀ (F := F)) Variants.none () Set.univ)
    (hi : ∀ c, Pipeline.ΦA (cfgs p).spec c ⊢ (pdats m outs p c).Φ 0)
    (ho : ∀ c, (pdats m outs p c).Φ (Fin.last (cfgs p).N) ⊢ Pipeline.ΦA (cfgs p).spec c)
    (howed : ∀ c t, (pdats m outs p c).owed t = 0) (hrec : ∀ c x, x ∈ (pdats m outs p c).recorded 0) (hsh : ∀ c w, (pdats m outs p c).q w = fullShare)
    (hA : ∀ c w, (pdats m outs p c).A w = Vt Vp c (Pipeline.arrRef (cfgs p).spec w))
    (o : Fin (cfgs p).W) (hio : ∀ w, w ≠ o → ((cfgs p).win w).isOut = false)
    (hq : ∀ c (r : Ref sig .tc), r ∉ [Pipeline.arrRef (cfgs p).spec o] → Vq c r = Vp c r)
    (hO : ∀ c, (pdats m outs p c).arrAt o (cfgs p).N = Vq c (Pipeline.arrRef (cfgs p).spec o)) :
    Pipeline.RegionSeg (pcfgs (F := F)) adm (pdats m outs) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vp c) ∗ R c)
  post c := iprop(StableHlo.held (c : Thread nD τ) (Pipeline.ucRefs τ sig) (Vq c) ∗ R c)
  X c := iprop(∃ r, prngReg c r)
  Y c := iprop(∃ r, prngReg c r)
  Z c := Pipeline.unscopedRest (Ix := Unit) (Name := ℕ) (U := UR sig nD τ) (Lvl := ℕ) (cfgs p).spec c (Vt Vp c)
  hentry c := by
    rw [Pipeline.ownSems0_none]
    have hsplit := Pipeline.arrays_of_unscopedBufs (p := p) (pcfgs (F := F)) adm (pdats m outs) lf.win lf.arr_whole c
      ((pdats m outs p c).share_full (hsh c)) (Vt Vp c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    iintro ⟨Hp, -, Hr⟩
    iapply (hi c)
    unfold Pipeline.ΦA
    isplitl [Hr]; · iexact Hr
    iexact Hp
  hout c := by
    rw [Pipeline.ownSems0_none]
    have hΦ := ho c
    unfold Pipeline.ΦA at hΦ
    iintro H
    ihave H' := hΦ $$ H
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m outs) ((pdats m outs p c).share_full (hsh c))
      (Vt Vp c) (Vt Vq c) ((pdats m outs p c).arrAt · (cfgs p).N)
      (fun w => by
        by_cases h : w = o
        · subst h; exact hO c
        · exact ((Dat.arrAt_in _ w (hio w h) _).trans (hA c w)).trans (hq c _ fun hm => h (lf.win.arr_inj (List.mem_singleton.mp hm))).symm)
      (fun b hb => hq c b fun h => hb (Finset.mem_image.mpr ⟨o, Finset.mem_univ _, (List.mem_singleton.mp h).symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 (hok : Ok m outs) : Pipeline.RegionSeg (pcfgs (F := F)) adm (pdats m outs) () defs₀ 𝒱₀ L lv 0 :=
  mkReg m outs 0 launch0 (V9 m) (V10 m outs) (body_obligation0 _) (hin0 _) (hout0 _) (fun _ _ => rfl) (fun _ _ => trivial) (fun _ _ => rfl) (fun _ _ => rfl)
    4 (by decide) (V10_of m outs) fun c => (hok.h0 c).symm.trans (updSelf ..)

def reg1 (hok : Ok m outs) : Pipeline.RegionSeg (pcfgs (F := F)) adm (pdats m outs) () defs₀ 𝒱₀ L lv 1 :=
  mkReg m outs 1 launch1 (V19 m outs) (V20 m outs) (body_obligation1 _) (hin1 _) (hout1 _) (fun _ _ => rfl) (fun _ _ => trivial) (fun _ _ => rfl) (fun _ _ => rfl)
    4 (by decide) (V20_of m outs) fun c => (hok.h1 c).symm.trans (updSelf ..)

def reg2 (hok : Ok m outs) : Pipeline.RegionSeg (pcfgs (F := F)) adm (pdats m outs) () defs₀ 𝒱₀ L lv 2 :=
  mkReg m outs 2 launch2 (V29 m outs) (V30 m outs) (body_obligation2 _) (hin2 _) (hout2 _) (fun _ _ => rfl) (fun _ _ => trivial) (fun _ _ => rfl) (fun _ _ => rfl)
    4 (by decide) (V30_of m outs) fun c => (hok.h2 c).symm.trans (updSelf ..)

def reg3 (hok : Ok m outs) : Pipeline.RegionSeg (pcfgs (F := F)) adm (pdats m outs) () defs₀ 𝒱₀ L lv 3 :=
  mkReg m outs 3 launch3 (V39 m outs) (V40 m outs) (body_obligation3 _) (hin3 _) (hout3 _) (fun _ _ => rfl) (fun _ _ => trivial) (fun _ _ => rfl) (fun _ _ => rfl)
    4 (by decide) (V40_of m outs) fun c => (hok.h3 c).symm.trans (updSelf ..)

def reg4 (hok : Ok m outs) : Pipeline.RegionSeg (pcfgs (F := F)) adm (pdats m outs) () defs₀ 𝒱₀ L lv 4 :=
  mkReg m outs 4 launch4 (V47 m outs) (V48 m outs) (body_obligation4 _) (hin4 _) (hout4 _) (fun _ _ => rfl) (fun _ _ => trivial) (fun _ _ => rfl) (fun _ _ => rfl)
    3 (by decide) (V48_of m outs) fun c => (hok.h4 c).symm.trans (updSelf ..)

def reg5 (hok : Ok m outs) : Pipeline.RegionSeg (pcfgs (F := F)) adm (pdats m outs) () defs₀ 𝒱₀ L lv 5 :=
  mkReg m outs 5 launch5 (V55 m outs) (V56 m outs) (body_obligation5 _) (hin5 _) (hout5 _) (fun _ _ => rfl) (fun _ _ => trivial) (fun _ _ => rfl) (fun _ _ => rfl)
    3 (by decide) (V56_of m outs) fun c => (hok.h5 c).symm.trans (updSelf ..)

def reg6 (hok : Ok m outs) : Pipeline.RegionSeg (pcfgs (F := F)) adm (pdats m outs) () defs₀ 𝒱₀ L lv 6 :=
  mkReg m outs 6 launch6 (V63 m outs) (V64 m outs) (body_obligation6 _) (hin6 _) (hout6 _) (fun _ _ => rfl) (fun _ _ => trivial) (fun _ _ => rfl) (fun _ _ => rfl)
    3 (by decide) (V64_of m outs) fun c => (hok.h6 c).symm.trans (updSelf ..)

end Cert.KernelIdeal.Hand

end
-- ==== Proof.RunKI.lean ====
import proofs.«174655_j53695681135127_1_alg».proof.Proof.RegSegKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

variable (ρ : Dev nD → PrngReg)

-- what a device holds at launch besides its buffers
abbrev I₀ (c : Dev nD) : sProp 𝕄 :=
  iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (fun _ => iprop(emp) : Dev nD → sProp 𝕄) c)

def E : Fin 8 → Dev nD → sProp 𝕄 := fun _ c => R c

theorem hE0c (c : Dev nD) : I₀ (F := F) ρ c ⊢ (E (F := F) 0 c : sProp 𝕄) := by
  unfold E
  iintro ⟨-, HO, -, Hp, -⟩
  isplitl [Hp]; · iexists _; iexact Hp
  iexists ∅; iexact HO

theorem hE0 : iprop((bigSep Finset.univ (I₀ (F := F) ρ)) ∗ levAts L lv) ⊢ (|={Set.univ}=> bigSep Finset.univ (E (F := F) 0) : sProp 𝕄) := by
  have hall : bigSep Finset.univ (I₀ (F := F) ρ) ⊢ (bigSep Finset.univ (E (F := F) 0) : sProp 𝕄) :=
    bigSep_mono fun c _ => hE0c ρ c
  iintro ⟨H, -⟩
  imodintro
  ihave H' := hall $$ H
  iexact H'

theorem hE7 (c : Dev nD) : E (F := F) 7 c ⊢ (iprop(∃ W, owes (c : Thread nD τ) (0 : CellTallies nD τ sig Unit) W) : sProp 𝕄) := by
  unfold E
  iintro ⟨-, H⟩; iexact H

theorem hu0 : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

set_option backward.isDefEq.respectTransparency.types false in
set_option maxHeartbeats 4000000 in

theorem run_all (hok : Ok m outs) :
    θ_run defs (onTc (τ := τ) (main (F := F))) ⟨m, fun _ => 0, ρ⟩ (fun r => ∀ c : Dev nD,
      ∀ b ∈ Pipeline.ucRefs τ sig, r.2.mem ((c : Thread nD τ).1, b) = V65 m outs c b) := by
  refine Pipeline.θ_run_regions_kit_dev (pcfgs (F := F)) adm (pdats m outs) () cellOf_inj emb₁ defs₀ 𝒱₀ L lv m ρ main
    (segs m outs 𝒱₀ L lv E () (pdats m outs) (reg0 m outs hok) (reg1 m outs hok) (reg2 m outs hok) (reg3 m outs hok) (reg4 m outs hok) (reg5 m outs hok) (reg6 m outs hok))
    (fun c Q => by
      rewrite [main_chain c, Seg.run_eq_chain]
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj)) hu0
    (T₀ := fun c => iprop(StableHlo.held (c : Thread nD τ) (Pipeline.ucRefs τ sig) (V0 m c) ∗ E 0 c))
    (Tₙ := fun c => StableHlo.held (c : Thread nD τ) (Pipeline.ucRefs τ sig) (V65 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE7 c)⟩)
    (hinit := ?_) (QY := fun c s => ∀ b ∈ Pipeline.ucRefs τ sig, s.mem ((c : Thread nD τ).1, b) = V65 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (fun _ => iprop(emp) : Dev nD → sProp 𝕄) c))
        ⊢ (iprop((bigSep Finset.univ fun c : Dev nD => StableHlo.held (c : Thread nD τ) (Pipeline.ucRefs τ sig) (V0 m c))
            ∗ bigSep Finset.univ (I₀ (F := F) ρ)) : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    have hE0' := hE0 (F := F) ρ
    iintro ⟨H, Hla⟩
    ihave H' := hsplit $$ H
    icases H' with ⟨Hh, Hr⟩
    imod hE0' $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V65 m outs c) s') $$ [Hh HSI]
    · isplitl [Hh] <;> iassumption
    icases Hr with ⟨%h, HSI⟩
    imodintro
    isplitr
    · ipureintro
      exact h
    · iexact HSI

end Cert.KernelIdeal.Hand

end
-- ==== Proof.OutsKI.lean ====
import proofs.«174655_j53695681135127_1_alg».proof.Proof.RegSegKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a stage's valuation depends on the outputs only through the array written just before it and the stage before
theorem V19_congr (o o' : Outs (F := F)) (h : ∀ c, o 10 main_v8 c = o' 10 main_v8 c) : V19 m o = V19 m o' := by
  funext c
  dsimp only [V19, V18, V17, V16, V15, V14, V13, V12, V11, V10]
  rw [h c]

theorem V29_congr (o o' : Outs (F := F)) (hV : V19 m o = V19 m o') (h : ∀ c, o 20 main_v15 c = o' 20 main_v15 c) : V29 m o = V29 m o' := by
  funext c
  dsimp only [V29, V28, V27, V26, V25, V24, V23, V22, V21, V20]
  rw [h c, hV]

theorem V39_congr (o o' : Outs (F := F)) (hV : V29 m o = V29 m o') (h : ∀ c, o 30 main_v23 c = o' 30 main_v23 c) : V39 m o = V39 m o' := by
  funext c
  dsimp only [V39, V38, V37, V36, V35, V34, V33, V32, V31, V30]
  rw [h c, hV]

theorem V47_congr (o o' : Outs (F := F)) (hV : V39 m o = V39 m o') (h : ∀ c, o 40 main_v30 c = o' 40 main_v30 c) : V47 m o = V47 m o' := by
  funext c
  dsimp only [V47, V46, V45, V44, V43, V42, V41, V40]
  rw [h c, hV]

theorem V55_congr (o o' : Outs (F := F)) (hV : V47 m o = V47 m o') (h : ∀ c, o 48 main_v37 c = o' 48 main_v37 c) : V55 m o = V55 m o' := by
  funext c
  dsimp only [V55, V54, V53, V52, V51, V50, V49, V48]
  rw [h c, hV]

theorem V63_congr (o o' : Outs (F := F)) (hV : V55 m o = V55 m o') (h : ∀ c, o 56 main_v42 c = o' 56 main_v42 c) : V63 m o = V63 m o' := by
  funext c
  dsimp only [V63, V62, V61, V60, V59, V58, V57, V56]
  rw [h c, hV]

def o0 (c : Dev nD) : Buf (Elt F) ((c : Thread nD τ).loc main_v8) := (dat0 (Vt (V9 m)) c).arrAt 4 cfg0.N

def st0 (c : Dev nD) : (r : Ref sig .tc) → Buf (Elt F) ((c : Thread nD τ).loc r) :=
  Function.update (fun r => Vt (V9 m) c r) main_v8 (o0 m c)
def outs1 : Outs (F := F) := fun _ r c => st0 m c r

def o1 (c : Dev nD) : Buf (Elt F) ((c : Thread nD τ).loc main_v15) := (dat1 (Vt (V19 m (outs1 m))) c).arrAt 4 cfg1.N
def st1 (c : Dev nD) : (r : Ref sig .tc) → Buf (Elt F) ((c : Thread nD τ).loc r) :=
  Function.update (st0 m c) main_v15 (o1 m c)
def outs2 : Outs (F := F) := fun _ r c => st1 m c r

def o2 (c : Dev nD) : Buf (Elt F) ((c : Thread nD τ).loc main_v23) := (dat2 (Vt (V29 m (outs2 m))) c).arrAt 4 cfg2.N
def st2 (c : Dev nD) : (r : Ref sig .tc) → Buf (Elt F) ((c : Thread nD τ).loc r) :=
  Function.update (st1 m c) main_v23 (o2 m c)
def outs3 : Outs (F := F) := fun _ r c => st2 m c r

def o3 (c : Dev nD) : Buf (Elt F) ((c : Thread nD τ).loc main_v30) := (dat3 (Vt (V39 m (outs3 m))) c).arrAt 4 cfg3.N
def st3 (c : Dev nD) : (r : Ref sig .tc) → Buf (Elt F) ((c : Thread nD τ).loc r) :=
  Function.update (st2 m c) main_v30 (o3 m c)
def outs4 : Outs (F := F) := fun _ r c => st3 m c r

def o4 (c : Dev nD) : Buf (Elt F) ((c : Thread nD τ).loc main_v37) := (dat4 (Vt (V47 m (outs4 m))) c).arrAt 3 cfg4.N
def st4 (c : Dev nD) : (r : Ref sig .tc) → Buf (Elt F) ((c : Thread nD τ).loc r) :=
  Function.update (st3 m c) main_v37 (o4 m c)
def outs5 : Outs (F := F) := fun _ r c => st4 m c r

def o5 (c : Dev nD) : Buf (Elt F) ((c : Thread nD τ).loc main_v42) := (dat5 (Vt (V55 m (outs5 m))) c).arrAt 3 cfg5.N
def st5 (c : Dev nD) : (r : Ref sig .tc) → Buf (Elt F) ((c : Thread nD τ).loc r) :=
  Function.update (st4 m c) main_v42 (o5 m c)
def outs6 : Outs (F := F) := fun _ r c => st5 m c r

def o6 (c : Dev nD) : Buf (Elt F) ((c : Thread nD τ).loc main_v47) := (dat6 (Vt (V63 m (outs6 m))) c).arrAt 3 cfg6.N
def st6 (c : Dev nD) : (r : Ref sig .tc) → Buf (Elt F) ((c : Thread nD τ).loc r) :=
  Function.update (st5 m c) main_v47 (o6 m c)
def outs7 : Outs (F := F) := fun _ r c => st6 m c r

-- away from the references written later, a state already holds what the last state holds
theorem agree5 (c : Dev nD) (r : Ref sig .tc) (h0 : r ≠ main_v47 := by decide) : st5 m c r = st6 m c r :=
  (Function.update_of_ne h0 ..).symm
theorem agree4 (c : Dev nD) (r : Ref sig .tc) (h0 : r ≠ main_v42 := by decide) (h1 : r ≠ main_v47 := by decide) : st4 m c r = st6 m c r :=
  (Function.update_of_ne h0 ..).symm.trans (agree5 m c r h1)
theorem agree3 (c : Dev nD) (r : Ref sig .tc) (h0 : r ≠ main_v37 := by decide) (h1 : r ≠ main_v42 := by decide) (h2 : r ≠ main_v47 := by decide) : st3 m c r = st6 m c r :=
  (Function.update_of_ne h0 ..).symm.trans (agree4 m c r h1 h2)
theorem agree2 (c : Dev nD) (r : Ref sig .tc) (h0 : r ≠ main_v30 := by decide) (h1 : r ≠ main_v37 := by decide) (h2 : r ≠ main_v42 := by decide) (h3 : r ≠ main_v47 := by decide) : st2 m c r = st6 m c r :=
  (Function.update_of_ne h0 ..).symm.trans (agree3 m c r h1 h2 h3)
theorem agree1 (c : Dev nD) (r : Ref sig .tc) (h0 : r ≠ main_v23 := by decide) (h1 : r ≠ main_v30 := by decide) (h2 : r ≠ main_v37 := by decide) (h3 : r ≠ main_v42 := by decide) (h4 : r ≠ main_v47 := by decide) : st1 m c r = st6 m c r :=
  (Function.update_of_ne h0 ..).symm.trans (agree2 m c r h1 h2 h3 h4)
theorem agree0 (c : Dev nD) (r : Ref sig .tc) (h0 : r ≠ main_v15 := by decide) (h1 : r ≠ main_v23 := by decide) (h2 : r ≠ main_v30 := by decide) (h3 : r ≠ main_v37 := by decide) (h4 : r ≠ main_v42 := by decide) (h5 : r ≠ main_v47 := by decide) : st0 m c r = st6 m c r :=
  (Function.update_of_ne h0 ..).symm.trans (agree1 m c r h1 h2 h3 h4 h5)

def outsAll : Outs (F := F) := outs7 m

theorem ok_all : Ok m (outsAll m) where
  h0 c := (agree0 m c main_v8).symm.trans (Function.update_self ..)
  h1 c := by
    refine ((agree1 m c main_v15).symm.trans (Function.update_self ..)).trans ?_
    unfold o1
    rw [V19_congr m (outs1 m) (outsAll m) fun c => agree0 m c main_v8]
  h2 c := by
    refine ((agree2 m c main_v23).symm.trans (Function.update_self ..)).trans ?_
    unfold o2
    rw [V29_congr m (outs2 m) (outsAll m) (V19_congr m (outs2 m) (outsAll m) fun c => agree1 m c main_v8) fun c => agree1 m c main_v15]
  h3 c := by
    refine ((agree3 m c main_v30).symm.trans (Function.update_self ..)).trans ?_
    unfold o3
    rw [V39_congr m (outs3 m) (outsAll m) (V29_congr m (outs3 m) (outsAll m) (V19_congr m (outs3 m) (outsAll m) fun c => agree2 m c main_v8) fun c => agree2 m c main_v15) fun c => agree2 m c main_v23]
  h4 c := by
    refine ((agree4 m c main_v37).symm.trans (Function.update_self ..)).trans ?_
    unfold o4
    rw [V47_congr m (outs4 m) (outsAll m) (V39_congr m (outs4 m) (outsAll m) (V29_congr m (outs4 m) (outsAll m) (V19_congr m (outs4 m) (outsAll m) fun c => agree3 m c main_v8) fun c => agree3 m c main_v15) fun c => agree3 m c main_v23) fun c => agree3 m c main_v30]
  h5 c := by
    refine ((agree5 m c main_v42).symm.trans (Function.update_self ..)).trans ?_
    unfold o5
    rw [V55_congr m (outs5 m) (outsAll m) (V47_congr m (outs5 m) (outsAll m) (V39_congr m (outs5 m) (outsAll m) (V29_congr m (outs5 m) (outsAll m) (V19_congr m (outs5 m) (outsAll m) fun c => agree4 m c main_v8) fun c => agree4 m c main_v15) fun c => agree4 m c main_v23) fun c => agree4 m c main_v30) fun c => agree4 m c main_v37]
  h6 c := by
    refine (Function.update_self main_v47 (o6 m c) (st5 m c)).trans ?_
    unfold o6
    rw [V63_congr m (outs6 m) (outsAll m) (V55_congr m (outs6 m) (outsAll m) (V47_congr m (outs6 m) (outsAll m) (V39_congr m (outs6 m) (outsAll m) (V29_congr m (outs6 m) (outsAll m) (V19_congr m (outs6 m) (outsAll m) fun c => agree5 m c main_v8) fun c => agree5 m c main_v15) fun c => agree5 m c main_v23) fun c => agree5 m c main_v30) fun c => agree5 m c main_v37) fun c => agree5 m c main_v42]

end Cert.KernelIdeal.Hand

end
-- ==== Proof.FrameKI.lean ====
import proofs.«174655_j53695681135127_1_alg».proof.Proof.RunKI
import proofs.«174655_j53695681135127_1_alg».proof.Proof.OutsKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- every argument is a reference the run speaks of and that no item writes, so it ends as launched
theorem run_post : θ_run defs (onTc (τ := τ) (main (F := F))) ⟨m, fun _ => 0, ρ⟩ (fun r => ∀ c : Dev nD,
      r.2.mem ((c.tc : Thread nD τ).loc main_v48) = V65 m (outsAll m) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    have g (x : Ref sig .tc) (hx : ¬(Proc.devRef (τ := τ) .tc x).isScoped := by decide) :
        r.2.mem ((c.tc : Thread nD τ).loc x) = V65 m (outsAll m) c x :=
      h c (Proc.devRef .tc x) (Finset.mem_filter.mpr ⟨StableHlo.devRef_mem_tcRefs x, hx⟩)
    have k (x : Ref sig .tc) (hx : ¬(Proc.devRef (τ := τ) .tc x).isScoped := by decide) (hn : allW.Forall (x ∉ ·) := by decide) :
        r.2.mem ((c.tc : Thread nD τ).loc x) = m ((c.tc : Thread nD τ).loc x) :=
      (g x hx).trans (V65_of_notMem m (outsAll m) c x hn)
    ⟨g main_v48, k main_arg0, k main_arg1, k main_arg2, k main_arg3, k main_arg4, k main_arg5, k main_arg6, k main_arg7, k main_arg8, k main_arg9, k main_arg10, k main_arg11, k main_arg12, k main_arg13, k main_arg14, k main_arg15, k main_arg16, k main_arg17, k main_arg18⟩)
    (run_all m (outsAll m) ρ (ok_all m))

end Cert.KernelIdeal.Hand

end
-- ==== Proof.HostValAKI.lean ====
import proofs.«174655_j53695681135127_1_alg».proof.Proof.RegionsKI
import Idealize.ShloMosaic.Lib.KernelVsHost
import Idealize.ShloMosaic.Lib.ValueLayout

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx

section Layout
variable {α : Type}

theorem pad2_apply {n0 n1 m0 m1 : Nat} (e0 e1 : Nat) (x : (⟨2, ![n0, n1]⟩ : Shape).Idx → α) {u : Shape} (v : u.Idx → α)
    (h : (⟨2, ![n0, n1]⟩ : Shape).Pads ![0, 0] ![e0, e1] ![0, 0] ⟨2, ![m0, m1]⟩) (hu : 0 < u.numel)
    (p : Fin m0) (k : Fin m1) :
    pad ⟨2, ![m0, m1]⟩ ![0, 0] ![e0, e1] ![0, 0] x v h hu (ix2 p k)
      = if hh : p.val < n0 ∧ k.val < n1 then x (ix2 ⟨p.val, hh.1⟩ ⟨k.val, hh.2⟩) else v (Shape.Idx.first hu) := by
  by_cases hh : p.val < n0 ∧ k.val < n1
  · rw [dif_pos hh]
    exact pad_apply_of_inside _ _ _ x v h hu _ _ (fun a => by
      match a with
      | ⟨0, _⟩ => show p.val = 0 + p.val * (0 + 1); omega
      | ⟨1, _⟩ => show k.val = 0 + k.val * (0 + 1); omega)
  · rw [dif_neg hh]
    by_cases h0 : p.val < n0
    · have h1 : ¬ k.val < n1 := fun h1 => hh ⟨h0, h1⟩
      refine pad_apply_of_not_inside _ _ _ x v h hu _ (⟨1, by decide⟩ : Fin 2) ?_
      show ¬(0 ≤ k.val ∧ (k.val - 0) % (0 + 1) = 0 ∧ (k.val - 0) / (0 + 1) < n1)
      rintro ⟨_, _, h3⟩
      rw [Nat.sub_zero, Nat.zero_add, Nat.div_one] at h3
      exact h1 h3
    · refine pad_apply_of_not_inside _ _ _ x v h hu _ (⟨0, by decide⟩ : Fin 2) ?_
      show ¬(0 ≤ p.val ∧ (p.val - 0) % (0 + 1) = 0 ∧ (p.val - 0) / (0 + 1) < n0)
      rintro ⟨_, _, h3⟩
      rw [Nat.sub_zero, Nat.zero_add, Nat.div_one] at h3
      exact h0 h3

theorem pad1_apply {n m : Nat} (e : Nat) (x : (⟨1, ![n]⟩ : Shape).Idx → α) {u : Shape} (v : u.Idx → α)
    (h : (⟨1, ![n]⟩ : Shape).Pads ![0] ![e] ![0] ⟨1, ![m]⟩) (hu : 0 < u.numel) (q : Fin m) :
    pad ⟨1, ![m]⟩ ![0] ![e] ![0] x v h hu (ix1 q)
      = if hh : q.val < n then x (ix1 ⟨q.val, hh⟩) else v (Shape.Idx.first hu) := by
  by_cases hh : q.val < n
  · rw [dif_pos hh]
    exact pad_apply_of_inside _ _ _ x v h hu _ _ (fun a => by
      match a with
      | ⟨0, _⟩ => show q.val = 0 + q.val * (0 + 1); omega)
  · rw [dif_neg hh]
    refine pad_apply_of_not_inside _ _ _ x v h hu _ (⟨0, by decide⟩ : Fin 1) ?_
    show ¬(0 ≤ q.val ∧ (q.val - 0) % (0 + 1) = 0 ∧ (q.val - 0) / (0 + 1) < n)
    rintro ⟨_, _, h3⟩
    rw [Nat.sub_zero, Nat.zero_add, Nat.div_one] at h3
    exact hh h3

end Layout

theorem padZero (z : (S_.Idx → BitVec 32)) (hz : z = constantI S_ 32 0#32) (i : S_.Idx) :
    ((sitofp .f32 z : FVec Ideal S_ .f32) i : EReal) = 0 := by
  subst hz
  exact sitofp_zero

variable (m : (ℓ : Loc nD τ sig) → Buf (Elt Ideal) ℓ) (outs : Outs (F := Ideal))

theorem V9_x (c : Dev nD) (p : Fin 512) (k : Fin 20480) :
    (V9 m c main_v3 : S512x20480.Idx → EReal) (ix2 p k)
      = if h : k.val < 20000 then (m ((c : Thread nD τ).loc main_arg0) : S512x28000.Idx → EReal) (ix2 p ⟨8000 + k.val, by omega⟩) else (0 : EReal) := by
  have e0 : (V1 m c main_v0 : S512x20000.Idx → EReal)
      = extractStridedSlice S512x20000 ![0, 8000] (m ((c : Thread nD τ).loc main_arg0) : S512x28000.Idx → EReal) slices_S512x28000_S512x20000_0_8000 := by
    dsimp only [V1, V0, hostOps0]; after_results
  have ec : (V1 m c main_c : S_.Idx → BitVec 32) = constantI S_ 32 0#32 := by
    dsimp only [V1, V0, hostOps0]; after_results
  have e1 : (V2 m c main_v3 : S512x20480.Idx → EReal)
      = pad S512x20480 ![0, 0] ![0, 480] ![0, 0] (V1 m c main_v0 : S512x20000.Idx → EReal)
          (sitofp .f32 (V1 m c main_c : S_.Idx → BitVec 32) : FVec Ideal S_ .f32) pads_S512x20000_S512x20480_000_04800 h_S_ := by
    dsimp only [V2, hostOps0_1]; after_results; rfl
  rw [V9_of m c main_v3 (by decide), V8_of m c main_v3 (by decide), V7_of m c main_v3 (by decide), V6_of m c main_v3 (by decide),
    V5_of m c main_v3 (by decide), V4_of m c main_v3 (by decide), V3_of m c main_v3 (by decide), e1]
  refine (pad2_apply 0 480 _ _ _ h_S_ p k).trans ?_
  by_cases hk : k.val < 20000
  · rw [dif_pos ⟨p.isLt, hk⟩, dif_pos hk, e0]
    exact slice2_axis1_apply 8000 _ _ p ⟨k.val, hk⟩ ⟨8000 + k.val, by omega⟩ rfl
  · rw [dif_neg (fun h => hk h.2), dif_neg hk]
    exact padZero _ ec _

theorem V9_w (c : Dev nD) (q : Fin 5120) (k : Fin 20480) :
    (V9 m c main_v4 : S5120x20480.Idx → EReal) (ix2 q k)
      = if h : q.val < 5000 ∧ k.val < 20000 then (m ((c : Thread nD τ).loc main_arg5) : S5000x20000.Idx → EReal) (ix2 ⟨q.val, h.1⟩ ⟨k.val, h.2⟩) else (0 : EReal) := by
  have ec : (V3 m c main_c_0 : S_.Idx → BitVec 32) = constantI S_ 32 0#32 := by
    dsimp only [V3, hostOps0_2]; after_results
  have e1 : (V4 m c main_v4 : S5120x20480.Idx → EReal)
      = pad S5120x20480 ![0, 0] ![120, 480] ![0, 0] (V3 m c main_arg5 : S5000x20000.Idx → EReal)
          (sitofp .f32 (V3 m c main_c_0 : S_.Idx → BitVec 32) : FVec Ideal S_ .f32) pads_S5000x20000_S5120x20480_01200_04800 h_S_ := by
    dsimp only [V4, hostOps0_3]; after_results; rfl
  have ea : V3 m c main_arg5 = m ((c : Thread nD τ).loc main_arg5) := by
    rw [V3_of m c main_arg5 (by decide), V2_of m c main_arg5 (by decide), V1_of m c main_arg5 (by decide)]
  rw [V9_of m c main_v4 (by decide), V8_of m c main_v4 (by decide), V7_of m c main_v4 (by decide), V6_of m c main_v4 (by decide),
    V5_of m c main_v4 (by decide), e1]
  refine (pad2_apply 120 480 _ _ _ h_S_ q k).trans ?_
  by_cases hk : q.val < 5000 ∧ k.val < 20000
  · rw [dif_pos hk, dif_pos hk, ea]
  · rw [dif_neg hk, dif_neg hk]
    exact padZero _ ec _

theorem V9_a (c : Dev nD) (k : Fin 20480) (q : Fin 5120) :
    (V9 m c main_v5 : S20480x5120.Idx → EReal) (ix2 k q)
      = if h : k.val < 20000 ∧ q.val < 5000 then (m ((c : Thread nD τ).loc main_arg1) : S20000x5000.Idx → EReal) (ix2 ⟨k.val, h.1⟩ ⟨q.val, h.2⟩) else (0 : EReal) := by
  have ec : (V5 m c main_c_1 : S_.Idx → BitVec 32) = constantI S_ 32 0#32 := by
    dsimp only [V5, hostOps0_4]; after_results
  have e1 : (V6 m c main_v5 : S20480x5120.Idx → EReal)
      = pad S20480x5120 ![0, 0] ![480, 120] ![0, 0] (V5 m c main_arg1 : S20000x5000.Idx → EReal)
          (sitofp .f32 (V5 m c main_c_1 : S_.Idx → BitVec 32) : FVec Ideal S_ .f32) pads_S20000x5000_S20480x5120_04800_01200 h_S_ := by
    dsimp only [V6, hostOps0_5]; after_results; rfl
  have ea : V5 m c main_arg1 = m ((c : Thread nD τ).loc main_arg1) := by
    rw [V5_of m c main_arg1 (by decide), V4_of m c main_arg1 (by decide), V3_of m c main_arg1 (by decide),
      V2_of m c main_arg1 (by decide), V1_of m c main_arg1 (by decide)]
  rw [V9_of m c main_v5 (by decide), V8_of m c main_v5 (by decide), V7_of m c main_v5 (by decide), e1]
  refine (pad2_apply 480 120 _ _ _ h_S_ k q).trans ?_
  by_cases hk : k.val < 20000 ∧ q.val < 5000
  · rw [dif_pos hk, dif_pos hk, ea]
  · rw [dif_neg hk, dif_neg hk]
    exact padZero _ ec _

theorem V9_b (c : Dev nD) (q : Fin 5120) :
    (V9 m c main_v7 : S1x5120.Idx → EReal) (ix2 (0 : Fin 1) q)
      = if h : q.val < 5000 then (m ((c : Thread nD τ).loc main_arg6) : S5000.Idx → EReal) (ix1 ⟨q.val, h⟩) else (0 : EReal) := by
  have ec : (V7 m c main_c_2 : S_.Idx → BitVec 32) = constantI S_ 32 0#32 := by
    dsimp only [V7, hostOps0_6]; after_results
  have e1 : (V8 m c main_v6 : S5120.Idx → EReal)
      = pad S5120 ![0] ![120] ![0] (V7 m c main_arg6 : S5000.Idx → EReal)
          (sitofp .f32 (V7 m c main_c_2 : S_.Idx → BitVec 32) : FVec Ideal S_ .f32) pads_S5000_S5120_01200 h_S_ := by
    dsimp only [V8, hostOps0_7]; after_results; rfl
  have e2 : (V9 m c main_v7 : S1x5120.Idx → EReal)
      = shapeCast S1x5120 (V8 m c main_v6 : S5120.Idx → EReal) shapeCasts_S5120_S1x5120 := by
    dsimp only [V9, hostOps0_8]; after_results; rfl
  have ea : V7 m c main_arg6 = m ((c : Thread nD τ).loc main_arg6) := by
    rw [V7_of m c main_arg6 (by decide), V6_of m c main_arg6 (by decide), V5_of m c main_arg6 (by decide), V4_of m c main_arg6 (by decide),
      V3_of m c main_arg6 (by decide), V2_of m c main_arg6 (by decide), V1_of m c main_arg6 (by decide)]
  rw [e2]
  refine (shapeCast_a_1a_apply _ shapeCasts_S5120_S1x5120 (0 : Fin 1) q).trans ?_
  rw [e1]
  refine (pad1_apply 120 _ _ _ h_S_ q).trans ?_
  by_cases hk : q.val < 5000
  · rw [dif_pos hk, dif_pos hk, ea]
  · rw [dif_neg hk, dif_neg hk]
    exact padZero _ ec _

end Cert.KernelIdeal.Hand
-- ==== Proof.HostArgsKI.lean ====
import proofs.«174655_j53695681135127_1_alg».proof.Proof.RegionsKI

set_option maxRecDepth 16384

noncomputable section

namespace Cert.KernelIdeal.Hand

open Cert.KernelIdeal Cert.KernelIdeal.Gen Cert.KernelIdeal.GenP
open Idealize.ShloMosaic Idealize.ShloMosaic.TcCoe

variable {F : FTy → Type} [FloatOps F] (m : (ℓ : Loc nD τ sig) → Buf (Elt F) ℓ) (outs : Outs (F := F))

abbrev argsL : List (Ref sig .tc) :=
  [main_arg2, main_arg3, main_arg4, main_arg7, main_arg8, main_arg9, main_arg10, main_arg11, main_arg12]

theorem V13_arg (c : Dev nD) (r : Ref sig .tc) (hr : r ∈ argsL) : V13 m outs c r = m ((c : Thread nD τ).loc r) := by
  rw [V13_of m outs c r ((by decide : ∀ r ∈ argsL, r ∉ hostOps1_2_W) r hr),
    V12_of m outs c r ((by decide : ∀ r ∈ argsL, r ∉ hostOps1_1_W) r hr),
    V11_of m outs c r ((by decide : ∀ r ∈ argsL, r ∉ hostOps1_W) r hr),
    V10_of m outs c r ((by decide : ∀ r ∈ argsL, r ∉ ([main_v8] : List (Ref sig .tc))) r hr),
    V9_of m c r ((by decide : ∀ r ∈ argsL, r ∉ hostOps0_8_W) r hr),
    V8_of m c r ((by decide : ∀ r ∈ argsL, r ∉ hostOps0_7_W) r hr),
    V7_of m c r ((by decide : ∀ r ∈ argsL, r ∉ hostOps0_6_W) r hr),
    V6_of m c r ((by decide : ∀ r ∈ argsL, r ∉ hostOps0_5_W) r hr),
    V5_of m c r ((by decide : ∀ r ∈ argsL, r ∉ hostOps0_4_W) r hr),
    V4_of m c r ((by decide : ∀ r ∈ argsL, r ∉ hostOps0_3_W) r hr),
    V3_of m c r ((by decide : ∀ r ∈ argsL, r ∉ hostOps0_2_W) r hr),
    V2_of m c r ((by decide : ∀ r ∈ argsL, r ∉ hostOps0_1_W) r hr),
    V1_of m c r ((by decide : ∀ r ∈ argsL, r ∉ hostOps0_W) r hr)]

theorem V15_arg (c : Dev nD) (r : Ref sig .tc) (hr : r ∈ argsL) : V15 m outs c r = m ((c : Thread nD τ).loc r) := by
  rw [V15_of m outs c r ((by decide : ∀ r ∈ argsL, r ∉ hostOps1_4_W) r hr),
    V14_of m outs c r ((by decide : ∀ r ∈ argsL, r ∉ hostOps1_3_W) r hr)]
  exact V13_arg m outs c r hr

theorem V17_arg (c : Dev nD) (r : Ref sig .tc) (hr : r ∈ argsL) : V17 m outs c r = m ((c : Thread nD τ).loc r) := by
  rw [V17_of m outs c r ((by decide : ∀ r ∈ argsL, r ∉ hostOps1_6_W) r hr),
    V16_of m outs c r ((by decide : ∀ r ∈ argsL, r ∉ hostOps1_5_W) r hr)]
  exact V15_arg m outs c r hr

theorem V23_arg (c : Dev nD) (r : Ref sig .tc) (hr : r ∈ argsL) : V23 m outs c r = m ((c : Thread nD τ).loc r) := by
  rw [V23_of m outs c r ((by decide : ∀ r ∈ argsL, r ∉ hostOps2_2_W) r hr),
    V22_of m outs c r ((by decide : ∀ r ∈ argsL, r ∉ hostOps2_1_W) r hr),
    V21_of m outs c r ((by decide : ∀ r ∈ argsL, r ∉ hostOps2_W) r hr),
    V20_of m outs c r ((by decide : ∀ r ∈ argsL, r ∉ ([main_v15] : List (Ref sig .tc))) r hr),
    V19_of m outs c r ((by decide : ∀ r ∈ argsL, r ∉ hostOps1_8_W) r hr),
    V18_of m outs c r ((by decide : ∀ r ∈ argsL, r ∉ hostOps1_7_W) r hr)]
  exact V17_arg m outs c r hr

theorem V25_arg (c : Dev nD) (r : Ref sig .tc) (hr : r ∈ argsL) : V25 m outs c r = m ((c : Thread nD τ).loc r) := by
  rw [V25_of m outs c r ((by decide : ∀ r ∈ argsL, r ∉ hostOps2_4_W) r hr),
    V24_of m outs c r ((by decide : ∀ r ∈ argsL, r ∉ hostOps2_3_W) r hr)]
  exact V23_arg m outs c r hr

theorem V27_arg (c : Dev nD) (r : Ref sig .tc) (hr : r ∈ argsL) : V27 m outs c r = m ((c : Thread nD τ).loc r) := by
  rw [V27_of m outs c r ((by decide : ∀ r ∈ argsL, r ∉ hostOps2_6_W) r hr),
    V26_of m outs c r ((by decide : ∀ r ∈ argsL, r ∉ hostOps2_5_W) r hr)]
  exact V25_arg m outs c r hr

theorem V33_arg (c : Dev nD) (r : Ref sig .tc) (hr : r ∈ argsL) : V33 m outs c r = m ((c : Thread nD τ).loc r) := by
  rw [V33_of m outs c r ((by decide : ∀ r ∈ argsL, r ∉ hostOps3_2_W) r hr),
    V32_of m outs c r ((by decide : ∀ r ∈ argsL, r ∉ hostOps3_1_W) r hr),
    V31_of m outs c r ((by decide : ∀ r ∈ argsL, r ∉ hostOps3_W) r hr),
    V30_of m outs c r ((by decide : ∀ r ∈ argsL, r ∉ ([main_v23] : List (Ref sig .tc))) r hr),
    V29_of m outs c r ((by decide : ∀ r ∈ argsL, r ∉ hostOps2_8_W) r hr),
    V28_of m outs c r ((by decide : ∀ r ∈ argsL, r ∉ hostOps2_7_W) r hr)]
  exact V27_arg m outs c r hr

theorem V35_arg (c : Dev nD) (r : Ref sig .tc) (hr : r ∈ argsL) : V35 m outs c r = m ((c : Thread nD τ).loc r) := by
  rw [V35_of m outs c r ((by decide : ∀ r ∈ argsL, r ∉ hostOps3_4_W) r hr),
    V34_of m outs c r ((by decide : ∀ r ∈ argsL, r ∉ hostOps3_3_W) r hr)]
  exact V33_arg m outs c r hr

theorem V37_arg (c : Dev nD) (r : Ref sig .tc) (hr : r ∈ argsL) : V37 m outs c r = m ((c : Thread nD τ).loc r) := by
  rw [V37_of m outs c r ((by decide : ∀ r ∈ argsL, r ∉ hostOps3_6_W) r hr),
    V36_of m outs c r ((by decide : ∀ r ∈ argsL, r ∉ hostOps3_5_W) r hr)]
  exact V35_arg m outs c r hr

end Cert.KernelIdeal.Hand
-- ==== Proof.HostValA1KI.lean ====
import proofs.«174655_j53695681135127_1_alg».proof.Proof.HostValAKI
import proofs.«174655_j53695681135127_1_alg».proof.Proof.HostArgsKI
import Idealize.ShloMosaic.Lib.KernelVsHost
import Idealize.ShloMosaic.Lib.ValueLayout

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (outs : Outs (F := Ideal))

theorem V19_x (c : Dev nD) (p : Fin 512) (k : Fin 5120) :
    (V19 m outs c main_v10 : S512x5120.Idx → EReal) (ix2 p k)
      = if h : k.val < 5000 then (m ((c : Thread nD τ).loc main_arg0) : S512x28000.Idx → EReal) (ix2 p ⟨3000 + k.val, by omega⟩) else (0 : EReal) := by
  have e0 : (V1 m c main_v1 : S512x5000.Idx → EReal)
      = extractStridedSlice S512x5000 ![0, 3000] (m ((c : Thread nD τ).loc main_arg0) : S512x28000.Idx → EReal) slices_S512x28000_S512x5000_0_3000 := by
    dsimp only [V1, V0, hostOps0]; after_results
  have ec : (V11 m outs c main_c_3 : S_.Idx → BitVec 32) = constantI S_ 32 0#32 := by
    dsimp only [V11, hostOps1]; after_results
  have e1 : (V12 m outs c main_v10 : S512x5120.Idx → EReal)
      = pad S512x5120 ![0, 0] ![0, 120] ![0, 0] (V11 m outs c main_v1 : S512x5000.Idx → EReal)
          (sitofp .f32 (V11 m outs c main_c_3 : S_.Idx → BitVec 32) : FVec Ideal S_ .f32) pads_S512x5000_S512x5120_000_01200 h_S_ := by
    dsimp only [V12, hostOps1_1]; after_results; rfl
  have ev : V11 m outs c main_v1 = V1 m c main_v1 := by
    rw [V11_of m outs c main_v1 (by decide), V10_of m outs c main_v1 (by decide), V9_of m c main_v1 (by decide), V8_of m c main_v1 (by decide),
      V7_of m c main_v1 (by decide), V6_of m c main_v1 (by decide), V5_of m c main_v1 (by decide), V4_of m c main_v1 (by decide),
      V3_of m c main_v1 (by decide), V2_of m c main_v1 (by decide)]
  rw [V19_of m outs c main_v10 (by decide), V18_of m outs c main_v10 (by decide), V17_of m outs c main_v10 (by decide),
    V16_of m outs c main_v10 (by decide), V15_of m outs c main_v10 (by decide), V14_of m outs c main_v10 (by decide),
    V13_of m outs c main_v10 (by decide), e1]
  refine (pad2_apply 0 120 _ _ _ h_S_ p k).trans ?_
  by_cases hk : k.val < 5000
  · rw [dif_pos ⟨p.isLt, hk⟩, dif_pos hk, ev, e0]
    exact slice2_axis1_apply 3000 _ _ p ⟨k.val, hk⟩ ⟨3000 + k.val, by omega⟩ rfl
  · rw [dif_neg (fun h => hk h.2), dif_neg hk]
    exact padZero _ ec _

theorem V19_w (c : Dev nD) (q : Fin 3072) (k : Fin 5120) :
    (V19 m outs c main_v11 : S3072x5120.Idx → EReal) (ix2 q k)
      = if h : q.val < 3000 ∧ k.val < 5000 then (m ((c : Thread nD τ).loc main_arg7) : S3000x5000.Idx → EReal) (ix2 ⟨q.val, h.1⟩ ⟨k.val, h.2⟩) else (0 : EReal) := by
  have ec : (V13 m outs c main_c_4 : S_.Idx → BitVec 32) = constantI S_ 32 0#32 := by
    dsimp only [V13, hostOps1_2]; after_results
  have e1 : (V14 m outs c main_v11 : S3072x5120.Idx → EReal)
      = pad S3072x5120 ![0, 0] ![72, 120] ![0, 0] (V13 m outs c main_arg7 : S3000x5000.Idx → EReal)
          (sitofp .f32 (V13 m outs c main_c_4 : S_.Idx → BitVec 32) : FVec Ideal S_ .f32) pads_S3000x5000_S3072x5120_0720_01200 h_S_ := by
    dsimp only [V14, hostOps1_3]; after_results; rfl
  rw [V19_of m outs c main_v11 (by decide), V18_of m outs c main_v11 (by decide), V17_of m outs c main_v11 (by decide),
    V16_of m outs c main_v11 (by decide), V15_of m outs c main_v11 (by decide), e1]
  refine (pad2_apply 72 120 _ _ _ h_S_ q k).trans ?_
  by_cases hk : q.val < 3000 ∧ k.val < 5000
  · rw [dif_pos hk, dif_pos hk, V13_arg m outs c main_arg7 (by decide)]
  · rw [dif_neg hk, dif_neg hk]
    exact padZero _ ec _

theorem V19_a (c : Dev nD) (k : Fin 5120) (q : Fin 3072) :
    (V19 m outs c main_v12 : S5120x3072.Idx → EReal) (ix2 k q)
      = if h : k.val < 5000 ∧ q.val < 3000 then (m ((c : Thread nD τ).loc main_arg2) : S5000x3000.Idx → EReal) (ix2 ⟨k.val, h.1⟩ ⟨q.val, h.2⟩) else (0 : EReal) := by
  have ec : (V15 m outs c main_c_5 : S_.Idx → BitVec 32) = constantI S_ 32 0#32 := by
    dsimp only [V15, hostOps1_4]; after_results
  have e1 : (V16 m outs c main_v12 : S5120x3072.Idx → EReal)
      = pad S5120x3072 ![0, 0] ![120, 72] ![0, 0] (V15 m outs c main_arg2 : S5000x3000.Idx → EReal)
          (sitofp .f32 (V15 m outs c main_c_5 : S_.Idx → BitVec 32) : FVec Ideal S_ .f32) pads_S5000x3000_S5120x3072_01200_0720 h_S_ := by
    dsimp only [V16, hostOps1_5]; after_results; rfl
  rw [V19_of m outs c main_v12 (by decide), V18_of m outs c main_v12 (by decide), V17_of m outs c main_v12 (by decide), e1]
  refine (pad2_apply 120 72 _ _ _ h_S_ k q).trans ?_
  by_cases hk : k.val < 5000 ∧ q.val < 3000
  · rw [dif_pos hk, dif_pos hk, V15_arg m outs c main_arg2 (by decide)]
  · rw [dif_neg hk, dif_neg hk]
    exact padZero _ ec _

theorem V19_b (c : Dev nD) (q : Fin 3072) :
    (V19 m outs c main_v14 : S1x3072.Idx → EReal) (ix2 (0 : Fin 1) q)
      = if h : q.val < 3000 then (m ((c : Thread nD τ).loc main_arg8) : S3000.Idx → EReal) (ix1 ⟨q.val, h⟩) else (0 : EReal) := by
  have ec : (V17 m outs c main_c_6 : S_.Idx → BitVec 32) = constantI S_ 32 0#32 := by
    dsimp only [V17, hostOps1_6]; after_results
  have e1 : (V18 m outs c main_v13 : S3072.Idx → EReal)
      = pad S3072 ![0] ![72] ![0] (V17 m outs c main_arg8 : S3000.Idx → EReal)
          (sitofp .f32 (V17 m outs c main_c_6 : S_.Idx → BitVec 32) : FVec Ideal S_ .f32) pads_S3000_S3072_0720 h_S_ := by
    dsimp only [V18, hostOps1_7]; after_results; rfl
  have e2 : (V19 m outs c main_v14 : S1x3072.Idx → EReal)
      = shapeCast S1x3072 (V18 m outs c main_v13 : S3072.Idx → EReal) shapeCasts_S3072_S1x3072 := by
    dsimp only [V19, hostOps1_8]; after_results; rfl
  rw [e2]
  refine (shapeCast_a_1a_apply _ shapeCasts_S3072_S1x3072 (0 : Fin 1) q).trans ?_
  rw [e1]
  refine (pad1_apply 72 _ _ _ h_S_ q).trans ?_
  by_cases hk : q.val < 3000
  · rw [dif_pos hk, dif_pos hk, V17_arg m outs c main_arg8 (by decide)]
  · rw [dif_neg hk, dif_neg hk]
    exact padZero _ ec _

end Cert.KernelIdeal.Hand
-- ==== Proof.HostValA2KI.lean ====
import proofs.«174655_j53695681135127_1_alg».proof.Proof.HostValAKI
import proofs.«174655_j53695681135127_1_alg».proof.Proof.HostArgsKI
import Idealize.ShloMosaic.Lib.KernelVsHost
import Idealize.ShloMosaic.Lib.ValueLayout

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx

section Concat
variable {α : Type}

theorem concat2_axis1_left {n m1 m2 mm : Nat} (x₁ : (⟨2, ![n, m1]⟩ : Shape).Idx → α) (x₂ : (⟨2, ![n, m2]⟩ : Shape).Idx → α)
    (h : Shape.Concatenates [(⟨2, ![n, m1]⟩ : Shape), ⟨2, ![n, m2]⟩] ⟨2, ![n, mm]⟩ 1) (p : Fin n) (k : Fin mm) (hk : k.val < m1) :
    concatenate ⟨2, ![n, mm]⟩ 1 [⟨⟨2, ![n, m1]⟩, x₁⟩, ⟨⟨2, ![n, m2]⟩, x₂⟩] h (ix2 p k) = x₁ (ix2 p ⟨k.val, hk⟩) :=
  concatenate_pair_apply_left 1 x₁ x₂ h (ix2 p k) rfl (ix2 p ⟨k.val, hk⟩) (fun b => by
    match b with
    | ⟨0, _⟩ => rfl
    | ⟨1, _⟩ => rfl)

theorem concat2_axis1_right {n m1 m2 mm : Nat} (x₁ : (⟨2, ![n, m1]⟩ : Shape).Idx → α) (x₂ : (⟨2, ![n, m2]⟩ : Shape).Idx → α)
    (h : Shape.Concatenates [(⟨2, ![n, m1]⟩ : Shape), ⟨2, ![n, m2]⟩] ⟨2, ![n, mm]⟩ 1) (p : Fin n) (k : Fin mm) (hk : m1 ≤ k.val)
    (hk2 : k.val - m1 < m2) :
    concatenate ⟨2, ![n, mm]⟩ 1 [⟨⟨2, ![n, m1]⟩, x₁⟩, ⟨⟨2, ![n, m2]⟩, x₂⟩] h (ix2 p k) = x₂ (ix2 p ⟨k.val - m1, hk2⟩) :=
  concatenate_pair_apply_right 1 x₁ x₂ h (ix2 p k) rfl rfl (ix2 p ⟨k.val - m1, hk2⟩) (fun b hb => by
    match b, hb with
    | ⟨0, _⟩, _ => rfl
    | ⟨1, _⟩, hb => exact absurd rfl hb) (by show (k.val - m1) + m1 = k.val; omega)

end Concat

variable (m : (ℓ : Loc nD τ sig) → Buf (Elt Ideal) ℓ) (outs : Outs (F := Ideal))

theorem V29_x (c : Dev nD) (p : Fin 512) (k : Fin 8192) :
    (V29 m outs c main_v18 : S512x8192.Idx → EReal) (ix2 p k)
      = if h : k.val < 5000 then (outs 10 main_v8 c : S512x5120.Idx → EReal) (ix2 p ⟨k.val, by omega⟩)
        else if h' : k.val < 8000 then (outs 20 main_v15 c : S512x3072.Idx → EReal) (ix2 p ⟨k.val - 5000, by omega⟩)
        else (0 : EReal) := by
  have e8 : V10 m outs c main_v8 = outs 10 main_v8 c := by
    dsimp only [V10]; exact Function.update_self _ _ _
  have e15 : V20 m outs c main_v15 = outs 20 main_v15 c := by
    dsimp only [V20]; exact Function.update_self _ _ _
  have e9 : (V11 m outs c main_v9 : S512x5000.Idx → EReal)
      = extractStridedSlice S512x5000 ![0, 0] (V10 m outs c main_v8 : S512x5120.Idx → EReal) slices_S512x5120_S512x5000_0_0 := by
    dsimp only [V11, hostOps1]; after_results
  have ev : V20 m outs c main_v9 = V11 m outs c main_v9 := by
    rw [V20_of m outs c main_v9 (by decide), V19_of m outs c main_v9 (by decide), V18_of m outs c main_v9 (by decide),
      V17_of m outs c main_v9 (by decide), V16_of m outs c main_v9 (by decide), V15_of m outs c main_v9 (by decide),
      V14_of m outs c main_v9 (by decide), V13_of m outs c main_v9 (by decide), V12_of m outs c main_v9 (by decide)]
  have e17 : (V21 m outs c main_v17 : S512x8000.Idx → EReal)
      = concatenate S512x8000 1 [⟨S512x5000, (V20 m outs c main_v9 : S512x5000.Idx → EReal)⟩,
          ⟨S512x3000, extractStridedSlice S512x3000 ![0, 0] (V20 m outs c main_v15 : S512x3072.Idx → EReal) slices_S512x3072_S512x3000_0_0⟩]
          concatenates_S512x5000_S512x3000_S512x8000_d1 := by
    dsimp only [V21, hostOps2]; after_results
  have ec : (V21 m outs c main_c_7 : S_.Idx → BitVec 32) = constantI S_ 32 0#32 := by
    dsimp only [V21, hostOps2]; after_results
  have e1 : (V22 m outs c main_v18 : S512x8192.Idx → EReal)
      = pad S512x8192 ![0, 0] ![0, 192] ![0, 0] (V21 m outs c main_v17 : S512x8000.Idx → EReal)
          (sitofp .f32 (V21 m outs c main_c_7 : S_.Idx → BitVec 32) : FVec Ideal S_ .f32) pads_S512x8000_S512x8192_000_01920 h_S_ := by
    dsimp only [V22, hostOps2_1]; after_results; rfl
  rw [V29_of m outs c main_v18 (by decide), V28_of m outs c main_v18 (by decide), V27_of m outs c main_v18 (by decide),
    V26_of m outs c main_v18 (by decide), V25_of m outs c main_v18 (by decide), V24_of m outs c main_v18 (by decide),
    V23_of m outs c main_v18 (by decide), e1]
  refine (pad2_apply 0 192 _ _ _ h_S_ p k).trans ?_
  by_cases hk : k.val < 8000
  · rw [dif_pos ⟨p.isLt, hk⟩, e17]
    by_cases h5 : k.val < 5000
    · rw [dif_pos h5]
      refine (concat2_axis1_left _ _ concatenates_S512x5000_S512x3000_S512x8000_d1 p ⟨k.val, hk⟩ h5).trans ?_
      rw [ev, e9, e8]
      exact slice2_axis1_apply 0 _ _ p ⟨k.val, h5⟩ ⟨k.val, by omega⟩ (Nat.zero_add _).symm
    · rw [dif_neg h5, dif_pos hk]
      refine (concat2_axis1_right _ _ concatenates_S512x5000_S512x3000_S512x8000_d1 p ⟨k.val, hk⟩ (Nat.le_of_not_lt h5)
        (by show k.val - 5000 < 3000; omega)).trans ?_
      rw [e15]
      exact slice2_axis1_apply 0 _ _ p ⟨k.val - 5000, by omega⟩ ⟨k.val - 5000, by omega⟩ (Nat.zero_add _).symm
  · rw [dif_neg (fun h => hk h.2), dif_neg (fun h => hk (by omega)), dif_neg hk]
    exact padZero _ ec _

theorem V29_w (c : Dev nD) (q : Fin 3072) (k : Fin 8192) :
    (V29 m outs c main_v19 : S3072x8192.Idx → EReal) (ix2 q k)
      = if h : q.val < 3000 ∧ k.val < 8000 then (m ((c : Thread nD τ).loc main_arg9) : S3000x8000.Idx → EReal) (ix2 ⟨q.val, h.1⟩ ⟨k.val, h.2⟩) else (0 : EReal) := by
  have ec : (V23 m outs c main_c_8 : S_.Idx → BitVec 32) = constantI S_ 32 0#32 := by
    dsimp only [V23, hostOps2_2]; after_results
  have e1 : (V24 m outs c main_v19 : S3072x8192.Idx → EReal)
      = pad S3072x8192 ![0, 0] ![72, 192] ![0, 0] (V23 m outs c main_arg9 : S3000x8000.Idx → EReal)
          (sitofp .f32 (V23 m outs c main_c_8 : S_.Idx → BitVec 32) : FVec Ideal S_ .f32) pads_S3000x8000_S3072x8192_0720_01920 h_S_ := by
    dsimp only [V24, hostOps2_3]; after_results; rfl
  rw [V29_of m outs c main_v19 (by decide), V28_of m outs c main_v19 (by decide), V27_of m outs c main_v19 (by decide),
    V26_of m outs c main_v19 (by decide), V25_of m outs c main_v19 (by decide), e1]
  refine (pad2_apply 72 192 _ _ _ h_S_ q k).trans ?_
  by_cases hk : q.val < 3000 ∧ k.val < 8000
  · rw [dif_pos hk, dif_pos hk, V23_arg m outs c main_arg9 (by decide)]
  · rw [dif_neg hk, dif_neg hk]
    exact padZero _ ec _

theorem V29_a (c : Dev nD) (k : Fin 8192) (q : Fin 3072) :
    (V29 m outs c main_v20 : S8192x3072.Idx → EReal) (ix2 k q)
      = if h : k.val < 8000 ∧ q.val < 3000 then (m ((c : Thread nD τ).loc main_arg3) : S8000x3000.Idx → EReal) (ix2 ⟨k.val, h.1⟩ ⟨q.val, h.2⟩) else (0 : EReal) := by
  have ec : (V25 m outs c main_c_9 : S_.Idx → BitVec 32) = constantI S_ 32 0#32 := by
    dsimp only [V25, hostOps2_4]; after_results
  have e1 : (V26 m outs c main_v20 : S8192x3072.Idx → EReal)
      = pad S8192x3072 ![0, 0] ![192, 72] ![0, 0] (V25 m outs c main_arg3 : S8000x3000.Idx → EReal)
          (sitofp .f32 (V25 m outs c main_c_9 : S_.Idx → BitVec 32) : FVec Ideal S_ .f32) pads_S8000x3000_S8192x3072_01920_0720 h_S_ := by
    dsimp only [V26, hostOps2_5]; after_results; rfl
  rw [V29_of m outs c main_v20 (by decide), V28_of m outs c main_v20 (by decide), V27_of m outs c main_v20 (by decide), e1]
  refine (pad2_apply 192 72 _ _ _ h_S_ k q).trans ?_
  by_cases hk : k.val < 8000 ∧ q.val < 3000
  · rw [dif_pos hk, dif_pos hk, V25_arg m outs c main_arg3 (by decide)]
  · rw [dif_neg hk, dif_neg hk]
    exact padZero _ ec _

theorem V29_b (c : Dev nD) (q : Fin 3072) :
    (V29 m outs c main_v22 : S1x3072.Idx → EReal) (ix2 (0 : Fin 1) q)
      = if h : q.val < 3000 then (m ((c : Thread nD τ).loc main_arg10) : S3000.Idx → EReal) (ix1 ⟨q.val, h⟩) else (0 : EReal) := by
  have ec : (V27 m outs c main_c_10 : S_.Idx → BitVec 32) = constantI S_ 32 0#32 := by
    dsimp only [V27, hostOps2_6]; after_results
  have e1 : (V28 m outs c main_v21 : S3072.Idx → EReal)
      = pad S3072 ![0] ![72] ![0] (V27 m outs c main_arg10 : S3000.Idx → EReal)
          (sitofp .f32 (V27 m outs c main_c_10 : S_.Idx → BitVec 32) : FVec Ideal S_ .f32) pads_S3000_S3072_0720 h_S_ := by
    dsimp only [V28, hostOps2_7]; after_results; rfl
  have e2 : (V29 m outs c main_v22 : S1x3072.Idx → EReal)
      = shapeCast S1x3072 (V28 m outs c main_v21 : S3072.Idx → EReal) shapeCasts_S3072_S1x3072 := by
    dsimp only [V29, hostOps2_8]; after_results; rfl
  rw [e2]
  refine (shapeCast_a_1a_apply _ shapeCasts_S3072_S1x3072 (0 : Fin 1) q).trans ?_
  rw [e1]
  refine (pad1_apply 72 _ _ _ h_S_ q).trans ?_
  by_cases hk : q.val < 3000
  · rw [dif_pos hk, dif_pos hk, V27_arg m outs c main_arg10 (by decide)]
  · rw [dif_neg hk, dif_neg hk]
    exact padZero _ ec _

end Cert.KernelIdeal.Hand
-- ==== Proof.HostValA3KI.lean ====
import proofs.«174655_j53695681135127_1_alg».proof.Proof.HostValAKI
import proofs.«174655_j53695681135127_1_alg».proof.Proof.HostArgsKI
import Idealize.ShloMosaic.Lib.KernelVsHost
import Idealize.ShloMosaic.Lib.ValueLayout

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (outs : Outs (F := Ideal))

theorem V39_x (c : Dev nD) (p : Fin 512) (k : Fin 3072) :
    (V39 m outs c main_v25 : S512x3072.Idx → EReal) (ix2 p k)
      = if h : k.val < 3000 then (m ((c : Thread nD τ).loc main_arg0) : S512x28000.Idx → EReal) (ix2 p ⟨k.val, by omega⟩) else (0 : EReal) := by
  have e0 : (V1 m c main_v2 : S512x3000.Idx → EReal)
      = extractStridedSlice S512x3000 ![0, 0] (m ((c : Thread nD τ).loc main_arg0) : S512x28000.Idx → EReal) slices_S512x28000_S512x3000_0_0 := by
    dsimp only [V1, V0, hostOps0]; after_results
  have ec : (V31 m outs c main_c_11 : S_.Idx → BitVec 32) = constantI S_ 32 0#32 := by
    dsimp only [V31, hostOps3]; after_results
  have e1 : (V32 m outs c main_v25 : S512x3072.Idx → EReal)
      = pad S512x3072 ![0, 0] ![0, 72] ![0, 0] (V31 m outs c main_v2 : S512x3000.Idx → EReal)
          (sitofp .f32 (V31 m outs c main_c_11 : S_.Idx → BitVec 32) : FVec Ideal S_ .f32) pads_S512x3000_S512x3072_000_0720 h_S_ := by
    dsimp only [V32, hostOps3_1]; after_results; rfl
  have ev : V31 m outs c main_v2 = V1 m c main_v2 := by
    rw [V31_of m outs c main_v2 (by decide), V30_of m outs c main_v2 (by decide), V29_of m outs c main_v2 (by decide),
      V28_of m outs c main_v2 (by decide), V27_of m outs c main_v2 (by decide), V26_of m outs c main_v2 (by decide),
      V25_of m outs c main_v2 (by decide), V24_of m outs c main_v2 (by decide), V23_of m outs c main_v2 (by decide),
      V22_of m outs c main_v2 (by decide), V21_of m outs c main_v2 (by decide), V20_of m outs c main_v2 (by decide),
      V19_of m outs c main_v2 (by decide), V18_of m outs c main_v2 (by decide), V17_of m outs c main_v2 (by decide),
      V16_of m outs c main_v2 (by decide), V15_of m outs c main_v2 (by decide), V14_of m outs c main_v2 (by decide),
      V13_of m outs c main_v2 (by decide), V12_of m outs c main_v2 (by decide), V11_of m outs c main_v2 (by decide),
      V10_of m outs c main_v2 (by decide), V9_of m c main_v2 (by decide), V8_of m c main_v2 (by decide),
      V7_of m c main_v2 (by decide), V6_of m c main_v2 (by decide), V5_of m c main_v2 (by decide), V4_of m c main_v2 (by decide),
      V3_of m c main_v2 (by decide), V2_of m c main_v2 (by decide)]
  rw [V39_of m outs c main_v25 (by decide), V38_of m outs c main_v25 (by decide), V37_of m outs c main_v25 (by decide),
    V36_of m outs c main_v25 (by decide), V35_of m outs c main_v25 (by decide), V34_of m outs c main_v25 (by decide),
    V33_of m outs c main_v25 (by decide), e1]
  refine (pad2_apply 0 72 _ _ _ h_S_ p k).trans ?_
  by_cases hk : k.val < 3000
  · rw [dif_pos ⟨p.isLt, hk⟩, dif_pos hk, ev, e0]
    exact slice2_axis1_apply 0 _ _ p ⟨k.val, hk⟩ ⟨k.val, by omega⟩ (Nat.zero_add _).symm
  · rw [dif_neg (fun h => hk h.2), dif_neg hk]
    exact padZero _ ec _

theorem V39_w (c : Dev nD) (q : Fin 3072) (k : Fin 3072) :
    (V39 m outs c main_v26 : S3072x3072.Idx → EReal) (ix2 q k)
      = if h : q.val < 3000 ∧ k.val < 3000 then (m ((c : Thread nD τ).loc main_arg11) : S3000x3000.Idx → EReal) (ix2 ⟨q.val, h.1⟩ ⟨k.val, h.2⟩) else (0 : EReal) := by
  have ec : (V33 m outs c main_c_12 : S_.Idx → BitVec 32) = constantI S_ 32 0#32 := by
    dsimp only [V33, hostOps3_2]; after_results
  have e1 : (V34 m outs c main_v26 : S3072x3072.Idx → EReal)
      = pad S3072x3072 ![0, 0] ![72, 72] ![0, 0] (V33 m outs c main_arg11 : S3000x3000.Idx → EReal)
          (sitofp .f32 (V33 m outs c main_c_12 : S_.Idx → BitVec 32) : FVec Ideal S_ .f32) pads_S3000x3000_S3072x3072_0720_0720 h_S_ := by
    dsimp only [V34, hostOps3_3]; after_results; rfl
  rw [V39_of m outs c main_v26 (by decide), V38_of m outs c main_v26 (by decide), V37_of m outs c main_v26 (by decide),
    V36_of m outs c main_v26 (by decide), V35_of m outs c main_v26 (by decide), e1]
  refine (pad2_apply 72 72 _ _ _ h_S_ q k).trans ?_
  by_cases hk : q.val < 3000 ∧ k.val < 3000
  · rw [dif_pos hk, dif_pos hk, V33_arg m outs c main_arg11 (by decide)]
  · rw [dif_neg hk, dif_neg hk]
    exact padZero _ ec _

theorem V39_a (c : Dev nD) (k : Fin 3072) (q : Fin 3072) :
    (V39 m outs c main_v27 : S3072x3072.Idx → EReal) (ix2 k q)
      = if h : k.val < 3000 ∧ q.val < 3000 then (m ((c : Thread nD τ).loc main_arg4) : S3000x3000.Idx → EReal) (ix2 ⟨k.val, h.1⟩ ⟨q.val, h.2⟩) else (0 : EReal) := by
  have ec : (V35 m outs c main_c_13 : S_.Idx → BitVec 32) = constantI S_ 32 0#32 := by
    dsimp only [V35, hostOps3_4]; after_results
  have e1 : (V36 m outs c main_v27 : S3072x3072.Idx → EReal)
      = pad S3072x3072 ![0, 0] ![72, 72] ![0, 0] (V35 m outs c main_arg4 : S3000x3000.Idx → EReal)
          (sitofp .f32 (V35 m outs c main_c_13 : S_.Idx → BitVec 32) : FVec Ideal S_ .f32) pads_S3000x3000_S3072x3072_0720_0720 h_S_ := by
    dsimp only [V36, hostOps3_5]; after_results; rfl
  rw [V39_of m outs c main_v27 (by decide), V38_of m outs c main_v27 (by decide), V37_of m outs c main_v27 (by decide), e1]
  refine (pad2_apply 72 72 _ _ _ h_S_ k q).trans ?_
  by_cases hk : k.val < 3000 ∧ q.val < 3000
  · rw [dif_pos hk, dif_pos hk, V35_arg m outs c main_arg4 (by decide)]
  · rw [dif_neg hk, dif_neg hk]
    exact padZero _ ec _

theorem V39_b (c : Dev nD) (q : Fin 3072) :
    (V39 m outs c main_v29 : S1x3072.Idx → EReal) (ix2 (0 : Fin 1) q)
      = if h : q.val < 3000 then (m ((c : Thread nD τ).loc main_arg12) : S3000.Idx → EReal) (ix1 ⟨q.val, h⟩) else (0 : EReal) := by
  have ec : (V37 m outs c main_c_14 : S_.Idx → BitVec 32) = constantI S_ 32 0#32 := by
    dsimp only [V37, hostOps3_6]; after_results
  have e1 : (V38 m outs c main_v28 : S3072.Idx → EReal)
      = pad S3072 ![0] ![72] ![0] (V37 m outs c main_arg12 : S3000.Idx → EReal)
          (sitofp .f32 (V37 m outs c main_c_14 : S_.Idx → BitVec 32) : FVec Ideal S_ .f32) pads_S3000_S3072_0720 h_S_ := by
    dsimp only [V38, hostOps3_7]; after_results; rfl
  have e2 : (V39 m outs c main_v29 : S1x3072.Idx → EReal)
      = shapeCast S1x3072 (V38 m outs c main_v28 : S3072.Idx → EReal) shapeCasts_S3072_S1x3072 := by
    dsimp only [V39, hostOps3_8]; after_results; rfl
  rw [e2]
  refine (shapeCast_a_1a_apply _ shapeCasts_S3072_S1x3072 (0 : Fin 1) q).trans ?_
  rw [e1]
  refine (pad1_apply 72 _ _ _ h_S_ q).trans ?_
  by_cases hk : q.val < 3000
  · rw [dif_pos hk, dif_pos hk, V37_arg m outs c main_arg12 (by decide)]
  · rw [dif_neg hk, dif_neg hk]
    exact padZero _ ec _

end Cert.KernelIdeal.Hand
-- ==== Proof.HostValB4KI.lean ====
import proofs.«174655_j53695681135127_1_alg».proof.Proof.RegionsKI
import Idealize.ShloMosaic.Lib.ValueIdx
import Idealize.ShloMosaic.Lib.ValueLayout
import Idealize.ShloMosaic.Lib.KernelVsHost

set_option maxRecDepth 1228
set_option maxHeartbeats 1000000

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.StableHlo

variable (m : (ℓ : Loc nD τ sig) → Buf (Elt Ideal) ℓ) (outs : Outs (F := Ideal)) (c : Dev nD)

theorem padZero4 : (sitofp (F := Ideal) .f32 (constantI S_ 32 0#32) : FVec Ideal S_ .f32) (Shape.Idx.first h_S_) = 0 := by
  show ((((0#32 : BitVec 32).toInt : ℤ) : ℝ) : EReal) = 0
  simp

set_option maxRecDepth 8000 in
theorem V47_w (q : Fin 1024) (k : Fin 6144) :
    (V47 m outs c main_v34 : S1024x6144.Idx → EReal) (ix2 q k)
      = if h : k.val < 6000 then (m ((c : Thread nD τ).loc main_arg13) : S1024x6000.Idx → EReal) (ix2 q ⟨k.val, h⟩) else (0 : EReal) := by
  have e : (V44 m outs c main_v34 : S1024x6144.Idx → EReal)
      = pad S1024x6144 ![0, 0] ![0, 144] ![0, 0] (V43 m outs c main_arg13 : S1024x6000.Idx → EReal)
          (sitofp (F := Ideal) .f32 (V43 m outs c main_c_16 : IVec S_ 32) : FVec Ideal S_ .f32) pads_S1024x6000_S1024x6144_000_01440 h_S_ := by
    dsimp only [V44, hostOps4_3]; after_results; rfl
  have ec : (V43 m outs c main_c_16 : IVec S_ 32) = constantI S_ 32 0#32 := by
    dsimp only [V43, hostOps4_2]; after_results
  have hA : V43 m outs c main_arg13 = m ((c : Thread nD τ).loc main_arg13) := by
    rw [← V65_main_arg13 m outs c, V65_of m outs c main_arg13 (by decide), V64_of m outs c main_arg13 (by decide), V63_of m outs c main_arg13 (by decide), V62_of m outs c main_arg13 (by decide), V61_of m outs c main_arg13 (by decide), V60_of m outs c main_arg13 (by decide), V59_of m outs c main_arg13 (by decide), V58_of m outs c main_arg13 (by decide), V57_of m outs c main_arg13 (by decide), V56_of m outs c main_arg13 (by decide), V55_of m outs c main_arg13 (by decide), V54_of m outs c main_arg13 (by decide), V53_of m outs c main_arg13 (by decide), V52_of m outs c main_arg13 (by decide), V51_of m outs c main_arg13 (by decide), V50_of m outs c main_arg13 (by decide), V49_of m outs c main_arg13 (by decide), V48_of m outs c main_arg13 (by decide), V47_of m outs c main_arg13 (by decide), V46_of m outs c main_arg13 (by decide), V45_of m outs c main_arg13 (by decide), V44_of m outs c main_arg13 (by decide)]
  rw [V47_of m outs c main_v34 (by decide), V46_of m outs c main_v34 (by decide), V45_of m outs c main_v34 (by decide), e, hA, ec]
  by_cases h : k.val < 6000
  · rw [dif_pos h]
    exact pad_apply_of_inside _ _ _ _ _ _ _ (ix2 q k) (ix2 q ⟨k.val, h⟩) (fun a => by
      match a with
      | ⟨0, _⟩ => show q.val = 0 + q.val * (0 + 1); omega
      | ⟨1, _⟩ => show k.val = 0 + k.val * (0 + 1); omega)
  · rw [dif_neg h, pad_apply_of_not_inside _ _ _ _ _ _ _ (ix2 q k) ⟨1, by decide⟩ (by
      show ¬(0 ≤ k.val ∧ (k.val - 0) % (0 + 1) = 0 ∧ (k.val - 0) / (0 + 1) < 6000)
      omega)]
    exact padZero4

set_option maxRecDepth 8000 in
theorem V47_b (q : Fin 1024) :
    (V47 m outs c main_v36 : S1x1024.Idx → EReal) (ix2 0 q)
      = (m ((c : Thread nD τ).loc main_arg14) : S1024.Idx → EReal) (ix1 q) := by
  have e0 : (V47 m outs c main_v36 : S1x1024.Idx → EReal)
      = shapeCast S1x1024 (V46 m outs c main_v35 : S1024.Idx → EReal) shapeCasts_S1024_S1x1024 := by
    dsimp only [V47, hostOps4_6]; after_results; rfl
  have e : (V46 m outs c main_v35 : S1024.Idx → EReal)
      = pad S1024 ![0] ![0] ![0] (V45 m outs c main_arg14 : S1024.Idx → EReal)
          (sitofp (F := Ideal) .f32 (V45 m outs c main_c_17 : IVec S_ 32) : FVec Ideal S_ .f32) pads_S1024_S1024_000 h_S_ := by
    dsimp only [V46, hostOps4_5]; after_results; rfl
  have hA : V45 m outs c main_arg14 = m ((c : Thread nD τ).loc main_arg14) := by
    rw [← V65_main_arg14 m outs c, V65_of m outs c main_arg14 (by decide), V64_of m outs c main_arg14 (by decide), V63_of m outs c main_arg14 (by decide), V62_of m outs c main_arg14 (by decide), V61_of m outs c main_arg14 (by decide), V60_of m outs c main_arg14 (by decide), V59_of m outs c main_arg14 (by decide), V58_of m outs c main_arg14 (by decide), V57_of m outs c main_arg14 (by decide), V56_of m outs c main_arg14 (by decide), V55_of m outs c main_arg14 (by decide), V54_of m outs c main_arg14 (by decide), V53_of m outs c main_arg14 (by decide), V52_of m outs c main_arg14 (by decide), V51_of m outs c main_arg14 (by decide), V50_of m outs c main_arg14 (by decide), V49_of m outs c main_arg14 (by decide), V48_of m outs c main_arg14 (by decide), V47_of m outs c main_arg14 (by decide), V46_of m outs c main_arg14 (by decide)]
  rw [e0, shapeCast_a_1a_apply, e, hA]
  exact pad_apply_of_inside _ _ _ _ _ _ _ _ (ix1 q) (fun a => by
    match a with
    | ⟨0, _⟩ => show q.val = 0 + q.val * (0 + 1); omega)

theorem V40_v24 :
    (V40 m outs c main_v24 : S512x3000.Idx → EReal)
      = extractStridedSlice S512x3000 ![0, 0] (outs 30 main_v23 c : S512x3072.Idx → EReal) slices_S512x3072_S512x3000_0_0 := by
  have e24 : (V31 m outs c main_v24 : S512x3000.Idx → EReal)
      = extractStridedSlice S512x3000 ![0, 0] (V30 m outs c main_v23 : S512x3072.Idx → EReal) slices_S512x3072_S512x3000_0_0 := by
    dsimp only [V31, hostOps3]; after_results
  have e23 : (V30 m outs c main_v23 : S512x3072.Idx → EReal) = outs 30 main_v23 c := by
    dsimp only [V30]; exact Function.update_self ..
  rw [V40_of m outs c main_v24 (by decide), V39_of m outs c main_v24 (by decide), V38_of m outs c main_v24 (by decide), V37_of m outs c main_v24 (by decide), V36_of m outs c main_v24 (by decide), V35_of m outs c main_v24 (by decide), V34_of m outs c main_v24 (by decide), V33_of m outs c main_v24 (by decide), V32_of m outs c main_v24 (by decide), e24, e23]

theorem V41_v32 :
    (V41 m outs c main_v32 : S512x6000.Idx → EReal)
      = concatenate S512x6000 1 [⟨S512x3000, (V40 m outs c main_v24 : S512x3000.Idx → EReal)⟩,
          ⟨S512x3000, extractStridedSlice S512x3000 ![0, 0] (V40 m outs c main_v30 : S512x3072.Idx → EReal) slices_S512x3072_S512x3000_0_0⟩]
          concatenates_S512x3000_S512x3000_S512x6000_d1 := by
  dsimp only [V41, hostOps4]; after_results

set_option maxRecDepth 8000 in
theorem V47_x (p : Fin 512) (k : Fin 6144) :
    (V47 m outs c main_v33 : S512x6144.Idx → EReal) (ix2 p k)
      = if h : k.val < 3000 then (outs 30 main_v23 c : S512x3072.Idx → EReal) (ix2 p ⟨k.val, by omega⟩)
        else if h' : k.val < 6000 then (outs 40 main_v30 c : S512x3072.Idx → EReal) (ix2 p ⟨k.val - 3000, by omega⟩)
        else (0 : EReal) := by
  have e : (V42 m outs c main_v33 : S512x6144.Idx → EReal)
      = pad S512x6144 ![0, 0] ![0, 144] ![0, 0] (V41 m outs c main_v32 : S512x6000.Idx → EReal)
          (sitofp (F := Ideal) .f32 (V41 m outs c main_c_15 : IVec S_ 32) : FVec Ideal S_ .f32) pads_S512x6000_S512x6144_000_01440 h_S_ := by
    dsimp only [V42, hostOps4_1]; after_results; rfl
  have ec : (V41 m outs c main_c_15 : IVec S_ 32) = constantI S_ 32 0#32 := by
    dsimp only [V41, hostOps4]; after_results
  have e30 : (V40 m outs c main_v30 : S512x3072.Idx → EReal) = outs 40 main_v30 c := by
    dsimp only [V40]; exact Function.update_self ..
  rw [V47_of m outs c main_v33 (by decide), V46_of m outs c main_v33 (by decide), V45_of m outs c main_v33 (by decide), V44_of m outs c main_v33 (by decide), V43_of m outs c main_v33 (by decide), e, ec, V41_v32, e30, V40_v24]
  by_cases h : k.val < 3000
  · rw [dif_pos h]
    refine (pad_apply_of_inside _ _ _ _ _ _ _ (ix2 p k) (ix2 p ⟨k.val, by omega⟩) (fun a => by
      match a with
      | ⟨0, _⟩ => show p.val = 0 + p.val * (0 + 1); omega
      | ⟨1, _⟩ => show k.val = 0 + k.val * (0 + 1); omega)).trans ?_
    refine (concatenate_pair_apply_left (t := S512x6000) (s₁ := S512x3000) (s₂ := S512x3000) 1 _ _ _ (ix2 p ⟨k.val, by omega⟩) rfl (ix2 p ⟨k.val, h⟩) (fun b => by
      match b with
      | ⟨0, _⟩ => rfl
      | ⟨1, _⟩ => rfl)).trans ?_
    exact slice2_axis1_apply 0 _ _ p ⟨k.val, h⟩ ⟨k.val, by omega⟩ (by simp)
  · by_cases h' : k.val < 6000
    · rw [dif_neg h, dif_pos h']
      refine (pad_apply_of_inside _ _ _ _ _ _ _ (ix2 p k) (ix2 p ⟨k.val, h'⟩) (fun a => by
        match a with
        | ⟨0, _⟩ => show p.val = 0 + p.val * (0 + 1); omega
        | ⟨1, _⟩ => show k.val = 0 + k.val * (0 + 1); omega)).trans ?_
      refine (concatenate_pair_apply_right (t := S512x6000) (s₁ := S512x3000) (s₂ := S512x3000) 1 _ _ _ (ix2 p ⟨k.val, h'⟩) rfl rfl (ix2 p ⟨k.val - 3000, by omega⟩) (fun b hb => by
        match b with
        | ⟨0, _⟩ => rfl
        | ⟨1, _⟩ => exact absurd rfl hb) (by show (k.val - 3000) + 3000 = k.val; omega)).trans ?_
      exact slice2_axis1_apply 0 _ _ p ⟨k.val - 3000, by omega⟩ ⟨k.val - 3000, by omega⟩ (by simp)
    · rw [dif_neg h, dif_neg h', pad_apply_of_not_inside _ _ _ _ _ _ _ (ix2 p k) ⟨1, by decide⟩ (by
        show ¬(0 ≤ k.val ∧ (k.val - 0) % (0 + 1) = 0 ∧ (k.val - 0) / (0 + 1) < 6000)
        omega)]
      exact padZero4

end Cert.KernelIdeal.Hand
-- ==== Proof.HostValBKI.lean ====
import proofs.«174655_j53695681135127_1_alg».proof.Proof.RegionsKI
import Idealize.ShloMosaic.Lib.ValueIdx
import Idealize.ShloMosaic.Lib.ValueLayout
import Idealize.ShloMosaic.Lib.KernelVsHost

set_option maxRecDepth 1228
set_option maxHeartbeats 1000000

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.ShloMosaic.StableHlo

variable (m : (ℓ : Loc nD τ sig) → Buf (Elt Ideal) ℓ) (outs : Outs (F := Ideal)) (c : Dev nD)

theorem V65_res (p : Fin 512) :
    (V65 m outs c main_v48 : S512x1.Idx → EReal) (ix2 p 0)
      = (outs 64 main_v47 c : S512x128.Idx → EReal) (ix2 p 0) := by
  have e : (V65 m outs c main_v48 : S512x1.Idx → EReal)
      = extractStridedSlice S512x1 ![0, 0] (V64 m outs c main_v47 : S512x128.Idx → EReal) slices_S512x128_S512x1_0_0 := by
    dsimp only [V65, hostOps7]; after_results
  have e2 : (V64 m outs c main_v47 : S512x128.Idx → EReal) = outs 64 main_v47 c := by
    dsimp only [V64]; exact Function.update_self ..
  rw [e, e2]
  exact slice2_axis1_apply 0 _ _ p 0 0 rfl

theorem padZeroB : (sitofp (F := Ideal) .f32 (constantI S_ 32 0#32) : FVec Ideal S_ .f32) (Shape.Idx.first h_S_) = 0 := by
  show ((((0#32 : BitVec 32).toInt : ℤ) : ℝ) : EReal) = 0
  simp

theorem V55_x (p : Fin 512) (k : Fin 1024) :
    (V55 m outs c main_v38 : S512x1024.Idx → EReal) (ix2 p k)
      = (outs 48 main_v37 c : S512x1024.Idx → EReal) (ix2 p k) := by
  have e : (V50 m outs c main_v38 : S512x1024.Idx → EReal)
      = pad S512x1024 ![0, 0] ![0, 0] ![0, 0] (V49 m outs c main_v37 : S512x1024.Idx → EReal)
          (sitofp (F := Ideal) .f32 (V49 m outs c main_c_18 : IVec S_ 32) : FVec Ideal S_ .f32) pads_S512x1024_S512x1024_000_000 h_S_ := by
    dsimp only [V50, hostOps5_1]; after_results; rfl
  have e2 : (V49 m outs c main_v37 : S512x1024.Idx → EReal) = outs 48 main_v37 c := by
    rw [V49_of m outs c main_v37 (by decide)]; dsimp only [V48]; exact Function.update_self ..
  rw [V55_of m outs c main_v38 (by decide), V54_of m outs c main_v38 (by decide), V53_of m outs c main_v38 (by decide),
    V52_of m outs c main_v38 (by decide), V51_of m outs c main_v38 (by decide), e, e2]
  exact pad_apply_of_inside _ _ _ _ _ _ _ _ (ix2 p k) (fun a => by
    match a with
    | ⟨0, _⟩ => show p.val = 0 + p.val * (0 + 1); omega
    | ⟨1, _⟩ => show k.val = 0 + k.val * (0 + 1); omega)

set_option maxRecDepth 8000 in
theorem V55_w (q : Fin 256) (k : Fin 1024) :
    (V55 m outs c main_v39 : S256x1024.Idx → EReal) (ix2 q k)
      = (m ((c : Thread nD τ).loc main_arg15) : S256x1024.Idx → EReal) (ix2 q k) := by
  have e : (V52 m outs c main_v39 : S256x1024.Idx → EReal)
      = pad S256x1024 ![0, 0] ![0, 0] ![0, 0] (V51 m outs c main_arg15 : S256x1024.Idx → EReal)
          (sitofp (F := Ideal) .f32 (V51 m outs c main_c_19 : IVec S_ 32) : FVec Ideal S_ .f32) pads_S256x1024_S256x1024_000_000 h_S_ := by
    dsimp only [V52, hostOps5_3]; after_results; rfl
  have hA : V51 m outs c main_arg15 = m ((c : Thread nD τ).loc main_arg15) := by
    rw [← V65_main_arg15 m outs c, V65_of m outs c main_arg15 (by decide), V64_of m outs c main_arg15 (by decide),
      V63_of m outs c main_arg15 (by decide), V62_of m outs c main_arg15 (by decide), V61_of m outs c main_arg15 (by decide),
      V60_of m outs c main_arg15 (by decide), V59_of m outs c main_arg15 (by decide), V58_of m outs c main_arg15 (by decide),
      V57_of m outs c main_arg15 (by decide), V56_of m outs c main_arg15 (by decide), V55_of m outs c main_arg15 (by decide),
      V54_of m outs c main_arg15 (by decide), V53_of m outs c main_arg15 (by decide), V52_of m outs c main_arg15 (by decide)]
  rw [V55_of m outs c main_v39 (by decide), V54_of m outs c main_v39 (by decide), V53_of m outs c main_v39 (by decide), e, hA]
  exact pad_apply_of_inside _ _ _ _ _ _ _ _ (ix2 q k) (fun a => by
    match a with
    | ⟨0, _⟩ => show q.val = 0 + q.val * (0 + 1); omega
    | ⟨1, _⟩ => show k.val = 0 + k.val * (0 + 1); omega)

set_option maxRecDepth 8000 in
theorem V55_b (q : Fin 256) :
    (V55 m outs c main_v41 : S1x256.Idx → EReal) (ix2 0 q)
      = (m ((c : Thread nD τ).loc main_arg16) : S256.Idx → EReal) (ix1 q) := by
  have e0 : (V55 m outs c main_v41 : S1x256.Idx → EReal)
      = shapeCast S1x256 (V54 m outs c main_v40 : S256.Idx → EReal) shapeCasts_S256_S1x256 := by
    dsimp only [V55, hostOps5_6]; after_results; rfl
  have e : (V54 m outs c main_v40 : S256.Idx → EReal)
      = pad S256 ![0] ![0] ![0] (V53 m outs c main_arg16 : S256.Idx → EReal)
          (sitofp (F := Ideal) .f32 (V53 m outs c main_c_20 : IVec S_ 32) : FVec Ideal S_ .f32) pads_S256_S256_000 h_S_ := by
    dsimp only [V54, hostOps5_5]; after_results; rfl
  have hA : V53 m outs c main_arg16 = m ((c : Thread nD τ).loc main_arg16) := by
    rw [← V65_main_arg16 m outs c, V65_of m outs c main_arg16 (by decide), V64_of m outs c main_arg16 (by decide),
      V63_of m outs c main_arg16 (by decide), V62_of m outs c main_arg16 (by decide), V61_of m outs c main_arg16 (by decide),
      V60_of m outs c main_arg16 (by decide), V59_of m outs c main_arg16 (by decide), V58_of m outs c main_arg16 (by decide),
      V57_of m outs c main_arg16 (by decide), V56_of m outs c main_arg16 (by decide), V55_of m outs c main_arg16 (by decide),
      V54_of m outs c main_arg16 (by decide)]
  rw [e0, shapeCast_a_1a_apply, e, hA]
  exact pad_apply_of_inside _ _ _ _ _ _ _ _ (ix1 q) (fun a => by
    match a with
    | ⟨0, _⟩ => show q.val = 0 + q.val * (0 + 1); omega)

theorem V63_x (p : Fin 512) (k : Fin 256) :
    (V63 m outs c main_v43 : S512x256.Idx → EReal) (ix2 p k)
      = (outs 56 main_v42 c : S512x256.Idx → EReal) (ix2 p k) := by
  have e : (V58 m outs c main_v43 : S512x256.Idx → EReal)
      = pad S512x256 ![0, 0] ![0, 0] ![0, 0] (V57 m outs c main_v42 : S512x256.Idx → EReal)
          (sitofp (F := Ideal) .f32 (V57 m outs c main_c_21 : IVec S_ 32) : FVec Ideal S_ .f32) pads_S512x256_S512x256_000_000 h_S_ := by
    dsimp only [V58, hostOps6_1]; after_results; rfl
  have e2 : (V57 m outs c main_v42 : S512x256.Idx → EReal) = outs 56 main_v42 c := by
    rw [V57_of m outs c main_v42 (by decide)]; dsimp only [V56]; exact Function.update_self ..
  rw [V63_of m outs c main_v43 (by decide), V62_of m outs c main_v43 (by decide), V61_of m outs c main_v43 (by decide), V60_of m outs c main_v43 (by decide), V59_of m outs c main_v43 (by decide), e, e2]
  exact pad_apply_of_inside _ _ _ _ _ _ _ _ (ix2 p k) (fun a => by
    match a with
    | ⟨0, _⟩ => show p.val = 0 + p.val * (0 + 1); omega
    | ⟨1, _⟩ => show k.val = 0 + k.val * (0 + 1); omega)

set_option maxRecDepth 8000 in
theorem V63_w (q : Fin 128) (k : Fin 256) :
    (V63 m outs c main_v44 : S128x256.Idx → EReal) (ix2 q k)
      = if h : q.val < 1 then (m ((c : Thread nD τ).loc main_arg17) : S1x256.Idx → EReal) (ix2 ⟨q.val, h⟩ k) else (0 : EReal) := by
  have e : (V60 m outs c main_v44 : S128x256.Idx → EReal)
      = pad S128x256 ![0, 0] ![127, 0] ![0, 0] (V59 m outs c main_arg17 : S1x256.Idx → EReal)
          (sitofp (F := Ideal) .f32 (V59 m outs c main_c_22 : IVec S_ 32) : FVec Ideal S_ .f32) pads_S1x256_S128x256_01270_000 h_S_ := by
    dsimp only [V60, hostOps6_3]; after_results; rfl
  have ec : (V59 m outs c main_c_22 : IVec S_ 32) = constantI S_ 32 0#32 := by
    dsimp only [V59, hostOps6_2]; after_results
  have hA : V59 m outs c main_arg17 = m ((c : Thread nD τ).loc main_arg17) := by
    rw [← V65_main_arg17 m outs c, V65_of m outs c main_arg17 (by decide), V64_of m outs c main_arg17 (by decide), V63_of m outs c main_arg17 (by decide), V62_of m outs c main_arg17 (by decide), V61_of m outs c main_arg17 (by decide), V60_of m outs c main_arg17 (by decide)]
  rw [V63_of m outs c main_v44 (by decide), V62_of m outs c main_v44 (by decide), V61_of m outs c main_v44 (by decide), e, hA, ec]
  by_cases h : q.val < 1
  · rw [dif_pos h]
    exact pad_apply_of_inside _ _ _ _ _ _ _ (ix2 q k) (ix2 ⟨q.val, h⟩ k) (fun a => by
      match a with
      | ⟨0, _⟩ => show q.val = 0 + q.val * (0 + 1); omega
      | ⟨1, _⟩ => show k.val = 0 + k.val * (0 + 1); omega)
  · rw [dif_neg h, pad_apply_of_not_inside _ _ _ _ _ _ _ (ix2 q k) ⟨0, by decide⟩ (by
      show ¬(0 ≤ q.val ∧ (q.val - 0) % (0 + 1) = 0 ∧ (q.val - 0) / (0 + 1) < 1)
      omega)]
    exact padZeroB

set_option maxRecDepth 8000 in
theorem V63_b (q : Fin 128) :
    (V63 m outs c main_v46 : S1x128.Idx → EReal) (ix2 0 q)
      = if h : q.val < 1 then (m ((c : Thread nD τ).loc main_arg18) : S1.Idx → EReal) (ix1 ⟨q.val, h⟩) else (0 : EReal) := by
  have e0 : (V63 m outs c main_v46 : S1x128.Idx → EReal)
      = shapeCast S1x128 (V62 m outs c main_v45 : S128.Idx → EReal) shapeCasts_S128_S1x128 := by
    dsimp only [V63, hostOps6_6]; after_results; rfl
  have e : (V62 m outs c main_v45 : S128.Idx → EReal)
      = pad S128 ![0] ![127] ![0] (V61 m outs c main_arg18 : S1.Idx → EReal)
          (sitofp (F := Ideal) .f32 (V61 m outs c main_c_23 : IVec S_ 32) : FVec Ideal S_ .f32) pads_S1_S128_01270 h_S_ := by
    dsimp only [V62, hostOps6_5]; after_results; rfl
  have ec : (V61 m outs c main_c_23 : IVec S_ 32) = constantI S_ 32 0#32 := by
    dsimp only [V61, hostOps6_4]; after_results
  have hA : V61 m outs c main_arg18 = m ((c : Thread nD τ).loc main_arg18) := by
    rw [← V65_main_arg18 m outs c, V65_of m outs c main_arg18 (by decide), V64_of m outs c main_arg18 (by decide), V63_of m outs c main_arg18 (by decide), V62_of m outs c main_arg18 (by decide)]
  rw [e0, shapeCast_a_1a_apply, e, hA, ec]
  by_cases h : q.val < 1
  · rw [dif_pos h]
    exact pad_apply_of_inside _ _ _ _ _ _ _ (ix1 q) (ix1 ⟨q.val, h⟩) (fun a => by
      match a with
      | ⟨0, _⟩ => show q.val = 0 + q.val * (0 + 1); omega)
  · rw [dif_neg h, pad_apply_of_not_inside _ _ _ _ _ _ _ (ix1 q) ⟨0, by decide⟩ (by
      show ¬(0 ≤ q.val ∧ (q.val - 0) % (0 + 1) = 0 ∧ (q.val - 0) / (0 + 1) < 1)
      omega)]
    exact padZeroB

end Cert.KernelIdeal.Hand
-- ==== Proof.Reg0BlkKI.lean ====
import proofs.«174655_j53695681135127_1_alg».proof.Proof.Reg0KI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

abbrev xarr0 (c : Dev nD) : Vec F S512x20480 .f32 := V c main_v3

abbrev warr0 (c : Dev nD) : Vec F S5120x20480 .f32 := V c main_v4

abbrev aarr0 (c : Dev nD) : Vec F S20480x5120 .f32 := V c main_v5

abbrev barr0 (c : Dev nD) : Vec F S1x5120 .f32 := V c main_v7

abbrev xblk0 (c : Dev nD) (t : Fin cfg0.N) : Vec F S512x1024 .f32 := iblk0 V c 0 t

abbrev wblk0 (c : Dev nD) (t : Fin cfg0.N) : Vec F S1024x1024 .f32 := iblk0 V c 1 t

abbrev ablk0 (c : Dev nD) (t : Fin cfg0.N) : Vec F S1024x1024 .f32 := iblk0 V c 2 t

abbrev bblk0 (c : Dev nD) (t : Fin cfg0.N) : Vec F S1x1024 .f32 := iblk0 V c 3 t

theorem idx_facts0 : ∀ t : Fin cfg0.N,
    win0_0.index t (0 : Fin 2) = 0 ∧ win0_0.index t (1 : Fin 2) = t.val % 20
    ∧ win0_1.index t (0 : Fin 2) = t.val / 20 ∧ win0_1.index t (1 : Fin 2) = t.val % 20
    ∧ win0_2.index t (0 : Fin 2) = t.val % 20 ∧ win0_2.index t (1 : Fin 2) = t.val / 20
    ∧ win0_3.index t (0 : Fin 2) = 0 ∧ win0_3.index t (1 : Fin 2) = t.val / 20
    ∧ win0_4.index t (0 : Fin 2) = 0 ∧ win0_4.index t (1 : Fin 2) = t.val / 20 :=
  (by decide +kernel : ∀ t : Fin grid0.N, _)

theorem xblk0_apply (c : Dev nD) (t : Fin cfg0.N) (p : Fin 512) (kk : Fin 1024) (k : Fin 20480)
    (hk : k.val = t.val % 20 * 1024 + kk.val) :
    xblk0 V c t (ix2 p kk) = xarr0 V c (ix2 p k) := by
  obtain ⟨e0, e1, -⟩ := idx_facts0 t
  unfold xblk0 xarr0 iblk0
  rw [View.read_apply]
  show V c main_v3 _ = V c main_v3 _
  congr 1
  funext a
  apply Fin.ext
  match a with
  | ⟨0, _⟩ => show win0_0.index t 0 * 512 + 1 * p.val = p.val; rw [e0]; omega
  | ⟨1, _⟩ => show win0_0.index t 1 * 1024 + 1 * kk.val = k.val; rw [e1, hk]; omega

theorem wblk0_apply (c : Dev nD) (t : Fin cfg0.N) (j : Fin 1024) (kk : Fin 1024) (q : Fin 5120) (k : Fin 20480)
    (hq : q.val = t.val / 20 * 1024 + j.val) (hk : k.val = t.val % 20 * 1024 + kk.val) :
    wblk0 V c t (ix2 j kk) = warr0 V c (ix2 q k) := by
  obtain ⟨-, -, e0, e1, -⟩ := idx_facts0 t
  unfold wblk0 warr0 iblk0
  rw [View.read_apply]
  show V c main_v4 _ = V c main_v4 _
  congr 1
  funext a
  apply Fin.ext
  match a with
  | ⟨0, _⟩ => show win0_1.index t 0 * 1024 + 1 * j.val = q.val; rw [e0, hq]; omega
  | ⟨1, _⟩ => show win0_1.index t 1 * 1024 + 1 * kk.val = k.val; rw [e1, hk]; omega

theorem ablk0_apply (c : Dev nD) (t : Fin cfg0.N) (kk : Fin 1024) (j : Fin 1024) (k : Fin 20480) (q : Fin 5120)
    (hk : k.val = t.val % 20 * 1024 + kk.val) (hq : q.val = t.val / 20 * 1024 + j.val) :
    ablk0 V c t (ix2 kk j) = aarr0 V c (ix2 k q) := by
  obtain ⟨-, -, -, -, e0, e1, -⟩ := idx_facts0 t
  unfold ablk0 aarr0 iblk0
  rw [View.read_apply]
  show V c main_v5 _ = V c main_v5 _
  congr 1
  funext a
  apply Fin.ext
  match a with
  | ⟨0, _⟩ => show win0_2.index t 0 * 1024 + 1 * kk.val = k.val; rw [e0, hk]; omega
  | ⟨1, _⟩ => show win0_2.index t 1 * 1024 + 1 * j.val = q.val; rw [e1, hq]; omega

theorem bblk0_apply (c : Dev nD) (t : Fin cfg0.N) (j : Fin 1024) (q : Fin 5120)
    (hq : q.val = t.val / 20 * 1024 + j.val) :
    bblk0 V c t (ix2 0 j) = barr0 V c (ix2 0 q) := by
  obtain ⟨-, -, -, -, -, -, e0, e1, -⟩ := idx_facts0 t
  unfold bblk0 barr0 iblk0
  rw [View.read_apply]
  show V c main_v7 _ = V c main_v7 _
  congr 1
  funext a
  apply Fin.ext
  match a with
  | ⟨0, _⟩ => show win0_3.index t 0 * 1 + 1 * 0 = 0; rw [e0]
  | ⟨1, _⟩ => show win0_3.index t 1 * 1024 + 1 * j.val = q.val; rw [e1, hq]; omega

end Cert.KernelIdeal.Hand

end
-- ==== Proof.Reg0PieceKI.lean ====
import proofs.«174655_j53695681135127_1_alg».proof.Proof.Reg0KI

set_option maxRecDepth 16384

noncomputable section

namespace Cert.KernelIdeal.Hand

open Cert.KernelIdeal Cert.KernelIdeal.Gen Idealize.ShloMosaic

variable {F : FTy → Type} [FloatOps F]

variable (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

theorem sout0_B_eq (hc0 : ¬cond0_0 i) (hc1 : ¬cond0_1 i) (x0 : Vec F S512x1024 .f32) (x1 : Vec F S1024x1024 .f32) (x2 : Vec F S1024x1024 .f32) (x3 : Vec F S1x1024 .f32) (xs0 : Vec F S512x1024 .f32) :
    sout0_B c i arg2 harg2 arg3 harg3 arg4 harg4 arg5 harg5 arg6 harg6 arg7 harg7 hc0 hc1 x0 x1 x2 x3 xs0 = k0_pay2 x1 x2 x0 xs0 :=
  maskedAcc_B c _ _ arg2 harg2 arg3 harg3 arg4 harg4 arg5 harg5 arg6 harg6 arg7 harg7 x0 x1 x2 x3 xs0 VS0 hc0 hc1

theorem sout0_A_eq (hc0 : cond0_0 i) (hc1 : ¬cond0_1 i) (x0 : Vec F S512x1024 .f32) (x1 : Vec F S1024x1024 .f32) (x2 : Vec F S1024x1024 .f32) (x3 : Vec F S1x1024 .f32) :
    sout0_A c i arg2 harg2 arg3 harg3 arg4 harg4 arg5 harg5 arg6 harg6 arg7 harg7 hc0 hc1 x0 x1 x2 x3 = k0_pay2 x1 x2 x0 (k0_pay1 (F := F)) :=
  maskedAcc_A c _ _ arg2 harg2 arg3 harg3 arg4 harg4 arg5 harg5 arg6 harg6 arg7 harg7 x0 x1 x2 x3 VS0 hc0 hc1

theorem sout0_C_eq (hc0 : ¬cond0_0 i) (hc1 : cond0_1 i) (x0 : Vec F S512x1024 .f32) (x1 : Vec F S1024x1024 .f32) (x2 : Vec F S1024x1024 .f32) (x3 : Vec F S1x1024 .f32) (xs0 : Vec F S512x1024 .f32) :
    sout0_C c i arg2 harg2 arg3 harg3 arg4 harg4 arg5 harg5 arg6 harg6 arg7 harg7 hc0 hc1 x0 x1 x2 x3 xs0 = k0_pay2 x1 x2 x0 xs0 :=
  maskedAcc_C c _ _ arg2 harg2 arg3 harg3 arg4 harg4 arg5 harg5 arg6 harg6 arg7 harg7 x0 x1 x2 x3 xs0 VS0 hc0 hc1

theorem out0_C_eq (hc0 : ¬cond0_0 i) (hc1 : cond0_1 i) (x0 : Vec F S512x1024 .f32) (x1 : Vec F S1024x1024 .f32) (x2 : Vec F S1024x1024 .f32) (x3 : Vec F S1x1024 .f32) (xs0 : Vec F S512x1024 .f32) :
    out0_C c i arg2 harg2 arg3 harg3 arg4 harg4 arg5 harg5 arg6 harg6 arg7 harg7 hc0 hc1 x0 x1 x2 x3 xs0 = k0_pay3 (k0_pay2 x1 x2 x0 xs0) x3 :=
  maskedOut_C c _ _ arg2 harg2 arg3 harg3 arg4 harg4 arg5 harg5 arg6 harg6 arg7 harg7 x0 x1 x2 x3 xs0 VO0 hc0 hc1

end Cert.KernelIdeal.Hand

end
-- ==== Proof.LibSpec.lean ====
import Mathlib.Data.EReal.Basic
import Mathlib.Algebra.BigOperators.Fin
import Idealize.ShloMosaic.PureOps.Ideal

namespace Cert.Spec

open scoped BigOperators
open Idealize.ShloMosaic

noncomputable def lin {B K N : ℕ} (x : Fin B → Fin K → EReal) (w : Fin N → Fin K → EReal) (b : Fin N → EReal)
    (p : Fin B) (q : Fin N) : EReal :=
  (∑ k : Fin K, x p k * w q k) + b q

noncomputable def relu (z : EReal) : EReal := max z 0

noncomputable def masked {K N : ℕ} (w : Fin N → Fin K → EReal) (adj : Fin K → Fin N → EReal) : Fin N → Fin K → EReal :=
  fun q k => w q k * adj k q

def beside {B K₁ K₂ : ℕ} (u : Fin B → Fin K₁ → EReal) (v : Fin B → Fin K₂ → EReal) : Fin B → Fin (K₁ + K₂) → EReal :=
  fun p k => if h : k.val < K₁ then u p ⟨k.val, h⟩ else v p ⟨k.val - K₁, by omega⟩

section Net

variable (in_mat : Fin 512 → Fin 28000 → EReal)
  (adj_sg : Fin 20000 → Fin 5000 → EReal) (adj_gp : Fin 5000 → Fin 3000 → EReal)
  (adj_br : Fin 8000 → Fin 3000 → EReal) (adj_pp : Fin 3000 → Fin 3000 → EReal)
  (W_sg : Fin 5000 → Fin 20000 → EReal) (b_sg : Fin 5000 → EReal)
  (W_gp : Fin 3000 → Fin 5000 → EReal) (b_gp : Fin 3000 → EReal)
  (W_br : Fin 3000 → Fin 8000 → EReal) (b_br : Fin 3000 → EReal)
  (W_pp : Fin 3000 → Fin 3000 → EReal) (b_pp : Fin 3000 → EReal)
  (W_h1 : Fin 1024 → Fin 6000 → EReal) (b_h1 : Fin 1024 → EReal)
  (W_h2 : Fin 256 → Fin 1024 → EReal) (b_h2 : Fin 256 → EReal)
  (W_out : Fin 1 → Fin 256 → EReal) (b_out : Fin 1 → EReal)

def snp : Fin 512 → Fin 20000 → EReal := fun p k => in_mat p ⟨8000 + k.val, by omega⟩

def gen : Fin 512 → Fin 5000 → EReal := fun p k => in_mat p ⟨3000 + k.val, by omega⟩

def pro : Fin 512 → Fin 3000 → EReal := fun p k => in_mat p ⟨k.val, by omega⟩

noncomputable def outSnp : Fin 512 → Fin 5000 → EReal := fun p q => relu (lin (snp in_mat) (masked W_sg adj_sg) b_sg p q)
noncomputable def outGene : Fin 512 → Fin 3000 → EReal := fun p q => relu (lin (gen in_mat) (masked W_gp adj_gp) b_gp p q)
noncomputable def outBridge : Fin 512 → Fin 3000 → EReal := fun p q =>
  relu (lin (beside (outSnp in_mat adj_sg W_sg b_sg) (outGene in_mat adj_gp W_gp b_gp)) (masked W_br adj_br) b_br p q)
noncomputable def outProtein : Fin 512 → Fin 3000 → EReal := fun p q => relu (lin (pro in_mat) (masked W_pp adj_pp) b_pp p q)
noncomputable def hidden1 : Fin 512 → Fin 1024 → EReal := fun p q =>
  relu (lin (beside (outBridge in_mat adj_sg adj_gp adj_br W_sg b_sg W_gp b_gp W_br b_br) (outProtein in_mat adj_pp W_pp b_pp)) W_h1 b_h1 p q)
noncomputable def hidden2 : Fin 512 → Fin 256 → EReal := fun p q =>
  relu (lin (hidden1 in_mat adj_sg adj_gp adj_br adj_pp W_sg b_sg W_gp b_gp W_br b_br W_pp b_pp W_h1 b_h1) W_h2 b_h2 p q)

noncomputable def net (p : Fin 512) : EReal :=
  Ideal.logistic (lin (hidden2 in_mat adj_sg adj_gp adj_br adj_pp W_sg b_sg W_gp b_gp W_br b_br W_pp b_pp W_h1 b_h1 W_h2 b_h2) W_out b_out p 0)

end Net

end Cert.Spec
-- ==== Proof.Reg0PayKI.lean ====
import proofs.«174655_j53695681135127_1_alg».proof.Proof.Gen.KernelIdeal.Skeleton
import proofs.«174655_j53695681135127_1_alg».proof.Proof.LibSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

theorem lhs_pay2_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_pay2_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_pay2_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_pay2_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem matmul0_apply {φ₁ φ₂ : FTy} (l : FVec Ideal S512x1024 φ₁) (r : FVec Ideal S1024x1024 φ₂) (p : Fin 512) (j : Fin 1024) :
    (matmul dot_S512x1024_S1024x1024_S512x1024_1_0_0_1_n_n none l r (constant (F := Ideal) S512x1024 .f32 0x00000000#32) : S512x1024.Idx → EReal) (ix2 p j)
      = ∑ kk : Fin 1024, l (ix2 p kk) * r (ix2 kk j) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p j) ((ValueIdx.contrEquiv1 dot_S512x1024_S1024x1024_S512x1024_1_0_0_1_n_n 1024 rfl rfl).symm k) = ix2 p k := funext fun a => Fin.ext (by
    match a with
    | ⟨0, _⟩ => exact lhs_pay2_0 _ _
    | ⟨1, _⟩ => exact (lhs_pay2_1 _ _).trans hk)
  have er : dot_S512x1024_S1024x1024_S512x1024_1_0_0_1_n_n.rhsIdx (ix2 p j) ((ValueIdx.contrEquiv1 dot_S512x1024_S1024x1024_S512x1024_1_0_0_1_n_n 1024 rfl rfl).symm k) = ix2 k j := funext fun a => Fin.ext (by
    match a with
    | ⟨0, _⟩ => exact (rhs_pay2_0 _ _).trans hk
    | ⟨1, _⟩ => exact rhs_pay2_1 _ _)
  rw [el, er]

theorem pay1_apply (p : Fin 512) (j : Fin 1024) : (k0_pay1 (F := Ideal) : S512x1024.Idx → EReal) (ix2 p j) = 0 := by
  unfold k0_pay1
  try dsimp only
  refine (congrFun (shapeCast_self _ _) (ix2 p j)).trans ?_
  exact Ideal.ofBits_zero_f32

theorem pay2_apply (v3 v6 : Vec Ideal S1024x1024 .f32) (v10 v13 : Vec Ideal S512x1024 .f32) (p : Fin 512) (j : Fin 1024) :
    (k0_pay2 v3 v6 v10 v13 : S512x1024.Idx → EReal) (ix2 p j)
      = v13 (ix2 p j) + ∑ kk : Fin 1024, v10 (ix2 p kk) * (v3 (ix2 j kk) * v6 (ix2 kk j)) := by
  unfold k0_pay2
  try dsimp only
  refine (congrFun (shapeCast_self _ _) (ix2 p j)).trans ?_
  refine congrArg (fun z : EReal => v13 (ix2 p j) + z) ?_
  refine (matmul0_apply _ _ p j).trans ?_
  refine Finset.sum_congr rfl fun kk _ => ?_
  refine congrArg₂ (fun a b : EReal => a * b) ?_ ?_
  · exact congrFun (shapeCast_self v10 _) (ix2 p kk)
  · refine congrArg₂ (fun a b : EReal => a * b) ?_ ?_
    · refine (transpose_ix2_apply _ _ kk j).trans ?_
      exact congrFun (shapeCast_self v3 _) (ix2 j kk)
    · exact congrFun (shapeCast_self v6 _) (ix2 kk j)

theorem pay3_apply (v22 : Vec Ideal S512x1024 .f32) (v23 : Vec Ideal S1x1024 .f32) (p : Fin 512) (j : Fin 1024) :
    (k0_pay3 v22 v23 : S512x1024.Idx → EReal) (ix2 p j) = Cert.Spec.relu (v22 (ix2 p j) + v23 (ix2 0 j)) := by
  unfold k0_pay3 Cert.Spec.relu
  try dsimp only
  refine congrArg₂ (fun a b : EReal => max a b) ?_ Ideal.ofBits_zero_f32
  refine congrArg (fun z : EReal => v22 (ix2 p j) + z) ?_
  refine (broadcastTo_1b_ab_apply _ _ p j).trans ?_
  exact congrFun (shapeCast_self v23 _) (ix2 0 j)

end Cert.KernelIdeal.Hand

end
-- ==== Proof.LibSums.lean ====
import Mathlib.Data.EReal.Basic
import Mathlib.Algebra.BigOperators.Fin
import Mathlib.Data.Fintype.BigOperators
import Mathlib.Algebra.BigOperators.Group.Finset.Basic
import proofs.«174655_j53695681135127_1_alg».proof.Proof.LibSpec

namespace Cert.LibSums

open scoped BigOperators

section Monoid

variable {M : Type*} [AddCommMonoid M]

theorem sum_fin_eq_range (n : ℕ) (f : ℕ → M) : ∑ k : Fin n, f k.val = ∑ k ∈ Finset.range n, f k :=
  Fin.sum_univ_eq_sum_range f n

theorem sum_range_blocks (nk bs : ℕ) (f : ℕ → M) :
    ∑ t ∈ Finset.range nk, ∑ j ∈ Finset.range bs, f (t * bs + j) = ∑ k ∈ Finset.range (nk * bs), f k := by
  induction nk with
  | zero => simp
  | succ n ih =>
    rw [Finset.sum_range_succ, ih, Nat.succ_mul, Finset.sum_range_add]

theorem sum_fin_blocks (nk bs : ℕ) (f : ℕ → M) :
    ∑ t : Fin nk, ∑ j : Fin bs, f (t.val * bs + j.val) = ∑ k : Fin (nk * bs), f k.val := by
  have h1 : ∀ t : ℕ, ∑ j : Fin bs, f (t * bs + j.val) = ∑ j ∈ Finset.range bs, f (t * bs + j) :=
    fun t => sum_fin_eq_range bs (fun j => f (t * bs + j))
  have h2 : ∑ t : Fin nk, ∑ j : Fin bs, f (t.val * bs + j.val)
      = ∑ t ∈ Finset.range nk, ∑ j ∈ Finset.range bs, f (t * bs + j) := by
    rw [← sum_fin_eq_range nk (fun t => ∑ j ∈ Finset.range bs, f (t * bs + j))]
    exact Finset.sum_congr rfl (fun t _ => h1 t.val)
  rw [h2, sum_range_blocks, sum_fin_eq_range]

theorem sum_range_pad {K Kp : ℕ} (h : K ≤ Kp) (f : ℕ → M) (hz : ∀ k, K ≤ k → k < Kp → f k = 0) :
    ∑ k ∈ Finset.range Kp, f k = ∑ k ∈ Finset.range K, f k := by
  symm
  apply Finset.sum_subset (Finset.range_subset_range.mpr h)
  intro k hk hk'
  rw [Finset.mem_range] at hk hk'
  exact hz k (Nat.le_of_not_lt hk') hk

theorem sum_fin_pad {K Kp : ℕ} (h : K ≤ Kp) (f : ℕ → M) (hz : ∀ k, K ≤ k → k < Kp → f k = 0) :
    ∑ k : Fin Kp, f k.val = ∑ k : Fin K, f k.val := by
  rw [sum_fin_eq_range, sum_fin_eq_range, sum_range_pad h f hz]

theorem acc_closed_range (mm acc : ℕ → M) (h0 : acc 0 = 0 + mm 0) (hs : ∀ k, acc (k + 1) = acc k + mm (k + 1))
    (k : ℕ) : acc k = ∑ j ∈ Finset.range (k + 1), mm j := by
  induction k with
  | zero => rw [h0, zero_add, Finset.sum_range_one]
  | succ n ih => rw [hs, ih, Finset.sum_range_succ _ (n + 1)]

theorem acc_closed (mm acc : ℕ → M) (h0 : acc 0 = 0 + mm 0) (hs : ∀ k, acc (k + 1) = acc k + mm (k + 1))
    (k : ℕ) : acc k = ∑ j : Fin (k + 1), mm j.val := by
  rw [sum_fin_eq_range]
  exact acc_closed_range mm acc h0 hs k

theorem acc_blocks_gen (bs : ℕ) (g : ℕ → M) (acc : ℕ → M)
    (h0 : acc 0 = 0 + ∑ j : Fin bs, g (0 * bs + j.val))
    (hs : ∀ t, acc (t + 1) = acc t + ∑ j : Fin bs, g ((t + 1) * bs + j.val)) (t : ℕ) :
    acc t = ∑ k : Fin ((t + 1) * bs), g k.val := by
  rw [acc_closed (fun s => ∑ j : Fin bs, g (s * bs + j.val)) acc h0 hs t]
  exact sum_fin_blocks (t + 1) bs g

end Monoid

theorem acc_blocks (bs : ℕ) (g : ℕ → EReal) (acc : ℕ → EReal)
    (h0 : acc 0 = 0 + ∑ j : Fin bs, g (0 * bs + j.val))
    (hs : ∀ t, acc (t + 1) = acc t + ∑ j : Fin bs, g ((t + 1) * bs + j.val)) (t : ℕ) :
    acc t = ∑ k : Fin ((t + 1) * bs), g k.val :=
  acc_blocks_gen bs g acc h0 hs t

theorem dot_pad {K Kp : ℕ} (hK : K ≤ Kp) (u : Fin K → EReal) (v : Fin K → EReal)
    (u' : Fin Kp → EReal) (v' : Fin Kp → EReal)
    (hu : ∀ k : Fin Kp, u' k = if h : k.val < K then u ⟨k.val, h⟩ else 0)
    (hv : ∀ (k : Fin Kp) (hk : k.val < K), v' k = v ⟨k.val, hk⟩) :
    ∑ k : Fin Kp, u' k * v' k = ∑ k : Fin K, u k * v k := by
  let F : ℕ → EReal := fun k => if h : k < K then u ⟨k, h⟩ * v ⟨k, h⟩ else 0
  have hL : ∑ k : Fin Kp, u' k * v' k = ∑ k : Fin Kp, F k.val := by
    apply Finset.sum_congr rfl
    intro k _
    by_cases hk : k.val < K
    · simp only [F, dif_pos hk, hu k, hv k hk]
    · simp only [F, dif_neg hk, hu k, zero_mul]
  have hR : ∑ k : Fin K, F k.val = ∑ k : Fin K, u k * v k := by
    apply Finset.sum_congr rfl
    intro k _
    simp only [F, dif_pos k.isLt]
  rw [hL, ← hR]
  apply sum_fin_pad hK F
  intro k hk _
  simp only [F, dif_neg (Nat.not_lt.mpr hk)]

theorem lin_pad {B K N Kp Np : ℕ} (hK : K ≤ Kp) (hN : N ≤ Np)
    (x : Fin B → Fin K → EReal) (w : Fin N → Fin K → EReal) (b : Fin N → EReal)
    (x' : Fin B → Fin Kp → EReal) (w' : Fin Np → Fin Kp → EReal) (b' : Fin Np → EReal)
    (hx : ∀ p (k : Fin Kp), x' p k = if h : k.val < K then x p ⟨k.val, h⟩ else 0)
    (hw : ∀ (q : Fin Np) (k : Fin Kp) (hq : q.val < N) (hk : k.val < K), w' q k = w ⟨q.val, hq⟩ ⟨k.val, hk⟩)
    (hb : ∀ (q : Fin Np) (hq : q.val < N), b' q = b ⟨q.val, hq⟩)
    (p : Fin B) (q : Fin Np) (hq : q.val < N) :
    Cert.Spec.lin x' w' b' p q = Cert.Spec.lin x w b p ⟨q.val, hq⟩ := by
  unfold Cert.Spec.lin
  rw [hb q hq, dot_pad hK (x p) (w ⟨q.val, hq⟩) (x' p) (w' q) (hx p) (fun k hk => hw q k hq hk)]

end Cert.LibSums
-- ==== Proof.LibAccSums.lean ====
import proofs.«174655_j53695681135127_1_alg».proof.Proof.LibSums

namespace Cert.LibAccSums

open scoped BigOperators
open Cert.LibSums

variable {M : Type*} [AddCommMonoid M]

theorem first_block (bs : ℕ) (g : ℕ → M) (m : ℕ) (hm : m = 0) :
    0 + ∑ kk : Fin bs, g (m * bs + kk.val) = ∑ k ∈ Finset.range ((m + 1) * bs), g k := by
  subst hm
  simp only [zero_mul, zero_add, one_mul]
  exact sum_fin_eq_range bs g

theorem next_block (bs : ℕ) (g : ℕ → M) (m m' : ℕ) (hm : m = m' + 1) (a : M)
    (ha : a = ∑ k ∈ Finset.range ((m' + 1) * bs), g k) :
    a + ∑ kk : Fin bs, g (m * bs + kk.val) = ∑ k ∈ Finset.range ((m + 1) * bs), g k := by
  subst hm
  rw [ha, add_mul (m' + 1) 1 bs, one_mul, Finset.sum_range_add,
    sum_fin_eq_range bs (fun x => g ((m' + 1) * bs + x))]

end Cert.LibAccSums
-- ==== Proof.Reg0AccKI.lean ====
import proofs.«174655_j53695681135127_1_alg».proof.Proof.Reg0BlkKI
import proofs.«174655_j53695681135127_1_alg».proof.Proof.Reg0PieceKI
import proofs.«174655_j53695681135127_1_alg».proof.Proof.Reg0PayKI
import proofs.«174655_j53695681135127_1_alg».proof.Proof.LibAccSums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibSums Cert.LibAccSums
open scoped BigOperators

variable (V : (c : Dev nD) → (b : Ref sig .tc) → Buf (Elt Ideal) ((c : Thread nD τ).loc b))

def term0 (c : Dev nD) (nb : ℕ) (p : Fin 512) (j : Fin 1024) (k : ℕ) : EReal :=
  if h : k < 20480 ∧ nb * 1024 + j.val < 5120 then
    (xarr0 V c : S512x20480.Idx → EReal) (ix2 p ⟨k, h.1⟩)
      * ((warr0 V c : S5120x20480.Idx → EReal) (ix2 ⟨nb * 1024 + j.val, h.2⟩ ⟨k, h.1⟩)
        * (aarr0 V c : S20480x5120.Idx → EReal) (ix2 ⟨k, h.1⟩ ⟨nb * 1024 + j.val, h.2⟩))
  else 0

theorem term0_eq (c : Dev nD) (nb : ℕ) (p : Fin 512) (j : Fin 1024) (q : Fin 5120) (hq : q.val = nb * 1024 + j.val)
    (k : Fin 20480) :
    term0 V c nb p j k.val = (xarr0 V c : S512x20480.Idx → EReal) (ix2 p k)
      * ((warr0 V c : S5120x20480.Idx → EReal) (ix2 q k) * (aarr0 V c : S20480x5120.Idx → EReal) (ix2 k q)) := by
  obtain ⟨qv, hqv⟩ := q
  have hq' : qv = nb * 1024 + j.val := hq
  subst hq'
  unfold term0
  rw [dif_pos ⟨k.isLt, hqv⟩]

theorem blocksum0 (c : Dev nD) (t : Fin cfg0.N) (p : Fin 512) (j : Fin 1024) :
    ∑ kk : Fin 1024, (xblk0 V c t : S512x1024.Idx → EReal) (ix2 p kk)
        * ((wblk0 V c t : S1024x1024.Idx → EReal) (ix2 j kk) * (ablk0 V c t : S1024x1024.Idx → EReal) (ix2 kk j))
      = ∑ kk : Fin 1024, term0 V c (t.val / 20) p j (t.val % 20 * 1024 + kk.val) := by
  have hN : t.val < 100 := lt_of_lt_of_eq t.isLt (show cfg0.N = 100 from N_0)
  refine Finset.sum_congr rfl fun kk _ => ?_
  have hkk : kk.val < 1024 := kk.isLt
  have hj : j.val < 1024 := j.isLt
  have hk : t.val % 20 * 1024 + kk.val < 20480 := by omega
  have hq : t.val / 20 * 1024 + j.val < 5120 := by omega
  rw [xblk0_apply V c t p kk ⟨_, hk⟩ rfl, wblk0_apply V c t j kk ⟨_, hq⟩ ⟨_, hk⟩ rfl rfl,
    ablk0_apply V c t kk j ⟨_, hk⟩ ⟨_, hq⟩ rfl rfl]
  exact (term0_eq V c (t.val / 20) p j ⟨_, hq⟩ rfl ⟨_, hk⟩).symm

theorem pay2_step0 (c : Dev nD) (t : Fin cfg0.N) (h0 : ¬t.val % 20 = 0) (p : Fin 512) (j : Fin 1024)
    (acc : Vec Ideal S512x1024 .f32)
    (hacc : (acc : S512x1024.Idx → EReal) (ix2 p j)
      = ∑ k ∈ Finset.range (((t.val - 1) % 20 + 1) * 1024), term0 V c ((t.val - 1) / 20) p j k) :
    (k0_pay2 (wblk0 V c t) (ablk0 V c t) (xblk0 V c t) acc : S512x1024.Idx → EReal) (ix2 p j)
      = ∑ k ∈ Finset.range ((t.val % 20 + 1) * 1024), term0 V c (t.val / 20) p j k := by
  have e1 : (t.val - 1) / 20 = t.val / 20 := by omega
  have e2 : t.val % 20 = (t.val - 1) % 20 + 1 := by omega
  rw [e1] at hacc
  refine (pay2_apply (wblk0 V c t) (ablk0 V c t) (xblk0 V c t) acc p j).trans ?_
  refine (congrArg (fun z => (acc : S512x1024.Idx → EReal) (ix2 p j) + z) (blocksum0 V c t p j)).trans ?_
  exact next_block 1024 (term0 V c (t.val / 20) p j) (t.val % 20) ((t.val - 1) % 20) e2 _ hacc

theorem pay2_first0 (c : Dev nD) (t : Fin cfg0.N) (h0 : t.val % 20 = 0) (p : Fin 512) (j : Fin 1024) :
    (k0_pay2 (wblk0 V c t) (ablk0 V c t) (xblk0 V c t) (k0_pay1 (F := Ideal)) : S512x1024.Idx → EReal) (ix2 p j)
      = ∑ k ∈ Finset.range ((t.val % 20 + 1) * 1024), term0 V c (t.val / 20) p j k := by
  refine (pay2_apply (wblk0 V c t) (ablk0 V c t) (xblk0 V c t) (k0_pay1 (F := Ideal)) p j).trans ?_
  refine (congrArg₂ (fun a z => (a : EReal) + z) (pay1_apply p j) (blocksum0 V c t p j)).trans ?_
  exact first_block 1024 (term0 V c (t.val / 20) p j) (t.val % 20) h0

theorem acc0_eq (c : Dev nD) (p : Fin 512) (j : Fin 1024) : ∀ (n : ℕ) (hn : n < cfg0.N),
    ((outsAt0 V c n hn).2 : S512x1024.Idx → EReal) (ix2 p j)
      = ∑ k ∈ Finset.range ((n % 20 + 1) * 1024), term0 V c (n / 20) p j k := by
  intro n
  induction n with
  | zero =>
    intro hn
    have h0 : (⟨0, hn⟩ : Fin cfg0.N).val % 20 = 0 := rfl
    have h1 : ¬(⟨0, hn⟩ : Fin cfg0.N).val % 20 = 19 := by dsimp only; omega
    rw [outsAt0_A V c ⟨0, hn⟩ h0 h1]
    dsimp only
    refine (congrFun (sout0_A_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr h0) (fun h => h1 ((hcond0_1 ⟨0, hn⟩).mp h)) (xblk0 V c ⟨0, hn⟩) (wblk0 V c ⟨0, hn⟩) (ablk0 V c ⟨0, hn⟩) (bblk0 V c ⟨0, hn⟩)) (ix2 p j)).trans ?_
    exact pay2_first0 V c ⟨0, hn⟩ h0 p j
  | succ n ih =>
    intro hn
    have hN : cfg0.N = 100 := N_0
    by_cases h0 : (⟨n + 1, hn⟩ : Fin cfg0.N).val % 20 = 0
    · have h1 : ¬(⟨n + 1, hn⟩ : Fin cfg0.N).val % 20 = 19 := by omega
      rw [outsAt0_A V c ⟨n + 1, hn⟩ h0 h1]
      dsimp only
      refine (congrFun (sout0_A_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (xblk0 V c ⟨n + 1, hn⟩) (wblk0 V c ⟨n + 1, hn⟩) (ablk0 V c ⟨n + 1, hn⟩) (bblk0 V c ⟨n + 1, hn⟩)) (ix2 p j)).trans ?_
      exact pay2_first0 V c ⟨n + 1, hn⟩ h0 p j
    · have hprev : ((outsAt0 V c ((⟨n + 1, hn⟩ : Fin cfg0.N).val - 1) (Nat.lt_of_le_of_lt (Nat.sub_le _ _) (⟨n + 1, hn⟩ : Fin cfg0.N).isLt)).2 : S512x1024.Idx → EReal) (ix2 p j)
          = ∑ k ∈ Finset.range ((((⟨n + 1, hn⟩ : Fin cfg0.N).val - 1) % 20 + 1) * 1024), term0 V c (((⟨n + 1, hn⟩ : Fin cfg0.N).val - 1) / 20) p j k :=
        ih (Nat.lt_of_succ_lt hn)
      by_cases h1 : (⟨n + 1, hn⟩ : Fin cfg0.N).val % 20 = 19
      · rw [outsAt0_C V c ⟨n + 1, hn⟩ h0 h1]
        dsimp only
        refine (congrFun (sout0_C_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (xblk0 V c ⟨n + 1, hn⟩) (wblk0 V c ⟨n + 1, hn⟩) (ablk0 V c ⟨n + 1, hn⟩) (bblk0 V c ⟨n + 1, hn⟩) (outsAt0 V c ((⟨n + 1, hn⟩ : Fin cfg0.N).val - 1) (Nat.lt_of_le_of_lt (Nat.sub_le _ _) (⟨n + 1, hn⟩ : Fin cfg0.N).isLt)).2) (ix2 p j)).trans ?_
        exact pay2_step0 V c ⟨n + 1, hn⟩ h0 p j _ hprev
      · rw [outsAt0_B V c ⟨n + 1, hn⟩ h0 h1]
        dsimp only
        refine (congrFun (sout0_B_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (xblk0 V c ⟨n + 1, hn⟩) (wblk0 V c ⟨n + 1, hn⟩) (ablk0 V c ⟨n + 1, hn⟩) (bblk0 V c ⟨n + 1, hn⟩) (outsAt0 V c ((⟨n + 1, hn⟩ : Fin cfg0.N).val - 1) (Nat.lt_of_le_of_lt (Nat.sub_le _ _) (⟨n + 1, hn⟩ : Fin cfg0.N).isLt)).2) (ix2 p j)).trans ?_
        exact pay2_step0 V c ⟨n + 1, hn⟩ h0 p j _ hprev

end Cert.KernelIdeal.Hand

end
-- ==== Proof.Reg0ValKI.lean ====
import proofs.«174655_j53695681135127_1_alg».proof.Proof.Reg0AccKI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibSums Cert.LibAccSums
open scoped BigOperators

variable (V : (c : Dev nD) → (b : Ref sig .tc) → Buf (Elt Ideal) ((c : Thread nD τ).loc b))

def out0 (c : Dev nD) (p : Fin 512) (q : Fin 5120) : EReal :=
  Cert.Spec.relu (Cert.Spec.lin (fun p k => (xarr0 V c : S512x20480.Idx → EReal) (ix2 p k))
    (Cert.Spec.masked (fun q k => (warr0 V c : S5120x20480.Idx → EReal) (ix2 q k))
      (fun k q => (aarr0 V c : S20480x5120.Idx → EReal) (ix2 k q)))
    (fun q => (barr0 V c : S1x5120.Idx → EReal) (ix2 0 q)) p q)

theorem out0_def (c : Dev nD) (p : Fin 512) (q : Fin 5120) :
    out0 V c p q = Cert.Spec.relu ((∑ k : Fin 20480, (xarr0 V c : S512x20480.Idx → EReal) (ix2 p k)
      * ((warr0 V c : S5120x20480.Idx → EReal) (ix2 q k) * (aarr0 V c : S20480x5120.Idx → EReal) (ix2 k q)))
      + (barr0 V c : S1x5120.Idx → EReal) (ix2 0 q)) := rfl

theorem outblk0_eq (c : Dev nD) (t : Fin cfg0.N) (h1 : t.val % 20 = 19) (p : Fin 512) (j : Fin 1024) (q : Fin 5120)
    (hq : q.val = t.val / 20 * 1024 + j.val) :
    ((outsAt0 V c t.val t.isLt).1 : S512x1024.Idx → EReal) (ix2 p j) = out0 V c p q := by
  have h0 : ¬t.val % 20 = 0 := by omega
  have hN : cfg0.N = 100 := N_0
  rw [outsAt0_C V c t h0 h1]
  dsimp only
  refine (congrFun (out0_C_eq (F := Ideal) c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (xblk0 V c t) (wblk0 V c t) (ablk0 V c t) (bblk0 V c t) (outsAt0 V c (t.val - 1) (Nat.lt_of_le_of_lt (Nat.sub_le _ _) t.isLt)).2) (ix2 p j)).trans ?_
  refine (pay3_apply (k0_pay2 (wblk0 V c t) (ablk0 V c t) (xblk0 V c t) (outsAt0 V c (t.val - 1) (Nat.lt_of_le_of_lt (Nat.sub_le _ _) t.isLt)).2) (bblk0 V c t) p j).trans ?_
  rw [out0_def]
  refine congrArg Cert.Spec.relu (congrArg₂ (fun a b : EReal => a + b) ?_ (bblk0_apply V c t j q hq))
  refine (pay2_step0 V c t h0 p j _ (acc0_eq V c p j (t.val - 1) (Nat.lt_of_le_of_lt (Nat.sub_le _ _) t.isLt))).trans ?_
  rw [h1]
  refine (sum_fin_eq_range 20480 (term0 V c (t.val / 20) p j)).symm.trans ?_
  exact Finset.sum_congr rfl fun k _ => term0_eq V c (t.val / 20) p j q hq k

def G0 (c : Dev nD) : S512x5120.Idx → EReal :=
  fun i => out0 V c ⟨(i 0).val, idx2_lt0 i⟩ ⟨(i 1).val, idx2_lt1 i⟩

theorem read_blk0 (t : Fin cfg0.N) (G : S512x5120.Idx → EReal) (y : ((cfg0.win 4).xblock (grid0.coords t)).Idx) :
    ((cfg0.win 4).blk t).view.read (Elt Ideal) G y = G (((cfg0.win 4).blk t).view.emb y) := rfl

theorem flushed0_eq (c : Dev nD) (t : Fin cfg0.N) (hf : (cfg0.win 4).flush t = true) :
    (dat0 V c).flushed 4 t = ((cfg0.win 4).blk t).view.read (Elt Ideal) (G0 V c) := by
  have h1 : t.val % 20 = 19 := (flush0_4 t).mp hf
  have hN : t.val < 100 := lt_of_lt_of_eq t.isLt (show cfg0.N = 100 from N_0)
  obtain ⟨-, -, -, -, -, -, -, -, e0, e1⟩ := idx_facts0 t
  show (cfg0.win 4).cut (grid0.coords t) ((dat0 V c).after 4 t) = _
  rw [after0_4]
  funext y
  refine Eq.trans ?_ (read_blk0 t (G0 V c) y).symm
  have hy0 : (y 0).val < 512 := (y 0).isLt
  have hy1 : (y 1).val < 1024 := (y 1).isLt
  have hxy : ((cfg0.win 4).xinj (grid0.coords t) y : S512x1024.Idx) = ix2 (⟨(y 0).val, hy0⟩ : Fin 512) (⟨(y 1).val, hy1⟩ : Fin 1024) := by
    funext a; match a with | ⟨0, _⟩ => rfl | ⟨1, _⟩ => rfl
  have hq : t.val / 20 * 1024 + (y 1).val < 5120 := by omega
  refine (congrArg ((outsAt0 V c t.val t.isLt).1 : S512x1024.Idx → EReal) hxy).trans ?_
  refine (outblk0_eq V c t h1 ⟨(y 0).val, hy0⟩ ⟨(y 1).val, hy1⟩ ⟨_, hq⟩ rfl).trans ?_
  unfold G0
  refine congrArg₂ (out0 V c) (Fin.ext ?_) (Fin.ext ?_)
  · show (y 0).val = win0_4.index t 0 * 512 + 1 * (y 0).val
    rw [e0]; omega
  · show t.val / 20 * 1024 + (y 1).val = win0_4.index t 1 * 1024 + 1 * (y 1).val
    rw [e1]; omega

theorem mem_blk0 (t : Fin cfg0.N) (i : S512x5120.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v8).slice (win0_4.rect t)).set ↔ _
  rw [View.set_slice_whole, Rect.mem_set_unit]
  exact Iff.rfl

theorem final0 (c : Dev nD) : (dat0 V c).arrAt 4 cfg0.N = G0 V c :=
  (dat0 V c).arrAt_eq_of_cover 4 (G0 V c) (fun t hf => flushed0_eq V c t hf) fun i => by
    have hi0 : (i 0 : Nat) < 512 := (i 0).isLt
    have hi1 : (i 1 : Nat) < 5120 := (i 1).isLt
    have hlt : (i 1 : Nat) / 1024 * 20 + 19 < cfg0.N := by rw [show cfg0.N = 100 from N_0]; omega
    refine ⟨⟨(i 1 : Nat) / 1024 * 20 + 19, hlt⟩, (flush0_4 _).mpr (by dsimp only; omega), ?_⟩
    obtain ⟨-, -, -, -, -, -, -, -, e0, e1⟩ := idx_facts0 ⟨(i 1 : Nat) / 1024 * 20 + 19, hlt⟩
    rw [mem_blk0]
    intro a
    match a with
    | ⟨0, _⟩ =>
      show win0_4.index _ 0 * 512 ≤ (i 0).val ∧ (i 0).val < win0_4.index _ 0 * 512 + 512
      rw [e0]; omega
    | ⟨1, _⟩ =>
      show win0_4.index _ 1 * 1024 ≤ (i 1).val ∧ (i 1).val < win0_4.index _ 1 * 1024 + 1024
      rw [e1]; dsimp only; omega

theorem region0_value (c : Dev nD) (p : Fin 512) (q : Fin 5120) :
    ((dat0 (F := Ideal) V c).arrAt 4 cfg0.N : S512x5120.Idx → EReal) (ix2 p q)
      = Cert.Spec.relu (Cert.Spec.lin (fun p k => (V c main_v3 : S512x20480.Idx → EReal) (ix2 p k))
        (Cert.Spec.masked (fun q k => (V c main_v4 : S5120x20480.Idx → EReal) (ix2 q k))
          (fun k q => (V c main_v5 : S20480x5120.Idx → EReal) (ix2 k q)))
        (fun q => (V c main_v7 : S1x5120.Idx → EReal) (ix2 0 q)) p q) := by
  rw [final0 V c]
  rfl

end Cert.KernelIdeal.Hand

end
-- ==== Proof.Reg1BlkKI.lean ====
import proofs.«174655_j53695681135127_1_alg».proof.Proof.Reg1KI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

abbrev xarr1 (c : Dev nD) : Vec F S512x5120 .f32 := V c main_v10

abbrev warr1 (c : Dev nD) : Vec F S3072x5120 .f32 := V c main_v11

abbrev aarr1 (c : Dev nD) : Vec F S5120x3072 .f32 := V c main_v12

abbrev barr1 (c : Dev nD) : Vec F S1x3072 .f32 := V c main_v14

abbrev xblk1 (c : Dev nD) (t : Fin cfg1.N) : Vec F S512x1024 .f32 := iblk1 V c 0 t

abbrev wblk1 (c : Dev nD) (t : Fin cfg1.N) : Vec F S1024x1024 .f32 := iblk1 V c 1 t

abbrev ablk1 (c : Dev nD) (t : Fin cfg1.N) : Vec F S1024x1024 .f32 := iblk1 V c 2 t

abbrev bblk1 (c : Dev nD) (t : Fin cfg1.N) : Vec F S1x1024 .f32 := iblk1 V c 3 t

theorem idx_facts1 : ∀ t : Fin cfg1.N,
    win1_0.index t (0 : Fin 2) = 0 ∧ win1_0.index t (1 : Fin 2) = t.val % 5
    ∧ win1_1.index t (0 : Fin 2) = t.val / 5 ∧ win1_1.index t (1 : Fin 2) = t.val % 5
    ∧ win1_2.index t (0 : Fin 2) = t.val % 5 ∧ win1_2.index t (1 : Fin 2) = t.val / 5
    ∧ win1_3.index t (0 : Fin 2) = 0 ∧ win1_3.index t (1 : Fin 2) = t.val / 5
    ∧ win1_4.index t (0 : Fin 2) = 0 ∧ win1_4.index t (1 : Fin 2) = t.val / 5 :=
  (by decide +kernel : ∀ t : Fin grid1.N, _)

theorem xblk1_apply (c : Dev nD) (t : Fin cfg1.N) (p : Fin 512) (kk : Fin 1024) (k : Fin 5120)
    (hk : k.val = t.val % 5 * 1024 + kk.val) :
    xblk1 V c t (ix2 p kk) = xarr1 V c (ix2 p k) := by
  obtain ⟨e0, e1, -⟩ := idx_facts1 t
  unfold xblk1 xarr1 iblk1
  rw [View.read_apply]
  show V c main_v10 _ = V c main_v10 _
  congr 1
  funext a
  apply Fin.ext
  match a with
  | ⟨0, _⟩ => show win1_0.index t 0 * 512 + 1 * p.val = p.val; rw [e0]; omega
  | ⟨1, _⟩ => show win1_0.index t 1 * 1024 + 1 * kk.val = k.val; rw [e1, hk]; omega

theorem wblk1_apply (c : Dev nD) (t : Fin cfg1.N) (j : Fin 1024) (kk : Fin 1024) (q : Fin 3072) (k : Fin 5120)
    (hq : q.val = t.val / 5 * 1024 + j.val) (hk : k.val = t.val % 5 * 1024 + kk.val) :
    wblk1 V c t (ix2 j kk) = warr1 V c (ix2 q k) := by
  obtain ⟨-, -, e0, e1, -⟩ := idx_facts1 t
  unfold wblk1 warr1 iblk1
  rw [View.read_apply]
  show V c main_v11 _ = V c main_v11 _
  congr 1
  funext a
  apply Fin.ext
  match a with
  | ⟨0, _⟩ => show win1_1.index t 0 * 1024 + 1 * j.val = q.val; rw [e0, hq]; omega
  | ⟨1, _⟩ => show win1_1.index t 1 * 1024 + 1 * kk.val = k.val; rw [e1, hk]; omega

theorem ablk1_apply (c : Dev nD) (t : Fin cfg1.N) (kk : Fin 1024) (j : Fin 1024) (k : Fin 5120) (q : Fin 3072)
    (hk : k.val = t.val % 5 * 1024 + kk.val) (hq : q.val = t.val / 5 * 1024 + j.val) :
    ablk1 V c t (ix2 kk j) = aarr1 V c (ix2 k q) := by
  obtain ⟨-, -, -, -, e0, e1, -⟩ := idx_facts1 t
  unfold ablk1 aarr1 iblk1
  rw [View.read_apply]
  show V c main_v12 _ = V c main_v12 _
  congr 1
  funext a
  apply Fin.ext
  match a with
  | ⟨0, _⟩ => show win1_2.index t 0 * 1024 + 1 * kk.val = k.val; rw [e0, hk]; omega
  | ⟨1, _⟩ => show win1_2.index t 1 * 1024 + 1 * j.val = q.val; rw [e1, hq]; omega

theorem bblk1_apply (c : Dev nD) (t : Fin cfg1.N) (j : Fin 1024) (q : Fin 3072)
    (hq : q.val = t.val / 5 * 1024 + j.val) :
    bblk1 V c t (ix2 0 j) = barr1 V c (ix2 0 q) := by
  obtain ⟨-, -, -, -, -, -, e0, e1, -⟩ := idx_facts1 t
  unfold bblk1 barr1 iblk1
  rw [View.read_apply]
  show V c main_v14 _ = V c main_v14 _
  congr 1
  funext a
  apply Fin.ext
  match a with
  | ⟨0, _⟩ => show win1_3.index t 0 * 1 + 1 * 0 = 0; rw [e0]
  | ⟨1, _⟩ => show win1_3.index t 1 * 1024 + 1 * j.val = q.val; rw [e1, hq]; omega

end Cert.KernelIdeal.Hand

end
-- ==== Proof.Reg1PieceKI.lean ====
import proofs.«174655_j53695681135127_1_alg».proof.Proof.Reg1KI

set_option maxRecDepth 16384

noncomputable section

namespace Cert.KernelIdeal.Hand

open Cert.KernelIdeal Cert.KernelIdeal.Gen Idealize.ShloMosaic

variable {F : FTy → Type} [FloatOps F]

variable (c : Dev nD) (i : grid1.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

theorem sout1_B_eq (hc0 : ¬cond1_0 i) (hc1 : ¬cond1_1 i) (x0 : Vec F S512x1024 .f32) (x1 : Vec F S1024x1024 .f32) (x2 : Vec F S1024x1024 .f32) (x3 : Vec F S1x1024 .f32) (xs0 : Vec F S512x1024 .f32) :
    sout1_B c i arg2 harg2 arg3 harg3 arg4 harg4 arg5 harg5 arg6 harg6 arg7 harg7 hc0 hc1 x0 x1 x2 x3 xs0 = k1_pay2 x1 x2 x0 xs0 :=
  maskedAcc_B c _ _ arg2 harg2 arg3 harg3 arg4 harg4 arg5 harg5 arg6 harg6 arg7 harg7 x0 x1 x2 x3 xs0 VS1 hc0 hc1

theorem sout1_A_eq (hc0 : cond1_0 i) (hc1 : ¬cond1_1 i) (x0 : Vec F S512x1024 .f32) (x1 : Vec F S1024x1024 .f32) (x2 : Vec F S1024x1024 .f32) (x3 : Vec F S1x1024 .f32) :
    sout1_A c i arg2 harg2 arg3 harg3 arg4 harg4 arg5 harg5 arg6 harg6 arg7 harg7 hc0 hc1 x0 x1 x2 x3 = k1_pay2 x1 x2 x0 (k1_pay1 (F := F)) :=
  maskedAcc_A c _ _ arg2 harg2 arg3 harg3 arg4 harg4 arg5 harg5 arg6 harg6 arg7 harg7 x0 x1 x2 x3 VS1 hc0 hc1

theorem sout1_C_eq (hc0 : ¬cond1_0 i) (hc1 : cond1_1 i) (x0 : Vec F S512x1024 .f32) (x1 : Vec F S1024x1024 .f32) (x2 : Vec F S1024x1024 .f32) (x3 : Vec F S1x1024 .f32) (xs0 : Vec F S512x1024 .f32) :
    sout1_C c i arg2 harg2 arg3 harg3 arg4 harg4 arg5 harg5 arg6 harg6 arg7 harg7 hc0 hc1 x0 x1 x2 x3 xs0 = k1_pay2 x1 x2 x0 xs0 :=
  maskedAcc_C c _ _ arg2 harg2 arg3 harg3 arg4 harg4 arg5 harg5 arg6 harg6 arg7 harg7 x0 x1 x2 x3 xs0 VS1 hc0 hc1

theorem out1_C_eq (hc0 : ¬cond1_0 i) (hc1 : cond1_1 i) (x0 : Vec F S512x1024 .f32) (x1 : Vec F S1024x1024 .f32) (x2 : Vec F S1024x1024 .f32) (x3 : Vec F S1x1024 .f32) (xs0 : Vec F S512x1024 .f32) :
    out1_C c i arg2 harg2 arg3 harg3 arg4 harg4 arg5 harg5 arg6 harg6 arg7 harg7 hc0 hc1 x0 x1 x2 x3 xs0 = k1_pay3 (k1_pay2 x1 x2 x0 xs0) x3 :=
  maskedOut_C c _ _ arg2 harg2 arg3 harg3 arg4 harg4 arg5 harg5 arg6 harg6 arg7 harg7 x0 x1 x2 x3 xs0 VO1 hc0 hc1

end Cert.KernelIdeal.Hand

end
-- ==== Proof.Reg1PayKI.lean ====
import proofs.«174655_j53695681135127_1_alg».proof.Proof.Reg0PayKI

namespace Cert.KernelIdeal.Hand

open Cert.KernelIdeal.Gen Idealize.ShloMosaic Idealize.ShloMosaic.ValueIdx

-- Region 1's three stored values are region 0's, definition for definition.
theorem pay11_apply (p : Fin 512) (j : Fin 1024) : (k1_pay1 (F := Ideal) : S512x1024.Idx → EReal) (ix2 p j) = 0 :=
  pay1_apply p j

theorem pay12_apply (v3 v6 : Vec Ideal S1024x1024 .f32) (v10 v13 : Vec Ideal S512x1024 .f32) (p : Fin 512) (j : Fin 1024) :
    (k1_pay2 v3 v6 v10 v13 : S512x1024.Idx → EReal) (ix2 p j)
      = v13 (ix2 p j) + ∑ kk : Fin 1024, v10 (ix2 p kk) * (v3 (ix2 j kk) * v6 (ix2 kk j)) :=
  pay2_apply v3 v6 v10 v13 p j

theorem pay13_apply (v22 : Vec Ideal S512x1024 .f32) (v23 : Vec Ideal S1x1024 .f32) (p : Fin 512) (j : Fin 1024) :
    (k1_pay3 v22 v23 : S512x1024.Idx → EReal) (ix2 p j) = Cert.Spec.relu (v22 (ix2 p j) + v23 (ix2 0 j)) :=
  pay3_apply v22 v23 p j

end Cert.KernelIdeal.Hand
-- ==== Proof.Reg1AccKI.lean ====
import proofs.«174655_j53695681135127_1_alg».proof.Proof.Reg1BlkKI
import proofs.«174655_j53695681135127_1_alg».proof.Proof.Reg1PieceKI
import proofs.«174655_j53695681135127_1_alg».proof.Proof.Reg1PayKI
import proofs.«174655_j53695681135127_1_alg».proof.Proof.LibAccSums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibSums Cert.LibAccSums
open scoped BigOperators

variable (V : (c : Dev nD) → (b : Ref sig .tc) → Buf (Elt Ideal) ((c : Thread nD τ).loc b))

def term1 (c : Dev nD) (nb : ℕ) (p : Fin 512) (j : Fin 1024) (k : ℕ) : EReal :=
  if h : k < 5120 ∧ nb * 1024 + j.val < 3072 then
    (xarr1 V c : S512x5120.Idx → EReal) (ix2 p ⟨k, h.1⟩)
      * ((warr1 V c : S3072x5120.Idx → EReal) (ix2 ⟨nb * 1024 + j.val, h.2⟩ ⟨k, h.1⟩)
        * (aarr1 V c : S5120x3072.Idx → EReal) (ix2 ⟨k, h.1⟩ ⟨nb * 1024 + j.val, h.2⟩))
  else 0

theorem term1_eq (c : Dev nD) (nb : ℕ) (p : Fin 512) (j : Fin 1024) (q : Fin 3072) (hq : q.val = nb * 1024 + j.val)
    (k : Fin 5120) :
    term1 V c nb p j k.val = (xarr1 V c : S512x5120.Idx → EReal) (ix2 p k)
      * ((warr1 V c : S3072x5120.Idx → EReal) (ix2 q k) * (aarr1 V c : S5120x3072.Idx → EReal) (ix2 k q)) := by
  obtain ⟨qv, hqv⟩ := q
  have hq' : qv = nb * 1024 + j.val := hq
  subst hq'
  unfold term1
  rw [dif_pos ⟨k.isLt, hqv⟩]

theorem blocksum1 (c : Dev nD) (t : Fin cfg1.N) (p : Fin 512) (j : Fin 1024) :
    ∑ kk : Fin 1024, (xblk1 V c t : S512x1024.Idx → EReal) (ix2 p kk)
        * ((wblk1 V c t : S1024x1024.Idx → EReal) (ix2 j kk) * (ablk1 V c t : S1024x1024.Idx → EReal) (ix2 kk j))
      = ∑ kk : Fin 1024, term1 V c (t.val / 5) p j (t.val % 5 * 1024 + kk.val) := by
  have hN : t.val < 15 := lt_of_lt_of_eq t.isLt (show cfg1.N = 15 from N_1)
  refine Finset.sum_congr rfl fun kk _ => ?_
  have hkk : kk.val < 1024 := kk.isLt
  have hj : j.val < 1024 := j.isLt
  have hk : t.val % 5 * 1024 + kk.val < 5120 := by omega
  have hq : t.val / 5 * 1024 + j.val < 3072 := by omega
  rw [xblk1_apply V c t p kk ⟨_, hk⟩ rfl, wblk1_apply V c t j kk ⟨_, hq⟩ ⟨_, hk⟩ rfl rfl,
    ablk1_apply V c t kk j ⟨_, hk⟩ ⟨_, hq⟩ rfl rfl]
  exact (term1_eq V c (t.val / 5) p j ⟨_, hq⟩ rfl ⟨_, hk⟩).symm

theorem pay2_step1 (c : Dev nD) (t : Fin cfg1.N) (h0 : ¬t.val % 5 = 0) (p : Fin 512) (j : Fin 1024)
    (acc : Vec Ideal S512x1024 .f32)
    (hacc : (acc : S512x1024.Idx → EReal) (ix2 p j)
      = ∑ k ∈ Finset.range (((t.val - 1) % 5 + 1) * 1024), term1 V c ((t.val - 1) / 5) p j k) :
    (k1_pay2 (wblk1 V c t) (ablk1 V c t) (xblk1 V c t) acc : S512x1024.Idx → EReal) (ix2 p j)
      = ∑ k ∈ Finset.range ((t.val % 5 + 1) * 1024), term1 V c (t.val / 5) p j k := by
  have e1 : (t.val - 1) / 5 = t.val / 5 := by omega
  have e2 : t.val % 5 = (t.val - 1) % 5 + 1 := by omega
  rw [e1] at hacc
  refine (pay12_apply (wblk1 V c t) (ablk1 V c t) (xblk1 V c t) acc p j).trans ?_
  refine (congrArg (fun z => (acc : S512x1024.Idx → EReal) (ix2 p j) + z) (blocksum1 V c t p j)).trans ?_
  exact next_block 1024 (term1 V c (t.val / 5) p j) (t.val % 5) ((t.val - 1) % 5) e2 _ hacc

theorem pay2_first1 (c : Dev nD) (t : Fin cfg1.N) (h0 : t.val % 5 = 0) (p : Fin 512) (j : Fin 1024) :
    (k1_pay2 (wblk1 V c t) (ablk1 V c t) (xblk1 V c t) (k1_pay1 (F := Ideal)) : S512x1024.Idx → EReal) (ix2 p j)
      = ∑ k ∈ Finset.range ((t.val % 5 + 1) * 1024), term1 V c (t.val / 5) p j k := by
  refine (pay12_apply (wblk1 V c t) (ablk1 V c t) (xblk1 V c t) (k1_pay1 (F := Ideal)) p j).trans ?_
  refine (congrArg₂ (fun a z => (a : EReal) + z) (pay11_apply p j) (blocksum1 V c t p j)).trans ?_
  exact first_block 1024 (term1 V c (t.val / 5) p j) (t.val % 5) h0

theorem acc1_eq (c : Dev nD) (p : Fin 512) (j : Fin 1024) : ∀ (n : ℕ) (hn : n < cfg1.N),
    ((outsAt1 V c n hn).2 : S512x1024.Idx → EReal) (ix2 p j)
      = ∑ k ∈ Finset.range ((n % 5 + 1) * 1024), term1 V c (n / 5) p j k := by
  intro n
  induction n with
  | zero =>
    intro hn
    have h0 : (⟨0, hn⟩ : Fin cfg1.N).val % 5 = 0 := rfl
    have h1 : ¬(⟨0, hn⟩ : Fin cfg1.N).val % 5 = 4 := by dsimp only; omega
    rw [outsAt1_A V c ⟨0, hn⟩ h0 h1]
    dsimp only
    refine (congrFun (sout1_A_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr h0) (fun h => h1 ((hcond1_1 ⟨0, hn⟩).mp h)) (xblk1 V c ⟨0, hn⟩) (wblk1 V c ⟨0, hn⟩) (ablk1 V c ⟨0, hn⟩) (bblk1 V c ⟨0, hn⟩)) (ix2 p j)).trans ?_
    exact pay2_first1 V c ⟨0, hn⟩ h0 p j
  | succ n ih =>
    intro hn
    have hN : cfg1.N = 15 := N_1
    by_cases h0 : (⟨n + 1, hn⟩ : Fin cfg1.N).val % 5 = 0
    · have h1 : ¬(⟨n + 1, hn⟩ : Fin cfg1.N).val % 5 = 4 := by omega
      rw [outsAt1_A V c ⟨n + 1, hn⟩ h0 h1]
      dsimp only
      refine (congrFun (sout1_A_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (xblk1 V c ⟨n + 1, hn⟩) (wblk1 V c ⟨n + 1, hn⟩) (ablk1 V c ⟨n + 1, hn⟩) (bblk1 V c ⟨n + 1, hn⟩)) (ix2 p j)).trans ?_
      exact pay2_first1 V c ⟨n + 1, hn⟩ h0 p j
    · have hprev : ((outsAt1 V c ((⟨n + 1, hn⟩ : Fin cfg1.N).val - 1) (Nat.lt_of_le_of_lt (Nat.sub_le _ _) (⟨n + 1, hn⟩ : Fin cfg1.N).isLt)).2 : S512x1024.Idx → EReal) (ix2 p j)
          = ∑ k ∈ Finset.range ((((⟨n + 1, hn⟩ : Fin cfg1.N).val - 1) % 5 + 1) * 1024), term1 V c (((⟨n + 1, hn⟩ : Fin cfg1.N).val - 1) / 5) p j k :=
        ih (Nat.lt_of_succ_lt hn)
      by_cases h1 : (⟨n + 1, hn⟩ : Fin cfg1.N).val % 5 = 4
      · rw [outsAt1_C V c ⟨n + 1, hn⟩ h0 h1]
        dsimp only
        refine (congrFun (sout1_C_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (xblk1 V c ⟨n + 1, hn⟩) (wblk1 V c ⟨n + 1, hn⟩) (ablk1 V c ⟨n + 1, hn⟩) (bblk1 V c ⟨n + 1, hn⟩) (outsAt1 V c ((⟨n + 1, hn⟩ : Fin cfg1.N).val - 1) (Nat.lt_of_le_of_lt (Nat.sub_le _ _) (⟨n + 1, hn⟩ : Fin cfg1.N).isLt)).2) (ix2 p j)).trans ?_
        exact pay2_step1 V c ⟨n + 1, hn⟩ h0 p j _ hprev
      · rw [outsAt1_B V c ⟨n + 1, hn⟩ h0 h1]
        dsimp only
        refine (congrFun (sout1_B_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (xblk1 V c ⟨n + 1, hn⟩) (wblk1 V c ⟨n + 1, hn⟩) (ablk1 V c ⟨n + 1, hn⟩) (bblk1 V c ⟨n + 1, hn⟩) (outsAt1 V c ((⟨n + 1, hn⟩ : Fin cfg1.N).val - 1) (Nat.lt_of_le_of_lt (Nat.sub_le _ _) (⟨n + 1, hn⟩ : Fin cfg1.N).isLt)).2) (ix2 p j)).trans ?_
        exact pay2_step1 V c ⟨n + 1, hn⟩ h0 p j _ hprev

end Cert.KernelIdeal.Hand

end
-- ==== Proof.Reg1ValKI.lean ====
import proofs.«174655_j53695681135127_1_alg».proof.Proof.Reg1AccKI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibSums Cert.LibAccSums
open scoped BigOperators

variable (V : (c : Dev nD) → (b : Ref sig .tc) → Buf (Elt Ideal) ((c : Thread nD τ).loc b))

def out1 (c : Dev nD) (p : Fin 512) (q : Fin 3072) : EReal :=
  Cert.Spec.relu (Cert.Spec.lin (fun p k => (xarr1 V c : S512x5120.Idx → EReal) (ix2 p k))
    (Cert.Spec.masked (fun q k => (warr1 V c : S3072x5120.Idx → EReal) (ix2 q k))
      (fun k q => (aarr1 V c : S5120x3072.Idx → EReal) (ix2 k q)))
    (fun q => (barr1 V c : S1x3072.Idx → EReal) (ix2 0 q)) p q)

theorem out1_def (c : Dev nD) (p : Fin 512) (q : Fin 3072) :
    out1 V c p q = Cert.Spec.relu ((∑ k : Fin 5120, (xarr1 V c : S512x5120.Idx → EReal) (ix2 p k)
      * ((warr1 V c : S3072x5120.Idx → EReal) (ix2 q k) * (aarr1 V c : S5120x3072.Idx → EReal) (ix2 k q)))
      + (barr1 V c : S1x3072.Idx → EReal) (ix2 0 q)) := rfl

theorem outblk1_eq (c : Dev nD) (t : Fin cfg1.N) (h1 : t.val % 5 = 4) (p : Fin 512) (j : Fin 1024) (q : Fin 3072)
    (hq : q.val = t.val / 5 * 1024 + j.val) :
    ((outsAt1 V c t.val t.isLt).1 : S512x1024.Idx → EReal) (ix2 p j) = out1 V c p q := by
  have h0 : ¬t.val % 5 = 0 := by omega
  have hN : cfg1.N = 15 := N_1
  rw [outsAt1_C V c t h0 h1]
  dsimp only
  refine (congrFun (out1_C_eq (F := Ideal) c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (xblk1 V c t) (wblk1 V c t) (ablk1 V c t) (bblk1 V c t) (outsAt1 V c (t.val - 1) (Nat.lt_of_le_of_lt (Nat.sub_le _ _) t.isLt)).2) (ix2 p j)).trans ?_
  refine (pay13_apply (k1_pay2 (wblk1 V c t) (ablk1 V c t) (xblk1 V c t) (outsAt1 V c (t.val - 1) (Nat.lt_of_le_of_lt (Nat.sub_le _ _) t.isLt)).2) (bblk1 V c t) p j).trans ?_
  rw [out1_def]
  refine congrArg Cert.Spec.relu (congrArg₂ (fun a b : EReal => a + b) ?_ (bblk1_apply V c t j q hq))
  refine (pay2_step1 V c t h0 p j _ (acc1_eq V c p j (t.val - 1) (Nat.lt_of_le_of_lt (Nat.sub_le _ _) t.isLt))).trans ?_
  rw [h1]
  refine (sum_fin_eq_range 5120 (term1 V c (t.val / 5) p j)).symm.trans ?_
  exact Finset.sum_congr rfl fun k _ => term1_eq V c (t.val / 5) p j q hq k

def G1 (c : Dev nD) : S512x3072.Idx → EReal :=
  fun i => out1 V c ⟨(i 0).val, idx2_lt0 i⟩ ⟨(i 1).val, idx2_lt1 i⟩

theorem read_blk1 (t : Fin cfg1.N) (G : S512x3072.Idx → EReal) (y : ((cfg1.win 4).xblock (grid1.coords t)).Idx) :
    ((cfg1.win 4).blk t).view.read (Elt Ideal) G y = G (((cfg1.win 4).blk t).view.emb y) := rfl

theorem flushed1_eq (c : Dev nD) (t : Fin cfg1.N) (hf : (cfg1.win 4).flush t = true) :
    (dat1 V c).flushed 4 t = ((cfg1.win 4).blk t).view.read (Elt Ideal) (G1 V c) := by
  have h1 : t.val % 5 = 4 := (flush1_4 t).mp hf
  have hN : t.val < 15 := lt_of_lt_of_eq t.isLt (show cfg1.N = 15 from N_1)
  obtain ⟨-, -, -, -, -, -, -, -, e0, e1⟩ := idx_facts1 t
  show (cfg1.win 4).cut (grid1.coords t) ((dat1 V c).after 4 t) = _
  rw [after1_4]
  funext y
  refine Eq.trans ?_ (read_blk1 t (G1 V c) y).symm
  have hy0 : (y 0).val < 512 := (y 0).isLt
  have hy1 : (y 1).val < 1024 := (y 1).isLt
  have hxy : ((cfg1.win 4).xinj (grid1.coords t) y : S512x1024.Idx) = ix2 (⟨(y 0).val, hy0⟩ : Fin 512) (⟨(y 1).val, hy1⟩ : Fin 1024) := by
    funext a; match a with | ⟨0, _⟩ => rfl | ⟨1, _⟩ => rfl
  have hq : t.val / 5 * 1024 + (y 1).val < 3072 := by omega
  refine (congrArg ((outsAt1 V c t.val t.isLt).1 : S512x1024.Idx → EReal) hxy).trans ?_
  refine (outblk1_eq V c t h1 ⟨(y 0).val, hy0⟩ ⟨(y 1).val, hy1⟩ ⟨_, hq⟩ rfl).trans ?_
  unfold G1
  refine congrArg₂ (out1 V c) (Fin.ext ?_) (Fin.ext ?_)
  · show (y 0).val = win1_4.index t 0 * 512 + 1 * (y 0).val
    rw [e0]; omega
  · show t.val / 5 * 1024 + (y 1).val = win1_4.index t 1 * 1024 + 1 * (y 1).val
    rw [e1]; omega

theorem mem_blk1 (t : Fin cfg1.N) (i : S512x3072.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v15).slice (win1_4.rect t)).set ↔ _
  rw [View.set_slice_whole, Rect.mem_set_unit]
  exact Iff.rfl

theorem final1 (c : Dev nD) : (dat1 V c).arrAt 4 cfg1.N = G1 V c :=
  (dat1 V c).arrAt_eq_of_cover 4 (G1 V c) (fun t hf => flushed1_eq V c t hf) fun i => by
    have hi0 : (i 0 : Nat) < 512 := (i 0).isLt
    have hi1 : (i 1 : Nat) < 3072 := (i 1).isLt
    have hlt : (i 1 : Nat) / 1024 * 5 + 4 < cfg1.N := by rw [show cfg1.N = 15 from N_1]; omega
    refine ⟨⟨(i 1 : Nat) / 1024 * 5 + 4, hlt⟩, (flush1_4 _).mpr (by dsimp only; omega), ?_⟩
    obtain ⟨-, -, -, -, -, -, -, -, e0, e1⟩ := idx_facts1 ⟨(i 1 : Nat) / 1024 * 5 + 4, hlt⟩
    rw [mem_blk1]
    intro a
    match a with
    | ⟨0, _⟩ =>
      show win1_4.index _ 0 * 512 ≤ (i 0).val ∧ (i 0).val < win1_4.index _ 0 * 512 + 512
      rw [e0]; omega
    | ⟨1, _⟩ =>
      show win1_4.index _ 1 * 1024 ≤ (i 1).val ∧ (i 1).val < win1_4.index _ 1 * 1024 + 1024
      rw [e1]; dsimp only; omega

theorem region1_value (c : Dev nD) (p : Fin 512) (q : Fin 3072) :
    ((dat1 (F := Ideal) V c).arrAt 4 cfg1.N : S512x3072.Idx → EReal) (ix2 p q)
      = Cert.Spec.relu (Cert.Spec.lin (fun p k => (V c main_v10 : S512x5120.Idx → EReal) (ix2 p k))
        (Cert.Spec.masked (fun q k => (V c main_v11 : S3072x5120.Idx → EReal) (ix2 q k))
          (fun k q => (V c main_v12 : S5120x3072.Idx → EReal) (ix2 k q)))
        (fun q => (V c main_v14 : S1x3072.Idx → EReal) (ix2 0 q)) p q) := by
  rw [final1 V c]
  rfl

end Cert.KernelIdeal.Hand

end
-- ==== Proof.Reg2BlkKI.lean ====
import proofs.«174655_j53695681135127_1_alg».proof.Proof.Reg2KI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

abbrev xarr2 (c : Dev nD) : Vec F S512x8192 .f32 := V c main_v18

abbrev warr2 (c : Dev nD) : Vec F S3072x8192 .f32 := V c main_v19

abbrev aarr2 (c : Dev nD) : Vec F S8192x3072 .f32 := V c main_v20

abbrev barr2 (c : Dev nD) : Vec F S1x3072 .f32 := V c main_v22

abbrev xblk2 (c : Dev nD) (t : Fin cfg2.N) : Vec F S512x1024 .f32 := iblk2 V c 0 t

abbrev wblk2 (c : Dev nD) (t : Fin cfg2.N) : Vec F S1024x1024 .f32 := iblk2 V c 1 t

abbrev ablk2 (c : Dev nD) (t : Fin cfg2.N) : Vec F S1024x1024 .f32 := iblk2 V c 2 t

abbrev bblk2 (c : Dev nD) (t : Fin cfg2.N) : Vec F S1x1024 .f32 := iblk2 V c 3 t

theorem idx_facts2 : ∀ t : Fin cfg2.N,
    win2_0.index t (0 : Fin 2) = 0 ∧ win2_0.index t (1 : Fin 2) = t.val % 8
    ∧ win2_1.index t (0 : Fin 2) = t.val / 8 ∧ win2_1.index t (1 : Fin 2) = t.val % 8
    ∧ win2_2.index t (0 : Fin 2) = t.val % 8 ∧ win2_2.index t (1 : Fin 2) = t.val / 8
    ∧ win2_3.index t (0 : Fin 2) = 0 ∧ win2_3.index t (1 : Fin 2) = t.val / 8
    ∧ win2_4.index t (0 : Fin 2) = 0 ∧ win2_4.index t (1 : Fin 2) = t.val / 8 :=
  (by decide +kernel : ∀ t : Fin grid2.N, _)

theorem xblk2_apply (c : Dev nD) (t : Fin cfg2.N) (p : Fin 512) (kk : Fin 1024) (k : Fin 8192)
    (hk : k.val = t.val % 8 * 1024 + kk.val) :
    xblk2 V c t (ix2 p kk) = xarr2 V c (ix2 p k) := by
  obtain ⟨e0, e1, -⟩ := idx_facts2 t
  unfold xblk2 xarr2 iblk2
  rw [View.read_apply]
  show V c main_v18 _ = V c main_v18 _
  congr 1
  funext a
  apply Fin.ext
  match a with
  | ⟨0, _⟩ => show win2_0.index t 0 * 512 + 1 * p.val = p.val; rw [e0]; omega
  | ⟨1, _⟩ => show win2_0.index t 1 * 1024 + 1 * kk.val = k.val; rw [e1, hk]; omega

theorem wblk2_apply (c : Dev nD) (t : Fin cfg2.N) (j : Fin 1024) (kk : Fin 1024) (q : Fin 3072) (k : Fin 8192)
    (hq : q.val = t.val / 8 * 1024 + j.val) (hk : k.val = t.val % 8 * 1024 + kk.val) :
    wblk2 V c t (ix2 j kk) = warr2 V c (ix2 q k) := by
  obtain ⟨-, -, e0, e1, -⟩ := idx_facts2 t
  unfold wblk2 warr2 iblk2
  rw [View.read_apply]
  show V c main_v19 _ = V c main_v19 _
  congr 1
  funext a
  apply Fin.ext
  match a with
  | ⟨0, _⟩ => show win2_1.index t 0 * 1024 + 1 * j.val = q.val; rw [e0, hq]; omega
  | ⟨1, _⟩ => show win2_1.index t 1 * 1024 + 1 * kk.val = k.val; rw [e1, hk]; omega

theorem ablk2_apply (c : Dev nD) (t : Fin cfg2.N) (kk : Fin 1024) (j : Fin 1024) (k : Fin 8192) (q : Fin 3072)
    (hk : k.val = t.val % 8 * 1024 + kk.val) (hq : q.val = t.val / 8 * 1024 + j.val) :
    ablk2 V c t (ix2 kk j) = aarr2 V c (ix2 k q) := by
  obtain ⟨-, -, -, -, e0, e1, -⟩ := idx_facts2 t
  unfold ablk2 aarr2 iblk2
  rw [View.read_apply]
  show V c main_v20 _ = V c main_v20 _
  congr 1
  funext a
  apply Fin.ext
  match a with
  | ⟨0, _⟩ => show win2_2.index t 0 * 1024 + 1 * kk.val = k.val; rw [e0, hk]; omega
  | ⟨1, _⟩ => show win2_2.index t 1 * 1024 + 1 * j.val = q.val; rw [e1, hq]; omega

theorem bblk2_apply (c : Dev nD) (t : Fin cfg2.N) (j : Fin 1024) (q : Fin 3072)
    (hq : q.val = t.val / 8 * 1024 + j.val) :
    bblk2 V c t (ix2 0 j) = barr2 V c (ix2 0 q) := by
  obtain ⟨-, -, -, -, -, -, e0, e1, -⟩ := idx_facts2 t
  unfold bblk2 barr2 iblk2
  rw [View.read_apply]
  show V c main_v22 _ = V c main_v22 _
  congr 1
  funext a
  apply Fin.ext
  match a with
  | ⟨0, _⟩ => show win2_3.index t 0 * 1 + 1 * 0 = 0; rw [e0]
  | ⟨1, _⟩ => show win2_3.index t 1 * 1024 + 1 * j.val = q.val; rw [e1, hq]; omega

end Cert.KernelIdeal.Hand

end
-- ==== Proof.Reg2PieceKI.lean ====
import proofs.«174655_j53695681135127_1_alg».proof.Proof.Reg2KI

set_option maxRecDepth 16384

noncomputable section

namespace Cert.KernelIdeal.Hand

open Cert.KernelIdeal Cert.KernelIdeal.Gen Idealize.ShloMosaic

variable {F : FTy → Type} [FloatOps F]

variable (c : Dev nD) (i : grid2.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

theorem sout2_B_eq (hc0 : ¬cond2_0 i) (hc1 : ¬cond2_1 i) (x0 : Vec F S512x1024 .f32) (x1 : Vec F S1024x1024 .f32) (x2 : Vec F S1024x1024 .f32) (x3 : Vec F S1x1024 .f32) (xs0 : Vec F S512x1024 .f32) :
    sout2_B c i arg2 harg2 arg3 harg3 arg4 harg4 arg5 harg5 arg6 harg6 arg7 harg7 hc0 hc1 x0 x1 x2 x3 xs0 = k2_pay2 x1 x2 x0 xs0 :=
  maskedAcc_B c _ _ arg2 harg2 arg3 harg3 arg4 harg4 arg5 harg5 arg6 harg6 arg7 harg7 x0 x1 x2 x3 xs0 VS2 hc0 hc1

theorem sout2_A_eq (hc0 : cond2_0 i) (hc1 : ¬cond2_1 i) (x0 : Vec F S512x1024 .f32) (x1 : Vec F S1024x1024 .f32) (x2 : Vec F S1024x1024 .f32) (x3 : Vec F S1x1024 .f32) :
    sout2_A c i arg2 harg2 arg3 harg3 arg4 harg4 arg5 harg5 arg6 harg6 arg7 harg7 hc0 hc1 x0 x1 x2 x3 = k2_pay2 x1 x2 x0 (k2_pay1 (F := F)) :=
  maskedAcc_A c _ _ arg2 harg2 arg3 harg3 arg4 harg4 arg5 harg5 arg6 harg6 arg7 harg7 x0 x1 x2 x3 VS2 hc0 hc1

theorem sout2_C_eq (hc0 : ¬cond2_0 i) (hc1 : cond2_1 i) (x0 : Vec F S512x1024 .f32) (x1 : Vec F S1024x1024 .f32) (x2 : Vec F S1024x1024 .f32) (x3 : Vec F S1x1024 .f32) (xs0 : Vec F S512x1024 .f32) :
    sout2_C c i arg2 harg2 arg3 harg3 arg4 harg4 arg5 harg5 arg6 harg6 arg7 harg7 hc0 hc1 x0 x1 x2 x3 xs0 = k2_pay2 x1 x2 x0 xs0 :=
  maskedAcc_C c _ _ arg2 harg2 arg3 harg3 arg4 harg4 arg5 harg5 arg6 harg6 arg7 harg7 x0 x1 x2 x3 xs0 VS2 hc0 hc1

theorem out2_C_eq (hc0 : ¬cond2_0 i) (hc1 : cond2_1 i) (x0 : Vec F S512x1024 .f32) (x1 : Vec F S1024x1024 .f32) (x2 : Vec F S1024x1024 .f32) (x3 : Vec F S1x1024 .f32) (xs0 : Vec F S512x1024 .f32) :
    out2_C c i arg2 harg2 arg3 harg3 arg4 harg4 arg5 harg5 arg6 harg6 arg7 harg7 hc0 hc1 x0 x1 x2 x3 xs0 = k2_pay3 (k2_pay2 x1 x2 x0 xs0) x3 :=
  maskedOut_C c _ _ arg2 harg2 arg3 harg3 arg4 harg4 arg5 harg5 arg6 harg6 arg7 harg7 x0 x1 x2 x3 xs0 VO2 hc0 hc1

end Cert.KernelIdeal.Hand

end
-- ==== Proof.Reg2PayKI.lean ====
import proofs.«174655_j53695681135127_1_alg».proof.Proof.Reg0PayKI

namespace Cert.KernelIdeal.Hand

open Cert.KernelIdeal.Gen Idealize.ShloMosaic Idealize.ShloMosaic.ValueIdx

-- Region 2's three stored values are region 0's, definition for definition.
theorem pay21_apply (p : Fin 512) (j : Fin 1024) : (k2_pay1 (F := Ideal) : S512x1024.Idx → EReal) (ix2 p j) = 0 :=
  pay1_apply p j

theorem pay22_apply (v3 v6 : Vec Ideal S1024x1024 .f32) (v10 v13 : Vec Ideal S512x1024 .f32) (p : Fin 512) (j : Fin 1024) :
    (k2_pay2 v3 v6 v10 v13 : S512x1024.Idx → EReal) (ix2 p j)
      = v13 (ix2 p j) + ∑ kk : Fin 1024, v10 (ix2 p kk) * (v3 (ix2 j kk) * v6 (ix2 kk j)) :=
  pay2_apply v3 v6 v10 v13 p j

theorem pay23_apply (v22 : Vec Ideal S512x1024 .f32) (v23 : Vec Ideal S1x1024 .f32) (p : Fin 512) (j : Fin 1024) :
    (k2_pay3 v22 v23 : S512x1024.Idx → EReal) (ix2 p j) = Cert.Spec.relu (v22 (ix2 p j) + v23 (ix2 0 j)) :=
  pay3_apply v22 v23 p j

end Cert.KernelIdeal.Hand
-- ==== Proof.Reg2AccKI.lean ====
import proofs.«174655_j53695681135127_1_alg».proof.Proof.Reg2BlkKI
import proofs.«174655_j53695681135127_1_alg».proof.Proof.Reg2PieceKI
import proofs.«174655_j53695681135127_1_alg».proof.Proof.Reg2PayKI
import proofs.«174655_j53695681135127_1_alg».proof.Proof.LibAccSums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibSums Cert.LibAccSums
open scoped BigOperators

variable (V : (c : Dev nD) → (b : Ref sig .tc) → Buf (Elt Ideal) ((c : Thread nD τ).loc b))

def term2 (c : Dev nD) (nb : ℕ) (p : Fin 512) (j : Fin 1024) (k : ℕ) : EReal :=
  if h : k < 8192 ∧ nb * 1024 + j.val < 3072 then
    (xarr2 V c : S512x8192.Idx → EReal) (ix2 p ⟨k, h.1⟩)
      * ((warr2 V c : S3072x8192.Idx → EReal) (ix2 ⟨nb * 1024 + j.val, h.2⟩ ⟨k, h.1⟩)
        * (aarr2 V c : S8192x3072.Idx → EReal) (ix2 ⟨k, h.1⟩ ⟨nb * 1024 + j.val, h.2⟩))
  else 0

theorem term2_eq (c : Dev nD) (nb : ℕ) (p : Fin 512) (j : Fin 1024) (q : Fin 3072) (hq : q.val = nb * 1024 + j.val)
    (k : Fin 8192) :
    term2 V c nb p j k.val = (xarr2 V c : S512x8192.Idx → EReal) (ix2 p k)
      * ((warr2 V c : S3072x8192.Idx → EReal) (ix2 q k) * (aarr2 V c : S8192x3072.Idx → EReal) (ix2 k q)) := by
  obtain ⟨qv, hqv⟩ := q
  have hq' : qv = nb * 1024 + j.val := hq
  subst hq'
  unfold term2
  rw [dif_pos ⟨k.isLt, hqv⟩]

theorem blocksum2 (c : Dev nD) (t : Fin cfg2.N) (p : Fin 512) (j : Fin 1024) :
    ∑ kk : Fin 1024, (xblk2 V c t : S512x1024.Idx → EReal) (ix2 p kk)
        * ((wblk2 V c t : S1024x1024.Idx → EReal) (ix2 j kk) * (ablk2 V c t : S1024x1024.Idx → EReal) (ix2 kk j))
      = ∑ kk : Fin 1024, term2 V c (t.val / 8) p j (t.val % 8 * 1024 + kk.val) := by
  have hN : t.val < 24 := lt_of_lt_of_eq t.isLt (show cfg2.N = 24 from N_2)
  refine Finset.sum_congr rfl fun kk _ => ?_
  have hkk : kk.val < 1024 := kk.isLt
  have hj : j.val < 1024 := j.isLt
  have hk : t.val % 8 * 1024 + kk.val < 8192 := by omega
  have hq : t.val / 8 * 1024 + j.val < 3072 := by omega
  rw [xblk2_apply V c t p kk ⟨_, hk⟩ rfl, wblk2_apply V c t j kk ⟨_, hq⟩ ⟨_, hk⟩ rfl rfl,
    ablk2_apply V c t kk j ⟨_, hk⟩ ⟨_, hq⟩ rfl rfl]
  exact (term2_eq V c (t.val / 8) p j ⟨_, hq⟩ rfl ⟨_, hk⟩).symm

theorem pay2_step2 (c : Dev nD) (t : Fin cfg2.N) (h0 : ¬t.val % 8 = 0) (p : Fin 512) (j : Fin 1024)
    (acc : Vec Ideal S512x1024 .f32)
    (hacc : (acc : S512x1024.Idx → EReal) (ix2 p j)
      = ∑ k ∈ Finset.range (((t.val - 1) % 8 + 1) * 1024), term2 V c ((t.val - 1) / 8) p j k) :
    (k2_pay2 (wblk2 V c t) (ablk2 V c t) (xblk2 V c t) acc : S512x1024.Idx → EReal) (ix2 p j)
      = ∑ k ∈ Finset.range ((t.val % 8 + 1) * 1024), term2 V c (t.val / 8) p j k := by
  have e1 : (t.val - 1) / 8 = t.val / 8 := by omega
  have e2 : t.val % 8 = (t.val - 1) % 8 + 1 := by omega
  rw [e1] at hacc
  refine (pay22_apply (wblk2 V c t) (ablk2 V c t) (xblk2 V c t) acc p j).trans ?_
  refine (congrArg (fun z => (acc : S512x1024.Idx → EReal) (ix2 p j) + z) (blocksum2 V c t p j)).trans ?_
  exact next_block 1024 (term2 V c (t.val / 8) p j) (t.val % 8) ((t.val - 1) % 8) e2 _ hacc

theorem pay2_first2 (c : Dev nD) (t : Fin cfg2.N) (h0 : t.val % 8 = 0) (p : Fin 512) (j : Fin 1024) :
    (k2_pay2 (wblk2 V c t) (ablk2 V c t) (xblk2 V c t) (k2_pay1 (F := Ideal)) : S512x1024.Idx → EReal) (ix2 p j)
      = ∑ k ∈ Finset.range ((t.val % 8 + 1) * 1024), term2 V c (t.val / 8) p j k := by
  refine (pay22_apply (wblk2 V c t) (ablk2 V c t) (xblk2 V c t) (k2_pay1 (F := Ideal)) p j).trans ?_
  refine (congrArg₂ (fun a z => (a : EReal) + z) (pay21_apply p j) (blocksum2 V c t p j)).trans ?_
  exact first_block 1024 (term2 V c (t.val / 8) p j) (t.val % 8) h0

theorem acc2_eq (c : Dev nD) (p : Fin 512) (j : Fin 1024) : ∀ (n : ℕ) (hn : n < cfg2.N),
    ((outsAt2 V c n hn).2 : S512x1024.Idx → EReal) (ix2 p j)
      = ∑ k ∈ Finset.range ((n % 8 + 1) * 1024), term2 V c (n / 8) p j k := by
  intro n
  induction n with
  | zero =>
    intro hn
    have h0 : (⟨0, hn⟩ : Fin cfg2.N).val % 8 = 0 := rfl
    have h1 : ¬(⟨0, hn⟩ : Fin cfg2.N).val % 8 = 7 := by dsimp only; omega
    rw [outsAt2_A V c ⟨0, hn⟩ h0 h1]
    dsimp only
    refine (congrFun (sout2_A_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr h0) (fun h => h1 ((hcond2_1 ⟨0, hn⟩).mp h)) (xblk2 V c ⟨0, hn⟩) (wblk2 V c ⟨0, hn⟩) (ablk2 V c ⟨0, hn⟩) (bblk2 V c ⟨0, hn⟩)) (ix2 p j)).trans ?_
    exact pay2_first2 V c ⟨0, hn⟩ h0 p j
  | succ n ih =>
    intro hn
    have hN : cfg2.N = 24 := N_2
    by_cases h0 : (⟨n + 1, hn⟩ : Fin cfg2.N).val % 8 = 0
    · have h1 : ¬(⟨n + 1, hn⟩ : Fin cfg2.N).val % 8 = 7 := by omega
      rw [outsAt2_A V c ⟨n + 1, hn⟩ h0 h1]
      dsimp only
      refine (congrFun (sout2_A_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (xblk2 V c ⟨n + 1, hn⟩) (wblk2 V c ⟨n + 1, hn⟩) (ablk2 V c ⟨n + 1, hn⟩) (bblk2 V c ⟨n + 1, hn⟩)) (ix2 p j)).trans ?_
      exact pay2_first2 V c ⟨n + 1, hn⟩ h0 p j
    · have hprev : ((outsAt2 V c ((⟨n + 1, hn⟩ : Fin cfg2.N).val - 1) (Nat.lt_of_le_of_lt (Nat.sub_le _ _) (⟨n + 1, hn⟩ : Fin cfg2.N).isLt)).2 : S512x1024.Idx → EReal) (ix2 p j)
          = ∑ k ∈ Finset.range ((((⟨n + 1, hn⟩ : Fin cfg2.N).val - 1) % 8 + 1) * 1024), term2 V c (((⟨n + 1, hn⟩ : Fin cfg2.N).val - 1) / 8) p j k :=
        ih (Nat.lt_of_succ_lt hn)
      by_cases h1 : (⟨n + 1, hn⟩ : Fin cfg2.N).val % 8 = 7
      · rw [outsAt2_C V c ⟨n + 1, hn⟩ h0 h1]
        dsimp only
        refine (congrFun (sout2_C_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (xblk2 V c ⟨n + 1, hn⟩) (wblk2 V c ⟨n + 1, hn⟩) (ablk2 V c ⟨n + 1, hn⟩) (bblk2 V c ⟨n + 1, hn⟩) (outsAt2 V c ((⟨n + 1, hn⟩ : Fin cfg2.N).val - 1) (Nat.lt_of_le_of_lt (Nat.sub_le _ _) (⟨n + 1, hn⟩ : Fin cfg2.N).isLt)).2) (ix2 p j)).trans ?_
        exact pay2_step2 V c ⟨n + 1, hn⟩ h0 p j _ hprev
      · rw [outsAt2_B V c ⟨n + 1, hn⟩ h0 h1]
        dsimp only
        refine (congrFun (sout2_B_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (xblk2 V c ⟨n + 1, hn⟩) (wblk2 V c ⟨n + 1, hn⟩) (ablk2 V c ⟨n + 1, hn⟩) (bblk2 V c ⟨n + 1, hn⟩) (outsAt2 V c ((⟨n + 1, hn⟩ : Fin cfg2.N).val - 1) (Nat.lt_of_le_of_lt (Nat.sub_le _ _) (⟨n + 1, hn⟩ : Fin cfg2.N).isLt)).2) (ix2 p j)).trans ?_
        exact pay2_step2 V c ⟨n + 1, hn⟩ h0 p j _ hprev

end Cert.KernelIdeal.Hand

end
-- ==== Proof.Reg2ValKI.lean ====
import proofs.«174655_j53695681135127_1_alg».proof.Proof.Reg2AccKI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibSums Cert.LibAccSums
open scoped BigOperators

variable (V : (c : Dev nD) → (b : Ref sig .tc) → Buf (Elt Ideal) ((c : Thread nD τ).loc b))

def out2 (c : Dev nD) (p : Fin 512) (q : Fin 3072) : EReal :=
  Cert.Spec.relu (Cert.Spec.lin (fun p k => (xarr2 V c : S512x8192.Idx → EReal) (ix2 p k))
    (Cert.Spec.masked (fun q k => (warr2 V c : S3072x8192.Idx → EReal) (ix2 q k))
      (fun k q => (aarr2 V c : S8192x3072.Idx → EReal) (ix2 k q)))
    (fun q => (barr2 V c : S1x3072.Idx → EReal) (ix2 0 q)) p q)

theorem out2_def (c : Dev nD) (p : Fin 512) (q : Fin 3072) :
    out2 V c p q = Cert.Spec.relu ((∑ k : Fin 8192, (xarr2 V c : S512x8192.Idx → EReal) (ix2 p k)
      * ((warr2 V c : S3072x8192.Idx → EReal) (ix2 q k) * (aarr2 V c : S8192x3072.Idx → EReal) (ix2 k q)))
      + (barr2 V c : S1x3072.Idx → EReal) (ix2 0 q)) := rfl

theorem outblk2_eq (c : Dev nD) (t : Fin cfg2.N) (h1 : t.val % 8 = 7) (p : Fin 512) (j : Fin 1024) (q : Fin 3072)
    (hq : q.val = t.val / 8 * 1024 + j.val) :
    ((outsAt2 V c t.val t.isLt).1 : S512x1024.Idx → EReal) (ix2 p j) = out2 V c p q := by
  have h0 : ¬t.val % 8 = 0 := by omega
  have hN : cfg2.N = 24 := N_2
  rw [outsAt2_C V c t h0 h1]
  dsimp only
  refine (congrFun (out2_C_eq (F := Ideal) c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (xblk2 V c t) (wblk2 V c t) (ablk2 V c t) (bblk2 V c t) (outsAt2 V c (t.val - 1) (Nat.lt_of_le_of_lt (Nat.sub_le _ _) t.isLt)).2) (ix2 p j)).trans ?_
  refine (pay23_apply (k2_pay2 (wblk2 V c t) (ablk2 V c t) (xblk2 V c t) (outsAt2 V c (t.val - 1) (Nat.lt_of_le_of_lt (Nat.sub_le _ _) t.isLt)).2) (bblk2 V c t) p j).trans ?_
  rw [out2_def]
  refine congrArg Cert.Spec.relu (congrArg₂ (fun a b : EReal => a + b) ?_ (bblk2_apply V c t j q hq))
  refine (pay2_step2 V c t h0 p j _ (acc2_eq V c p j (t.val - 1) (Nat.lt_of_le_of_lt (Nat.sub_le _ _) t.isLt))).trans ?_
  rw [h1]
  refine (sum_fin_eq_range 8192 (term2 V c (t.val / 8) p j)).symm.trans ?_
  exact Finset.sum_congr rfl fun k _ => term2_eq V c (t.val / 8) p j q hq k

def G2 (c : Dev nD) : S512x3072.Idx → EReal :=
  fun i => out2 V c ⟨(i 0).val, idx2_lt0 i⟩ ⟨(i 1).val, idx2_lt1 i⟩

theorem read_blk2 (t : Fin cfg2.N) (G : S512x3072.Idx → EReal) (y : ((cfg2.win 4).xblock (grid2.coords t)).Idx) :
    ((cfg2.win 4).blk t).view.read (Elt Ideal) G y = G (((cfg2.win 4).blk t).view.emb y) := rfl

theorem flushed2_eq (c : Dev nD) (t : Fin cfg2.N) (hf : (cfg2.win 4).flush t = true) :
    (dat2 V c).flushed 4 t = ((cfg2.win 4).blk t).view.read (Elt Ideal) (G2 V c) := by
  have h1 : t.val % 8 = 7 := (flush2_4 t).mp hf
  have hN : t.val < 24 := lt_of_lt_of_eq t.isLt (show cfg2.N = 24 from N_2)
  obtain ⟨-, -, -, -, -, -, -, -, e0, e1⟩ := idx_facts2 t
  show (cfg2.win 4).cut (grid2.coords t) ((dat2 V c).after 4 t) = _
  rw [after2_4]
  funext y
  refine Eq.trans ?_ (read_blk2 t (G2 V c) y).symm
  have hy0 : (y 0).val < 512 := (y 0).isLt
  have hy1 : (y 1).val < 1024 := (y 1).isLt
  have hxy : ((cfg2.win 4).xinj (grid2.coords t) y : S512x1024.Idx) = ix2 (⟨(y 0).val, hy0⟩ : Fin 512) (⟨(y 1).val, hy1⟩ : Fin 1024) := by
    funext a; match a with | ⟨0, _⟩ => rfl | ⟨1, _⟩ => rfl
  have hq : t.val / 8 * 1024 + (y 1).val < 3072 := by omega
  refine (congrArg ((outsAt2 V c t.val t.isLt).1 : S512x1024.Idx → EReal) hxy).trans ?_
  refine (outblk2_eq V c t h1 ⟨(y 0).val, hy0⟩ ⟨(y 1).val, hy1⟩ ⟨_, hq⟩ rfl).trans ?_
  unfold G2
  refine congrArg₂ (out2 V c) (Fin.ext ?_) (Fin.ext ?_)
  · show (y 0).val = win2_4.index t 0 * 512 + 1 * (y 0).val
    rw [e0]; omega
  · show t.val / 8 * 1024 + (y 1).val = win2_4.index t 1 * 1024 + 1 * (y 1).val
    rw [e1]; omega

theorem mem_blk2 (t : Fin cfg2.N) (i : S512x3072.Idx) :
    i ∈ ((cfg2.win 4).blk t).view.set ↔ ∀ a : Fin 2, win2_4.index t a * S512x1024.size a ≤ (i a).val ∧ (i a).val < win2_4.index t a * S512x1024.size a + S512x1024.size a := by
  show i ∈ ((View.whole main_v23).slice (win2_4.rect t)).set ↔ _
  rw [View.set_slice_whole, Rect.mem_set_unit]
  exact Iff.rfl

theorem final2 (c : Dev nD) : (dat2 V c).arrAt 4 cfg2.N = G2 V c :=
  (dat2 V c).arrAt_eq_of_cover 4 (G2 V c) (fun t hf => flushed2_eq V c t hf) fun i => by
    have hi0 : (i 0 : Nat) < 512 := (i 0).isLt
    have hi1 : (i 1 : Nat) < 3072 := (i 1).isLt
    have hlt : (i 1 : Nat) / 1024 * 8 + 7 < cfg2.N := by rw [show cfg2.N = 24 from N_2]; omega
    refine ⟨⟨(i 1 : Nat) / 1024 * 8 + 7, hlt⟩, (flush2_4 _).mpr (by dsimp only; omega), ?_⟩
    obtain ⟨-, -, -, -, -, -, -, -, e0, e1⟩ := idx_facts2 ⟨(i 1 : Nat) / 1024 * 8 + 7, hlt⟩
    rw [mem_blk2]
    intro a
    match a with
    | ⟨0, _⟩ =>
      show win2_4.index _ 0 * 512 ≤ (i 0).val ∧ (i 0).val < win2_4.index _ 0 * 512 + 512
      rw [e0]; omega
    | ⟨1, _⟩ =>
      show win2_4.index _ 1 * 1024 ≤ (i 1).val ∧ (i 1).val < win2_4.index _ 1 * 1024 + 1024
      rw [e1]; dsimp only; omega

theorem region2_value (c : Dev nD) (p : Fin 512) (q : Fin 3072) :
    ((dat2 (F := Ideal) V c).arrAt 4 cfg2.N : S512x3072.Idx → EReal) (ix2 p q)
      = Cert.Spec.relu (Cert.Spec.lin (fun p k => (V c main_v18 : S512x8192.Idx → EReal) (ix2 p k))
        (Cert.Spec.masked (fun q k => (V c main_v19 : S3072x8192.Idx → EReal) (ix2 q k))
          (fun k q => (V c main_v20 : S8192x3072.Idx → EReal) (ix2 k q)))
        (fun q => (V c main_v22 : S1x3072.Idx → EReal) (ix2 0 q)) p q) := by
  rw [final2 V c]
  rfl

end Cert.KernelIdeal.Hand

end
-- ==== Proof.Reg3BlkKI.lean ====
import proofs.«174655_j53695681135127_1_alg».proof.Proof.Reg3KI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

abbrev xarr3 (c : Dev nD) : Vec F S512x3072 .f32 := V c main_v25

abbrev warr3 (c : Dev nD) : Vec F S3072x3072 .f32 := V c main_v26

abbrev aarr3 (c : Dev nD) : Vec F S3072x3072 .f32 := V c main_v27

abbrev barr3 (c : Dev nD) : Vec F S1x3072 .f32 := V c main_v29

abbrev xblk3 (c : Dev nD) (t : Fin cfg3.N) : Vec F S512x1024 .f32 := iblk3 V c 0 t

abbrev wblk3 (c : Dev nD) (t : Fin cfg3.N) : Vec F S1024x1024 .f32 := iblk3 V c 1 t

abbrev ablk3 (c : Dev nD) (t : Fin cfg3.N) : Vec F S1024x1024 .f32 := iblk3 V c 2 t

abbrev bblk3 (c : Dev nD) (t : Fin cfg3.N) : Vec F S1x1024 .f32 := iblk3 V c 3 t

theorem idx_facts3 : ∀ t : Fin cfg3.N,
    win3_0.index t (0 : Fin 2) = 0 ∧ win3_0.index t (1 : Fin 2) = t.val % 3
    ∧ win3_1.index t (0 : Fin 2) = t.val / 3 ∧ win3_1.index t (1 : Fin 2) = t.val % 3
    ∧ win3_2.index t (0 : Fin 2) = t.val % 3 ∧ win3_2.index t (1 : Fin 2) = t.val / 3
    ∧ win3_3.index t (0 : Fin 2) = 0 ∧ win3_3.index t (1 : Fin 2) = t.val / 3
    ∧ win3_4.index t (0 : Fin 2) = 0 ∧ win3_4.index t (1 : Fin 2) = t.val / 3 :=
  (by decide +kernel : ∀ t : Fin grid3.N, _)

theorem xblk3_apply (c : Dev nD) (t : Fin cfg3.N) (p : Fin 512) (kk : Fin 1024) (k : Fin 3072)
    (hk : k.val = t.val % 3 * 1024 + kk.val) :
    xblk3 V c t (ix2 p kk) = xarr3 V c (ix2 p k) := by
  obtain ⟨e0, e1, -⟩ := idx_facts3 t
  unfold xblk3 xarr3 iblk3
  rw [View.read_apply]
  show V c main_v25 _ = V c main_v25 _
  congr 1
  funext a
  apply Fin.ext
  match a with
  | ⟨0, _⟩ => show win3_0.index t 0 * 512 + 1 * p.val = p.val; rw [e0]; omega
  | ⟨1, _⟩ => show win3_0.index t 1 * 1024 + 1 * kk.val = k.val; rw [e1, hk]; omega

theorem wblk3_apply (c : Dev nD) (t : Fin cfg3.N) (j : Fin 1024) (kk : Fin 1024) (q : Fin 3072) (k : Fin 3072)
    (hq : q.val = t.val / 3 * 1024 + j.val) (hk : k.val = t.val % 3 * 1024 + kk.val) :
    wblk3 V c t (ix2 j kk) = warr3 V c (ix2 q k) := by
  obtain ⟨-, -, e0, e1, -⟩ := idx_facts3 t
  unfold wblk3 warr3 iblk3
  rw [View.read_apply]
  show V c main_v26 _ = V c main_v26 _
  congr 1
  funext a
  apply Fin.ext
  match a with
  | ⟨0, _⟩ => show win3_1.index t 0 * 1024 + 1 * j.val = q.val; rw [e0, hq]; omega
  | ⟨1, _⟩ => show win3_1.index t 1 * 1024 + 1 * kk.val = k.val; rw [e1, hk]; omega

theorem ablk3_apply (c : Dev nD) (t : Fin cfg3.N) (kk : Fin 1024) (j : Fin 1024) (k : Fin 3072) (q : Fin 3072)
    (hk : k.val = t.val % 3 * 1024 + kk.val) (hq : q.val = t.val / 3 * 1024 + j.val) :
    ablk3 V c t (ix2 kk j) = aarr3 V c (ix2 k q) := by
  obtain ⟨-, -, -, -, e0, e1, -⟩ := idx_facts3 t
  unfold ablk3 aarr3 iblk3
  rw [View.read_apply]
  show V c main_v27 _ = V c main_v27 _
  congr 1
  funext a
  apply Fin.ext
  match a with
  | ⟨0, _⟩ => show win3_2.index t 0 * 1024 + 1 * kk.val = k.val; rw [e0, hk]; omega
  | ⟨1, _⟩ => show win3_2.index t 1 * 1024 + 1 * j.val = q.val; rw [e1, hq]; omega

theorem bblk3_apply (c : Dev nD) (t : Fin cfg3.N) (j : Fin 1024) (q : Fin 3072)
    (hq : q.val = t.val / 3 * 1024 + j.val) :
    bblk3 V c t (ix2 0 j) = barr3 V c (ix2 0 q) := by
  obtain ⟨-, -, -, -, -, -, e0, e1, -⟩ := idx_facts3 t
  unfold bblk3 barr3 iblk3
  rw [View.read_apply]
  show V c main_v29 _ = V c main_v29 _
  congr 1
  funext a
  apply Fin.ext
  match a with
  | ⟨0, _⟩ => show win3_3.index t 0 * 1 + 1 * 0 = 0; rw [e0]
  | ⟨1, _⟩ => show win3_3.index t 1 * 1024 + 1 * j.val = q.val; rw [e1, hq]; omega

end Cert.KernelIdeal.Hand

end
-- ==== Proof.Reg3PieceKI.lean ====
import proofs.«174655_j53695681135127_1_alg».proof.Proof.Reg3KI

set_option maxRecDepth 16384

noncomputable section

namespace Cert.KernelIdeal.Hand

open Cert.KernelIdeal Cert.KernelIdeal.Gen Idealize.ShloMosaic

variable {F : FTy → Type} [FloatOps F]

variable (c : Dev nD) (i : grid3.Coords) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)

theorem sout3_B_eq (hc0 : ¬cond3_0 i) (hc1 : ¬cond3_1 i) (x0 : Vec F S512x1024 .f32) (x1 : Vec F S1024x1024 .f32) (x2 : Vec F S1024x1024 .f32) (x3 : Vec F S1x1024 .f32) (xs0 : Vec F S512x1024 .f32) :
    sout3_B c i arg2 harg2 arg3 harg3 arg4 harg4 arg5 harg5 arg6 harg6 arg7 harg7 hc0 hc1 x0 x1 x2 x3 xs0 = k3_pay2 x1 x2 x0 xs0 :=
  maskedAcc_B c _ _ arg2 harg2 arg3 harg3 arg4 harg4 arg5 harg5 arg6 harg6 arg7 harg7 x0 x1 x2 x3 xs0 VS3 hc0 hc1

theorem sout3_A_eq (hc0 : cond3_0 i) (hc1 : ¬cond3_1 i) (x0 : Vec F S512x1024 .f32) (x1 : Vec F S1024x1024 .f32) (x2 : Vec F S1024x1024 .f32) (x3 : Vec F S1x1024 .f32) :
    sout3_A c i arg2 harg2 arg3 harg3 arg4 harg4 arg5 harg5 arg6 harg6 arg7 harg7 hc0 hc1 x0 x1 x2 x3 = k3_pay2 x1 x2 x0 (k3_pay1 (F := F)) :=
  maskedAcc_A c _ _ arg2 harg2 arg3 harg3 arg4 harg4 arg5 harg5 arg6 harg6 arg7 harg7 x0 x1 x2 x3 VS3 hc0 hc1

theorem sout3_C_eq (hc0 : ¬cond3_0 i) (hc1 : cond3_1 i) (x0 : Vec F S512x1024 .f32) (x1 : Vec F S1024x1024 .f32) (x2 : Vec F S1024x1024 .f32) (x3 : Vec F S1x1024 .f32) (xs0 : Vec F S512x1024 .f32) :
    sout3_C c i arg2 harg2 arg3 harg3 arg4 harg4 arg5 harg5 arg6 harg6 arg7 harg7 hc0 hc1 x0 x1 x2 x3 xs0 = k3_pay2 x1 x2 x0 xs0 :=
  maskedAcc_C c _ _ arg2 harg2 arg3 harg3 arg4 harg4 arg5 harg5 arg6 harg6 arg7 harg7 x0 x1 x2 x3 xs0 VS3 hc0 hc1

theorem out3_C_eq (hc0 : ¬cond3_0 i) (hc1 : cond3_1 i) (x0 : Vec F S512x1024 .f32) (x1 : Vec F S1024x1024 .f32) (x2 : Vec F S1024x1024 .f32) (x3 : Vec F S1x1024 .f32) (xs0 : Vec F S512x1024 .f32) :
    out3_C c i arg2 harg2 arg3 harg3 arg4 harg4 arg5 harg5 arg6 harg6 arg7 harg7 hc0 hc1 x0 x1 x2 x3 xs0 = k3_pay3 (k3_pay2 x1 x2 x0 xs0) x3 :=
  maskedOut_C c _ _ arg2 harg2 arg3 harg3 arg4 harg4 arg5 harg5 arg6 harg6 arg7 harg7 x0 x1 x2 x3 xs0 VO3 hc0 hc1

end Cert.KernelIdeal.Hand

end
-- ==== Proof.Reg3PayKI.lean ====
import proofs.«174655_j53695681135127_1_alg».proof.Proof.Reg0PayKI

namespace Cert.KernelIdeal.Hand

open Cert.KernelIdeal.Gen Idealize.ShloMosaic Idealize.ShloMosaic.ValueIdx

-- Region 3's three stored values are region 0's, definition for definition.
theorem pay31_apply (p : Fin 512) (j : Fin 1024) : (k3_pay1 (F := Ideal) : S512x1024.Idx → EReal) (ix2 p j) = 0 :=
  pay1_apply p j

theorem pay32_apply (v3 v6 : Vec Ideal S1024x1024 .f32) (v10 v13 : Vec Ideal S512x1024 .f32) (p : Fin 512) (j : Fin 1024) :
    (k3_pay2 v3 v6 v10 v13 : S512x1024.Idx → EReal) (ix2 p j)
      = v13 (ix2 p j) + ∑ kk : Fin 1024, v10 (ix2 p kk) * (v3 (ix2 j kk) * v6 (ix2 kk j)) :=
  pay2_apply v3 v6 v10 v13 p j

theorem pay33_apply (v22 : Vec Ideal S512x1024 .f32) (v23 : Vec Ideal S1x1024 .f32) (p : Fin 512) (j : Fin 1024) :
    (k3_pay3 v22 v23 : S512x1024.Idx → EReal) (ix2 p j) = Cert.Spec.relu (v22 (ix2 p j) + v23 (ix2 0 j)) :=
  pay3_apply v22 v23 p j

end Cert.KernelIdeal.Hand
-- ==== Proof.Reg3AccKI.lean ====
import proofs.«174655_j53695681135127_1_alg».proof.Proof.Reg3BlkKI
import proofs.«174655_j53695681135127_1_alg».proof.Proof.Reg3PieceKI
import proofs.«174655_j53695681135127_1_alg».proof.Proof.Reg3PayKI
import proofs.«174655_j53695681135127_1_alg».proof.Proof.LibAccSums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibSums Cert.LibAccSums
open scoped BigOperators

variable (V : (c : Dev nD) → (b : Ref sig .tc) → Buf (Elt Ideal) ((c : Thread nD τ).loc b))

def term3 (c : Dev nD) (nb : ℕ) (p : Fin 512) (j : Fin 1024) (k : ℕ) : EReal :=
  if h : k < 3072 ∧ nb * 1024 + j.val < 3072 then
    (xarr3 V c : S512x3072.Idx → EReal) (ix2 p ⟨k, h.1⟩)
      * ((warr3 V c : S3072x3072.Idx → EReal) (ix2 ⟨nb * 1024 + j.val, h.2⟩ ⟨k, h.1⟩)
        * (aarr3 V c : S3072x3072.Idx → EReal) (ix2 ⟨k, h.1⟩ ⟨nb * 1024 + j.val, h.2⟩))
  else 0

theorem term3_eq (c : Dev nD) (nb : ℕ) (p : Fin 512) (j : Fin 1024) (q : Fin 3072) (hq : q.val = nb * 1024 + j.val)
    (k : Fin 3072) :
    term3 V c nb p j k.val = (xarr3 V c : S512x3072.Idx → EReal) (ix2 p k)
      * ((warr3 V c : S3072x3072.Idx → EReal) (ix2 q k) * (aarr3 V c : S3072x3072.Idx → EReal) (ix2 k q)) := by
  obtain ⟨qv, hqv⟩ := q
  have hq' : qv = nb * 1024 + j.val := hq
  subst hq'
  unfold term3
  rw [dif_pos ⟨k.isLt, hqv⟩]

theorem blocksum3 (c : Dev nD) (t : Fin cfg3.N) (p : Fin 512) (j : Fin 1024) :
    ∑ kk : Fin 1024, (xblk3 V c t : S512x1024.Idx → EReal) (ix2 p kk)
        * ((wblk3 V c t : S1024x1024.Idx → EReal) (ix2 j kk) * (ablk3 V c t : S1024x1024.Idx → EReal) (ix2 kk j))
      = ∑ kk : Fin 1024, term3 V c (t.val / 3) p j (t.val % 3 * 1024 + kk.val) := by
  have hN : t.val < 9 := lt_of_lt_of_eq t.isLt (show cfg3.N = 9 from N_3)
  refine Finset.sum_congr rfl fun kk _ => ?_
  have hkk : kk.val < 1024 := kk.isLt
  have hj : j.val < 1024 := j.isLt
  have hk : t.val % 3 * 1024 + kk.val < 3072 := by omega
  have hq : t.val / 3 * 1024 + j.val < 3072 := by omega
  rw [xblk3_apply V c t p kk ⟨_, hk⟩ rfl, wblk3_apply V c t j kk ⟨_, hq⟩ ⟨_, hk⟩ rfl rfl,
    ablk3_apply V c t kk j ⟨_, hk⟩ ⟨_, hq⟩ rfl rfl]
  exact (term3_eq V c (t.val / 3) p j ⟨_, hq⟩ rfl ⟨_, hk⟩).symm

theorem pay2_step3 (c : Dev nD) (t : Fin cfg3.N) (h0 : ¬t.val % 3 = 0) (p : Fin 512) (j : Fin 1024)
    (acc : Vec Ideal S512x1024 .f32)
    (hacc : (acc : S512x1024.Idx → EReal) (ix2 p j)
      = ∑ k ∈ Finset.range (((t.val - 1) % 3 + 1) * 1024), term3 V c ((t.val - 1) / 3) p j k) :
    (k3_pay2 (wblk3 V c t) (ablk3 V c t) (xblk3 V c t) acc : S512x1024.Idx → EReal) (ix2 p j)
      = ∑ k ∈ Finset.range ((t.val % 3 + 1) * 1024), term3 V c (t.val / 3) p j k := by
  have e1 : (t.val - 1) / 3 = t.val / 3 := by omega
  have e2 : t.val % 3 = (t.val - 1) % 3 + 1 := by omega
  rw [e1] at hacc
  refine (pay32_apply (wblk3 V c t) (ablk3 V c t) (xblk3 V c t) acc p j).trans ?_
  refine (congrArg (fun z => (acc : S512x1024.Idx → EReal) (ix2 p j) + z) (blocksum3 V c t p j)).trans ?_
  exact next_block 1024 (term3 V c (t.val / 3) p j) (t.val % 3) ((t.val - 1) % 3) e2 _ hacc

theorem pay2_first3 (c : Dev nD) (t : Fin cfg3.N) (h0 : t.val % 3 = 0) (p : Fin 512) (j : Fin 1024) :
    (k3_pay2 (wblk3 V c t) (ablk3 V c t) (xblk3 V c t) (k3_pay1 (F := Ideal)) : S512x1024.Idx → EReal) (ix2 p j)
      = ∑ k ∈ Finset.range ((t.val % 3 + 1) * 1024), term3 V c (t.val / 3) p j k := by
  refine (pay32_apply (wblk3 V c t) (ablk3 V c t) (xblk3 V c t) (k3_pay1 (F := Ideal)) p j).trans ?_
  refine (congrArg₂ (fun a z => (a : EReal) + z) (pay31_apply p j) (blocksum3 V c t p j)).trans ?_
  exact first_block 1024 (term3 V c (t.val / 3) p j) (t.val % 3) h0

theorem acc3_eq (c : Dev nD) (p : Fin 512) (j : Fin 1024) : ∀ (n : ℕ) (hn : n < cfg3.N),
    ((outsAt3 V c n hn).2 : S512x1024.Idx → EReal) (ix2 p j)
      = ∑ k ∈ Finset.range ((n % 3 + 1) * 1024), term3 V c (n / 3) p j k := by
  intro n
  induction n with
  | zero =>
    intro hn
    have h0 : (⟨0, hn⟩ : Fin cfg3.N).val % 3 = 0 := rfl
    have h1 : ¬(⟨0, hn⟩ : Fin cfg3.N).val % 3 = 2 := by dsimp only; omega
    rw [outsAt3_A V c ⟨0, hn⟩ h0 h1]
    dsimp only
    refine (congrFun (sout3_A_eq (F := Ideal) c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3 (Memref.isWhole_whole _) ((hcond3_0 ⟨0, hn⟩).mpr h0) (fun h => h1 ((hcond3_1 ⟨0, hn⟩).mp h)) (xblk3 V c ⟨0, hn⟩) (wblk3 V c ⟨0, hn⟩) (ablk3 V c ⟨0, hn⟩) (bblk3 V c ⟨0, hn⟩)) (ix2 p j)).trans ?_
    exact pay2_first3 V c ⟨0, hn⟩ h0 p j
  | succ n ih =>
    intro hn
    have hN : cfg3.N = 9 := N_3
    by_cases h0 : (⟨n + 1, hn⟩ : Fin cfg3.N).val % 3 = 0
    · have h1 : ¬(⟨n + 1, hn⟩ : Fin cfg3.N).val % 3 = 2 := by omega
      rw [outsAt3_A V c ⟨n + 1, hn⟩ h0 h1]
      dsimp only
      refine (congrFun (sout3_A_eq (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) ((hcond3_0 ⟨n + 1, hn⟩).mpr h0) (fun h => h1 ((hcond3_1 ⟨n + 1, hn⟩).mp h)) (xblk3 V c ⟨n + 1, hn⟩) (wblk3 V c ⟨n + 1, hn⟩) (ablk3 V c ⟨n + 1, hn⟩) (bblk3 V c ⟨n + 1, hn⟩)) (ix2 p j)).trans ?_
      exact pay2_first3 V c ⟨n + 1, hn⟩ h0 p j
    · have hprev : ((outsAt3 V c ((⟨n + 1, hn⟩ : Fin cfg3.N).val - 1) (Nat.lt_of_le_of_lt (Nat.sub_le _ _) (⟨n + 1, hn⟩ : Fin cfg3.N).isLt)).2 : S512x1024.Idx → EReal) (ix2 p j)
          = ∑ k ∈ Finset.range ((((⟨n + 1, hn⟩ : Fin cfg3.N).val - 1) % 3 + 1) * 1024), term3 V c (((⟨n + 1, hn⟩ : Fin cfg3.N).val - 1) / 3) p j k :=
        ih (Nat.lt_of_succ_lt hn)
      by_cases h1 : (⟨n + 1, hn⟩ : Fin cfg3.N).val % 3 = 2
      · rw [outsAt3_C V c ⟨n + 1, hn⟩ h0 h1]
        dsimp only
        refine (congrFun (sout3_C_eq (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) ((hcond3_1 ⟨n + 1, hn⟩).mpr h1) (xblk3 V c ⟨n + 1, hn⟩) (wblk3 V c ⟨n + 1, hn⟩) (ablk3 V c ⟨n + 1, hn⟩) (bblk3 V c ⟨n + 1, hn⟩) (outsAt3 V c ((⟨n + 1, hn⟩ : Fin cfg3.N).val - 1) (Nat.lt_of_le_of_lt (Nat.sub_le _ _) (⟨n + 1, hn⟩ : Fin cfg3.N).isLt)).2) (ix2 p j)).trans ?_
        exact pay2_step3 V c ⟨n + 1, hn⟩ h0 p j _ hprev
      · rw [outsAt3_B V c ⟨n + 1, hn⟩ h0 h1]
        dsimp only
        refine (congrFun (sout3_B_eq (F := Ideal) c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3 (Memref.isWhole_whole _) (fun h => h0 ((hcond3_0 ⟨n + 1, hn⟩).mp h)) (fun h => h1 ((hcond3_1 ⟨n + 1, hn⟩).mp h)) (xblk3 V c ⟨n + 1, hn⟩) (wblk3 V c ⟨n + 1, hn⟩) (ablk3 V c ⟨n + 1, hn⟩) (bblk3 V c ⟨n + 1, hn⟩) (outsAt3 V c ((⟨n + 1, hn⟩ : Fin cfg3.N).val - 1) (Nat.lt_of_le_of_lt (Nat.sub_le _ _) (⟨n + 1, hn⟩ : Fin cfg3.N).isLt)).2) (ix2 p j)).trans ?_
        exact pay2_step3 V c ⟨n + 1, hn⟩ h0 p j _ hprev

end Cert.KernelIdeal.Hand

end
-- ==== Proof.Reg3ValKI.lean ====
import proofs.«174655_j53695681135127_1_alg».proof.Proof.Reg3AccKI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibSums Cert.LibAccSums
open scoped BigOperators

variable (V : (c : Dev nD) → (b : Ref sig .tc) → Buf (Elt Ideal) ((c : Thread nD τ).loc b))

def out3 (c : Dev nD) (p : Fin 512) (q : Fin 3072) : EReal :=
  Cert.Spec.relu (Cert.Spec.lin (fun p k => (xarr3 V c : S512x3072.Idx → EReal) (ix2 p k))
    (Cert.Spec.masked (fun q k => (warr3 V c : S3072x3072.Idx → EReal) (ix2 q k))
      (fun k q => (aarr3 V c : S3072x3072.Idx → EReal) (ix2 k q)))
    (fun q => (barr3 V c : S1x3072.Idx → EReal) (ix2 0 q)) p q)

theorem out3_def (c : Dev nD) (p : Fin 512) (q : Fin 3072) :
    out3 V c p q = Cert.Spec.relu ((∑ k : Fin 3072, (xarr3 V c : S512x3072.Idx → EReal) (ix2 p k)
      * ((warr3 V c : S3072x3072.Idx → EReal) (ix2 q k) * (aarr3 V c : S3072x3072.Idx → EReal) (ix2 k q)))
      + (barr3 V c : S1x3072.Idx → EReal) (ix2 0 q)) := rfl

theorem outblk3_eq (c : Dev nD) (t : Fin cfg3.N) (h1 : t.val % 3 = 2) (p : Fin 512) (j : Fin 1024) (q : Fin 3072)
    (hq : q.val = t.val / 3 * 1024 + j.val) :
    ((outsAt3 V c t.val t.isLt).1 : S512x1024.Idx → EReal) (ix2 p j) = out3 V c p q := by
  have h0 : ¬t.val % 3 = 0 := by omega
  have hN : cfg3.N = 9 := N_3
  rw [outsAt3_C V c t h0 h1]
  dsimp only
  refine (congrFun (out3_C_eq (F := Ideal) c (grid3.coords t) (ms3_0 t) (hs3_0 t) (ms3_1 t) (hs3_1 t) (ms3_2 t) (hs3_2 t) (ms3_3 t) (hs3_3 t) (ms3_4 t) (hs3_4 t) scM3 (Memref.isWhole_whole _) (fun h => h0 ((hcond3_0 t).mp h)) ((hcond3_1 t).mpr h1) (xblk3 V c t) (wblk3 V c t) (ablk3 V c t) (bblk3 V c t) (outsAt3 V c (t.val - 1) (Nat.lt_of_le_of_lt (Nat.sub_le _ _) t.isLt)).2) (ix2 p j)).trans ?_
  refine (pay33_apply (k3_pay2 (wblk3 V c t) (ablk3 V c t) (xblk3 V c t) (outsAt3 V c (t.val - 1) (Nat.lt_of_le_of_lt (Nat.sub_le _ _) t.isLt)).2) (bblk3 V c t) p j).trans ?_
  rw [out3_def]
  refine congrArg Cert.Spec.relu (congrArg₂ (fun a b : EReal => a + b) ?_ (bblk3_apply V c t j q hq))
  refine (pay2_step3 V c t h0 p j _ (acc3_eq V c p j (t.val - 1) (Nat.lt_of_le_of_lt (Nat.sub_le _ _) t.isLt))).trans ?_
  rw [h1]
  refine (sum_fin_eq_range 3072 (term3 V c (t.val / 3) p j)).symm.trans ?_
  exact Finset.sum_congr rfl fun k _ => term3_eq V c (t.val / 3) p j q hq k

def G3 (c : Dev nD) : S512x3072.Idx → EReal :=
  fun i => out3 V c ⟨(i 0).val, idx2_lt0 i⟩ ⟨(i 1).val, idx2_lt1 i⟩

theorem read_blk3 (t : Fin cfg3.N) (G : S512x3072.Idx → EReal) (y : ((cfg3.win 4).xblock (grid3.coords t)).Idx) :
    ((cfg3.win 4).blk t).view.read (Elt Ideal) G y = G (((cfg3.win 4).blk t).view.emb y) := rfl

theorem flushed3_eq (c : Dev nD) (t : Fin cfg3.N) (hf : (cfg3.win 4).flush t = true) :
    (dat3 V c).flushed 4 t = ((cfg3.win 4).blk t).view.read (Elt Ideal) (G3 V c) := by
  have h1 : t.val % 3 = 2 := (flush3_4 t).mp hf
  have hN : t.val < 9 := lt_of_lt_of_eq t.isLt (show cfg3.N = 9 from N_3)
  obtain ⟨-, -, -, -, -, -, -, -, e0, e1⟩ := idx_facts3 t
  show (cfg3.win 4).cut (grid3.coords t) ((dat3 V c).after 4 t) = _
  rw [after3_4]
  funext y
  refine Eq.trans ?_ (read_blk3 t (G3 V c) y).symm
  have hy0 : (y 0).val < 512 := (y 0).isLt
  have hy1 : (y 1).val < 1024 := (y 1).isLt
  have hxy : ((cfg3.win 4).xinj (grid3.coords t) y : S512x1024.Idx) = ix2 (⟨(y 0).val, hy0⟩ : Fin 512) (⟨(y 1).val, hy1⟩ : Fin 1024) := by
    funext a; match a with | ⟨0, _⟩ => rfl | ⟨1, _⟩ => rfl
  have hq : t.val / 3 * 1024 + (y 1).val < 3072 := by omega
  refine (congrArg ((outsAt3 V c t.val t.isLt).1 : S512x1024.Idx → EReal) hxy).trans ?_
  refine (outblk3_eq V c t h1 ⟨(y 0).val, hy0⟩ ⟨(y 1).val, hy1⟩ ⟨_, hq⟩ rfl).trans ?_
  unfold G3
  refine congrArg₂ (out3 V c) (Fin.ext ?_) (Fin.ext ?_)
  · show (y 0).val = win3_4.index t 0 * 512 + 1 * (y 0).val
    rw [e0]; omega
  · show t.val / 3 * 1024 + (y 1).val = win3_4.index t 1 * 1024 + 1 * (y 1).val
    rw [e1]; omega

theorem mem_blk3 (t : Fin cfg3.N) (i : S512x3072.Idx) :
    i ∈ ((cfg3.win 4).blk t).view.set ↔ ∀ a : Fin 2, win3_4.index t a * S512x1024.size a ≤ (i a).val ∧ (i a).val < win3_4.index t a * S512x1024.size a + S512x1024.size a := by
  show i ∈ ((View.whole main_v30).slice (win3_4.rect t)).set ↔ _
  rw [View.set_slice_whole, Rect.mem_set_unit]
  exact Iff.rfl

theorem final3 (c : Dev nD) : (dat3 V c).arrAt 4 cfg3.N = G3 V c :=
  (dat3 V c).arrAt_eq_of_cover 4 (G3 V c) (fun t hf => flushed3_eq V c t hf) fun i => by
    have hi0 : (i 0 : Nat) < 512 := (i 0).isLt
    have hi1 : (i 1 : Nat) < 3072 := (i 1).isLt
    have hlt : (i 1 : Nat) / 1024 * 3 + 2 < cfg3.N := by rw [show cfg3.N = 9 from N_3]; omega
    refine ⟨⟨(i 1 : Nat) / 1024 * 3 + 2, hlt⟩, (flush3_4 _).mpr (by dsimp only; omega), ?_⟩
    obtain ⟨-, -, -, -, -, -, -, -, e0, e1⟩ := idx_facts3 ⟨(i 1 : Nat) / 1024 * 3 + 2, hlt⟩
    rw [mem_blk3]
    intro a
    match a with
    | ⟨0, _⟩ =>
      show win3_4.index _ 0 * 512 ≤ (i 0).val ∧ (i 0).val < win3_4.index _ 0 * 512 + 512
      rw [e0]; omega
    | ⟨1, _⟩ =>
      show win3_4.index _ 1 * 1024 ≤ (i 1).val ∧ (i 1).val < win3_4.index _ 1 * 1024 + 1024
      rw [e1]; dsimp only; omega

theorem region3_value (c : Dev nD) (p : Fin 512) (q : Fin 3072) :
    ((dat3 (F := Ideal) V c).arrAt 4 cfg3.N : S512x3072.Idx → EReal) (ix2 p q)
      = Cert.Spec.relu (Cert.Spec.lin (fun p k => (V c main_v25 : S512x3072.Idx → EReal) (ix2 p k))
        (Cert.Spec.masked (fun q k => (V c main_v26 : S3072x3072.Idx → EReal) (ix2 q k))
          (fun k q => (V c main_v27 : S3072x3072.Idx → EReal) (ix2 k q)))
        (fun q => (V c main_v29 : S1x3072.Idx → EReal) (ix2 0 q)) p q) := by
  rw [final3 V c]
  rfl

end Cert.KernelIdeal.Hand

end
-- ==== Proof.Reg4BlkKI.lean ====
import proofs.«174655_j53695681135127_1_alg».proof.Proof.Reg4KI
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

abbrev xarr4 (c : Dev nD) : Vec F S512x6144 .f32 := V c main_v33

abbrev warr4 (c : Dev nD) : Vec F S1024x6144 .f32 := V c main_v34

abbrev barr4 (c : Dev nD) : Vec F S1x1024 .f32 := V c main_v36

abbrev xblk4 (c : Dev nD) (t : Fin cfg4.N) : Vec F S512x1024 .f32 := iblk4 V c 0 t

abbrev wblk4 (c : Dev nD) (t : Fin cfg4.N) : Vec F S1024x1024 .f32 := iblk4 V c 1 t

abbrev bblk4 (c : Dev nD) (t : Fin cfg4.N) : Vec F S1x1024 .f32 := iblk4 V c 2 t

theorem idx_facts4 : ∀ t : Fin cfg4.N,
    win4_0.index t (0 : Fin 2) = 0 ∧ win4_0.index t (1 : Fin 2) = t.val
    ∧ win4_1.index t (0 : Fin 2) = 0 ∧ win4_1.index t (1 : Fin 2) = t.val
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem xblk4_apply (c : Dev nD) (t : Fin cfg4.N) (p : Fin 512) (kk : Fin 1024) (k : Fin 6144)
    (hk : k.val = t.val * 1024 + kk.val) :
    xblk4 V c t (ix2 p kk) = xarr4 V c (ix2 p k) := by
  obtain ⟨e0, e1, -⟩ := idx_facts4 t
  unfold xblk4 xarr4 iblk4
  rw [View.read_apply]
  show V c main_v33 _ = V c main_v33 _
  congr 1
  funext a
  apply Fin.ext
  match a with
  | ⟨0, _⟩ => show win4_0.index t 0 * 512 + 1 * p.val = p.val; rw [e0]; omega
  | ⟨1, _⟩ => show win4_0.index t 1 * 1024 + 1 * kk.val = k.val; rw [e1, hk]; omega

theorem wblk4_apply (c : Dev nD) (t : Fin cfg4.N) (j : Fin 1024) (kk : Fin 1024) (k : Fin 6144)
    (hk : k.val = t.val * 1024 + kk.val) :
    wblk4 V c t (ix2 j kk) = warr4 V c (ix2 j k) := by
  obtain ⟨-, -, e0, e1, -⟩ := idx_facts4 t
  unfold wblk4 warr4 iblk4
  rw [View.read_apply]
  show V c main_v34 _ = V c main_v34 _
  congr 1
  funext a
  apply Fin.ext
  match a with
  | ⟨0, _⟩ => show win4_1.index t 0 * 1024 + 1 * j.val = j.val; rw [e0]; omega
  | ⟨1, _⟩ => show win4_1.index t 1 * 1024 + 1 * kk.val = k.val; rw [e1, hk]; omega

theorem bblk4_apply (c : Dev nD) (t : Fin cfg4.N) (j : Fin 1024) :
    bblk4 V c t (ix2 0 j) = barr4 V c (ix2 0 j) := by
  obtain ⟨-, -, -, -, e0, e1, -⟩ := idx_facts4 t
  unfold bblk4 barr4 iblk4
  rw [View.read_apply]
  show V c main_v36 _ = V c main_v36 _
  congr 1
  funext a
  apply Fin.ext
  match a with
  | ⟨0, _⟩ => show win4_2.index t 0 * 1 + 1 * 0 = 0; rw [e0]
  | ⟨1, _⟩ => show win4_2.index t 1 * 1024 + 1 * j.val = j.val; rw [e1]; omega

end Cert.KernelIdeal.Hand

end
-- ==== Proof.Reg4PieceKI.lean ====
import proofs.«174655_j53695681135127_1_alg».proof.Proof.Reg4KI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem hz4 : (![0, 0] : Fin 2 → Nat) = fun _ => 0 := funext fun a => by fin_cases a <;> rfl

theorem sout4_B_eq (c : Dev nD) (i : grid4.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : ¬cond4_1 i) (x0 : Vec F S512x1024 .f32) (x1 : Vec F S1024x1024 .f32) (x2 : Vec F S1x1024 .f32) (xs0 : Vec F S512x1024 .f32) :
    sout4_B c i arg2 harg2 arg3 harg3 arg4 harg4 arg5 harg5 arg6 harg6 hc0 hc1 x0 x1 x2 xs0 = k4_pay2 x1 x0 xs0 := by
  unfold sout4_B
  rw [View.read_writes_eq_canon _ _ _ (scover4_B c i arg2 harg2 arg3 harg3 arg4 harg4 arg5 harg5 arg6 harg6 hc0 hc1 x0 x1 x2 xs0)]
  unfold kernelRun4_B
  dsimp only
  sl_unfold_words
  rw [View.canon_unit_zero hz4]
  simp only [View.readAt_eq_ld, harg2.read_unread, harg3.read_unread, harg4.read_unread, harg5.read_unread, harg6.read_unread, View.ld_unit_zero (S := S512x1024) hz4, View.ld_unit_zero (S := S1024x1024) hz4, View.ld_unit_zero (S := S1x1024) hz4]

theorem sout4_A_eq (c : Dev nD) (i : grid4.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond4_0 i) (hc1 : ¬cond4_1 i) (x0 : Vec F S512x1024 .f32) (x1 : Vec F S1024x1024 .f32) (x2 : Vec F S1x1024 .f32) :
    sout4_A c i arg2 harg2 arg3 harg3 arg4 harg4 arg5 harg5 arg6 harg6 hc0 hc1 x0 x1 x2 = k4_pay2 x1 x0 (k4_pay1 (F := F)) := by
  unfold sout4_A
  rw [View.read_writes_eq_canon _ _ _ (scover4_A c i arg2 harg2 arg3 harg3 arg4 harg4 arg5 harg5 arg6 harg6 hc0 hc1 x0 x1 x2)]
  unfold kernelRun4_A
  dsimp only
  sl_unfold_words
  rw [View.canon_cons_unit_zero (S := S512x1024) hz4, View.readCov_unit_zero (S := S512x1024) _ hz4]
  simp only [View.readAt_eq_ld, harg2.read_unread, harg3.read_unread, harg4.read_unread, harg5.read_unread, harg6.read_unread, View.ld_unit_zero (S := S512x1024) hz4, View.ld_unit_zero (S := S1024x1024) hz4, View.ld_unit_zero (S := S1x1024) hz4]

theorem sout4_C_eq (c : Dev nD) (i : grid4.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i) (x0 : Vec F S512x1024 .f32) (x1 : Vec F S1024x1024 .f32) (x2 : Vec F S1x1024 .f32) (xs0 : Vec F S512x1024 .f32) :
    sout4_C c i arg2 harg2 arg3 harg3 arg4 harg4 arg5 harg5 arg6 harg6 hc0 hc1 x0 x1 x2 xs0 = k4_pay2 x1 x0 xs0 := by
  unfold sout4_C
  rw [View.read_writes_eq_canon _ _ _ (scover4_C c i arg2 harg2 arg3 harg3 arg4 harg4 arg5 harg5 arg6 harg6 hc0 hc1 x0 x1 x2 xs0)]
  unfold kernelRun4_C
  dsimp only
  sl_unfold_words
  rw [View.canon_unit_zero hz4]
  simp only [View.readAt_eq_ld, harg2.read_unread, harg3.read_unread, harg4.read_unread, harg5.read_unread, harg6.read_unread, View.ld_unit_zero (S := S512x1024) hz4, View.ld_unit_zero (S := S1024x1024) hz4, View.ld_unit_zero (S := S1x1024) hz4]

theorem out4_C_eq (c : Dev nD) (i : grid4.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond4_0 i) (hc1 : cond4_1 i) (x0 : Vec F S512x1024 .f32) (x1 : Vec F S1024x1024 .f32) (x2 : Vec F S1x1024 .f32) (xs0 : Vec F S512x1024 .f32) :
    out4_C c i arg2 harg2 arg3 harg3 arg4 harg4 arg5 harg5 arg6 harg6 hc0 hc1 x0 x1 x2 xs0 = k4_pay3 (k4_pay2 x1 x0 xs0) x2 := by
  unfold out4_C
  rw [View.read_writes_eq_canon _ _ _ (cover4_C c i arg2 harg2 arg3 harg3 arg4 harg4 arg5 harg5 arg6 harg6 hc0 hc1 x0 x1 x2 xs0)]
  unfold kernelRun4_C
  dsimp only
  sl_unfold_words
  rw [View.canon_unit_zero hz4]
  simp only [View.readCov_unit_zero (S := S512x1024) _ hz4, View.readAt_eq_ld, harg2.read_unread, harg3.read_unread, harg4.read_unread, harg5.read_unread, harg6.read_unread, View.ld_unit_zero (S := S512x1024) hz4, View.ld_unit_zero (S := S1024x1024) hz4, View.ld_unit_zero (S := S1x1024) hz4]

end Cert.KernelIdeal.Hand

end
-- ==== Proof.Reg4PayKI.lean ====
import proofs.«174655_j53695681135127_1_alg».proof.Proof.Reg0PayKI

namespace Cert.KernelIdeal.Hand

open Cert.KernelIdeal.Gen Idealize.ShloMosaic Idealize.ShloMosaic.ValueIdx

-- Region 4 resets and stores as region 0 does; only the update differs: its weights carry no mask.
theorem pay41_apply (p : Fin 512) (j : Fin 1024) : (k4_pay1 (F := Ideal) : S512x1024.Idx → EReal) (ix2 p j) = 0 :=
  pay1_apply p j

theorem pay42_apply (v3 : Vec Ideal S1024x1024 .f32) (v7 v10 : Vec Ideal S512x1024 .f32) (p : Fin 512) (j : Fin 1024) :
    (k4_pay2 v3 v7 v10 : S512x1024.Idx → EReal) (ix2 p j)
      = v10 (ix2 p j) + ∑ kk : Fin 1024, v7 (ix2 p kk) * v3 (ix2 j kk) := by
  unfold k4_pay2
  try dsimp only
  refine (congrFun (shapeCast_self _ _) (ix2 p j)).trans ?_
  refine congrArg (fun z : EReal => v10 (ix2 p j) + z) ?_
  refine (matmul0_apply _ _ p j).trans ?_
  refine Finset.sum_congr rfl fun kk _ => ?_
  refine congrArg₂ (fun a b : EReal => a * b) ?_ ?_
  · exact congrFun (shapeCast_self v7 _) (ix2 p kk)
  · refine (truncf_apply (φ := .f32) (ψ := .bf16) _ _ (ix2 kk j)).trans ?_
    refine (transpose_ix2_apply _ _ kk j).trans ?_
    exact congrFun (shapeCast_self v3 _) (ix2 j kk)

theorem pay43_apply (v19 : Vec Ideal S512x1024 .f32) (v20 : Vec Ideal S1x1024 .f32) (p : Fin 512) (j : Fin 1024) :
    (k4_pay3 v19 v20 : S512x1024.Idx → EReal) (ix2 p j) = Cert.Spec.relu (v19 (ix2 p j) + v20 (ix2 0 j)) :=
  pay3_apply v19 v20 p j

end Cert.KernelIdeal.Hand
-- ==== Proof.Reg4AccKI.lean ====
import proofs.«174655_j53695681135127_1_alg».proof.Proof.Reg4BlkKI
import proofs.«174655_j53695681135127_1_alg».proof.Proof.Reg4PieceKI
import proofs.«174655_j53695681135127_1_alg».proof.Proof.Reg4PayKI
import proofs.«174655_j53695681135127_1_alg».proof.Proof.LibAccSums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibSums Cert.LibAccSums
open scoped BigOperators

variable (V : (c : Dev nD) → (b : Ref sig .tc) → Buf (Elt Ideal) ((c : Thread nD τ).loc b))

def term4 (c : Dev nD) (p : Fin 512) (j : Fin 1024) (k : ℕ) : EReal :=
  if h : k < 6144 then
    (xarr4 V c : S512x6144.Idx → EReal) (ix2 p ⟨k, h⟩) * (warr4 V c : S1024x6144.Idx → EReal) (ix2 j ⟨k, h⟩)
  else 0

theorem term4_eq (c : Dev nD) (p : Fin 512) (j : Fin 1024) (k : Fin 6144) :
    term4 V c p j k.val = (xarr4 V c : S512x6144.Idx → EReal) (ix2 p k) * (warr4 V c : S1024x6144.Idx → EReal) (ix2 j k) := by
  unfold term4
  rw [dif_pos k.isLt]

theorem blocksum4 (c : Dev nD) (t : Fin cfg4.N) (p : Fin 512) (j : Fin 1024) :
    ∑ kk : Fin 1024, (xblk4 V c t : S512x1024.Idx → EReal) (ix2 p kk) * (wblk4 V c t : S1024x1024.Idx → EReal) (ix2 j kk)
      = ∑ kk : Fin 1024, term4 V c p j (t.val * 1024 + kk.val) := by
  have hN : t.val < 6 := lt_of_lt_of_eq t.isLt (show cfg4.N = 6 from N_4)
  refine Finset.sum_congr rfl fun kk _ => ?_
  have hkk : kk.val < 1024 := kk.isLt
  have hk : t.val * 1024 + kk.val < 6144 := by omega
  rw [xblk4_apply V c t p kk ⟨_, hk⟩ rfl, wblk4_apply V c t j kk ⟨_, hk⟩ rfl]
  exact (term4_eq V c p j ⟨_, hk⟩).symm

theorem pay42_step4 (c : Dev nD) (t : Fin cfg4.N) (h0 : ¬t.val % 6 = 0) (p : Fin 512) (j : Fin 1024)
    (acc : Vec Ideal S512x1024 .f32)
    (hacc : (acc : S512x1024.Idx → EReal) (ix2 p j)
      = ∑ k ∈ Finset.range (((t.val - 1) + 1) * 1024), term4 V c p j k) :
    (k4_pay2 (wblk4 V c t) (xblk4 V c t) acc : S512x1024.Idx → EReal) (ix2 p j)
      = ∑ k ∈ Finset.range ((t.val + 1) * 1024), term4 V c p j k := by
  have e2 : t.val = (t.val - 1) + 1 := by omega
  refine (pay42_apply (wblk4 V c t) (xblk4 V c t) acc p j).trans ?_
  refine (congrArg (fun z => (acc : S512x1024.Idx → EReal) (ix2 p j) + z) (blocksum4 V c t p j)).trans ?_
  exact next_block 1024 (term4 V c p j) t.val (t.val - 1) e2 _ hacc

theorem pay42_first4 (c : Dev nD) (t : Fin cfg4.N) (h0 : t.val = 0) (p : Fin 512) (j : Fin 1024) :
    (k4_pay2 (wblk4 V c t) (xblk4 V c t) (k4_pay1 (F := Ideal)) : S512x1024.Idx → EReal) (ix2 p j)
      = ∑ k ∈ Finset.range ((t.val + 1) * 1024), term4 V c p j k := by
  refine (pay42_apply (wblk4 V c t) (xblk4 V c t) (k4_pay1 (F := Ideal)) p j).trans ?_
  refine (congrArg₂ (fun a z => (a : EReal) + z) (pay41_apply p j) (blocksum4 V c t p j)).trans ?_
  exact first_block 1024 (term4 V c p j) t.val h0

theorem acc4_eq (c : Dev nD) (p : Fin 512) (j : Fin 1024) : ∀ (n : ℕ) (hn : n < cfg4.N),
    ((outsAt4 V c n hn).2 : S512x1024.Idx → EReal) (ix2 p j)
      = ∑ k ∈ Finset.range ((n + 1) * 1024), term4 V c p j k := by
  intro n
  induction n with
  | zero =>
    intro hn
    have h0 : (⟨0, hn⟩ : Fin cfg4.N).val % 6 = 0 := rfl
    have h1 : ¬(⟨0, hn⟩ : Fin cfg4.N).val % 6 = 5 := by dsimp only; omega
    rw [outsAt4_A V c ⟨0, hn⟩ h0 h1]
    dsimp only
    refine (congrFun (sout4_A_eq (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4 (Memref.isWhole_whole _) ((hcond4_0 ⟨0, hn⟩).mpr h0) (fun h => h1 ((hcond4_1 ⟨0, hn⟩).mp h)) (xblk4 V c ⟨0, hn⟩) (wblk4 V c ⟨0, hn⟩) (bblk4 V c ⟨0, hn⟩)) (ix2 p j)).trans ?_
    exact pay42_first4 V c ⟨0, hn⟩ rfl p j
  | succ n ih =>
    intro hn
    have hN : cfg4.N = 6 := N_4
    have h0 : ¬(⟨n + 1, hn⟩ : Fin cfg4.N).val % 6 = 0 := by dsimp only; omega
    have hprev : ((outsAt4 V c ((⟨n + 1, hn⟩ : Fin cfg4.N).val - 1) (Nat.lt_of_le_of_lt (Nat.sub_le _ _) (⟨n + 1, hn⟩ : Fin cfg4.N).isLt)).2 : S512x1024.Idx → EReal) (ix2 p j)
        = ∑ k ∈ Finset.range ((((⟨n + 1, hn⟩ : Fin cfg4.N).val - 1) + 1) * 1024), term4 V c p j k :=
      ih (Nat.lt_of_succ_lt hn)
    by_cases h1 : (⟨n + 1, hn⟩ : Fin cfg4.N).val % 6 = 5
    · rw [outsAt4_C V c ⟨n + 1, hn⟩ h0 h1]
      dsimp only
      refine (congrFun (sout4_C_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (xblk4 V c ⟨n + 1, hn⟩) (wblk4 V c ⟨n + 1, hn⟩) (bblk4 V c ⟨n + 1, hn⟩) (outsAt4 V c ((⟨n + 1, hn⟩ : Fin cfg4.N).val - 1) (Nat.lt_of_le_of_lt (Nat.sub_le _ _) (⟨n + 1, hn⟩ : Fin cfg4.N).isLt)).2) (ix2 p j)).trans ?_
      exact pay42_step4 V c ⟨n + 1, hn⟩ h0 p j _ hprev
    · rw [outsAt4_B V c ⟨n + 1, hn⟩ h0 h1]
      dsimp only
      refine (congrFun (sout4_B_eq (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) (fun h => h1 ((hcond4_1 ⟨n + 1, hn⟩).mp h)) (xblk4 V c ⟨n + 1, hn⟩) (wblk4 V c ⟨n + 1, hn⟩) (bblk4 V c ⟨n + 1, hn⟩) (outsAt4 V c ((⟨n + 1, hn⟩ : Fin cfg4.N).val - 1) (Nat.lt_of_le_of_lt (Nat.sub_le _ _) (⟨n + 1, hn⟩ : Fin cfg4.N).isLt)).2) (ix2 p j)).trans ?_
      exact pay42_step4 V c ⟨n + 1, hn⟩ h0 p j _ hprev

end Cert.KernelIdeal.Hand

end
-- ==== Proof.Reg4ValKI.lean ====
import proofs.«174655_j53695681135127_1_alg».proof.Proof.Reg4AccKI

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibSums Cert.LibAccSums
open scoped BigOperators

variable (V : (c : Dev nD) → (b : Ref sig .tc) → Buf (Elt Ideal) ((c : Thread nD τ).loc b))

def lin4 (c : Dev nD) (p : Fin 512) (q : Fin 1024) : EReal :=
  Cert.Spec.relu (Cert.Spec.lin (fun p k => (xarr4 V c : S512x6144.Idx → EReal) (ix2 p k))
    (fun q k => (warr4 V c : S1024x6144.Idx → EReal) (ix2 q k)) (fun q => (barr4 V c : S1x1024.Idx → EReal) (ix2 0 q)) p q)

def G4 (c : Dev nD) : Vec Ideal S512x1024 .f32 :=
  fun i => lin4 V c ⟨(i 0).val, idx2_lt0 i⟩ ⟨(i 1).val, idx2_lt1 i⟩

theorem G4_apply (c : Dev nD) (p : Fin 512) (q : Fin 1024) : G4 V c (ix2 p q) = lin4 V c p q := rfl

theorem out4_last (c : Dev nD) (t : Fin cfg4.N) (h1 : t.val % 6 = 5) (p : Fin 512) (q : Fin 1024) :
    ((outsAt4 V c t.val t.isLt).1 : S512x1024.Idx → EReal) (ix2 p q) = lin4 V c p q := by
  have hN : cfg4.N = 6 := N_4
  have hv : t.val = 5 := by have := t.isLt; omega
  have h0 : ¬t.val % 6 = 0 := by omega
  rw [outsAt4_C V c t h0 h1]
  dsimp only
  refine (congrFun (out4_C_eq (F := Ideal) c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (xblk4 V c t) (wblk4 V c t) (bblk4 V c t) (outsAt4 V c (t.val - 1) (Nat.lt_of_le_of_lt (Nat.sub_le _ _) t.isLt)).2) (ix2 p q)).trans ?_
  refine (pay43_apply (k4_pay2 (wblk4 V c t) (xblk4 V c t) (outsAt4 V c (t.val - 1) (Nat.lt_of_le_of_lt (Nat.sub_le _ _) t.isLt)).2) (bblk4 V c t) p q).trans ?_
  show _ = Cert.Spec.relu ((∑ k : Fin 6144, (xarr4 V c : S512x6144.Idx → EReal) (ix2 p k) * (warr4 V c : S1024x6144.Idx → EReal) (ix2 q k))
    + (barr4 V c : S1x1024.Idx → EReal) (ix2 0 q))
  refine congrArg Cert.Spec.relu ?_
  refine congrArg₂ (fun a b : EReal => a + b) ?_ (bblk4_apply V c t q)
  refine (pay42_step4 V c t h0 p q (outsAt4 V c (t.val - 1) (Nat.lt_of_le_of_lt (Nat.sub_le _ _) t.isLt)).2 (acc4_eq V c p q (t.val - 1) (Nat.lt_of_le_of_lt (Nat.sub_le _ _) t.isLt))).trans ?_
  rw [show (t.val + 1) * 1024 = 6144 by omega, ← sum_fin_eq_range 6144 (term4 V c p q)]
  exact Finset.sum_congr rfl fun k _ => term4_eq V c p q k

theorem flushed_eq4 (c : Dev nD) (t : Fin cfg4.N) (hf : (cfg4.win 3).flush t = true) :
    (dat4 V c).flushed 3 t = ((cfg4.win 3).blk t).view.read (Elt Ideal) (G4 V c) := by
  have hN : cfg4.N = 6 := N_4
  have h5 : t.val % 6 = 5 := (flush4_3 t).mp hf
  have e : (outsAt4 V c t.val t.isLt).1 = G4 V c := funext fun i => by
    obtain ⟨p, q, rfl⟩ : ∃ (p : Fin 512) (q : Fin 1024), i = ix2 p q := ⟨i 0, i 1, eq_ix2 i⟩
    exact (out4_last V c t h5 p q).trans (G4_apply V c p q).symm
  obtain ⟨-, -, -, -, -, -, e0, e1⟩ := idx_facts4 t
  show (cfg4.win 3).cut (grid4.coords t) ((dat4 V c).after 3 t) = _
  rw [after4_3, e]
  have hz' : (fun a => win4_3.index t a * main_v37.ty.shape.size a) = fun _ => 0 := funext fun a => by
    match a with
    | ⟨0, _⟩ => show win4_3.index t 0 * _ = 0; rw [e0]; exact Nat.zero_mul _
    | ⟨1, _⟩ => show win4_3.index t 1 * _ = 0; rw [e1]; exact Nat.zero_mul _
  exact (Memref.read_access_unit_zero (Elt Ideal) main_v37 hz' (fun a => by rw [congrFun hz' a]; simp) (G4 V c)).symm

theorem final4 (c : Dev nD) : (dat4 V c).arrAt 3 cfg4.N = G4 V c :=
  (dat4 V c).arrAt_eq_of_cover 3 (G4 V c) (flushed_eq4 V c) fun i =>
    ⟨t4_5, (flush4_3 t4_5).mpr rfl, by
      show i ∈ ((View.whole main_v37).slice (win4_3.rect t4_5)).set
      rw [View.set_slice_whole, Rect.mem_set_unit]
      intro a
      have h0 : (i 0 : Nat) < 512 := (i 0).isLt
      have h1 : (i 1 : Nat) < 1024 := (i 1).isLt
      match a with
      | ⟨0, _⟩ => show win4_3.index t4_5 0 * win4_3.size 0 ≤ (i 0 : Nat) ∧ (i 0 : Nat) < win4_3.index t4_5 0 * win4_3.size 0 + win4_3.xsize (grid4.coords t4_5) 0
                  rw [show win4_3.index t4_5 0 * win4_3.size 0 = 0 from by decide +kernel, show win4_3.xsize (grid4.coords t4_5) 0 = 512 from by decide +kernel]; omega
      | ⟨1, _⟩ => show win4_3.index t4_5 1 * win4_3.size 1 ≤ (i 1 : Nat) ∧ (i 1 : Nat) < win4_3.index t4_5 1 * win4_3.size 1 + win4_3.xsize (grid4.coords t4_5) 1
                  rw [show win4_3.index t4_5 1 * win4_3.size 1 = 0 from by decide +kernel, show win4_3.xsize (grid4.coords t4_5) 1 = 1024 from by decide +kernel]; omega⟩

theorem region4_value (c : Dev nD) (p : Fin 512) (q : Fin 1024) :
    ((dat4 (F := Ideal) V c).arrAt 3 cfg4.N : S512x1024.Idx → EReal) (ix2 p q)
      = Cert.Spec.relu (Cert.Spec.lin (fun p k => (V c main_v33 : S512x6144.Idx → EReal) (ix2 p k))
          (fun q k => (V c main_v34 : S1024x6144.Idx → EReal) (ix2 q k)) (fun q => (V c main_v36 : S1x1024.Idx → EReal) (ix2 0 q)) p q) :=
  (congrFun (final4 V c) (ix2 p q)).trans (G4_apply V c p q)

end Cert.KernelIdeal.Hand

end
-- ==== Proof.Reg5PieceKI.lean ====
import proofs.«174655_j53695681135127_1_alg».proof.Proof.Reg5KI
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

theorem hz5 : (![0, 0] : Fin 2 → Nat) = fun _ => 0 := funext fun a => by fin_cases a <;> rfl

theorem sout5_D_eq (c : Dev nD) (i : grid5.Coords) (arg2 : Memref sig .tc .vmem S512x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : cond5_0 i) (hc1 : cond5_1 i) (x0 : Vec F S512x1024 .f32) (x1 : Vec F S256x1024 .f32) (x2 : Vec F S1x256 .f32) :
    sout5_D c i arg2 harg2 arg3 harg3 arg4 harg4 arg5 harg5 arg6 harg6 hc0 hc1 x0 x1 x2 = k5_pay2 x1 x0 (k5_pay1 (F := F)) := by
  unfold sout5_D
  rw [View.read_writes_eq_canon _ _ _ (scover5_D c i arg2 harg2 arg3 harg3 arg4 harg4 arg5 harg5 arg6 harg6 hc0 hc1 x0 x1 x2)]
  unfold kernelRun5_D
  dsimp only
  sl_unfold_words
  rw [View.canon_cons_unit_zero (S := S512x256) hz5]
  simp only [View.readAt_eq_ld, harg2.read_unread, harg3.read_unread, View.ld_unit_zero (S := S512x1024) hz5,
    View.ld_unit_zero (S := S256x1024) hz5, View.readCov_cons_toLoadRect]

theorem out5_D_eq (c : Dev nD) (i : grid5.Coords) (arg2 : Memref sig .tc .vmem S512x1024 .f32) (harg2 : arg2.IsWhole) (arg3 : Memref sig .tc .vmem S256x1024 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .f32) (harg6 : arg6.IsWhole) (hc0 : cond5_0 i) (hc1 : cond5_1 i) (x0 : Vec F S512x1024 .f32) (x1 : Vec F S256x1024 .f32) (x2 : Vec F S1x256 .f32) :
    out5_D c i arg2 harg2 arg3 harg3 arg4 harg4 arg5 harg5 arg6 harg6 hc0 hc1 x0 x1 x2 = k5_pay3 (k5_pay2 x1 x0 (k5_pay1 (F := F))) x2 := by
  unfold out5_D
  rw [View.read_writes_eq_canon _ _ _ (cover5_D c i arg2 harg2 arg3 harg3 arg4 harg4 arg5 harg5 arg6 harg6 hc0 hc1 x0 x1 x2)]
  unfold kernelRun5_D
  dsimp only
  sl_unfold_words
  rw [View.canon_unit_zero (S := S512x256) hz5]
  simp only [View.readAt_eq_ld, harg2.read_unread, harg3.read_unread, harg4.read_unread, View.ld_unit_zero (S := S512x1024) hz5,
    View.ld_unit_zero (S := S256x1024) hz5, View.ld_unit_zero (S := S1x256) hz5, View.readCov_cons_toLoadRect]

end Cert.KernelIdeal.Hand

end
-- ==== Proof.Reg5PayKI.lean ====
import proofs.«174655_j53695681135127_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

theorem lhs5_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl

theorem lhs5_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q

theorem rhs5_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q

theorem rhs5_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

theorem matmul5_apply (lhs : FVec Ideal S512x1024 .bf16) (rhs : FVec Ideal S1024x256 .bf16) (p : Fin 512) (q : Fin 256) :
    matmul dot_S512x1024_S1024x256_S512x256_1_0_0_1_n_n none lhs rhs (constant (F := Ideal) S512x256 .f32 0x00000000#32) (ix2 p q)
      = ∑ k : Fin 1024, lhs (ix2 p k) * rhs (ix2 k q) := by
  show FloatOps.matmul dot_S512x1024_S1024x256_S512x256_1_0_0_1_n_n none lhs rhs (constant (F := Ideal) S512x256 .f32 0x00000000#32) (ix2 p q) = _
  rw [Ideal.matmul_constant_zero_apply, ← Equiv.sum_comp (ValueIdx.contrEquiv1 dot_S512x1024_S1024x256_S512x256_1_0_0_1_n_n 1024 rfl rfl).symm]
  refine Finset.sum_congr rfl fun k _ => ?_
  have hk := ValueIdx.contrEquiv1_symm_val dot_S512x1024_S1024x256_S512x256_1_0_0_1_n_n 1024 rfl rfl k
  have el : dot_S512x1024_S1024x256_S512x256_1_0_0_1_n_n.lhsIdx (ix2 p q) ((ValueIdx.contrEquiv1 dot_S512x1024_S1024x256_S512x256_1_0_0_1_n_n 1024 rfl rfl).symm k) = ix2 p k := funext fun a => Fin.ext (by
    match a with
    | ⟨0, _⟩ => exact lhs5_0 _ _
    | ⟨1, _⟩ => exact (lhs5_1 _ _).trans hk)
  have er : dot_S512x1024_S1024x256_S512x256_1_0_0_1_n_n.rhsIdx (ix2 p q) ((ValueIdx.contrEquiv1 dot_S512x1024_S1024x256_S512x256_1_0_0_1_n_n 1024 rfl rfl).symm k) = ix2 k q := funext fun a => Fin.ext (by
    match a with
    | ⟨0, _⟩ => exact (rhs5_0 _ _).trans hk
    | ⟨1, _⟩ => exact rhs5_1 _ _)
  rw [el, er]

theorem k5_pay1_apply (p : Fin 512) (q : Fin 256) : (k5_pay1 (F := Ideal)) (ix2 p q) = 0 := by
  unfold k5_pay1
  refine (congrFun (shapeCast_self _ _) (ix2 p q)).trans ?_
  exact Ideal.ofBits_zero_f32

theorem k5_pay2_apply (v3 : Vec Ideal S256x1024 .f32) (v7 : Vec Ideal S512x1024 .f32) (v10 : Vec Ideal S512x256 .f32)
    (p : Fin 512) (q : Fin 256) :
    k5_pay2 v3 v7 v10 (ix2 p q) = v10 (ix2 p q) + ∑ k : Fin 1024, v7 (ix2 p k) * v3 (ix2 q k) := by
  unfold k5_pay2
  refine (congrFun (shapeCast_self _ _) (ix2 p q)).trans ?_
  refine (ValueIdx.addf_apply _ _ _).trans ?_
  refine congrArg (fun z => v10 (ix2 p q) + z) ?_
  refine (matmul5_apply _ _ p q).trans ?_
  refine Finset.sum_congr rfl fun k _ => ?_
  refine congrArg₂ (fun a b : EReal => a * b) ?_ ?_
  · exact congrFun (shapeCast_self v7 _) (ix2 p k)
  · refine (ValueIdx.truncf_apply (φ := .f32) (ψ := .bf16) _ bitsLt_bf16_f32 _).trans ?_
    refine (ValueIdx.transpose_ix2_apply _ _ k q).trans ?_
    exact congrFun (shapeCast_self v3 _) (ix2 q k)

theorem k5_pay3_apply (v19 : Vec Ideal S512x256 .f32) (v20 : Vec Ideal S1x256 .f32) (p : Fin 512) (q : Fin 256) :
    k5_pay3 v19 v20 (ix2 p q) = max (v19 (ix2 p q) + v20 (ix2 (0 : Fin 1) q)) 0 := by
  unfold k5_pay3
  refine (ValueIdx.maximumf_apply _ _ _).trans ?_
  refine congrArg₂ (fun a b : EReal => max a b) ?_ ?_
  · refine (ValueIdx.addf_apply _ _ _).trans ?_
    refine congrArg (fun z => v19 (ix2 p q) + z) ?_
    refine (ValueIdx.broadcastTo_1b_ab_apply _ _ p q).trans ?_
    exact congrFun (shapeCast_self v20 _) (ix2 (0 : Fin 1) q)
  · exact Ideal.ofBits_zero_f32

end Cert.KernelIdeal.Hand

end
-- ==== Proof.Reg5ValKI.lean ====
import proofs.«174655_j53695681135127_1_alg».proof.Proof.Reg5PieceKI
import proofs.«174655_j53695681135127_1_alg».proof.Proof.Reg5PayKI
import proofs.«174655_j53695681135127_1_alg».proof.Proof.LibSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

section Generic

variable {F : FTy → Type} [FloatOps F]
variable (V : (c : Dev nD) → (b : Ref sig .tc) → Buf (Elt F) ((c : Thread nD τ).loc b))

abbrev xarr5 (c : Dev nD) : Vec F S512x1024 .f32 := V c main_v38
abbrev warr5 (c : Dev nD) : Vec F S256x1024 .f32 := V c main_v39
abbrev barr5 (c : Dev nD) : Vec F S1x256 .f32 := V c main_v41

theorem iblk5_0_eq (c : Dev nD) (t : Fin cfg5.N) : (iblk5 V c 0 t : Vec F S512x1024 .f32) = xarr5 V c := by
  obtain rfl : t = t5_0 := fin_N5 t
  unfold iblk5
  have hz' : (fun a => win5_0.index t5_0 a * main_v38.ty.shape.size a) = fun _ => 0 := funext fun a => by fin_cases a <;> decide
  exact Memref.read_access_unit_zero (Elt F) main_v38 hz' (fun a => by rw [congrFun hz' a]; simp) (V c main_v38)

theorem iblk5_1_eq (c : Dev nD) (t : Fin cfg5.N) : (iblk5 V c 1 t : Vec F S256x1024 .f32) = warr5 V c := by
  obtain rfl : t = t5_0 := fin_N5 t
  unfold iblk5
  have hz' : (fun a => win5_1.index t5_0 a * main_v39.ty.shape.size a) = fun _ => 0 := funext fun a => by fin_cases a <;> decide
  exact Memref.read_access_unit_zero (Elt F) main_v39 hz' (fun a => by rw [congrFun hz' a]; simp) (V c main_v39)

theorem iblk5_2_eq (c : Dev nD) (t : Fin cfg5.N) : (iblk5 V c 2 t : Vec F S1x256 .f32) = barr5 V c := by
  obtain rfl : t = t5_0 := fin_N5 t
  unfold iblk5
  have hz' : (fun a => win5_2.index t5_0 a * main_v41.ty.shape.size a) = fun _ => 0 := funext fun a => by fin_cases a <;> decide
  exact Memref.read_access_unit_zero (Elt F) main_v41 hz' (fun a => by rw [congrFun hz' a]; simp) (V c main_v41)

abbrev res5 (c : Dev nD) : Buf (Elt F) ((c : Thread nD τ).loc main_v42) :=
  k5_pay3 (k5_pay2 (warr5 V c) (xarr5 V c) (k5_pay1 (F := F))) (barr5 V c)

theorem outsAt5_fst (c : Dev nD) (n : ℕ) (hn : n < cfg5.N) : (outsAt5 V c n hn).1 = res5 V c := by
  unfold outsAt5
  dsimp only
  refine (out5_D_eq (F := F) c (grid5.coords ⟨n, hn⟩) (ms5_0 ⟨n, hn⟩) (hs5_0 ⟨n, hn⟩) (ms5_1 ⟨n, hn⟩) (hs5_1 ⟨n, hn⟩)
    (ms5_2 ⟨n, hn⟩) (hs5_2 ⟨n, hn⟩) (ms5_3 ⟨n, hn⟩) (hs5_3 ⟨n, hn⟩) scM5 (Memref.isWhole_whole _)
    ((hcond5_0 ⟨n, hn⟩).mpr (Nat.mod_one n)) ((hcond5_1 ⟨n, hn⟩).mpr (Nat.mod_one n))
    (iblk5 V c 0 ⟨n, hn⟩) (iblk5 V c 1 ⟨n, hn⟩) (iblk5 V c 2 ⟨n, hn⟩)).trans ?_
  rw [iblk5_0_eq V c ⟨n, hn⟩, iblk5_1_eq V c ⟨n, hn⟩, iblk5_2_eq V c ⟨n, hn⟩]

theorem flushed5_eq (c : Dev nD) (t : Fin cfg5.N) (hf : (cfg5.win 3).flush t = true) :
    (dat5 V c).flushed 3 t = ((cfg5.win 3).blk t).view.read (Elt F) (res5 V c) := by
  obtain rfl : t = t5_0 := fin_N5 t
  show (cfg5.win 3).cut (grid5.coords t5_0) ((dat5 V c).after 3 t5_0) = _
  rw [after5_3, outsAt5_fst]
  have hz' : (fun a => win5_3.index t5_0 a * main_v42.ty.shape.size a) = fun _ => 0 := funext fun a => by fin_cases a <;> decide
  exact (Memref.read_access_unit_zero (Elt F) main_v42 hz' (fun a => by rw [congrFun hz' a]; simp) (res5 V c)).symm

theorem final5 (c : Dev nD) : (dat5 V c).arrAt 3 cfg5.N = res5 V c :=
  (dat5 V c).arrAt_eq_of_cover 3 (res5 V c) (flushed5_eq V c) fun i =>
    ⟨t5_0, flush5_3 t5_0, by
      show i ∈ ((View.whole main_v42).slice (win5_3.rect t5_0)).set
      rw [View.set_slice_whole, Rect.mem_set_unit]
      intro a
      have h0 : (i 0 : Nat) < 512 := (i 0).isLt
      have h1 : (i 1 : Nat) < 256 := (i 1).isLt
      match a with
      | ⟨0, _⟩ => show win5_3.index t5_0 0 * win5_3.size 0 ≤ (i 0 : Nat) ∧ (i 0 : Nat) < win5_3.index t5_0 0 * win5_3.size 0 + win5_3.xsize (grid5.coords t5_0) 0
                  rw [show win5_3.index t5_0 0 * win5_3.size 0 = 0 from by decide +kernel, show win5_3.xsize (grid5.coords t5_0) 0 = 512 from by decide +kernel]; omega
      | ⟨1, _⟩ => show win5_3.index t5_0 1 * win5_3.size 1 ≤ (i 1 : Nat) ∧ (i 1 : Nat) < win5_3.index t5_0 1 * win5_3.size 1 + win5_3.xsize (grid5.coords t5_0) 1
                  rw [show win5_3.index t5_0 1 * win5_3.size 1 = 0 from by decide +kernel, show win5_3.xsize (grid5.coords t5_0) 1 = 256 from by decide +kernel]; omega⟩

end Generic

theorem region5_value (V : (c : Dev nD) → (b : Ref sig .tc) → Buf (Elt Ideal) ((c : Thread nD τ).loc b)) (c : Dev nD)
    (p : Fin 512) (q : Fin 256) :
    ((dat5 (F := Ideal) V c).arrAt 3 cfg5.N : S512x256.Idx → EReal) (ix2 p q)
      = Cert.Spec.relu (Cert.Spec.lin (fun p k => (V c main_v38 : S512x1024.Idx → EReal) (ix2 p k))
          (fun q k => (V c main_v39 : S256x1024.Idx → EReal) (ix2 q k))
          (fun q => (V c main_v41 : S1x256.Idx → EReal) (ix2 0 q)) p q) := by
  refine (congrFun (final5 (F := Ideal) V c) (ix2 p q)).trans ?_
  refine (k5_pay3_apply (k5_pay2 (warr5 V c) (xarr5 V c) (k5_pay1 (F := Ideal))) (barr5 V c) p q).trans ?_
  rw [k5_pay2_apply (warr5 V c) (xarr5 V c) (k5_pay1 (F := Ideal)) p q, k5_pay1_apply p q, zero_add]
  rfl

end Cert.KernelIdeal.Hand

end
-- ==== Proof.Reg6PieceKI.lean ====
import proofs.«174655_j53695681135127_1_alg».proof.Proof.Reg6KI
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

theorem hz6 : (![0, 0] : Fin 2 → Nat) = fun _ => 0 := funext fun a => by fin_cases a <;> rfl

theorem sout6_D_eq (c : Dev nD) (i : grid6.Coords) (arg2 : Memref sig .tc .vmem S512x256 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond6_0 i) (hc1 : cond6_1 i) (x0 : Vec F S512x256 .f32) (x1 : Vec F S128x256 .f32) (x2 : Vec F S1x128 .f32) :
    sout6_D c i arg2 harg2 arg3 harg3 arg4 harg4 arg5 harg5 arg6 harg6 hc0 hc1 x0 x1 x2 = k6_pay2 x1 x0 (k6_pay1 (F := F)) := by
  unfold sout6_D
  rw [View.read_writes_eq_canon _ _ _ (scover6_D c i arg2 harg2 arg3 harg3 arg4 harg4 arg5 harg5 arg6 harg6 hc0 hc1 x0 x1 x2)]
  unfold kernelRun6_D
  dsimp only
  sl_unfold_words
  rw [View.canon_cons_unit_zero (S := S512x128) hz6]
  simp only [View.readAt_eq_ld, harg2.read_unread, harg3.read_unread, View.ld_unit_zero (S := S512x256) hz6,
    View.ld_unit_zero (S := S128x256) hz6, View.readCov_cons_toLoadRect]

theorem out6_D_eq (c : Dev nD) (i : grid6.Coords) (arg2 : Memref sig .tc .vmem S512x256 .f32) (harg2 : arg2.IsWhole) (arg3 : Memref sig .tc .vmem S128x256 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (hc0 : cond6_0 i) (hc1 : cond6_1 i) (x0 : Vec F S512x256 .f32) (x1 : Vec F S128x256 .f32) (x2 : Vec F S1x128 .f32) :
    out6_D c i arg2 harg2 arg3 harg3 arg4 harg4 arg5 harg5 arg6 harg6 hc0 hc1 x0 x1 x2 = k6_pay3 (k6_pay2 x1 x0 (k6_pay1 (F := F))) x2 := by
  unfold out6_D
  rw [View.read_writes_eq_canon _ _ _ (cover6_D c i arg2 harg2 arg3 harg3 arg4 harg4 arg5 harg5 arg6 harg6 hc0 hc1 x0 x1 x2)]
  unfold kernelRun6_D
  dsimp only
  sl_unfold_words
  rw [View.canon_unit_zero (S := S512x128) hz6]
  simp only [View.readAt_eq_ld, harg2.read_unread, harg3.read_unread, harg4.read_unread, View.ld_unit_zero (S := S512x256) hz6,
    View.ld_unit_zero (S := S128x256) hz6, View.ld_unit_zero (S := S1x128) hz6, View.readCov_cons_toLoadRect]

end Cert.KernelIdeal.Hand

end
-- ==== Proof.Reg6PayKI.lean ====
import proofs.«174655_j53695681135127_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

theorem lhs6_0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl

theorem lhs6_1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q

theorem rhs6_0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q

theorem rhs6_1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

theorem matmul6_apply (lhs : FVec Ideal S512x256 .bf16) (rhs : FVec Ideal S256x128 .bf16) (p : Fin 512) (q : Fin 128) :
    matmul dot_S512x256_S256x128_S512x128_1_0_0_1_n_n none lhs rhs (constant (F := Ideal) S512x128 .f32 0x00000000#32) (ix2 p q)
      = ∑ k : Fin 256, lhs (ix2 p k) * rhs (ix2 k q) := by
  show FloatOps.matmul dot_S512x256_S256x128_S512x128_1_0_0_1_n_n none lhs rhs (constant (F := Ideal) S512x128 .f32 0x00000000#32) (ix2 p q) = _
  rw [Ideal.matmul_constant_zero_apply, ← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 p q) ((ValueIdx.contrEquiv1 dot_S512x256_S256x128_S512x128_1_0_0_1_n_n 256 rfl rfl).symm k) = ix2 p k := funext fun a => Fin.ext (by
    match a with
    | ⟨0, _⟩ => exact lhs6_0 _ _
    | ⟨1, _⟩ => exact (lhs6_1 _ _).trans hk)
  have er : dot_S512x256_S256x128_S512x128_1_0_0_1_n_n.rhsIdx (ix2 p q) ((ValueIdx.contrEquiv1 dot_S512x256_S256x128_S512x128_1_0_0_1_n_n 256 rfl rfl).symm k) = ix2 k q := funext fun a => Fin.ext (by
    match a with
    | ⟨0, _⟩ => exact (rhs6_0 _ _).trans hk
    | ⟨1, _⟩ => exact rhs6_1 _ _)
  rw [el, er]

theorem k6_pay1_apply (p : Fin 512) (q : Fin 128) : (k6_pay1 (F := Ideal)) (ix2 p q) = 0 := by
  unfold k6_pay1
  refine (congrFun (shapeCast_self _ _) (ix2 p q)).trans ?_
  exact Ideal.ofBits_zero_f32

theorem k6_pay2_apply (v3 : Vec Ideal S128x256 .f32) (v7 : Vec Ideal S512x256 .f32) (v10 : Vec Ideal S512x128 .f32)
    (p : Fin 512) (q : Fin 128) :
    k6_pay2 v3 v7 v10 (ix2 p q) = v10 (ix2 p q) + ∑ k : Fin 256, v7 (ix2 p k) * v3 (ix2 q k) := by
  unfold k6_pay2
  refine (congrFun (shapeCast_self _ _) (ix2 p q)).trans ?_
  refine (ValueIdx.addf_apply _ _ _).trans ?_
  refine congrArg (fun z => v10 (ix2 p q) + z) ?_
  refine (matmul6_apply _ _ p q).trans ?_
  refine Finset.sum_congr rfl fun k _ => ?_
  refine congrArg₂ (fun a b : EReal => a * b) ?_ ?_
  · exact congrFun (shapeCast_self v7 _) (ix2 p k)
  · refine (ValueIdx.truncf_apply (φ := .f32) (ψ := .bf16) _ bitsLt_bf16_f32 _).trans ?_
    refine (ValueIdx.transpose_ix2_apply _ _ k q).trans ?_
    exact congrFun (shapeCast_self v3 _) (ix2 q k)

theorem logistic_apply {s : Shape} {φ : FTy} (a : FVec Ideal s φ) (i : s.Idx) : logistic a i = Ideal.logistic (a i) := rfl

theorem k6_pay3_apply (v19 : Vec Ideal S512x128 .f32) (v20 : Vec Ideal S1x128 .f32) (p : Fin 512) (q : Fin 128) :
    k6_pay3 v19 v20 (ix2 p q) = Ideal.logistic (v19 (ix2 p q) + v20 (ix2 (0 : Fin 1) q)) := by
  unfold k6_pay3
  refine (logistic_apply _ (ix2 p q)).trans ?_
  refine congrArg Ideal.logistic ?_
  refine (ValueIdx.addf_apply _ _ _).trans ?_
  refine congrArg (fun z => v19 (ix2 p q) + z) ?_
  refine (ValueIdx.broadcastTo_1b_ab_apply _ _ p q).trans ?_
  exact congrFun (shapeCast_self v20 _) (ix2 (0 : Fin 1) q)

end Cert.KernelIdeal.Hand

end
-- ==== Proof.Reg6ValKI.lean ====
import proofs.«174655_j53695681135127_1_alg».proof.Proof.Reg6PieceKI
import proofs.«174655_j53695681135127_1_alg».proof.Proof.Reg6PayKI
import proofs.«174655_j53695681135127_1_alg».proof.Proof.LibSpec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

section Generic

variable {F : FTy → Type} [FloatOps F]
variable (V : (c : Dev nD) → (b : Ref sig .tc) → Buf (Elt F) ((c : Thread nD τ).loc b))

abbrev xarr6 (c : Dev nD) : Vec F S512x256 .f32 := V c main_v43
abbrev warr6 (c : Dev nD) : Vec F S128x256 .f32 := V c main_v44
abbrev barr6 (c : Dev nD) : Vec F S1x128 .f32 := V c main_v46

theorem iblk6_0_eq (c : Dev nD) (t : Fin cfg6.N) : (iblk6 V c 0 t : Vec F S512x256 .f32) = xarr6 V c := by
  obtain rfl : t = t6_0 := fin_N6 t
  unfold iblk6
  have hz' : (fun a => win6_0.index t6_0 a * main_v43.ty.shape.size a) = fun _ => 0 := funext fun a => by fin_cases a <;> decide
  exact Memref.read_access_unit_zero (Elt F) main_v43 hz' (fun a => by rw [congrFun hz' a]; simp) (V c main_v43)

theorem iblk6_1_eq (c : Dev nD) (t : Fin cfg6.N) : (iblk6 V c 1 t : Vec F S128x256 .f32) = warr6 V c := by
  obtain rfl : t = t6_0 := fin_N6 t
  unfold iblk6
  have hz' : (fun a => win6_1.index t6_0 a * main_v44.ty.shape.size a) = fun _ => 0 := funext fun a => by fin_cases a <;> decide
  exact Memref.read_access_unit_zero (Elt F) main_v44 hz' (fun a => by rw [congrFun hz' a]; simp) (V c main_v44)

theorem iblk6_2_eq (c : Dev nD) (t : Fin cfg6.N) : (iblk6 V c 2 t : Vec F S1x128 .f32) = barr6 V c := by
  obtain rfl : t = t6_0 := fin_N6 t
  unfold iblk6
  have hz' : (fun a => win6_2.index t6_0 a * main_v46.ty.shape.size a) = fun _ => 0 := funext fun a => by fin_cases a <;> decide
  exact Memref.read_access_unit_zero (Elt F) main_v46 hz' (fun a => by rw [congrFun hz' a]; simp) (V c main_v46)

abbrev res6 (c : Dev nD) : Buf (Elt F) ((c : Thread nD τ).loc main_v47) :=
  k6_pay3 (k6_pay2 (warr6 V c) (xarr6 V c) (k6_pay1 (F := F))) (barr6 V c)

theorem outsAt6_fst (c : Dev nD) (n : ℕ) (hn : n < cfg6.N) : (outsAt6 V c n hn).1 = res6 V c := by
  unfold outsAt6
  dsimp only
  refine (out6_D_eq (F := F) c (grid6.coords ⟨n, hn⟩) (ms6_0 ⟨n, hn⟩) (hs6_0 ⟨n, hn⟩) (ms6_1 ⟨n, hn⟩) (hs6_1 ⟨n, hn⟩)
    (ms6_2 ⟨n, hn⟩) (hs6_2 ⟨n, hn⟩) (ms6_3 ⟨n, hn⟩) (hs6_3 ⟨n, hn⟩) scM6 (Memref.isWhole_whole _)
    ((hcond6_0 ⟨n, hn⟩).mpr (Nat.mod_one n)) ((hcond6_1 ⟨n, hn⟩).mpr (Nat.mod_one n))
    (iblk6 V c 0 ⟨n, hn⟩) (iblk6 V c 1 ⟨n, hn⟩) (iblk6 V c 2 ⟨n, hn⟩)).trans ?_
  rw [iblk6_0_eq V c ⟨n, hn⟩, iblk6_1_eq V c ⟨n, hn⟩, iblk6_2_eq V c ⟨n, hn⟩]

theorem flushed6_eq (c : Dev nD) (t : Fin cfg6.N) (hf : (cfg6.win 3).flush t = true) :
    (dat6 V c).flushed 3 t = ((cfg6.win 3).blk t).view.read (Elt F) (res6 V c) := by
  obtain rfl : t = t6_0 := fin_N6 t
  show (cfg6.win 3).cut (grid6.coords t6_0) ((dat6 V c).after 3 t6_0) = _
  rw [after6_3, outsAt6_fst]
  have hz' : (fun a => win6_3.index t6_0 a * main_v47.ty.shape.size a) = fun _ => 0 := funext fun a => by fin_cases a <;> decide
  exact (Memref.read_access_unit_zero (Elt F) main_v47 hz' (fun a => by rw [congrFun hz' a]; simp) (res6 V c)).symm

theorem final6 (c : Dev nD) : (dat6 V c).arrAt 3 cfg6.N = res6 V c :=
  (dat6 V c).arrAt_eq_of_cover 3 (res6 V c) (flushed6_eq V c) fun i =>
    ⟨t6_0, flush6_3 t6_0, by
      show i ∈ ((View.whole main_v47).slice (win6_3.rect t6_0)).set
      rw [View.set_slice_whole, Rect.mem_set_unit]
      intro a
      have h0 : (i 0 : Nat) < 512 := (i 0).isLt
      have h1 : (i 1 : Nat) < 128 := (i 1).isLt
      match a with
      | ⟨0, _⟩ => show win6_3.index t6_0 0 * win6_3.size 0 ≤ (i 0 : Nat) ∧ (i 0 : Nat) < win6_3.index t6_0 0 * win6_3.size 0 + win6_3.xsize (grid6.coords t6_0) 0
                  rw [show win6_3.index t6_0 0 * win6_3.size 0 = 0 from by decide +kernel, show win6_3.xsize (grid6.coords t6_0) 0 = 512 from by decide +kernel]; omega
      | ⟨1, _⟩ => show win6_3.index t6_0 1 * win6_3.size 1 ≤ (i 1 : Nat) ∧ (i 1 : Nat) < win6_3.index t6_0 1 * win6_3.size 1 + win6_3.xsize (grid6.coords t6_0) 1
                  rw [show win6_3.index t6_0 1 * win6_3.size 1 = 0 from by decide +kernel, show win6_3.xsize (grid6.coords t6_0) 1 = 128 from by decide +kernel]; omega⟩

end Generic

theorem region6_value (V : (c : Dev nD) → (b : Ref sig .tc) → Buf (Elt Ideal) ((c : Thread nD τ).loc b)) (c : Dev nD)
    (p : Fin 512) (q : Fin 128) :
    ((dat6 (F := Ideal) V c).arrAt 3 cfg6.N : S512x128.Idx → EReal) (ix2 p q)
      = Ideal.logistic (Cert.Spec.lin (fun p k => (V c main_v43 : S512x256.Idx → EReal) (ix2 p k))
          (fun q k => (V c main_v44 : S128x256.Idx → EReal) (ix2 q k))
          (fun q => (V c main_v46 : S1x128.Idx → EReal) (ix2 0 q)) p q) := by
  refine (congrFun (final6 (F := Ideal) V c) (ix2 p q)).trans ?_
  refine (k6_pay3_apply (k6_pay2 (warr6 V c) (xarr6 V c) (k6_pay1 (F := Ideal))) (barr6 V c) p q).trans ?_
  rw [k6_pay2_apply (warr6 V c) (xarr6 V c) (k6_pay1 (F := Ideal)) p q, k6_pay1_apply p q, zero_add]
  rfl

end Cert.KernelIdeal.Hand

end
-- ==== Proof.KernelValKI.lean ====
import proofs.«174655_j53695681135127_1_alg».proof.Proof.RegSegKI
import proofs.«174655_j53695681135127_1_alg».proof.Proof.HostValAKI
import proofs.«174655_j53695681135127_1_alg».proof.Proof.HostValA1KI
import proofs.«174655_j53695681135127_1_alg».proof.Proof.HostValA2KI
import proofs.«174655_j53695681135127_1_alg».proof.Proof.HostValA3KI
import proofs.«174655_j53695681135127_1_alg».proof.Proof.HostValB4KI
import proofs.«174655_j53695681135127_1_alg».proof.Proof.HostValBKI
import proofs.«174655_j53695681135127_1_alg».proof.Proof.Reg0ValKI
import proofs.«174655_j53695681135127_1_alg».proof.Proof.Reg1ValKI
import proofs.«174655_j53695681135127_1_alg».proof.Proof.Reg2ValKI
import proofs.«174655_j53695681135127_1_alg».proof.Proof.Reg3ValKI
import proofs.«174655_j53695681135127_1_alg».proof.Proof.Reg4ValKI
import proofs.«174655_j53695681135127_1_alg».proof.Proof.Reg5ValKI
import proofs.«174655_j53695681135127_1_alg».proof.Proof.Reg6ValKI
import proofs.«174655_j53695681135127_1_alg».proof.Proof.LibSpec
import proofs.«174655_j53695681135127_1_alg».proof.Proof.LibSums
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx

section Tables
variable (m : (ℓ : Loc nD τ sig) → Buf (Elt Ideal) ℓ) (c : Dev nD)

abbrev T0 : Fin 512 → Fin 28000 → EReal := fun i j => (m ((c : Thread nD τ).loc main_arg0) : S512x28000.Idx → EReal) (ix2 i j)

abbrev T1 : Fin 20000 → Fin 5000 → EReal := fun i j => (m ((c : Thread nD τ).loc main_arg1) : S20000x5000.Idx → EReal) (ix2 i j)

abbrev T2 : Fin 5000 → Fin 3000 → EReal := fun i j => (m ((c : Thread nD τ).loc main_arg2) : S5000x3000.Idx → EReal) (ix2 i j)

abbrev T3 : Fin 8000 → Fin 3000 → EReal := fun i j => (m ((c : Thread nD τ).loc main_arg3) : S8000x3000.Idx → EReal) (ix2 i j)

abbrev T4 : Fin 3000 → Fin 3000 → EReal := fun i j => (m ((c : Thread nD τ).loc main_arg4) : S3000x3000.Idx → EReal) (ix2 i j)

abbrev T5 : Fin 5000 → Fin 20000 → EReal := fun i j => (m ((c : Thread nD τ).loc main_arg5) : S5000x20000.Idx → EReal) (ix2 i j)

abbrev T6 : Fin 5000 → EReal := fun i => (m ((c : Thread nD τ).loc main_arg6) : S5000.Idx → EReal) (ix1 i)

abbrev T7 : Fin 3000 → Fin 5000 → EReal := fun i j => (m ((c : Thread nD τ).loc main_arg7) : S3000x5000.Idx → EReal) (ix2 i j)

abbrev T8 : Fin 3000 → EReal := fun i => (m ((c : Thread nD τ).loc main_arg8) : S3000.Idx → EReal) (ix1 i)

abbrev T9 : Fin 3000 → Fin 8000 → EReal := fun i j => (m ((c : Thread nD τ).loc main_arg9) : S3000x8000.Idx → EReal) (ix2 i j)

abbrev T10 : Fin 3000 → EReal := fun i => (m ((c : Thread nD τ).loc main_arg10) : S3000.Idx → EReal) (ix1 i)

abbrev T11 : Fin 3000 → Fin 3000 → EReal := fun i j => (m ((c : Thread nD τ).loc main_arg11) : S3000x3000.Idx → EReal) (ix2 i j)

abbrev T12 : Fin 3000 → EReal := fun i => (m ((c : Thread nD τ).loc main_arg12) : S3000.Idx → EReal) (ix1 i)

abbrev T13 : Fin 1024 → Fin 6000 → EReal := fun i j => (m ((c : Thread nD τ).loc main_arg13) : S1024x6000.Idx → EReal) (ix2 i j)

abbrev T14 : Fin 1024 → EReal := fun i => (m ((c : Thread nD τ).loc main_arg14) : S1024.Idx → EReal) (ix1 i)

abbrev T15 : Fin 256 → Fin 1024 → EReal := fun i j => (m ((c : Thread nD τ).loc main_arg15) : S256x1024.Idx → EReal) (ix2 i j)

abbrev T16 : Fin 256 → EReal := fun i => (m ((c : Thread nD τ).loc main_arg16) : S256.Idx → EReal) (ix1 i)

abbrev T17 : Fin 1 → Fin 256 → EReal := fun i j => (m ((c : Thread nD τ).loc main_arg17) : S1x256.Idx → EReal) (ix2 i j)

abbrev T18 : Fin 1 → EReal := fun i => (m ((c : Thread nD τ).loc main_arg18) : S1.Idx → EReal) (ix1 i)

end Tables

theorem beside_left {B K₁ K₂ : ℕ} (u : Fin B → Fin K₁ → EReal) (v : Fin B → Fin K₂ → EReal) (p : Fin B) (k : Fin (K₁ + K₂))
    (h : k.val < K₁) : Cert.Spec.beside u v p k = u p ⟨k.val, h⟩ := dif_pos h

theorem beside_right {B K₁ K₂ : ℕ} (u : Fin B → Fin K₁ → EReal) (v : Fin B → Fin K₂ → EReal) (p : Fin B) (k : Fin (K₁ + K₂))
    (h : ¬ k.val < K₁) : Cert.Spec.beside u v p k = v p ⟨k.val - K₁, by omega⟩ := dif_neg h

section Layers
variable {m : (ℓ : Loc nD τ sig) → Buf (Elt Ideal) ℓ} {outs : Outs (F := Ideal)}

theorem layer0 (hok : Ok m outs) (c : Dev nD) (p : Fin 512) (q : Fin 5000) :
    (outs 10 main_v8 c : S512x5120.Idx → EReal) (ix2 p (⟨q.val, Nat.lt_of_lt_of_le q.isLt (by decide)⟩ : Fin 5120))
      = Cert.Spec.outSnp (T0 m c) (T1 m c) (T5 m c) (T6 m c) p q := by
  have hx : ∀ (p : Fin 512) (k : Fin 20480), (V9 m c main_v3 : S512x20480.Idx → EReal) (ix2 p k)
      = if h : k.val < 20000 then (Cert.Spec.snp (T0 m c)) p ⟨k.val, h⟩ else 0 := fun p k => V9_x (p := p) (k := k) ..
  have hw : ∀ (q : Fin 5120) (k : Fin 20480) (hq : q.val < 5000) (hk : k.val < 20000),
      Cert.Spec.masked (fun q k => (V9 m c main_v4 : S5120x20480.Idx → EReal) (ix2 q k)) (fun k q => (V9 m c main_v5 : S20480x5120.Idx → EReal) (ix2 k q)) q k
        = Cert.Spec.masked (T5 m c) (T1 m c) ⟨q.val, hq⟩ ⟨k.val, hk⟩ := fun q k hq hk => by
    have hk' : k.val < 20000 := hk
    have e1 : (V9 m c main_v4 : S5120x20480.Idx → EReal) (ix2 q k) = (T5 m c) ⟨q.val, hq⟩ ⟨k.val, hk⟩ := by
      rw [V9_w, dif_pos (And.intro hq hk')]
    have e2 : (V9 m c main_v5 : S20480x5120.Idx → EReal) (ix2 k q) = (T1 m c) ⟨k.val, hk⟩ ⟨q.val, hq⟩ := by
      rw [V9_a, dif_pos (And.intro hk' hq)]
    exact congrArg₂ (fun a b : EReal => a * b) e1 e2
  have hb : ∀ (q : Fin 5120) (hq : q.val < 5000), (V9 m c main_v7 : S1x5120.Idx → EReal) (ix2 0 q) = (T6 m c) ⟨q.val, hq⟩ := fun q hq => by
    rw [V9_b, dif_pos hq]
  have hl := Cert.LibSums.lin_pad (by omega) (by omega) (Cert.Spec.snp (T0 m c)) (Cert.Spec.masked (T5 m c) (T1 m c)) (T6 m c)
    (fun p k => (V9 m c main_v3 : S512x20480.Idx → EReal) (ix2 p k))
    (Cert.Spec.masked (fun q k => (V9 m c main_v4 : S5120x20480.Idx → EReal) (ix2 q k)) (fun k q => (V9 m c main_v5 : S20480x5120.Idx → EReal) (ix2 k q)))
    (fun q => (V9 m c main_v7 : S1x5120.Idx → EReal) (ix2 0 q)) hx hw hb p (⟨q.val, Nat.lt_of_lt_of_le q.isLt (by decide)⟩ : Fin 5120) q.isLt
  rw [hok.h0 c]
  refine (region0_value (Vt (V9 m)) c p _).trans ?_
  unfold Cert.Spec.outSnp
  exact congrArg Cert.Spec.relu hl

theorem layer1 (hok : Ok m outs) (c : Dev nD) (p : Fin 512) (q : Fin 3000) :
    (outs 20 main_v15 c : S512x3072.Idx → EReal) (ix2 p (⟨q.val, Nat.lt_of_lt_of_le q.isLt (by decide)⟩ : Fin 3072))
      = Cert.Spec.outGene (T0 m c) (T2 m c) (T7 m c) (T8 m c) p q := by
  have hx : ∀ (p : Fin 512) (k : Fin 5120), (V19 m outs c main_v10 : S512x5120.Idx → EReal) (ix2 p k)
      = if h : k.val < 5000 then (Cert.Spec.gen (T0 m c)) p ⟨k.val, h⟩ else 0 := fun p k => V19_x (p := p) (k := k) ..
  have hw : ∀ (q : Fin 3072) (k : Fin 5120) (hq : q.val < 3000) (hk : k.val < 5000),
      Cert.Spec.masked (fun q k => (V19 m outs c main_v11 : S3072x5120.Idx → EReal) (ix2 q k)) (fun k q => (V19 m outs c main_v12 : S5120x3072.Idx → EReal) (ix2 k q)) q k
        = Cert.Spec.masked (T7 m c) (T2 m c) ⟨q.val, hq⟩ ⟨k.val, hk⟩ := fun q k hq hk => by
    have hk' : k.val < 5000 := hk
    have e1 : (V19 m outs c main_v11 : S3072x5120.Idx → EReal) (ix2 q k) = (T7 m c) ⟨q.val, hq⟩ ⟨k.val, hk⟩ := by
      rw [V19_w, dif_pos (And.intro hq hk')]
    have e2 : (V19 m outs c main_v12 : S5120x3072.Idx → EReal) (ix2 k q) = (T2 m c) ⟨k.val, hk⟩ ⟨q.val, hq⟩ := by
      rw [V19_a, dif_pos (And.intro hk' hq)]
    exact congrArg₂ (fun a b : EReal => a * b) e1 e2
  have hb : ∀ (q : Fin 3072) (hq : q.val < 3000), (V19 m outs c main_v14 : S1x3072.Idx → EReal) (ix2 0 q) = (T8 m c) ⟨q.val, hq⟩ := fun q hq => by
    rw [V19_b, dif_pos hq]
  have hl := Cert.LibSums.lin_pad (by omega) (by omega) (Cert.Spec.gen (T0 m c)) (Cert.Spec.masked (T7 m c) (T2 m c)) (T8 m c)
    (fun p k => (V19 m outs c main_v10 : S512x5120.Idx → EReal) (ix2 p k))
    (Cert.Spec.masked (fun q k => (V19 m outs c main_v11 : S3072x5120.Idx → EReal) (ix2 q k)) (fun k q => (V19 m outs c main_v12 : S5120x3072.Idx → EReal) (ix2 k q)))
    (fun q => (V19 m outs c main_v14 : S1x3072.Idx → EReal) (ix2 0 q)) hx hw hb p (⟨q.val, Nat.lt_of_lt_of_le q.isLt (by decide)⟩ : Fin 3072) q.isLt
  rw [hok.h1 c]
  refine (region1_value (Vt (V19 m outs)) c p _).trans ?_
  unfold Cert.Spec.outGene
  exact congrArg Cert.Spec.relu hl

theorem layer2 (hok : Ok m outs) (c : Dev nD) (p : Fin 512) (q : Fin 3000) :
    (outs 30 main_v23 c : S512x3072.Idx → EReal) (ix2 p (⟨q.val, Nat.lt_of_lt_of_le q.isLt (by decide)⟩ : Fin 3072))
      = Cert.Spec.outBridge (T0 m c) (T1 m c) (T2 m c) (T3 m c) (T5 m c) (T6 m c) (T7 m c) (T8 m c) (T9 m c) (T10 m c) p q := by
  have hx : ∀ (p : Fin 512) (k : Fin 8192), (V29 m outs c main_v18 : S512x8192.Idx → EReal) (ix2 p k)
      = if h : k.val < 5000 + 3000 then (Cert.Spec.beside (Cert.Spec.outSnp (T0 m c) (T1 m c) (T5 m c) (T6 m c)) (Cert.Spec.outGene (T0 m c) (T2 m c) (T7 m c) (T8 m c))) p ⟨k.val, h⟩ else 0 := fun p k => by
    rw [V29_x]
    by_cases h1 : k.val < 5000
    · have h2 : k.val < 5000 + 3000 := by omega
      rw [dif_pos h1, dif_pos h2]
      exact (layer0 hok c p ⟨k.val, h1⟩).trans (beside_left _ _ p ⟨k.val, h2⟩ h1).symm
    · by_cases h2 : k.val < 8000
      · have h3 : k.val < 5000 + 3000 := h2
        rw [dif_neg h1, dif_pos h2, dif_pos h3]
        exact (layer1 hok c p ⟨k.val - 5000, by omega⟩).trans (beside_right _ _ p ⟨k.val, h3⟩ h1).symm
      · have h3 : ¬ k.val < 5000 + 3000 := h2
        rw [dif_neg h1, dif_neg h2, dif_neg h3]
  have hw : ∀ (q : Fin 3072) (k : Fin 8192) (hq : q.val < 3000) (hk : k.val < 5000 + 3000),
      Cert.Spec.masked (fun q k => (V29 m outs c main_v19 : S3072x8192.Idx → EReal) (ix2 q k)) (fun k q => (V29 m outs c main_v20 : S8192x3072.Idx → EReal) (ix2 k q)) q k
        = Cert.Spec.masked (T9 m c) (T3 m c) ⟨q.val, hq⟩ ⟨k.val, hk⟩ := fun q k hq hk => by
    have hk' : k.val < 8000 := hk
    have e1 : (V29 m outs c main_v19 : S3072x8192.Idx → EReal) (ix2 q k) = (T9 m c) ⟨q.val, hq⟩ ⟨k.val, hk⟩ := by
      rw [V29_w, dif_pos (And.intro hq hk')]
    have e2 : (V29 m outs c main_v20 : S8192x3072.Idx → EReal) (ix2 k q) = (T3 m c) ⟨k.val, hk⟩ ⟨q.val, hq⟩ := by
      rw [V29_a, dif_pos (And.intro hk' hq)]
    exact congrArg₂ (fun a b : EReal => a * b) e1 e2
  have hb : ∀ (q : Fin 3072) (hq : q.val < 3000), (V29 m outs c main_v22 : S1x3072.Idx → EReal) (ix2 0 q) = (T10 m c) ⟨q.val, hq⟩ := fun q hq => by
    rw [V29_b, dif_pos hq]
  have hl := Cert.LibSums.lin_pad (by omega) (by omega) (Cert.Spec.beside (Cert.Spec.outSnp (T0 m c) (T1 m c) (T5 m c) (T6 m c)) (Cert.Spec.outGene (T0 m c) (T2 m c) (T7 m c) (T8 m c))) (Cert.Spec.masked (T9 m c) (T3 m c)) (T10 m c)
    (fun p k => (V29 m outs c main_v18 : S512x8192.Idx → EReal) (ix2 p k))
    (Cert.Spec.masked (fun q k => (V29 m outs c main_v19 : S3072x8192.Idx → EReal) (ix2 q k)) (fun k q => (V29 m outs c main_v20 : S8192x3072.Idx → EReal) (ix2 k q)))
    (fun q => (V29 m outs c main_v22 : S1x3072.Idx → EReal) (ix2 0 q)) hx hw hb p (⟨q.val, Nat.lt_of_lt_of_le q.isLt (by decide)⟩ : Fin 3072) q.isLt
  rw [hok.h2 c]
  refine (region2_value (Vt (V29 m outs)) c p _).trans ?_
  unfold Cert.Spec.outBridge
  exact congrArg Cert.Spec.relu hl

theorem layer3 (hok : Ok m outs) (c : Dev nD) (p : Fin 512) (q : Fin 3000) :
    (outs 40 main_v30 c : S512x3072.Idx → EReal) (ix2 p (⟨q.val, Nat.lt_of_lt_of_le q.isLt (by decide)⟩ : Fin 3072))
      = Cert.Spec.outProtein (T0 m c) (T4 m c) (T11 m c) (T12 m c) p q := by
  have hx : ∀ (p : Fin 512) (k : Fin 3072), (V39 m outs c main_v25 : S512x3072.Idx → EReal) (ix2 p k)
      = if h : k.val < 3000 then (Cert.Spec.pro (T0 m c)) p ⟨k.val, h⟩ else 0 := fun p k => V39_x (p := p) (k := k) ..
  have hw : ∀ (q : Fin 3072) (k : Fin 3072) (hq : q.val < 3000) (hk : k.val < 3000),
      Cert.Spec.masked (fun q k => (V39 m outs c main_v26 : S3072x3072.Idx → EReal) (ix2 q k)) (fun k q => (V39 m outs c main_v27 : S3072x3072.Idx → EReal) (ix2 k q)) q k
        = Cert.Spec.masked (T11 m c) (T4 m c) ⟨q.val, hq⟩ ⟨k.val, hk⟩ := fun q k hq hk => by
    have hk' : k.val < 3000 := hk
    have e1 : (V39 m outs c main_v26 : S3072x3072.Idx → EReal) (ix2 q k) = (T11 m c) ⟨q.val, hq⟩ ⟨k.val, hk⟩ := by
      rw [V39_w, dif_pos (And.intro hq hk')]
    have e2 : (V39 m outs c main_v27 : S3072x3072.Idx → EReal) (ix2 k q) = (T4 m c) ⟨k.val, hk⟩ ⟨q.val, hq⟩ := by
      rw [V39_a, dif_pos (And.intro hk' hq)]
    exact congrArg₂ (fun a b : EReal => a * b) e1 e2
  have hb : ∀ (q : Fin 3072) (hq : q.val < 3000), (V39 m outs c main_v29 : S1x3072.Idx → EReal) (ix2 0 q) = (T12 m c) ⟨q.val, hq⟩ := fun q hq => by
    rw [V39_b, dif_pos hq]
  have hl := Cert.LibSums.lin_pad (by omega) (by omega) (Cert.Spec.pro (T0 m c)) (Cert.Spec.masked (T11 m c) (T4 m c)) (T12 m c)
    (fun p k => (V39 m outs c main_v25 : S512x3072.Idx → EReal) (ix2 p k))
    (Cert.Spec.masked (fun q k => (V39 m outs c main_v26 : S3072x3072.Idx → EReal) (ix2 q k)) (fun k q => (V39 m outs c main_v27 : S3072x3072.Idx → EReal) (ix2 k q)))
    (fun q => (V39 m outs c main_v29 : S1x3072.Idx → EReal) (ix2 0 q)) hx hw hb p (⟨q.val, Nat.lt_of_lt_of_le q.isLt (by decide)⟩ : Fin 3072) q.isLt
  rw [hok.h3 c]
  refine (region3_value (Vt (V39 m outs)) c p _).trans ?_
  unfold Cert.Spec.outProtein
  exact congrArg Cert.Spec.relu hl

theorem layer4 (hok : Ok m outs) (c : Dev nD) (p : Fin 512) (q : Fin 1024) :
    (outs 48 main_v37 c : S512x1024.Idx → EReal) (ix2 p q)
      = Cert.Spec.hidden1 (T0 m c) (T1 m c) (T2 m c) (T3 m c) (T4 m c) (T5 m c) (T6 m c) (T7 m c) (T8 m c) (T9 m c) (T10 m c) (T11 m c) (T12 m c) (T13 m c) (T14 m c) p q := by
  have hx : ∀ (p : Fin 512) (k : Fin 6144), (V47 m outs c main_v33 : S512x6144.Idx → EReal) (ix2 p k)
      = if h : k.val < 3000 + 3000 then (Cert.Spec.beside (Cert.Spec.outBridge (T0 m c) (T1 m c) (T2 m c) (T3 m c) (T5 m c) (T6 m c) (T7 m c) (T8 m c) (T9 m c) (T10 m c)) (Cert.Spec.outProtein (T0 m c) (T4 m c) (T11 m c) (T12 m c))) p ⟨k.val, h⟩ else 0 := fun p k => by
    rw [V47_x]
    by_cases h1 : k.val < 3000
    · have h2 : k.val < 3000 + 3000 := by omega
      rw [dif_pos h1, dif_pos h2]
      exact (layer2 hok c p ⟨k.val, h1⟩).trans (beside_left _ _ p ⟨k.val, h2⟩ h1).symm
    · by_cases h2 : k.val < 6000
      · have h3 : k.val < 3000 + 3000 := h2
        rw [dif_neg h1, dif_pos h2, dif_pos h3]
        exact (layer3 hok c p ⟨k.val - 3000, by omega⟩).trans (beside_right _ _ p ⟨k.val, h3⟩ h1).symm
      · have h3 : ¬ k.val < 3000 + 3000 := h2
        rw [dif_neg h1, dif_neg h2, dif_neg h3]
  have hw : ∀ (q : Fin 1024) (k : Fin 6144) (hq : q.val < 1024) (hk : k.val < 3000 + 3000),
      (V47 m outs c main_v34 : S1024x6144.Idx → EReal) (ix2 q k)
        = (T13 m c) ⟨q.val, hq⟩ ⟨k.val, hk⟩ := fun q k hq hk => by
    have hk' : k.val < 6000 := hk
    rw [V47_w, dif_pos hk']
  have hb : ∀ (q : Fin 1024) (hq : q.val < 1024), (V47 m outs c main_v36 : S1x1024.Idx → EReal) (ix2 0 q) = (T14 m c) ⟨q.val, hq⟩ := fun q hq => by
    rw [V47_b]
  have hl := Cert.LibSums.lin_pad (by omega) (by omega) (Cert.Spec.beside (Cert.Spec.outBridge (T0 m c) (T1 m c) (T2 m c) (T3 m c) (T5 m c) (T6 m c) (T7 m c) (T8 m c) (T9 m c) (T10 m c)) (Cert.Spec.outProtein (T0 m c) (T4 m c) (T11 m c) (T12 m c))) ((T13 m c)) (T14 m c)
    (fun p k => (V47 m outs c main_v33 : S512x6144.Idx → EReal) (ix2 p k))
    (fun q k => (V47 m outs c main_v34 : S1024x6144.Idx → EReal) (ix2 q k))
    (fun q => (V47 m outs c main_v36 : S1x1024.Idx → EReal) (ix2 0 q)) hx hw hb p q q.isLt
  rw [hok.h4 c]
  refine (region4_value (Vt (V47 m outs)) c p _).trans ?_
  unfold Cert.Spec.hidden1
  exact congrArg Cert.Spec.relu hl

theorem layer5 (hok : Ok m outs) (c : Dev nD) (p : Fin 512) (q : Fin 256) :
    (outs 56 main_v42 c : S512x256.Idx → EReal) (ix2 p q)
      = Cert.Spec.hidden2 (T0 m c) (T1 m c) (T2 m c) (T3 m c) (T4 m c) (T5 m c) (T6 m c) (T7 m c) (T8 m c) (T9 m c) (T10 m c) (T11 m c) (T12 m c) (T13 m c) (T14 m c) (T15 m c) (T16 m c) p q := by
  have hx : ∀ (p : Fin 512) (k : Fin 1024), (V55 m outs c main_v38 : S512x1024.Idx → EReal) (ix2 p k)
      = if h : k.val < 1024 then (Cert.Spec.hidden1 (T0 m c) (T1 m c) (T2 m c) (T3 m c) (T4 m c) (T5 m c) (T6 m c) (T7 m c) (T8 m c) (T9 m c) (T10 m c) (T11 m c) (T12 m c) (T13 m c) (T14 m c)) p ⟨k.val, h⟩ else 0 := fun p k => by
    rw [V55_x, dif_pos k.isLt]
    exact layer4 hok c p k
  have hw : ∀ (q : Fin 256) (k : Fin 1024) (hq : q.val < 256) (hk : k.val < 1024),
      (V55 m outs c main_v39 : S256x1024.Idx → EReal) (ix2 q k)
        = (T15 m c) ⟨q.val, hq⟩ ⟨k.val, hk⟩ := fun q k hq hk => by
    rw [V55_w]
  have hb : ∀ (q : Fin 256) (hq : q.val < 256), (V55 m outs c main_v41 : S1x256.Idx → EReal) (ix2 0 q) = (T16 m c) ⟨q.val, hq⟩ := fun q hq => by
    rw [V55_b]
  have hl := Cert.LibSums.lin_pad (by omega) (by omega) (Cert.Spec.hidden1 (T0 m c) (T1 m c) (T2 m c) (T3 m c) (T4 m c) (T5 m c) (T6 m c) (T7 m c) (T8 m c) (T9 m c) (T10 m c) (T11 m c) (T12 m c) (T13 m c) (T14 m c)) ((T15 m c)) (T16 m c)
    (fun p k => (V55 m outs c main_v38 : S512x1024.Idx → EReal) (ix2 p k))
    (fun q k => (V55 m outs c main_v39 : S256x1024.Idx → EReal) (ix2 q k))
    (fun q => (V55 m outs c main_v41 : S1x256.Idx → EReal) (ix2 0 q)) hx hw hb p q q.isLt
  rw [hok.h5 c]
  refine (region5_value (Vt (V55 m outs)) c p _).trans ?_
  unfold Cert.Spec.hidden2
  exact congrArg Cert.Spec.relu hl

theorem layer6 (hok : Ok m outs) (c : Dev nD) (p : Fin 512) :
    (outs 64 main_v47 c : S512x128.Idx → EReal) (ix2 p (0 : Fin 128))
      = Cert.Spec.net (T0 m c) (T1 m c) (T2 m c) (T3 m c) (T4 m c) (T5 m c) (T6 m c) (T7 m c) (T8 m c) (T9 m c) (T10 m c) (T11 m c) (T12 m c) (T13 m c) (T14 m c) (T15 m c) (T16 m c) (T17 m c) (T18 m c) p := by
  have hx : ∀ (p : Fin 512) (k : Fin 256), (V63 m outs c main_v43 : S512x256.Idx → EReal) (ix2 p k)
      = if h : k.val < 256 then (Cert.Spec.hidden2 (T0 m c) (T1 m c) (T2 m c) (T3 m c) (T4 m c) (T5 m c) (T6 m c) (T7 m c) (T8 m c) (T9 m c) (T10 m c) (T11 m c) (T12 m c) (T13 m c) (T14 m c) (T15 m c) (T16 m c)) p ⟨k.val, h⟩ else 0 := fun p k => by
    rw [V63_x, dif_pos k.isLt]
    exact layer5 hok c p k
  have hw : ∀ (q : Fin 128) (k : Fin 256) (hq : q.val < 1) (hk : k.val < 256),
      (V63 m outs c main_v44 : S128x256.Idx → EReal) (ix2 q k)
        = (T17 m c) ⟨q.val, hq⟩ ⟨k.val, hk⟩ := fun q k hq hk => by
    rw [V63_w, dif_pos hq]
  have hb : ∀ (q : Fin 128) (hq : q.val < 1), (V63 m outs c main_v46 : S1x128.Idx → EReal) (ix2 0 q) = (T18 m c) ⟨q.val, hq⟩ := fun q hq => by
    rw [V63_b, dif_pos hq]
  have hl := Cert.LibSums.lin_pad (by omega) (by omega) (Cert.Spec.hidden2 (T0 m c) (T1 m c) (T2 m c) (T3 m c) (T4 m c) (T5 m c) (T6 m c) (T7 m c) (T8 m c) (T9 m c) (T10 m c) (T11 m c) (T12 m c) (T13 m c) (T14 m c) (T15 m c) (T16 m c)) ((T17 m c)) (T18 m c)
    (fun p k => (V63 m outs c main_v43 : S512x256.Idx → EReal) (ix2 p k))
    (fun q k => (V63 m outs c main_v44 : S128x256.Idx → EReal) (ix2 q k))
    (fun q => (V63 m outs c main_v46 : S1x128.Idx → EReal) (ix2 0 q)) hx hw hb p (0 : Fin 128) (by decide)
  rw [hok.h6 c]
  refine (region6_value (Vt (V63 m outs)) c p _).trans ?_
  unfold Cert.Spec.net
  exact congrArg Ideal.logistic hl

theorem kernel_value (hok : Ok m outs) (c : Dev nD) :
    (V65 m outs c main_v48 : S512x1.Idx → EReal)
      = fun i => Cert.Spec.net (fun i j => (m ((c : Thread nD τ).loc main_arg0) : S512x28000.Idx → EReal) (ix2 i j)) (fun i j => (m ((c : Thread nD τ).loc main_arg1) : S20000x5000.Idx → EReal) (ix2 i j)) (fun i j => (m ((c : Thread nD τ).loc main_arg2) : S5000x3000.Idx → EReal) (ix2 i j)) (fun i j => (m ((c : Thread nD τ).loc main_arg3) : S8000x3000.Idx → EReal) (ix2 i j)) (fun i j => (m ((c : Thread nD τ).loc main_arg4) : S3000x3000.Idx → EReal) (ix2 i j)) (fun i j => (m ((c : Thread nD τ).loc main_arg5) : S5000x20000.Idx → EReal) (ix2 i j)) (fun i => (m ((c : Thread nD τ).loc main_arg6) : S5000.Idx → EReal) (ix1 i)) (fun i j => (m ((c : Thread nD τ).loc main_arg7) : S3000x5000.Idx → EReal) (ix2 i j)) (fun i => (m ((c : Thread nD τ).loc main_arg8) : S3000.Idx → EReal) (ix1 i)) (fun i j => (m ((c : Thread nD τ).loc main_arg9) : S3000x8000.Idx → EReal) (ix2 i j)) (fun i => (m ((c : Thread nD τ).loc main_arg10) : S3000.Idx → EReal) (ix1 i)) (fun i j => (m ((c : Thread nD τ).loc main_arg11) : S3000x3000.Idx → EReal) (ix2 i j)) (fun i => (m ((c : Thread nD τ).loc main_arg12) : S3000.Idx → EReal) (ix1 i)) (fun i j => (m ((c : Thread nD τ).loc main_arg13) : S1024x6000.Idx → EReal) (ix2 i j)) (fun i => (m ((c : Thread nD τ).loc main_arg14) : S1024.Idx → EReal) (ix1 i)) (fun i j => (m ((c : Thread nD τ).loc main_arg15) : S256x1024.Idx → EReal) (ix2 i j)) (fun i => (m ((c : Thread nD τ).loc main_arg16) : S256.Idx → EReal) (ix1 i)) (fun i j => (m ((c : Thread nD τ).loc main_arg17) : S1x256.Idx → EReal) (ix2 i j)) (fun i => (m ((c : Thread nD τ).loc main_arg18) : S1.Idx → EReal) (ix1 i)) (i 0) := by
  funext i
  obtain ⟨p, q, rfl⟩ : ∃ (p : Fin 512) (q : Fin 1), i = ix2 p q := ⟨i 0, i 1, eq_ix2 i⟩
  obtain rfl : q = 0 := Subsingleton.elim q 0
  exact (V65_res (p := p) ..).trans (layer6 hok c p)

end Layers

end Cert.KernelIdeal.Hand

end
-- ==== Proof.RefValue.lean ====
import proofs.«174655_j53695681135127_1_alg».proof.Proof.Gen.ReferenceIdeal.Run
import proofs.«174655_j53695681135127_1_alg».proof.Proof.Gen.ReferenceIdeal.Read
import proofs.«174655_j53695681135127_1_alg».proof.Proof.LibSpec

noncomputable section

namespace Cert.ReferenceIdeal.RefValue

open Cert.ReferenceIdeal Cert.ReferenceIdeal.Gen Cert.ReferenceIdeal.Read Idealize.ShloMosaic Idealize.ShloMosaic.ValueIdx
open scoped BigOperators

theorem ofBits_one_f32 : Ideal.ofBits .f32 0x3F800000#32 = 1 := by
  simp [Ideal.ofBits, Ideal.ieee, -EReal.coe_mul]; norm_num

theorem v9_at (a0 : FVec Ideal S512x28000 .f32) (a1 : FVec Ideal S20000x5000 .f32) (a5 : FVec Ideal S5000x20000 .f32) (a6 : FVec Ideal S5000 .f32)
    (p : Fin 512) (q : Fin 5000) :
    val_main_v9 (F := Ideal) a0 a1 a5 a6 (ix2 p q)
      = Cert.Spec.outSnp (fun p k => a0 (ix2 p k)) (fun k q => a1 (ix2 k q)) (fun q k => a5 (ix2 q k)) (fun q => a6 (ix1 q)) p q := by
  have eb : idx_main_v6 (idx_main_v7 (ix2 p q)) = ix1 q := funext fun a => Fin.ext (by match a with | ⟨0, _⟩ => rfl)
  rw [val_main_v9_apply, val_main_v8_apply, val_main_v5_apply, val_main_v7_apply, val_main_v6_apply,
    val_main_call0_v0_apply, val_main_call0_cst_apply, eb]
  simp only [Ideal.maximumf_def, Ideal.addf_def, Ideal.ofBits_def, Ideal.ofBits_zero_f32]
  unfold Cert.Spec.outSnp Cert.Spec.relu Cert.Spec.lin
  refine congrArg (fun s => max (s + a6 (ix1 q)) 0) (Finset.sum_congr rfl fun k _ => ?_)
  have el : idx_main_v0 (lidx_main_v5 (ix2 p q) k) = ix2 p (⟨8000 + k.val, by omega⟩ : Fin 28000) :=
    funext fun a => Fin.ext (by match a with | ⟨0, _⟩ => rfl | ⟨1, _⟩ => rfl)
  have et : idx_main_v3 (ridx_main_v5 (ix2 p q) k) = ix2 q k :=
    funext fun a => Fin.ext (by match a with | ⟨0, _⟩ => rfl | ⟨1, _⟩ => rfl)
  have er : ridx_main_v5 (ix2 p q) k = ix2 k q :=
    funext fun a => Fin.ext (by match a with | ⟨0, _⟩ => rfl | ⟨1, _⟩ => rfl)
  rw [val_main_v0_apply, el, val_main_v4_apply, val_main_v3_apply, et, er]
  rfl

theorem v16_at (a0 : FVec Ideal S512x28000 .f32) (a2 : FVec Ideal S5000x3000 .f32) (a7 : FVec Ideal S3000x5000 .f32) (a8 : FVec Ideal S3000 .f32)
    (p : Fin 512) (q : Fin 3000) :
    val_main_v16 (F := Ideal) a0 a2 a7 a8 (ix2 p q)
      = Cert.Spec.outGene (fun p k => a0 (ix2 p k)) (fun k q => a2 (ix2 k q)) (fun q k => a7 (ix2 q k)) (fun q => a8 (ix1 q)) p q := by
  have eb : idx_main_v13 (idx_main_v14 (ix2 p q)) = ix1 q := funext fun a => Fin.ext (by match a with | ⟨0, _⟩ => rfl)
  rw [val_main_v16_apply, val_main_v15_apply, val_main_v12_apply, val_main_v14_apply, val_main_v13_apply,
    val_main_call1_v0_apply, val_main_call1_cst_apply, eb]
  simp only [Ideal.maximumf_def, Ideal.addf_def, Ideal.ofBits_def, Ideal.ofBits_zero_f32]
  unfold Cert.Spec.outGene Cert.Spec.relu Cert.Spec.lin
  refine congrArg (fun s => max (s + a8 (ix1 q)) 0) (Finset.sum_congr rfl fun k _ => ?_)
  have el : idx_main_v1 (lidx_main_v12 (ix2 p q) k) = ix2 p (⟨3000 + k.val, by omega⟩ : Fin 28000) :=
    funext fun a => Fin.ext (by match a with | ⟨0, _⟩ => rfl | ⟨1, _⟩ => rfl)
  have et : idx_main_v10 (ridx_main_v12 (ix2 p q) k) = ix2 q k :=
    funext fun a => Fin.ext (by match a with | ⟨0, _⟩ => rfl | ⟨1, _⟩ => rfl)
  have er : ridx_main_v12 (ix2 p q) k = ix2 k q :=
    funext fun a => Fin.ext (by match a with | ⟨0, _⟩ => rfl | ⟨1, _⟩ => rfl)
  rw [val_main_v1_apply, el, val_main_v11_apply, val_main_v10_apply, et, er]
  rfl

theorem cat8000_at (x : FVec Ideal S512x5000 .f32) (y : FVec Ideal S512x3000 .f32) (p : Fin 512) (k : Fin 8000) :
    concatenate S512x8000 1 [⟨S512x5000, x⟩, ⟨S512x3000, y⟩] concatenates_S512x5000_S512x3000_S512x8000_d1 (ix2 p k)
      = Cert.Spec.beside (fun p k => x (ix2 p k)) (fun p k => y (ix2 p k)) p k := by
  unfold Cert.Spec.beside
  by_cases h : k.val < 5000
  · rw [dif_pos h]
    exact concatenate_pair_apply_left 1 x y concatenates_S512x5000_S512x3000_S512x8000_d1 (ix2 p k) rfl
      (ix2 p (⟨k.val, h⟩ : Fin 5000)) (fun b => by match b with | ⟨0, _⟩ => rfl | ⟨1, _⟩ => rfl)
  · rw [dif_neg h]
    exact concatenate_pair_apply_right 1 x y concatenates_S512x5000_S512x3000_S512x8000_d1 (ix2 p k) rfl rfl
      (ix2 p (⟨k.val - 5000, by omega⟩ : Fin 3000))
      (fun b hb => by match b with | ⟨0, _⟩ => rfl | ⟨1, _⟩ => exact absurd rfl hb)
      (by show k.val - 5000 + 5000 = k.val; omega)

theorem v17_at (a0 : FVec Ideal S512x28000 .f32) (a1 : FVec Ideal S20000x5000 .f32) (a2 : FVec Ideal S5000x3000 .f32) (a5 : FVec Ideal S5000x20000 .f32) (a6 : FVec Ideal S5000 .f32) (a7 : FVec Ideal S3000x5000 .f32) (a8 : FVec Ideal S3000 .f32)
    (p : Fin 512) (k : Fin 8000) :
    val_main_v17 (F := Ideal) a0 a1 a2 a5 a6 a7 a8 (ix2 p k)
      = Cert.Spec.beside (Cert.Spec.outSnp (fun p k => a0 (ix2 p k)) (fun k q => a1 (ix2 k q)) (fun q k => a5 (ix2 q k)) (fun q => a6 (ix1 q))) (Cert.Spec.outGene (fun p k => a0 (ix2 p k)) (fun k q => a2 (ix2 k q)) (fun q k => a7 (ix2 q k)) (fun q => a8 (ix1 q))) p k := by
  have h1 : (fun p k => val_main_v9 (F := Ideal) a0 a1 a5 a6 (ix2 p k)) = Cert.Spec.outSnp (fun p k => a0 (ix2 p k)) (fun k q => a1 (ix2 k q)) (fun q k => a5 (ix2 q k)) (fun q => a6 (ix1 q)) :=
    funext fun p => funext fun k => v9_at a0 a1 a5 a6 p k
  have h2 : (fun p k => val_main_v16 (F := Ideal) a0 a2 a7 a8 (ix2 p k)) = Cert.Spec.outGene (fun p k => a0 (ix2 p k)) (fun k q => a2 (ix2 k q)) (fun q k => a7 (ix2 q k)) (fun q => a8 (ix1 q)) :=
    funext fun p => funext fun k => v16_at a0 a2 a7 a8 p k
  unfold val_main_v17
  refine (cat8000_at _ _ p k).trans ?_
  exact congrArg₂ (fun u v => Cert.Spec.beside u v p k) h1 h2

theorem v24_at (a0 : FVec Ideal S512x28000 .f32) (a1 : FVec Ideal S20000x5000 .f32) (a2 : FVec Ideal S5000x3000 .f32) (a3 : FVec Ideal S8000x3000 .f32) (a5 : FVec Ideal S5000x20000 .f32) (a6 : FVec Ideal S5000 .f32) (a7 : FVec Ideal S3000x5000 .f32) (a8 : FVec Ideal S3000 .f32) (a9 : FVec Ideal S3000x8000 .f32) (a10 : FVec Ideal S3000 .f32)
    (p : Fin 512) (q : Fin 3000) :
    val_main_v24 (F := Ideal) a0 a1 a2 a3 a5 a6 a7 a8 a9 a10 (ix2 p q)
      = Cert.Spec.outBridge (fun p k => a0 (ix2 p k)) (fun k q => a1 (ix2 k q)) (fun k q => a2 (ix2 k q)) (fun k q => a3 (ix2 k q)) (fun q k => a5 (ix2 q k)) (fun q => a6 (ix1 q)) (fun q k => a7 (ix2 q k)) (fun q => a8 (ix1 q)) (fun q k => a9 (ix2 q k)) (fun q => a10 (ix1 q)) p q := by
  have eb : idx_main_v21 (idx_main_v22 (ix2 p q)) = ix1 q := funext fun a => Fin.ext (by match a with | ⟨0, _⟩ => rfl)
  rw [val_main_v24_apply, val_main_v23_apply, val_main_v20_apply, val_main_v22_apply, val_main_v21_apply,
    val_main_call2_v0_apply, val_main_call2_cst_apply, eb]
  simp only [Ideal.maximumf_def, Ideal.addf_def, Ideal.ofBits_def, Ideal.ofBits_zero_f32]
  unfold Cert.Spec.outBridge Cert.Spec.relu Cert.Spec.lin
  refine congrArg (fun s => max (s + a10 (ix1 q)) 0) (Finset.sum_congr rfl fun k _ => ?_)
  have el : lidx_main_v20 (ix2 p q) k = ix2 p k :=
    funext fun a => Fin.ext (by match a with | ⟨0, _⟩ => rfl | ⟨1, _⟩ => rfl)
  have et : idx_main_v18 (ridx_main_v20 (ix2 p q) k) = ix2 q k :=
    funext fun a => Fin.ext (by match a with | ⟨0, _⟩ => rfl | ⟨1, _⟩ => rfl)
  have er : ridx_main_v20 (ix2 p q) k = ix2 k q :=
    funext fun a => Fin.ext (by match a with | ⟨0, _⟩ => rfl | ⟨1, _⟩ => rfl)
  rw [el, v17_at, val_main_v19_apply, val_main_v18_apply, et, er]
  rfl

theorem v31_at (a0 : FVec Ideal S512x28000 .f32) (a4 : FVec Ideal S3000x3000 .f32) (a11 : FVec Ideal S3000x3000 .f32) (a12 : FVec Ideal S3000 .f32)
    (p : Fin 512) (q : Fin 3000) :
    val_main_v31 (F := Ideal) a0 a4 a11 a12 (ix2 p q)
      = Cert.Spec.outProtein (fun p k => a0 (ix2 p k)) (fun k q => a4 (ix2 k q)) (fun q k => a11 (ix2 q k)) (fun q => a12 (ix1 q)) p q := by
  have eb : idx_main_v28 (idx_main_v29 (ix2 p q)) = ix1 q := funext fun a => Fin.ext (by match a with | ⟨0, _⟩ => rfl)
  rw [val_main_v31_apply, val_main_v30_apply, val_main_v27_apply, val_main_v29_apply, val_main_v28_apply,
    val_main_call3_v0_apply, val_main_call3_cst_apply, eb]
  simp only [Ideal.maximumf_def, Ideal.addf_def, Ideal.ofBits_def, Ideal.ofBits_zero_f32]
  unfold Cert.Spec.outProtein Cert.Spec.relu Cert.Spec.lin
  refine congrArg (fun s => max (s + a12 (ix1 q)) 0) (Finset.sum_congr rfl fun k _ => ?_)
  have el : idx_main_v2 (lidx_main_v27 (ix2 p q) k) = ix2 p (⟨k.val, by omega⟩ : Fin 28000) :=
    funext fun a => Fin.ext (by match a with | ⟨0, _⟩ => rfl | ⟨1, _⟩ => rfl)
  have et : idx_main_v25 (ridx_main_v27 (ix2 p q) k) = ix2 q k :=
    funext fun a => Fin.ext (by match a with | ⟨0, _⟩ => rfl | ⟨1, _⟩ => rfl)
  have er : ridx_main_v27 (ix2 p q) k = ix2 k q :=
    funext fun a => Fin.ext (by match a with | ⟨0, _⟩ => rfl | ⟨1, _⟩ => rfl)
  rw [val_main_v2_apply, el, val_main_v26_apply, val_main_v25_apply, et, er]
  rfl

theorem cat6000_at (x : FVec Ideal S512x3000 .f32) (y : FVec Ideal S512x3000 .f32) (p : Fin 512) (k : Fin 6000) :
    concatenate S512x6000 1 [⟨S512x3000, x⟩, ⟨S512x3000, y⟩] concatenates_S512x3000_S512x3000_S512x6000_d1 (ix2 p k)
      = Cert.Spec.beside (fun p k => x (ix2 p k)) (fun p k => y (ix2 p k)) p k := by
  unfold Cert.Spec.beside
  by_cases h : k.val < 3000
  · rw [dif_pos h]
    exact concatenate_pair_apply_left 1 x y concatenates_S512x3000_S512x3000_S512x6000_d1 (ix2 p k) rfl
      (ix2 p (⟨k.val, h⟩ : Fin 3000)) (fun b => by match b with | ⟨0, _⟩ => rfl | ⟨1, _⟩ => rfl)
  · rw [dif_neg h]
    exact concatenate_pair_apply_right 1 x y concatenates_S512x3000_S512x3000_S512x6000_d1 (ix2 p k) rfl rfl
      (ix2 p (⟨k.val - 3000, by omega⟩ : Fin 3000))
      (fun b hb => by match b with | ⟨0, _⟩ => rfl | ⟨1, _⟩ => exact absurd rfl hb)
      (by show k.val - 3000 + 3000 = k.val; omega)

theorem v32_at (a0 : FVec Ideal S512x28000 .f32) (a1 : FVec Ideal S20000x5000 .f32) (a2 : FVec Ideal S5000x3000 .f32) (a3 : FVec Ideal S8000x3000 .f32) (a4 : FVec Ideal S3000x3000 .f32) (a5 : FVec Ideal S5000x20000 .f32) (a6 : FVec Ideal S5000 .f32) (a7 : FVec Ideal S3000x5000 .f32) (a8 : FVec Ideal S3000 .f32) (a9 : FVec Ideal S3000x8000 .f32) (a10 : FVec Ideal S3000 .f32) (a11 : FVec Ideal S3000x3000 .f32) (a12 : FVec Ideal S3000 .f32)
    (p : Fin 512) (k : Fin 6000) :
    val_main_v32 (F := Ideal) a0 a1 a2 a3 a4 a5 a6 a7 a8 a9 a10 a11 a12 (ix2 p k)
      = Cert.Spec.beside (Cert.Spec.outBridge (fun p k => a0 (ix2 p k)) (fun k q => a1 (ix2 k q)) (fun k q => a2 (ix2 k q)) (fun k q => a3 (ix2 k q)) (fun q k => a5 (ix2 q k)) (fun q => a6 (ix1 q)) (fun q k => a7 (ix2 q k)) (fun q => a8 (ix1 q)) (fun q k => a9 (ix2 q k)) (fun q => a10 (ix1 q))) (Cert.Spec.outProtein (fun p k => a0 (ix2 p k)) (fun k q => a4 (ix2 k q)) (fun q k => a11 (ix2 q k)) (fun q => a12 (ix1 q))) p k := by
  have h1 : (fun p k => val_main_v24 (F := Ideal) a0 a1 a2 a3 a5 a6 a7 a8 a9 a10 (ix2 p k)) = Cert.Spec.outBridge (fun p k => a0 (ix2 p k)) (fun k q => a1 (ix2 k q)) (fun k q => a2 (ix2 k q)) (fun k q => a3 (ix2 k q)) (fun q k => a5 (ix2 q k)) (fun q => a6 (ix1 q)) (fun q k => a7 (ix2 q k)) (fun q => a8 (ix1 q)) (fun q k => a9 (ix2 q k)) (fun q => a10 (ix1 q)) :=
    funext fun p => funext fun k => v24_at a0 a1 a2 a3 a5 a6 a7 a8 a9 a10 p k
  have h2 : (fun p k => val_main_v31 (F := Ideal) a0 a4 a11 a12 (ix2 p k)) = Cert.Spec.outProtein (fun p k => a0 (ix2 p k)) (fun k q => a4 (ix2 k q)) (fun q k => a11 (ix2 q k)) (fun q => a12 (ix1 q)) :=
    funext fun p => funext fun k => v31_at a0 a4 a11 a12 p k
  unfold val_main_v32
  refine (cat6000_at _ _ p k).trans ?_
  exact congrArg₂ (fun u v => Cert.Spec.beside u v p k) h1 h2

theorem v38_at (a0 : FVec Ideal S512x28000 .f32) (a1 : FVec Ideal S20000x5000 .f32) (a2 : FVec Ideal S5000x3000 .f32) (a3 : FVec Ideal S8000x3000 .f32) (a4 : FVec Ideal S3000x3000 .f32) (a5 : FVec Ideal S5000x20000 .f32) (a6 : FVec Ideal S5000 .f32) (a7 : FVec Ideal S3000x5000 .f32) (a8 : FVec Ideal S3000 .f32) (a9 : FVec Ideal S3000x8000 .f32) (a10 : FVec Ideal S3000 .f32) (a11 : FVec Ideal S3000x3000 .f32) (a12 : FVec Ideal S3000 .f32) (a13 : FVec Ideal S1024x6000 .f32) (a14 : FVec Ideal S1024 .f32)
    (p : Fin 512) (q : Fin 1024) :
    val_main_v38 (F := Ideal) a0 a1 a2 a3 a4 a5 a6 a7 a8 a9 a10 a11 a12 a13 a14 (ix2 p q)
      = Cert.Spec.hidden1 (fun p k => a0 (ix2 p k)) (fun k q => a1 (ix2 k q)) (fun k q => a2 (ix2 k q)) (fun k q => a3 (ix2 k q)) (fun k q => a4 (ix2 k q)) (fun q k => a5 (ix2 q k)) (fun q => a6 (ix1 q)) (fun q k => a7 (ix2 q k)) (fun q => a8 (ix1 q)) (fun q k => a9 (ix2 q k)) (fun q => a10 (ix1 q)) (fun q k => a11 (ix2 q k)) (fun q => a12 (ix1 q)) (fun q k => a13 (ix2 q k)) (fun q => a14 (ix1 q)) p q := by
  have eb : idx_main_v35 (idx_main_v36 (ix2 p q)) = ix1 q := funext fun a => Fin.ext (by match a with | ⟨0, _⟩ => rfl)
  rw [val_main_v38_apply, val_main_v37_apply, val_main_v34_apply, val_main_v36_apply, val_main_v35_apply,
    val_main_call4_v0_apply, val_main_call4_cst_apply, eb]
  simp only [Ideal.maximumf_def, Ideal.addf_def, Ideal.ofBits_def, Ideal.ofBits_zero_f32]
  unfold Cert.Spec.hidden1 Cert.Spec.relu Cert.Spec.lin
  refine congrArg (fun s => max (s + a14 (ix1 q)) 0) (Finset.sum_congr rfl fun k _ => ?_)
  have el : lidx_main_v34 (ix2 p q) k = ix2 p k :=
    funext fun a => Fin.ext (by match a with | ⟨0, _⟩ => rfl | ⟨1, _⟩ => rfl)
  have et : idx_main_v33 (ridx_main_v34 (ix2 p q) k) = ix2 q k :=
    funext fun a => Fin.ext (by match a with | ⟨0, _⟩ => rfl | ⟨1, _⟩ => rfl)
  rw [el, v32_at, val_main_v33_apply, et]

theorem v44_at (a0 : FVec Ideal S512x28000 .f32) (a1 : FVec Ideal S20000x5000 .f32) (a2 : FVec Ideal S5000x3000 .f32) (a3 : FVec Ideal S8000x3000 .f32) (a4 : FVec Ideal S3000x3000 .f32) (a5 : FVec Ideal S5000x20000 .f32) (a6 : FVec Ideal S5000 .f32) (a7 : FVec Ideal S3000x5000 .f32) (a8 : FVec Ideal S3000 .f32) (a9 : FVec Ideal S3000x8000 .f32) (a10 : FVec Ideal S3000 .f32) (a11 : FVec Ideal S3000x3000 .f32) (a12 : FVec Ideal S3000 .f32) (a13 : FVec Ideal S1024x6000 .f32) (a14 : FVec Ideal S1024 .f32) (a15 : FVec Ideal S256x1024 .f32) (a16 : FVec Ideal S256 .f32)
    (p : Fin 512) (q : Fin 256) :
    val_main_v44 (F := Ideal) a0 a1 a2 a3 a4 a5 a6 a7 a8 a9 a10 a11 a12 a13 a14 a15 a16 (ix2 p q)
      = Cert.Spec.hidden2 (fun p k => a0 (ix2 p k)) (fun k q => a1 (ix2 k q)) (fun k q => a2 (ix2 k q)) (fun k q => a3 (ix2 k q)) (fun k q => a4 (ix2 k q)) (fun q k => a5 (ix2 q k)) (fun q => a6 (ix1 q)) (fun q k => a7 (ix2 q k)) (fun q => a8 (ix1 q)) (fun q k => a9 (ix2 q k)) (fun q => a10 (ix1 q)) (fun q k => a11 (ix2 q k)) (fun q => a12 (ix1 q)) (fun q k => a13 (ix2 q k)) (fun q => a14 (ix1 q)) (fun q k => a15 (ix2 q k)) (fun q => a16 (ix1 q)) p q := by
  have eb : idx_main_v41 (idx_main_v42 (ix2 p q)) = ix1 q := funext fun a => Fin.ext (by match a with | ⟨0, _⟩ => rfl)
  rw [val_main_v44_apply, val_main_v43_apply, val_main_v40_apply, val_main_v42_apply, val_main_v41_apply,
    val_main_call5_v0_apply, val_main_call5_cst_apply, eb]
  simp only [Ideal.maximumf_def, Ideal.addf_def, Ideal.ofBits_def, Ideal.ofBits_zero_f32]
  unfold Cert.Spec.hidden2 Cert.Spec.relu Cert.Spec.lin
  refine congrArg (fun s => max (s + a16 (ix1 q)) 0) (Finset.sum_congr rfl fun k _ => ?_)
  have el : lidx_main_v40 (ix2 p q) k = ix2 p k :=
    funext fun a => Fin.ext (by match a with | ⟨0, _⟩ => rfl | ⟨1, _⟩ => rfl)
  have et : idx_main_v39 (ridx_main_v40 (ix2 p q) k) = ix2 q k :=
    funext fun a => Fin.ext (by match a with | ⟨0, _⟩ => rfl | ⟨1, _⟩ => rfl)
  rw [el, v38_at, val_main_v39_apply, et]

theorem v55_at (a0 : FVec Ideal S512x28000 .f32) (a1 : FVec Ideal S20000x5000 .f32) (a2 : FVec Ideal S5000x3000 .f32) (a3 : FVec Ideal S8000x3000 .f32) (a4 : FVec Ideal S3000x3000 .f32) (a5 : FVec Ideal S5000x20000 .f32) (a6 : FVec Ideal S5000 .f32) (a7 : FVec Ideal S3000x5000 .f32) (a8 : FVec Ideal S3000 .f32) (a9 : FVec Ideal S3000x8000 .f32) (a10 : FVec Ideal S3000 .f32) (a11 : FVec Ideal S3000x3000 .f32) (a12 : FVec Ideal S3000 .f32) (a13 : FVec Ideal S1024x6000 .f32) (a14 : FVec Ideal S1024 .f32) (a15 : FVec Ideal S256x1024 .f32) (a16 : FVec Ideal S256 .f32) (a17 : FVec Ideal S1x256 .f32) (a18 : FVec Ideal S1 .f32)
    (p : Fin 512) :
    val_main_v55 (F := Ideal) a0 a1 a2 a3 a4 a5 a6 a7 a8 a9 a10 a11 a12 a13 a14 a15 a16 a17 a18 (ix2 p (0 : Fin 1))
      = Cert.Spec.net (fun p k => a0 (ix2 p k)) (fun k q => a1 (ix2 k q)) (fun k q => a2 (ix2 k q)) (fun k q => a3 (ix2 k q)) (fun k q => a4 (ix2 k q)) (fun q k => a5 (ix2 q k)) (fun q => a6 (ix1 q)) (fun q k => a7 (ix2 q k)) (fun q => a8 (ix1 q)) (fun q k => a9 (ix2 q k)) (fun q => a10 (ix1 q)) (fun q k => a11 (ix2 q k)) (fun q => a12 (ix1 q)) (fun q k => a13 (ix2 q k)) (fun q => a14 (ix1 q)) (fun q k => a15 (ix2 q k)) (fun q => a16 (ix1 q)) (fun q k => a17 (ix2 q k)) (fun q => a18 (ix1 q)) p := by
  have eb : idx_main_v47 (idx_main_v48 (ix2 p (0 : Fin 1))) = ix1 (0 : Fin 1) := funext fun a => Fin.ext (by match a with | ⟨0, _⟩ => rfl)
  rw [val_main_v55_apply, val_main_v54_apply, val_main_cst_0_apply, val_main_v53_apply, val_main_v52_apply, val_main_cst_apply,
    val_main_v51_apply, val_main_v50_apply, val_main_v49_apply, val_main_v46_apply, val_main_v48_apply, val_main_v47_apply, eb]
  simp only [Ideal.hostDivf_def, Ideal.addf_def, Ideal.hostUnary_exp_def, Ideal.hostNegf_def, Ideal.negf_def, Ideal.ofBits_def,
    ofBits_one_f32]
  unfold Cert.Spec.net Ideal.logistic Cert.Spec.lin
  refine congrArg (fun s => Ideal.div 1 (1 + Ideal.exp (-(s + a18 (ix1 (0 : Fin 1)))))) (Finset.sum_congr rfl fun k _ => ?_)
  have el : lidx_main_v46 (ix2 p (0 : Fin 1)) k = ix2 p k :=
    funext fun a => Fin.ext (by match a with | ⟨0, _⟩ => rfl | ⟨1, _⟩ => rfl)
  have et : idx_main_v45 (ridx_main_v46 (ix2 p (0 : Fin 1)) k) = ix2 (0 : Fin 1) k :=
    funext fun a => Fin.ext (by match a with | ⟨0, _⟩ => rfl | ⟨1, _⟩ => rfl)
  rw [el, v44_at, val_main_v45_apply, et]

theorem ref_value (a0 : FVec Ideal S512x28000 .f32) (a1 : FVec Ideal S20000x5000 .f32) (a2 : FVec Ideal S5000x3000 .f32) (a3 : FVec Ideal S8000x3000 .f32) (a4 : FVec Ideal S3000x3000 .f32) (a5 : FVec Ideal S5000x20000 .f32) (a6 : FVec Ideal S5000 .f32) (a7 : FVec Ideal S3000x5000 .f32) (a8 : FVec Ideal S3000 .f32) (a9 : FVec Ideal S3000x8000 .f32) (a10 : FVec Ideal S3000 .f32) (a11 : FVec Ideal S3000x3000 .f32) (a12 : FVec Ideal S3000 .f32) (a13 : FVec Ideal S1024x6000 .f32) (a14 : FVec Ideal S1024 .f32) (a15 : FVec Ideal S256x1024 .f32) (a16 : FVec Ideal S256 .f32) (a17 : FVec Ideal S1x256 .f32) (a18 : FVec Ideal S1 .f32) :
    val_main_v55 (F := Ideal) a0 a1 a2 a3 a4 a5 a6 a7 a8 a9 a10 a11 a12 a13 a14 a15 a16 a17 a18
      = fun i => Cert.Spec.net (fun p k => a0 (ix2 p k)) (fun k q => a1 (ix2 k q)) (fun k q => a2 (ix2 k q)) (fun k q => a3 (ix2 k q)) (fun k q => a4 (ix2 k q)) (fun q k => a5 (ix2 q k)) (fun q => a6 (ix1 q)) (fun q k => a7 (ix2 q k)) (fun q => a8 (ix1 q)) (fun q k => a9 (ix2 q k)) (fun q => a10 (ix1 q)) (fun q k => a11 (ix2 q k)) (fun q => a12 (ix1 q)) (fun q k => a13 (ix2 q k)) (fun q => a14 (ix1 q)) (fun q k => a15 (ix2 q k)) (fun q => a16 (ix1 q)) (fun q k => a17 (ix2 q k)) (fun q => a18 (ix1 q)) (i 0) := by
  funext i
  obtain ⟨p, q, rfl⟩ : ∃ (p : Fin 512) (q : Fin 1), i = ix2 p q := ⟨i 0, i 1, eq_ix2 i⟩
  obtain rfl : q = 0 := Subsingleton.elim q 0
  exact v55_at a0 a1 a2 a3 a4 a5 a6 a7 a8 a9 a10 a11 a12 a13 a14 a15 a16 a17 a18 p

end Cert.ReferenceIdeal.RefValue

end
-- ==== Proof.RefFrame.lean ====
import proofs.«174655_j53695681135127_1_alg».proof.Defs
import proofs.«174655_j53695681135127_1_alg».proof.Proof.Gen.ReferenceIdeal.Run
import proofs.«174655_j53695681135127_1_alg».proof.Proof.Gen.Pre_finite_inputs

noncomputable section

namespace Cert.ReferenceIdeal.RefFrame

open Idealize.ShloMosaic Idealize.SL.Sem

theorem frame_ri : Cert.frame_ReferenceIdeal :=
  fun m ρ _ => (θ_run Cert.ReferenceIdeal.defs _ _).mono (fun _ h c => (h c).2) (Cert.ReferenceIdeal.Value.run (F := Ideal) m ρ)

end Cert.ReferenceIdeal.RefFrame

end
-- ==== Proof.lean ====
import proofs.«174655_j53695681135127_1_alg».proof.Defs
import proofs.«174655_j53695681135127_1_alg».proof.Proof.Gen.Kernel
import proofs.«174655_j53695681135127_1_alg».proof.Proof.Gen.KernelIdeal
import proofs.«174655_j53695681135127_1_alg».proof.Proof.Gen.ReferenceIdeal
import proofs.«174655_j53695681135127_1_alg».proof.Proof.Gen.Pre_finite_inputs
import proofs.«174655_j53695681135127_1_alg».proof.Proof.FrameK
import proofs.«174655_j53695681135127_1_alg».proof.Proof.FrameKI
import proofs.«174655_j53695681135127_1_alg».proof.Proof.KernelValKI
import proofs.«174655_j53695681135127_1_alg».proof.Proof.RefValue
import proofs.«174655_j53695681135127_1_alg».proof.Proof.RefFrame
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run _ _ _).mono (fun _ h c => (h c).2) (Cert.Kernel.Hand.run_post m ρ)

theorem frame_ki : Cert.frame_KernelIdeal := fun m ρ _ =>
  (θ_run _ _ _).mono (fun _ h c => (h c).2) (Cert.KernelIdeal.Hand.run_post m ρ)

theorem algebraic : Cert.algebraic_KernelIdeal_ReferenceIdeal := by
  intro m ρ m' ρ' _ hagree
  refine ⟨fun c => Cert.KernelIdeal.GenP.V65 m (Cert.KernelIdeal.Hand.outsAll m) c Cert.KernelIdeal.main_v48,
    Cert.KernelIdeal.Hand.run_post m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18⟩ := hagree c
  rw [Cert.ReferenceIdeal.Read.val_main_v55_eq, Cert.ReferenceIdeal.RefValue.ref_value, e0, e1, e2, e3, e4, e5, e6, e7, e8, e9, e10, e11, e12, e13, e14, e15, e16, e17, e18]
  exact (Cert.KernelIdeal.Hand.kernel_value (Cert.KernelIdeal.Hand.ok_all m) c).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefFrame.frame_ri, trivial, algebraic⟩

end Cert.Proof

end
